-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S256x512 : Shape := ⟨2, ![256, 512]⟩
abbrev S256 : Shape := ⟨1, ![256]⟩
abbrev S1x256 : Shape := ⟨2, ![1, 256]⟩
abbrev S64x256 : Shape := ⟨2, ![64, 256]⟩
abbrev S64 : Shape := ⟨1, ![64]⟩
abbrev S1x64 : Shape := ⟨2, ![1, 64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part5 {F : FTy → Type} [FloatOps F] (main_arg18 : FVec F S1x64 .f32) (main_arg19 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S1x64 .f32 := Host.absf main_arg18
  let main_cst_34 : FVec F S_ .f32 := constant S_ .f32 0x7F800000#32
  let main_v90 : FVec F S1x64 .f32 := broadcastInDim S1x64 ![] bcast_S_S1x64 main_cst_34
  let main_v91 : IVec S1x64 1 := cmpf .olt main_v89 main_v90
  let main_c_35 : IVec S_ 1 := constantI S_ 1 1#1
  let main_v92 : IVec S_ 1 := (fun x v => Host.reduce IntOp.andi x v reducesTo_S1x64_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S64x256 .f32) (main_arg15 : FVec F S64 .f32) (main_arg16 : FVec F S1x64 .f32) (main_arg17 : FVec F S1 .f32) (main_arg18 : FVec F S1x64 .f32) (main_arg19 : FVec F S1 .f32) (main_v63 : IVec S_ 1) (main_v67 : IVec S_ 1) : IVec S_ 1 :=
  let main_v68 : IVec S_ 1 := andi main_v63 main_v67
  let main_v69 : FVec F S64x256 .f32 := Host.absf main_arg14
  let main_cst_26 : FVec F S_ .f32 := constant S_ .f32 0x7F800000#32
  let main_v70 : FVec F S64x256 .f32 := broadcastInDim S64x256 ![] bcast_S_S64x256 main_cst_26
  let main_v71 : IVec S64x256 1 := cmpf .olt main_v69 main_v70
  let main_c_27 : IVec S_ 1 := constantI S_ 1 1#1
  let main_v72 : IVec S_ 1 := (fun x v => Host.reduce IntOp.andi x v reducesTo_S64x256_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S1x64 .f32 := Host.absf main_arg16
  let main_cst_30 : FVec F S_ .f32 := constant S_ .f32 0x7F800000#32
  let main_v80 : FVec F S1x64 .f32 := broadcastInDim S1x64 ![] bcast_S_S1x64 main_cst_30
  let main_v81 : IVec S1x64 1 := cmpf .olt main_v79 main_v80
  let main_c_31 : IVec S_ 1 := constantI S_ 1 1#1
  let main_v82 : IVec S_ 1 := (fun x v => Host.reduce IntOp.andi x v reducesTo_S1x64_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S1 .f32) (main_arg12 : FVec F S1x256 .f32) (main_arg13 : FVec F S1 .f32) (main_arg14 : FVec F S64x256 .f32) (main_arg15 : FVec F S64 .f32) (main_arg16 : FVec F S1x64 .f32) (main_arg17 : FVec F S1 .f32) (main_arg18 : FVec F S1x64 .f32) (main_arg19 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1x256 .f32 := Host.absf main_arg12
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_arg18 main_arg19 main_v63 main_v67

def fn_part2 {F : FTy → Type} [FloatOps F] (main_arg7 : FVec F S1 .f32) (main_arg8 : FVec F S256x512 .f32) (main_arg9 : FVec F S256 .f32) (main_arg10 : FVec F S1x256 .f32) (main_arg11 : FVec F S1 .f32) (main_arg12 : FVec F S1x256 .f32) (main_arg13 : FVec F S1 .f32) (main_arg14 : FVec F S64x256 .f32) (main_arg15 : FVec F S64 .f32) (main_arg16 : FVec F S1x64 .f32) (main_arg17 : FVec F S1 .f32) (main_arg18 : FVec F S1x64 .f32) (main_arg19 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x256 .f32 := Host.absf main_arg10
  let main_cst_18 : FVec F S_ .f32 := constant S_ .f32 0x7F800000#32
  let main_v50 : FVec F S1x256 .f32 := broadcastInDim S1x256 ![] bcast_S_S1x256 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S1x512 .f32) (main_arg5 : FVec F S1 .f32) (main_arg6 : FVec F S1x512 .f32) (main_arg7 : FVec F S1 .f32) (main_arg8 : FVec F S256x512 .f32) (main_arg9 : FVec F S256 .f32) (main_arg10 : FVec F S1x256 .f32) (main_arg11 : FVec F S1 .f32) (main_arg12 : FVec F S1x256 .f32) (main_arg13 : FVec F S1 .f32) (main_arg14 : FVec F S64x256 .f32) (main_arg15 : FVec F S64 .f32) (main_arg16 : FVec F S1x64 .f32) (main_arg17 : FVec F S1 .f32) (main_arg18 : FVec F S1x64 .f32) (main_arg19 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S8192x1024 .f32) (main_arg1 : FVec F S8192x8192 .f32) (main_arg2 : FVec F S512x1024 .f32) (main_arg3 : FVec F S512 .f32) (main_arg4 : FVec F S1x512 .f32) (main_arg5 : FVec F S1 .f32) (main_arg6 : FVec F S1x512 .f32) (main_arg7 : FVec F S1 .f32) (main_arg8 : FVec F S256x512 .f32) (main_arg9 : FVec F S256 .f32) (main_arg10 : FVec F S1x256 .f32) (main_arg11 : FVec F S1 .f32) (main_arg12 : FVec F S1x256 .f32) (main_arg13 : FVec F S1 .f32) (main_arg14 : FVec F S64x256 .f32) (main_arg15 : FVec F S64 .f32) (main_arg16 : FVec F S1x64 .f32) (main_arg17 : FVec F S1 .f32) (main_arg18 : FVec F S1x64 .f32) (main_arg19 : FVec F S1 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S8192x1024 : Shape := ⟨2, ![8192, 1024]⟩
abbrev S8192x8192 : Shape := ⟨2, ![8192, 8192]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S256x512 : Shape := ⟨2, ![256, 512]⟩
abbrev S256 : Shape := ⟨1, ![256]⟩
abbrev S1x256 : Shape := ⟨2, ![1, 256]⟩
abbrev S64x256 : Shape := ⟨2, ![64, 256]⟩
abbrev S64 : Shape := ⟨1, ![64]⟩
abbrev S1x64 : Shape := ⟨2, ![1, 64]⟩
abbrev S1024x1024 : Shape := ⟨2, ![1024, 1024]⟩
abbrev S1x1 : Shape := ⟨2, ![1, 1]⟩
abbrev S8192x512 : Shape := ⟨2, ![8192, 512]⟩
abbrev S1x8192 : Shape := ⟨2, ![1, 8192]⟩
abbrev S1024x512 : Shape := ⟨2, ![1024, 512]⟩
abbrev S1x1024 : Shape := ⟨2, ![1, 1024]⟩
abbrev S512x1 : Shape := ⟨2, ![512, 1]⟩
abbrev S1024x1 : Shape := ⟨2, ![1024, 1]⟩
abbrev S512x512 : Shape := ⟨2, ![512, 512]⟩
abbrev S1024 : Shape := ⟨1, ![1024]⟩
abbrev S8192x256 : Shape := ⟨2, ![8192, 256]⟩
abbrev S1024x256 : Shape := ⟨2, ![1024, 256]⟩
abbrev S512x256 : Shape := ⟨2, ![512, 256]⟩
abbrev S256x1 : Shape := ⟨2, ![256, 1]⟩
abbrev S8192x64 : Shape := ⟨2, ![8192, 64]⟩
abbrev S1024x64 : Shape := ⟨2, ![1024, 64]⟩
abbrev S256x64 : Shape := ⟨2, ![256, 64]⟩
abbrev S64x1 : Shape := ⟨2, ![64, 1]⟩
abbrev S512x64 : Shape := ⟨2, ![512, 64]⟩

abbrev nBuf : Space → Nat
  | .hbm => 42
  | .vmem => 88
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S512x1024, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S1x512, .f32⟩
  | .hbm, ⟨7, _⟩ => ⟨S1, .f32⟩
  | .hbm, ⟨8, _⟩ => ⟨S256x512, .f32⟩
  | .hbm, ⟨9, _⟩ => ⟨S256, .f32⟩
  | .hbm, ⟨10, _⟩ => ⟨S1x256, .f32⟩
  | .hbm, ⟨11, _⟩ => ⟨S1, .f32⟩
  | .hbm, ⟨12, _⟩ => ⟨S1x256, .f32⟩
  | .hbm, ⟨13, _⟩ => ⟨S1, .f32⟩
  | .hbm, ⟨14, _⟩ => ⟨S64x256, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S1x64, .f32⟩
  | .hbm, ⟨19, _⟩ => ⟨S1, .f32⟩
  | .hbm, ⟨20, _⟩ => ⟨S8192x8192, .f32⟩
  | .hbm, ⟨21, _⟩ => ⟨S1x512, .f32⟩
  | .hbm, ⟨22, _⟩ => ⟨S1x1, .f32⟩
  | .hbm, ⟨23, _⟩ => ⟨S1x1, .f32⟩
  | .hbm, ⟨24, _⟩ => ⟨S8192x512, .bf16⟩
  | .hbm, ⟨25, _⟩ => ⟨S1x8192, .f32⟩
  | .hbm, ⟨26, _⟩ => ⟨S1x8192, .f32⟩
  | .hbm, ⟨27, _⟩ => ⟨S8192x512, .f32⟩
  | .hbm, ⟨28, _⟩ => ⟨S1x256, .f32⟩
  | .hbm, ⟨29, _⟩ => ⟨S1x1, .f32⟩
  | .hbm, ⟨30, _⟩ => ⟨S1x1, .f32⟩
  | .hbm, ⟨31, _⟩ => ⟨S8192x256, .bf16⟩
  | .hbm, ⟨32, _⟩ => ⟨S1x8192, .f32⟩
  | .hbm, ⟨33, _⟩ => ⟨S1x8192, .f32⟩
  | .hbm, ⟨34, _⟩ => ⟨S8192x256, .f32⟩
  | .hbm, ⟨35, _⟩ => ⟨S1x64, .f32⟩
  | .hbm, ⟨36, _⟩ => ⟨S1x1, .f32⟩
  | .hbm, ⟨37, _⟩ => ⟨S1x1, .f32⟩
  | .hbm, ⟨38, _⟩ => ⟨S8192x64, .bf16⟩
  | .hbm, ⟨39, _⟩ => ⟨S1x8192, .f32⟩
  | .hbm, ⟨40, _⟩ => ⟨S1x8192, .f32⟩
  | .hbm, ⟨41, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S512x1024, .f32⟩
  | .local _ .vmem, ⟨7, _⟩ => ⟨S1x512, .f32⟩
  | .local _ .vmem, ⟨8, _⟩ => ⟨S1x512, .f32⟩
  | .local _ .vmem, ⟨9, _⟩ => ⟨S1x1, .f32⟩
  | .local _ .vmem, ⟨10, _⟩ => ⟨S1x512, .f32⟩
  | .local _ .vmem, ⟨11, _⟩ => ⟨S1x1, .f32⟩
  | .local _ .vmem, ⟨12, _⟩ => ⟨S1024x512, .bf16⟩
  | .local _ .vmem, ⟨13, _⟩ => ⟨S1024x512, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S512x512, .bf16⟩
  | .local _ .vmem, ⟨23, _⟩ => ⟨S512x512, .bf16⟩
  | .local _ .vmem, ⟨24, _⟩ => ⟨S1x512, .f32⟩
  | .local _ .vmem, ⟨25, _⟩ => ⟨S1x512, .f32⟩
  | .local _ .vmem, ⟨26, _⟩ => ⟨S1x1024, .f32⟩
  | .local _ .vmem, ⟨27, _⟩ => ⟨S1x1024, .f32⟩
  | .local _ .vmem, ⟨28, _⟩ => ⟨S1024x512, .f32⟩
  | .local _ .vmem, ⟨29, _⟩ => ⟨S1024x512, .f32⟩
  | .local _ .vmem, ⟨30, _⟩ => ⟨S1024x1, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S256x512, .f32⟩
  | .local _ .vmem, ⟨35, _⟩ => ⟨S1x256, .f32⟩
  | .local _ .vmem, ⟨36, _⟩ => ⟨S1x256, .f32⟩
  | .local _ .vmem, ⟨37, _⟩ => ⟨S1x1, .f32⟩
  | .local _ .vmem, ⟨38, _⟩ => ⟨S1x256, .f32⟩
  | .local _ .vmem, ⟨39, _⟩ => ⟨S1x1, .f32⟩
  | .local _ .vmem, ⟨40, _⟩ => ⟨S1024x256, .bf16⟩
  | .local _ .vmem, ⟨41, _⟩ => ⟨S1024x256, .bf16⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1024x512, .f32⟩
  | .local _ .vmem, ⟨47, _⟩ => ⟨S1024x512, .f32⟩
  | .local _ .vmem, ⟨48, _⟩ => ⟨S1024x512, .f32⟩
  | .local _ .vmem, ⟨49, _⟩ => ⟨S1024x512, .f32⟩
  | .local _ .vmem, ⟨50, _⟩ => ⟨S512x256, .bf16⟩
  | .local _ .vmem, ⟨51, _⟩ => ⟨S512x256, .bf16⟩
  | .local _ .vmem, ⟨52, _⟩ => ⟨S1x512, .f32⟩
  | .local _ .vmem, ⟨53, _⟩ => ⟨S1x512, .f32⟩
  | .local _ .vmem, ⟨54, _⟩ => ⟨S1x1024, .f32⟩
  | .local _ .vmem, ⟨55, _⟩ => ⟨S1x1024, .f32⟩
  | .local _ .vmem, ⟨56, _⟩ => ⟨S1024x256, .f32⟩
  | .local _ .vmem, ⟨57, _⟩ => ⟨S1024x256, .f32⟩
  | .local _ .vmem, ⟨58, _⟩ => ⟨S1024x1, .f32⟩
  | .local _ .vmem, ⟨59, _⟩ => ⟨S1024x256, .f32⟩
  | .local _ .vmem, ⟨60, _⟩ => ⟨S1024x256, .f32⟩
  | .local _ .vmem, ⟨61, _⟩ => ⟨S1024x256, .f32⟩
  | .local _ .vmem, ⟨62, _⟩ => ⟨S64x256, .f32⟩
  | .local _ .vmem, ⟨63, _⟩ => ⟨S1x64, .f32⟩
  | .local _ .vmem, ⟨64, _⟩ => ⟨S1x64, .f32⟩
  | .local _ .vmem, ⟨65, _⟩ => ⟨S1x1, .f32⟩
  | .local _ .vmem, ⟨66, _⟩ => ⟨S1x64, .f32⟩
  | .local _ .vmem, ⟨67, _⟩ => ⟨S1x1, .f32⟩
  | .local _ .vmem, ⟨68, _⟩ => ⟨S1024x64, .bf16⟩
  | .local _ .vmem, ⟨69, _⟩ => ⟨S1024x64, .bf16⟩
  | .local _ .vmem, ⟨70, _⟩ => ⟨S1x1024, .f32⟩
  | .local _ .vmem, ⟨71, _⟩ => ⟨S1x1024, .f32⟩
  | .local _ .vmem, ⟨72, _⟩ => ⟨S1x1024, .f32⟩
  | .local _ .vmem, ⟨73, _⟩ => ⟨S1x1024, .f32⟩
  | .local _ .vmem, ⟨74, _⟩ => ⟨S1024x512, .f32⟩
  | .local _ .vmem, ⟨75, _⟩ => ⟨S1024x512, .f32⟩
  | .local _ .vmem, ⟨76, _⟩ => ⟨S1024x512, .f32⟩
  | .local _ .vmem, ⟨77, _⟩ => ⟨S1024x512, .f32⟩
  | .local _ .vmem, ⟨78, _⟩ => ⟨S512x64, .bf16⟩
  | .local _ .vmem, ⟨79, _⟩ => ⟨S512x64, .bf16⟩
  | .local _ .vmem, ⟨80, _⟩ => ⟨S1x512, .f32⟩
  | .local _ .vmem, ⟨81, _⟩ => ⟨S1x512, .f32⟩
  | .local _ .vmem, ⟨82, _⟩ => ⟨S1x1024, .f32⟩
  | .local _ .vmem, ⟨83, _⟩ => ⟨S1x1024, .f32⟩
  | .local _ .vmem, ⟨84, _⟩ => ⟨S1024x64, .f32⟩
  | .local _ .vmem, ⟨85, _⟩ => ⟨S1024x64, .f32⟩
  | .local _ .vmem, ⟨86, _⟩ => ⟨S1024x1, .f32⟩
  | .local _ .vmem, ⟨87, _⟩ => ⟨S1024x64, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4_0 : Ref sig .tc := ⟨.hbm, 24, rfl⟩
abbrev main_v4_1 : Ref sig .tc := ⟨.hbm, 25, rfl⟩
abbrev main_v4_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9_0 : Ref sig .tc := ⟨.hbm, 31, rfl⟩
abbrev main_v9_1 : Ref sig .tc := ⟨.hbm, 32, rfl⟩
abbrev main_v9_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14_0 : Ref sig .tc := ⟨.hbm, 38, rfl⟩
abbrev main_v14_1 : Ref sig .tc := ⟨.hbm, 39, rfl⟩
abbrev main_v14_2 : Ref sig .tc := ⟨.hbm, 40, rfl⟩
abbrev main_v15 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg8_0 : Ref sig .tc := ⟨.vmem, 14, rfl⟩
abbrev cc1_stg8_1 : Ref sig .tc := ⟨.vmem, 15, rfl⟩
abbrev cc1_stg9_0 : Ref sig .tc := ⟨.vmem, 16, rfl⟩
abbrev cc1_stg9_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc3_stg8_0 : Ref sig .tc := ⟨.vmem, 42, rfl⟩
abbrev cc3_stg8_1 : Ref sig .tc := ⟨.vmem, 43, rfl⟩
abbrev cc3_stg9_0 : Ref sig .tc := ⟨.vmem, 44, rfl⟩
abbrev cc3_stg9_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg3_1 : Ref sig .tc := ⟨.vmem, 53, rfl⟩
abbrev cc4_stg4_0 : Ref sig .tc := ⟨.vmem, 54, rfl⟩
abbrev cc4_stg4_1 : Ref sig .tc := ⟨.vmem, 55, rfl⟩
abbrev cc4_stg5_0 : Ref sig .tc := ⟨.vmem, 56, rfl⟩
abbrev cc4_stg5_1 : Ref sig .tc := ⟨.vmem, 57, rfl⟩
abbrev cc4_scratch0 : Ref sig .tc := ⟨.vmem, 58, rfl⟩
abbrev cc4_scratch1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg6_0 : Ref sig .tc := ⟨.vmem, 67, rfl⟩
abbrev cc5_stg7_0 : Ref sig .tc := ⟨.vmem, 68, rfl⟩
abbrev cc5_stg7_1 : Ref sig .tc := ⟨.vmem, 69, rfl⟩
abbrev cc5_stg8_0 : Ref sig .tc := ⟨.vmem, 70, rfl⟩
abbrev cc5_stg8_1 : Ref sig .tc := ⟨.vmem, 71, rfl⟩
abbrev cc5_stg9_0 : Ref sig .tc := ⟨.vmem, 72, rfl⟩
abbrev cc5_stg9_1 : Ref sig .tc := ⟨.vmem, 73, rfl⟩
abbrev cc6_stg0_0 : Ref sig .tc := ⟨.vmem, 74, rfl⟩
abbrev cc6_stg0_1 : Ref sig .tc := ⟨.vmem, 75, rfl⟩
abbrev cc6_stg1_0 : Ref sig .tc := ⟨.vmem, 76, rfl⟩
abbrev cc6_stg1_1 : Ref sig .tc := ⟨.vmem, 77, rfl⟩
abbrev cc6_stg2_0 : Ref sig .tc := ⟨.vmem, 78, rfl⟩
abbrev cc6_stg2_1 : Ref sig .tc := ⟨.vmem, 79, rfl⟩
abbrev cc6_stg3_0 : Ref sig .tc := ⟨.vmem, 80, rfl⟩
abbrev cc6_stg3_1 : Ref sig .tc := ⟨.vmem, 81, rfl⟩
abbrev cc6_stg4_0 : Ref sig .tc := ⟨.vmem, 82, rfl⟩
abbrev cc6_stg4_1 : Ref sig .tc := ⟨.vmem, 83, rfl⟩
abbrev cc6_stg5_0 : Ref sig .tc := ⟨.vmem, 84, rfl⟩
abbrev cc6_stg5_1 : Ref sig .tc := ⟨.vmem, 85, rfl⟩
abbrev cc6_scratch0 : Ref sig .tc := ⟨.vmem, 86, rfl⟩
abbrev cc6_scratch1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13
abbrev cc1_sem8_0 : DmaSem sig := 14
abbrev cc1_sem8_1 : DmaSem sig := 15
abbrev cc1_sem9_0 : DmaSem sig := 16
abbrev cc1_sem9_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc3_sem8_0 : DmaSem sig := 40
abbrev cc3_sem8_1 : DmaSem sig := 41
abbrev cc3_sem9_0 : DmaSem sig := 42
abbrev cc3_sem9_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem4_1 : DmaSem sig := 53
abbrev cc4_sem5_0 : DmaSem sig := 54
abbrev cc4_sem5_1 : DmaSem sig := 55
abbrev cc5_sem0_0 : DmaSem sig := 56
abbrev cc5_sem0_1 : DmaSem sig := 57
abbrev cc5_sem1_0 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem6_0 : DmaSem sig := 63
abbrev cc5_sem7_0 : DmaSem sig := 64
abbrev cc5_sem7_1 : DmaSem sig := 65
abbrev cc5_sem8_0 : DmaSem sig := 66
abbrev cc5_sem8_1 : DmaSem sig := 67
abbrev cc5_sem9_0 : DmaSem sig := 68
abbrev cc5_sem9_1 : DmaSem sig := 69
abbrev cc6_sem0_0 : DmaSem sig := 70
abbrev cc6_sem0_1 : DmaSem sig := 71
abbrev cc6_sem1_0 : DmaSem sig := 72
abbrev cc6_sem1_1 : DmaSem sig := 73
abbrev cc6_sem2_0 : DmaSem sig := 74
abbrev cc6_sem2_1 : DmaSem sig := 75
abbrev cc6_sem3_0 : DmaSem sig := 76
abbrev cc6_sem3_1 : DmaSem sig := 77
abbrev cc6_sem4_0 : DmaSem sig := 78
abbrev cc6_sem4_1 : DmaSem sig := 79
abbrev cc6_sem5_0 : DmaSem sig := 80
abbrev cc6_sem5_1 : DmaSem sig := 81

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_19 : BitVec 32 := 0#32
  let v36 : BitVec 1 := Scalar.cmpi .ne v35 c0_i32_19
  v36

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1024x256 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨2, ![8, 16], ![false, false]⟩

def k4_cond2 (i : grid4.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_19 : BitVec 32 := 0#32
  let v36 : BitVec 1 := Scalar.cmpi .ne v35 c0_i32_19
  v36

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S512x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1024x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S1024x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S1024x64 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1x1024 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S1x1024 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨2, ![8, 16], ![false, false]⟩

def k6_cond2 (i : grid6.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_19 : BitVec 32 := 0#32
  let v36 : BitVec 1 := Scalar.cmpi .ne v35 c0_i32_19
  v36

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S512x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S1x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S1024x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  shapeCasts_S512_S1x512 : S512.ShapeCasts S1x512
  shapeCasts_S1_S1x1 : S1.ShapeCasts S1x1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  transposes_S1x512_p1_0_S512x1 : S1x512.Transposes [1, 0] S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x512_S1024x512 : S1024x512.ShapeCasts S1024x512
  shapeCasts_S1x1024_S1x1024 : S1x1024.ShapeCasts S1x1024
  transposes_S1x1024_p1_0_S1024x1 : S1x1024.Transposes [1, 0] S1024x1
  broadcasts_S1024x1_S1024x512 : S1024x1.Broadcasts S1024x512
  reduces_S1024x512_S1024 : S1024x512.Reduces [1] S1024
  shapeCasts_S1024_S1024x1 : S1024.ShapeCasts S1024x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S256_S1x256 : S256.ShapeCasts S1x256
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  transposes_S1x256_p1_0_S256x1 : S1x256.Transposes [1, 0] S256x1
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1024x1_S1024x256 : S1024x1.Broadcasts S1024x256
  shapeCasts_S64_S1x64 : S64.ShapeCasts S1x64
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  transposes_S1x64_p1_0_S64x1 : S1x64.Transposes [1, 0] S64x1
  shapeCasts_S1024x64_S1024x64 : S1024x64.ShapeCasts S1024x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1024x1_S1024x64 : S1024x1.Broadcasts S1024x64
  dot_S1024x1024_S1024x512_S1024x512_1_0_0_1_n_n_wf : DotDims.WF S1024x1024 S1024x512 S1024x512 [1] [0] [0] [1] [] []
  dot_S1024x512_S512x1_S1024x1_1_0_0_1_n_n_wf : DotDims.WF S1024x512 S512x1 S1024x1 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []
  dot_S1024x256_S256x64_S1024x64_1_0_0_1_n_n_wf : DotDims.WF S1024x256 S256x64 S1024x64 [1] [0] [0] [1] [] []
  dot_S1024x64_S64x1_S1024x1_1_0_0_1_n_n_wf : DotDims.WF S1024x64 S64x1 S1024x1 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x512.size a ≤ S8192x512.size a
  hwx1_7 : ∀ i : grid1.Coords, EltTy.bits .bf16 = 32 ∨ (Rect.block (s := S8192x512) S1024x512.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x8192.size a
  hwx1_8 : ∀ i : grid1.Coords, EltTy.bits .f32 = 32 ∨ (Rect.block (s := S1x8192) S1x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x8192.size a
  hwx1_9 : ∀ i : grid1.Coords, EltTy.bits .f32 = 32 ∨ (Rect.block (s := S1x8192) S1x1024.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x8192.size a
  hwx2_0 : ∀ i : grid2.Coords, EltTy.bits .f32 = 32 ∨ (Rect.block (s := S8192x8192) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x8192.size a
  hwx2_1 : ∀ i : grid2.Coords, EltTy.bits .f32 = 32 ∨ (Rect.block (s := S8192x8192) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S8192x512.size a
  hwx2_2 : ∀ i : grid2.Coords, EltTy.bits .bf16 = 32 ∨ (Rect.block (s := S8192x512) S512x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x8192.size a
  hwx2_3 : ∀ i : grid2.Coords, EltTy.bits .f32 = 32 ∨ (Rect.block (s := S1x8192) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x8192.size a
  hwx2_4 : ∀ i : grid2.Coords, EltTy.bits .f32 = 32 ∨ (Rect.block (s := S1x8192) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S8192x512.size a
  hwx2_5 : ∀ i : grid2.Coords, EltTy.bits .f32 = 32 ∨ (Rect.block (s := S8192x512) S1024x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x512.size a
  hwx3_0 : ∀ i : grid3.Coords, EltTy.bits .f32 = 32 ∨ (Rect.block (s := S8192x512) S1024x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x512.size a ≤ S256x512.size a
  hwx3_1 : ∀ i : grid3.Coords, EltTy.bits .f32 = 32 ∨ (Rect.block (s := S256x512) S256x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x256.size a ≤ S8192x256.size a
  hwx3_7 : ∀ i : grid3.Coords, EltTy.bits .bf16 = 32 ∨ (Rect.block (s := S8192x256) S1024x256.size (cc3_transform_7 i) (hinb3_7 i)).WholeWords (EltTy.packing .bf16)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1024.size a ≤ S1x8192.size a
  hwx3_8 : ∀ i : grid3.Coords, EltTy.bits .f32 = 32 ∨ (Rect.block (s := S1x8192) S1x1024.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x1024.size a ≤ S1x8192.size a
  hwx3_9 : ∀ i : grid3.Coords, EltTy.bits .f32 = 32 ∨ (Rect.block (s := S1x8192) S1x1024.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x8192.size a
  hwx4_0 : ∀ i : grid4.Coords, EltTy.bits .f32 = 32 ∨ (Rect.block (s := S8192x8192) S1024x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S8192x8192.size a
  hwx4_1 : ∀ i : grid4.Coords, EltTy.bits .f32 = 32 ∨ (Rect.block (s := S8192x8192) S1024x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x256.size a ≤ S8192x256.size a
  hwx4_2 : ∀ i : grid4.Coords, EltTy.bits .bf16 = 32 ∨ (Rect.block (s := S8192x256) S512x256.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x8192.size a
  hwx4_3 : ∀ i : grid4.Coords, EltTy.bits .f32 = 32 ∨ (Rect.block (s := S1x8192) S1x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x8192.size a
  hwx4_4 : ∀ i : grid4.Coords, EltTy.bits .f32 = 32 ∨ (Rect.block (s := S1x8192) S1x1024.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x256.size a ≤ S8192x256.size a
  hwx4_5 : ∀ i : grid4.Coords, EltTy.bits .f32 = 32 ∨ (Rect.block (s := S8192x256) S1024x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x256.size a ≤ S8192x256.size a
  hwx5_0 : ∀ i : grid5.Coords, EltTy.bits .f32 = 32 ∨ (Rect.block (s := S8192x256) S1024x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x256.size a ≤ S64x256.size a
  hwx5_1 : ∀ i : grid5.Coords, EltTy.bits .f32 = 32 ∨ (Rect.block (s := S64x256) S64x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1024x64.size a ≤ S8192x64.size a
  hwx5_7 : ∀ i : grid5.Coords, EltTy.bits .bf16 = 32 ∨ (Rect.block (s := S8192x64) S1024x64.size (cc5_transform_7 i) (hinb5_7 i)).WholeWords (EltTy.packing .bf16)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1x1024.size a ≤ S1x8192.size a
  hwx5_8 : ∀ i : grid5.Coords, EltTy.bits .f32 = 32 ∨ (Rect.block (s := S1x8192) S1x1024.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1x1024.size a ≤ S1x8192.size a
  hwx5_9 : ∀ i : grid5.Coords, EltTy.bits .f32 = 32 ∨ (Rect.block (s := S1x8192) S1x1024.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S8192x8192.size a
  hwx6_0 : ∀ i : grid6.Coords, EltTy.bits .f32 = 32 ∨ (Rect.block (s := S8192x8192) S1024x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x512.size a ≤ S8192x8192.size a
  hwx6_1 : ∀ i : grid6.Coords, EltTy.bits .f32 = 32 ∨ (Rect.block (s := S8192x8192) S1024x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x64.size a ≤ S8192x64.size a
  hwx6_2 : ∀ i : grid6.Coords, EltTy.bits .bf16 = 32 ∨ (Rect.block (s := S8192x64) S512x64.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x512.size a ≤ S1x8192.size a
  hwx6_3 : ∀ i : grid6.Coords, EltTy.bits .f32 = 32 ∨ (Rect.block (s := S1x8192) S1x512.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x1024.size a ≤ S1x8192.size a
  hwx6_4 : ∀ i : grid6.Coords, EltTy.bits .f32 = 32 ∨ (Rect.block (s := S1x8192) S1x1024.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x64.size a ≤ S8192x64.size a
  hwx6_5 : ∀ i : grid6.Coords, EltTy.bits .f32 = 32 ∨ (Rect.block (s := S8192x64) S1024x64.size (cc6_transform_5 i) (hinb6_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4_0) S1024x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v4_1) S1x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v4_2) S1x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg1) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_0) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4_1) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4_2) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1024x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v5) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v8) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v9_0) S1024x256.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v9_1) S1x1024.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v9_2) S1x1024.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_arg1) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v9_0) S512x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v9_1) S1x512.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v9_2) S1x1024.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v10) S1024x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v10) S1024x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S64x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v11) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v12) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg18) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v13) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v14_0) S1024x64.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v14_1) S1x1024.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v14_2) S1x1024.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_arg1) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v0) S1024x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v14_0) S512x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v14_1) S1x512.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v14_2) S1x1024.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v15) S1024x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun _ => false | 5 => fun i => !(k6_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S256x512 : Shape := ⟨2, ![256, 512]⟩
abbrev S256 : Shape := ⟨1, ![256]⟩
abbrev S1x256 : Shape := ⟨2, ![1, 256]⟩
abbrev S64x256 : Shape := ⟨2, ![64, 256]⟩
abbrev S64 : Shape := ⟨1, ![64]⟩
abbrev S1x64 : Shape := ⟨2, ![1, 64]⟩
abbrev S1024x512 : Shape := ⟨2, ![1024, 512]⟩
abbrev S8192x512 : Shape := ⟨2, ![8192, 512]⟩
abbrev S_ : Shape := ⟨0, ![]⟩
abbrev S512x1 : Shape := ⟨2, ![512, 1]⟩
abbrev S8192x1 : Shape := ⟨2, ![8192, 1]⟩
abbrev S1x1 : Shape := ⟨2, ![1, 1]⟩
abbrev S8192 : Shape := ⟨1, ![8192]⟩
abbrev S1x8192 : Shape := ⟨2, ![1, 8192]⟩
abbrev S512x256 : Shape := ⟨2, ![512, 256]⟩
abbrev S8192x256 : Shape := ⟨2, ![8192, 256]⟩
abbrev S256x1 : Shape := ⟨2, ![256, 1]⟩
abbrev S256x64 : Shape := ⟨2, ![256, 64]⟩
abbrev S8192x64 : Shape := ⟨2, ![8192, 64]⟩
abbrev S64x1 : Shape := ⟨2, ![64, 1]⟩

abbrev nBuf : Space → Nat
  | .hbm => 173
  | .vmem => 0
  | .smem => 0
  | _ => 0

abbrev hbmTy0_0 (i : Nat) : BufTy := match i % 128 with
  | 0 => ⟨S8192x1024, .f32⟩
  | 1 => ⟨S8192x8192, .f32⟩
  | 2 => ⟨S512x1024, .f32⟩
  | 3 => ⟨S512, .f32⟩
  | 4 => ⟨S1x512, .f32⟩
  | 5 => ⟨S1, .f32⟩
  | 6 => ⟨S1x512, .f32⟩
  | 7 => ⟨S1, .f32⟩
  | 8 => ⟨S256x512, .f32⟩
  | 9 => ⟨S256, .f32⟩
  | 10 => ⟨S1x256, .f32⟩
  | 11 => ⟨S1, .f32⟩
  | 12 => ⟨S1x256, .f32⟩
  | 13 => ⟨S1, .f32⟩
  | 14 => ⟨S64x256, .f32⟩
  | 15 => ⟨S64, .f32⟩
  | 16 => ⟨S1x64, .f32⟩
  | 17 => ⟨S1, .f32⟩
  | 18 => ⟨S1x64, .f32⟩
  | 19 => ⟨S1, .f32⟩
  | 20 => ⟨S1024x512, .f32⟩
  | 21 => ⟨S8192x512, .f32⟩
  | 22 => ⟨S1x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S512x1, .f32⟩
  | 29 => ⟨S8192x1, .f32⟩
  | 30 => ⟨S1x1, .f32⟩
  | 31 => ⟨S8192x1, .f32⟩
  | 32 => ⟨S8192x1, .f32⟩
  | 33 => ⟨S8192, .f32⟩
  | 34 => ⟨S512x1, .f32⟩
  | 35 => ⟨S8192x1, .f32⟩
  | 36 => ⟨S1x1, .f32⟩
  | 37 => ⟨S8192x1, .f32⟩
  | 38 => ⟨S8192x1, .f32⟩
  | 39 => ⟨S8192, .f32⟩
  | 40 => ⟨S1x8192, .f32⟩
  | 41 => ⟨S8192x8192, .f32⟩
  | 42 => ⟨S8192x8192, .f32⟩
  | 43 => ⟨S8192x8192, .f32⟩
  | 44 => ⟨S8192x1, .f32⟩
  | 45 => ⟨S8192x8192, .f32⟩
  | 46 => ⟨S8192x8192, .f32⟩
  | 47 => ⟨S8192x8192, .f32⟩
  | 48 => ⟨S8192x8192, .f32⟩
  | 49 => ⟨S8192x8192, .f32⟩
  | 50 => ⟨S_, .f32⟩
  | 51 => ⟨S8192x8192, .f32⟩
  | 52 => ⟨S8192x8192, .f32⟩
  | 53 => ⟨S_, .f32⟩
  | 54 => ⟨S8192x8192, .f32⟩
  | 55 => ⟨S8192x8192, .f32⟩
  | 56 => ⟨S_, .f32⟩
  | 57 => ⟨S8192, .f32⟩
  | 58 => ⟨S_, .f32⟩
  | 59 => ⟨S8192, .f32⟩
  | 60 => ⟨S8192, .f32⟩
  | 61 => ⟨S8192x1, .f32⟩
  | 62 => ⟨S8192x8192, .f32⟩
  | 63 => ⟨S8192x8192, .f32⟩
  | 64 => ⟨S8192x8192, .f32⟩
  | 65 => ⟨S_, .f32⟩
  | 66 => ⟨S8192, .f32⟩
  | 67 => ⟨S8192x1, .f32⟩
  | 68 => ⟨S8192x8192, .f32⟩
  | 69 => ⟨S8192x8192, .f32⟩
  | 70 => ⟨S8192x512, .f32⟩
  | 71 => ⟨S512x256, .f32⟩
  | 72 => ⟨S8192x256, .f32⟩
  | 73 => ⟨S1x256, .f32⟩
  | 74 => ⟨S8192x256, .f32⟩
  | 75 => ⟨S8192x256, .f32⟩
  | 76 => ⟨S_, .f32⟩
  | 77 => ⟨S8192x256, .f32⟩
  | 78 => ⟨S8192x256, .f32⟩
  | 79 => ⟨S256x1, .f32⟩
  | 80 => ⟨S8192x1, .f32⟩
  | 81 => ⟨S1x1, .f32⟩
  | 82 => ⟨S8192x1, .f32⟩
  | 83 => ⟨S8192x1, .f32⟩
  | 84 => ⟨S8192, .f32⟩
  | 85 => ⟨S256x1, .f32⟩
  | 86 => ⟨S8192x1, .f32⟩
  | 87 => ⟨S1x1, .f32⟩
  | 88 => ⟨S8192x1, .f32⟩
  | 89 => ⟨S8192x1, .f32⟩
  | 90 => ⟨S8192, .f32⟩
  | 91 => ⟨S1x8192, .f32⟩
  | 92 => ⟨S8192x8192, .f32⟩
  | 93 => ⟨S8192x8192, .f32⟩
  | 94 => ⟨S8192x8192, .f32⟩
  | 95 => ⟨S8192x1, .f32⟩
  | 96 => ⟨S8192x8192, .f32⟩
  | 97 => ⟨S8192x8192, .f32⟩
  | 98 => ⟨S8192x8192, .f32⟩
  | 99 => ⟨S8192x8192, .f32⟩
  | 100 => ⟨S8192x8192, .f32⟩
  | 101 => ⟨S_, .f32⟩
  | 102 => ⟨S8192x8192, .f32⟩
  | 103 => ⟨S8192x8192, .f32⟩
  | 104 => ⟨S_, .f32⟩
  | 105 => ⟨S8192x8192, .f32⟩
  | 106 => ⟨S8192x8192, .f32⟩
  | 107 => ⟨S_, .f32⟩
  | 108 => ⟨S8192, .f32⟩
  | 109 => ⟨S_, .f32⟩
  | 110 => ⟨S8192, .f32⟩
  | 111 => ⟨S8192, .f32⟩
  | 112 => ⟨S8192x1, .f32⟩
  | 113 => ⟨S8192x8192, .f32⟩
  | 114 => ⟨S8192x8192, .f32⟩
  | 115 => ⟨S8192x8192, .f32⟩
  | 116 => ⟨S_, .f32⟩
  | 117 => ⟨S8192, .f32⟩
  | 118 => ⟨S8192x1, .f32⟩
  | 119 => ⟨S8192x8192, .f32⟩
  | 120 => ⟨S8192x8192, .f32⟩
  | 121 => ⟨S8192x256, .f32⟩
  | 122 => ⟨S256x64, .f32⟩
  | 123 => ⟨S8192x64, .f32⟩
  | 124 => ⟨S1x64, .f32⟩
  | 125 => ⟨S8192x64, .f32⟩
  | 126 => ⟨S8192x64, .f32⟩
  | 127 => ⟨S_, .f32⟩
  | _ => ⟨S8192x1024, .f32⟩

abbrev hbmTy0_1 (i : Nat) : BufTy := match i % 128 with
  | 0 => ⟨S8192x64, .f32⟩
  | 1 => ⟨S8192x64, .f32⟩
  | 2 => ⟨S64x1, .f32⟩
  | 3 => ⟨S8192x1, .f32⟩
  | 4 => ⟨S1x1, .f32⟩
  | 5 => ⟨S8192x1, .f32⟩
  | 6 => ⟨S8192x1, .f32⟩
  | 7 => ⟨S8192, .f32⟩
  | 8 => ⟨S64x1, .f32⟩
  | 9 => ⟨S8192x1, .f32⟩
  | 10 => ⟨S1x1, .f32⟩
  | 11 => ⟨S8192x1, .f32⟩
  | 12 => ⟨S8192x1, .f32⟩
  | 13 => ⟨S8192, .f32⟩
  | 14 => ⟨S1x8192, .f32⟩
  | 15 => ⟨S8192x8192, .f32⟩
  | 16 => ⟨S8192x8192, .f32⟩
  | 17 => ⟨S8192x8192, .f32⟩
  | 18 => ⟨S8192x1, .f32⟩
  | 19 => ⟨S8192x8192, .f32⟩
  | 20 => ⟨S8192x8192, .f32⟩
  | 21 => ⟨S8192x8192, .f32⟩
  | 22 => ⟨S8192x8192, .f32⟩
  | 23 => ⟨S8192x8192, .f32⟩
  | 24 => ⟨S_, .f32⟩
  | 25 => ⟨S8192x8192, .f32⟩
  | 26 => ⟨S8192x8192, .f32⟩
  | 27 => ⟨S_, .f32⟩
  | 28 => ⟨S8192x8192, .f32⟩
  | 29 => ⟨S8192x8192, .f32⟩
  | 30 => ⟨S_, .f32⟩
  | 31 => ⟨S8192, .f32⟩
  | 32 => ⟨S_, .f32⟩
  | 33 => ⟨S8192, .f32⟩
  | 34 => ⟨S8192, .f32⟩
  | 35 => ⟨S8192x1, .f32⟩
  | 36 => ⟨S8192x8192, .f32⟩
  | 37 => ⟨S8192x8192, .f32⟩
  | 38 => ⟨S8192x8192, .f32⟩
  | 39 => ⟨S_, .f32⟩
  | 40 => ⟨S8192, .f32⟩
  | 41 => ⟨S8192x1, .f32⟩
  | 42 => ⟨S8192x8192, .f32⟩
  | 43 => ⟨S8192x8192, .f32⟩
  | 44 => ⟨S8192x64, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_v29 : Ref sig .tc := ⟨.hbm, 52, rfl⟩
abbrev main_cst_0 : Ref sig .tc := ⟨.hbm, 53, rfl⟩
abbrev main_v30 : Ref sig .tc := ⟨.hbm, 54, rfl⟩
abbrev main_v31 : Ref sig .tc := ⟨.hbm, 55, rfl⟩
abbrev main_cst_1 : Ref sig .tc := ⟨.hbm, 56, rfl⟩
abbrev main_v32 : Ref sig .tc := ⟨.hbm, 57, rfl⟩
abbrev main_cst_2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_4 : Ref sig .tc := ⟨.hbm, 101, rfl⟩
abbrev main_v72 : Ref sig .tc := ⟨.hbm, 102, rfl⟩
abbrev main_v73 : Ref sig .tc := ⟨.hbm, 103, rfl⟩
abbrev main_cst_5 : Ref sig .tc := ⟨.hbm, 104, rfl⟩
abbrev main_v74 : Ref sig .tc := ⟨.hbm, 105, rfl⟩
abbrev main_v75 : Ref sig .tc := ⟨.hbm, 106, rfl⟩
abbrev main_cst_6 : Ref sig .tc := ⟨.hbm, 107, rfl⟩
abbrev main_v76 : Ref sig .tc := ⟨.hbm, 108, rfl⟩
abbrev main_cst_7 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_8 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call2_cst : Ref sig .tc := ⟨.hbm, 127, rfl⟩
abbrev main_call2_v0 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_9 : Ref sig .tc := ⟨.hbm, 152, rfl⟩
abbrev main_v116 : Ref sig .tc := ⟨.hbm, 153, rfl⟩
abbrev main_v117 : Ref sig .tc := ⟨.hbm, 154, rfl⟩
abbrev main_cst_10 : Ref sig .tc := ⟨.hbm, 155, rfl⟩
abbrev main_v118 : Ref sig .tc := ⟨.hbm, 156, rfl⟩
abbrev main_v119 : Ref sig .tc := ⟨.hbm, 157, rfl⟩
abbrev main_cst_11 : Ref sig .tc := ⟨.hbm, 158, rfl⟩
abbrev main_v120 : Ref sig .tc := ⟨.hbm, 159, rfl⟩
abbrev main_cst_12 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_13 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  transposes_S1x512_S512x1_1_0 : S1x512.Transposes [1, 0] S512x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S8192x8192_S8192x8192_1_0 : S8192x8192.Transposes [1, 0] S8192x8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S1x256_S256x1_1_0 : S1x256.Transposes [1, 0] S256x1
  transposes_S64x256_S256x64_1_0 : S64x256.Transposes [1, 0] S256x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S1x64_S64x1_1_0 : S1x64.Transposes [1, 0] S64x1
  dot_S8192x1024_S1024x512_S8192x512_1_0_0_1_n_n_wf : DotDims.WF S8192x1024 S1024x512 S8192x512 [1] [0] [0] [1] [] []
  dot_S8192x512_S512x1_S8192x1_1_0_0_1_n_n_wf : DotDims.WF S8192x512 S512x1 S8192x1 [1] [0] [0] [1] [] []
  dot_S8192x8192_S8192x512_S8192x512_1_0_0_1_n_n_wf : DotDims.WF S8192x8192 S8192x512 S8192x512 [1] [0] [0] [1] [] []
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Spec.lean ====
/- The three-layer network as real functions of real arrays, and an extended-real array being the image of a real one. -/
import Idealize.ShloMosaic.PureOps.Ideal
import Idealize.ShloMosaic.Lib.ValueIdx
noncomputable section
open scoped BigOperators
namespace GAT
open Idealize.ShloMosaic Idealize.ShloMosaic.ValueIdx
variable {N D O : ℕ}
def zR (H : Fin N → Fin D → ℝ) (W : Fin O → Fin D → ℝ) (b : Fin O → ℝ) (i : Fin N) (o : Fin O) : ℝ :=
  max (∑ k, H i k * W o k + b o) 0
def gateR (Z : Fin N → Fin O → ℝ) (w : Fin O → ℝ) (b0 : ℝ) (i : Fin N) : ℝ :=
  ∑ o, Z i o * w o + b0
def sigR (A : Fin N → Fin N → ℝ) (t r : Fin N → ℝ) (i j : Fin N) : ℝ :=
  (1 + Real.exp (-(A i j * t j + A j i * r i)))⁻¹
def attnR (A : Fin N → Fin N → ℝ) (t r : Fin N → ℝ) (Z : Fin N → Fin O → ℝ) (i : Fin N) (o : Fin O) : ℝ :=
  (∑ j, Real.exp (sigR A t r i j) * Z j o) / (∑ j, Real.exp (sigR A t r i j))
def layerR (H : Fin N → Fin D → ℝ) (A : Fin N → Fin N → ℝ) (W : Fin O → Fin D → ℝ) (b : Fin O → ℝ)
    (tw : Fin O → ℝ) (tb : ℝ) (rw : Fin O → ℝ) (rb : ℝ) : Fin N → Fin O → ℝ :=
  attnR A (gateR (zR H W b) tw tb) (gateR (zR H W b) rw rb) (zR H W b)
def IsR2 {a b : ℕ} (x : (⟨2, ![a, b]⟩ : Shape).Idx → EReal) (xr : Fin a → Fin b → ℝ) : Prop :=
  ∀ p q, x (ix2 p q) = ((xr p q : ℝ) : EReal)
def IsR1 {a : ℕ} (x : (⟨1, ![a]⟩ : Shape).Idx → EReal) (xr : Fin a → ℝ) : Prop :=
  ∀ p, x (ix1 p) = ((xr p : ℝ) : EReal)
def netR (X : Fin 8192 → Fin 1024 → ℝ) (A : Fin 8192 → Fin 8192 → ℝ)
    (W1 : Fin 512 → Fin 1024 → ℝ) (b1 : Fin 512 → ℝ) (tw1 : Fin 512 → ℝ) (tb1 : ℝ) (rw1 : Fin 512 → ℝ) (rb1 : ℝ)
    (W2 : Fin 256 → Fin 512 → ℝ) (b2 : Fin 256 → ℝ) (tw2 : Fin 256 → ℝ) (tb2 : ℝ) (rw2 : Fin 256 → ℝ) (rb2 : ℝ)
    (W3 : Fin 64 → Fin 256 → ℝ) (b3 : Fin 64 → ℝ) (tw3 : Fin 64 → ℝ) (tb3 : ℝ) (rw3 : Fin 64 → ℝ) (rb3 : ℝ) :
    Fin 8192 → Fin 64 → ℝ :=
  layerR (layerR (layerR X A W1 b1 tw1 tb1 rw1 rb1) A W2 b2 tw2 tb2 rw2 rb2) A W3 b3 tw3 tb3 rw3 rb3
end GAT
end
-- ==== Proof.Finite.lean ====
/- Under the precondition every entry of every input array is a real number. -/
import proofs.«139342_j40218073759787_2_alg».proof.Defs
import proofs.«139342_j40218073759787_2_alg».proof.Proof.Spec
import Idealize.ShloMosaic.Lib.ReduceAll
noncomputable section
namespace Cert.Proof.Finite
open Idealize.ShloMosaic Idealize.ShloMosaic.ValueIdx Idealize.SL.Sem
open Cert.Pre_finite_inputs
instance : Subsingleton S_.Idx := ⟨fun a b => funext fun d => d.elim0⟩
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h
theorem all_real {S : Shape} {axes : List (Fin S.rank)} (x : FVec Ideal S .f32)
    (hb : S_.BroadcastsInDim S (![] : Fin 0 → Fin S.rank)) (hr : S.ReducesTo axes S_) (h0 : 0 < S_.numel)
    (h : Host.reduce IntOp.andi (cmpf .olt (Host.absf x) (broadcastInDim S ![] hb (constant S_ .f32 0x7F800000#32)))
          (constantI S_ 1 1#1) hr h0 ix0 = 1#1) :
    ∃ f : S.Idx → ℝ, ∀ i, x i = ((f i : ℝ) : EReal) := by
  have hall := Host.reduce_andi_all _ _ hr h0 ix0 h
  choose f hf using fun i => real_of_abs_lt_top (x i) (hall i)
  exact ⟨f, hf⟩
set_option maxHeartbeats 1000000 in
theorem reals_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (X : Fin 8192 → Fin 1024 → ℝ) (A : Fin 8192 → Fin 8192 → ℝ) (W1 : Fin 512 → Fin 1024 → ℝ) (b1 : Fin 512 → ℝ) (tw1 : Fin 1 → Fin 512 → ℝ) (tb1 : Fin 1 → ℝ) (rw1 : Fin 1 → Fin 512 → ℝ) (rb1 : Fin 1 → ℝ) (W2 : Fin 256 → Fin 512 → ℝ) (b2 : Fin 256 → ℝ) (tw2 : Fin 1 → Fin 256 → ℝ) (tb2 : Fin 1 → ℝ) (rw2 : Fin 1 → Fin 256 → ℝ) (rb2 : Fin 1 → ℝ) (W3 : Fin 64 → Fin 256 → ℝ) (b3 : Fin 64 → ℝ) (tw3 : Fin 1 → Fin 64 → ℝ) (tb3 : Fin 1 → ℝ) (rw3 : Fin 1 → Fin 64 → ℝ) (rb3 : Fin 1 → ℝ),
      GAT.IsR2 (a := 8192) (b := 1024) (m ((c.tc : Thread Cert.KernelIdeal.nD Cert.KernelIdeal.τ).loc Cert.KernelIdeal.main_arg0)) X
      ∧ GAT.IsR2 (a := 8192) (b := 8192) (m ((c.tc : Thread Cert.KernelIdeal.nD Cert.KernelIdeal.τ).loc Cert.KernelIdeal.main_arg1)) A
      ∧ GAT.IsR2 (a := 512) (b := 1024) (m ((c.tc : Thread Cert.KernelIdeal.nD Cert.KernelIdeal.τ).loc Cert.KernelIdeal.main_arg2)) W1
      ∧ GAT.IsR1 (a := 512) (m ((c.tc : Thread Cert.KernelIdeal.nD Cert.KernelIdeal.τ).loc Cert.KernelIdeal.main_arg3)) b1
      ∧ GAT.IsR2 (a := 1) (b := 512) (m ((c.tc : Thread Cert.KernelIdeal.nD Cert.KernelIdeal.τ).loc Cert.KernelIdeal.main_arg4)) tw1
      ∧ GAT.IsR1 (a := 1) (m ((c.tc : Thread Cert.KernelIdeal.nD Cert.KernelIdeal.τ).loc Cert.KernelIdeal.main_arg5)) tb1
      ∧ GAT.IsR2 (a := 1) (b := 512) (m ((c.tc : Thread Cert.KernelIdeal.nD Cert.KernelIdeal.τ).loc Cert.KernelIdeal.main_arg6)) rw1
      ∧ GAT.IsR1 (a := 1) (m ((c.tc : Thread Cert.KernelIdeal.nD Cert.KernelIdeal.τ).loc Cert.KernelIdeal.main_arg7)) rb1
      ∧ GAT.IsR2 (a := 256) (b := 512) (m ((c.tc : Thread Cert.KernelIdeal.nD Cert.KernelIdeal.τ).loc Cert.KernelIdeal.main_arg8)) W2
      ∧ GAT.IsR1 (a := 256) (m ((c.tc : Thread Cert.KernelIdeal.nD Cert.KernelIdeal.τ).loc Cert.KernelIdeal.main_arg9)) b2
      ∧ GAT.IsR2 (a := 1) (b := 256) (m ((c.tc : Thread Cert.KernelIdeal.nD Cert.KernelIdeal.τ).loc Cert.KernelIdeal.main_arg10)) tw2
      ∧ GAT.IsR1 (a := 1) (m ((c.tc : Thread Cert.KernelIdeal.nD Cert.KernelIdeal.τ).loc Cert.KernelIdeal.main_arg11)) tb2
      ∧ GAT.IsR2 (a := 1) (b := 256) (m ((c.tc : Thread Cert.KernelIdeal.nD Cert.KernelIdeal.τ).loc Cert.KernelIdeal.main_arg12)) rw2
      ∧ GAT.IsR1 (a := 1) (m ((c.tc : Thread Cert.KernelIdeal.nD Cert.KernelIdeal.τ).loc Cert.KernelIdeal.main_arg13)) rb2
      ∧ GAT.IsR2 (a := 64) (b := 256) (m ((c.tc : Thread Cert.KernelIdeal.nD Cert.KernelIdeal.τ).loc Cert.KernelIdeal.main_arg14)) W3
      ∧ GAT.IsR1 (a := 64) (m ((c.tc : Thread Cert.KernelIdeal.nD Cert.KernelIdeal.τ).loc Cert.KernelIdeal.main_arg15)) b3
      ∧ GAT.IsR2 (a := 1) (b := 64) (m ((c.tc : Thread Cert.KernelIdeal.nD Cert.KernelIdeal.τ).loc Cert.KernelIdeal.main_arg16)) tw3
      ∧ GAT.IsR1 (a := 1) (m ((c.tc : Thread Cert.KernelIdeal.nD Cert.KernelIdeal.τ).loc Cert.KernelIdeal.main_arg17)) tb3
      ∧ GAT.IsR2 (a := 1) (b := 64) (m ((c.tc : Thread Cert.KernelIdeal.nD Cert.KernelIdeal.τ).loc Cert.KernelIdeal.main_arg18)) rw3
      ∧ GAT.IsR1 (a := 1) (m ((c.tc : Thread Cert.KernelIdeal.nD Cert.KernelIdeal.τ).loc Cert.KernelIdeal.main_arg19)) rb3 := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  obtain ⟨f0, hf0⟩ := all_real (S := S8192x1024) (m ((c.tc : Thread Cert.KernelIdeal.nD Cert.KernelIdeal.τ).loc Cert.KernelIdeal.main_arg0)) Facts.bcast_S_S8192x1024 Facts.reducesTo_S8192x1024_S_d0_1 Facts.h_S_ e0
  obtain ⟨f1, hf1⟩ := all_real (S := S8192x8192) (m ((c.tc : Thread Cert.KernelIdeal.nD Cert.KernelIdeal.τ).loc Cert.KernelIdeal.main_arg1)) Facts.bcast_S_S8192x8192 Facts.reducesTo_S8192x8192_S_d0_1 Facts.h_S_ e1
  obtain ⟨f2, hf2⟩ := all_real (S := S512x1024) (m ((c.tc : Thread Cert.KernelIdeal.nD Cert.KernelIdeal.τ).loc Cert.KernelIdeal.main_arg2)) Facts.bcast_S_S512x1024 Facts.reducesTo_S512x1024_S_d0_1 Facts.h_S_ e2
  obtain ⟨f3, hf3⟩ := all_real (S := S512) (m ((c.tc : Thread Cert.KernelIdeal.nD Cert.KernelIdeal.τ).loc Cert.KernelIdeal.main_arg3)) Facts.bcast_S_S512 Facts.reducesTo_S512_S_d0 Facts.h_S_ e3
  obtain ⟨f4, hf4⟩ := all_real (S := S1x512) (m ((c.tc : Thread Cert.KernelIdeal.nD Cert.KernelIdeal.τ).loc Cert.KernelIdeal.main_arg4)) Facts.bcast_S_S1x512 Facts.reducesTo_S1x512_S_d0_1 Facts.h_S_ e4
  obtain ⟨f5, hf5⟩ := all_real (S := S1) (m ((c.tc : Thread Cert.KernelIdeal.nD Cert.KernelIdeal.τ).loc Cert.KernelIdeal.main_arg5)) Facts.bcast_S_S1 Facts.reducesTo_S1_S_d0 Facts.h_S_ e5
  obtain ⟨f6, hf6⟩ := all_real (S := S1x512) (m ((c.tc : Thread Cert.KernelIdeal.nD Cert.KernelIdeal.τ).loc Cert.KernelIdeal.main_arg6)) Facts.bcast_S_S1x512 Facts.reducesTo_S1x512_S_d0_1 Facts.h_S_ e6
  obtain ⟨f7, hf7⟩ := all_real (S := S1) (m ((c.tc : Thread Cert.KernelIdeal.nD Cert.KernelIdeal.τ).loc Cert.KernelIdeal.main_arg7)) Facts.bcast_S_S1 Facts.reducesTo_S1_S_d0 Facts.h_S_ e7
  obtain ⟨f8, hf8⟩ := all_real (S := S256x512) (m ((c.tc : Thread Cert.KernelIdeal.nD Cert.KernelIdeal.τ).loc Cert.KernelIdeal.main_arg8)) Facts.bcast_S_S256x512 Facts.reducesTo_S256x512_S_d0_1 Facts.h_S_ e8
  obtain ⟨f9, hf9⟩ := all_real (S := S256) (m ((c.tc : Thread Cert.KernelIdeal.nD Cert.KernelIdeal.τ).loc Cert.KernelIdeal.main_arg9)) Facts.bcast_S_S256 Facts.reducesTo_S256_S_d0 Facts.h_S_ e9
  obtain ⟨f10, hf10⟩ := all_real (S := S1x256) (m ((c.tc : Thread Cert.KernelIdeal.nD Cert.KernelIdeal.τ).loc Cert.KernelIdeal.main_arg10)) Facts.bcast_S_S1x256 Facts.reducesTo_S1x256_S_d0_1 Facts.h_S_ e10
  obtain ⟨f11, hf11⟩ := all_real (S := S1) (m ((c.tc : Thread Cert.KernelIdeal.nD Cert.KernelIdeal.τ).loc Cert.KernelIdeal.main_arg11)) Facts.bcast_S_S1 Facts.reducesTo_S1_S_d0 Facts.h_S_ e11
  obtain ⟨f12, hf12⟩ := all_real (S := S1x256) (m ((c.tc : Thread Cert.KernelIdeal.nD Cert.KernelIdeal.τ).loc Cert.KernelIdeal.main_arg12)) Facts.bcast_S_S1x256 Facts.reducesTo_S1x256_S_d0_1 Facts.h_S_ e12
  obtain ⟨f13, hf13⟩ := all_real (S := S1) (m ((c.tc : Thread Cert.KernelIdeal.nD Cert.KernelIdeal.τ).loc Cert.KernelIdeal.main_arg13)) Facts.bcast_S_S1 Facts.reducesTo_S1_S_d0 Facts.h_S_ e13
  obtain ⟨f14, hf14⟩ := all_real (S := S64x256) (m ((c.tc : Thread Cert.KernelIdeal.nD Cert.KernelIdeal.τ).loc Cert.KernelIdeal.main_arg14)) Facts.bcast_S_S64x256 Facts.reducesTo_S64x256_S_d0_1 Facts.h_S_ e14
  obtain ⟨f15, hf15⟩ := all_real (S := S64) (m ((c.tc : Thread Cert.KernelIdeal.nD Cert.KernelIdeal.τ).loc Cert.KernelIdeal.main_arg15)) Facts.bcast_S_S64 Facts.reducesTo_S64_S_d0 Facts.h_S_ e15
  obtain ⟨f16, hf16⟩ := all_real (S := S1x64) (m ((c.tc : Thread Cert.KernelIdeal.nD Cert.KernelIdeal.τ).loc Cert.KernelIdeal.main_arg16)) Facts.bcast_S_S1x64 Facts.reducesTo_S1x64_S_d0_1 Facts.h_S_ e16
  obtain ⟨f17, hf17⟩ := all_real (S := S1) (m ((c.tc : Thread Cert.KernelIdeal.nD Cert.KernelIdeal.τ).loc Cert.KernelIdeal.main_arg17)) Facts.bcast_S_S1 Facts.reducesTo_S1_S_d0 Facts.h_S_ e17
  obtain ⟨f18, hf18⟩ := all_real (S := S1x64) (m ((c.tc : Thread Cert.KernelIdeal.nD Cert.KernelIdeal.τ).loc Cert.KernelIdeal.main_arg18)) Facts.bcast_S_S1x64 Facts.reducesTo_S1x64_S_d0_1 Facts.h_S_ e18
  obtain ⟨f19, hf19⟩ := all_real (S := S1) (m ((c.tc : Thread Cert.KernelIdeal.nD Cert.KernelIdeal.τ).loc Cert.KernelIdeal.main_arg19)) Facts.bcast_S_S1 Facts.reducesTo_S1_S_d0 Facts.h_S_ e19
  exact ⟨fun p q => f0 (ix2 p q), fun p q => f1 (ix2 p q), fun p q => f2 (ix2 p q), fun p => f3 (ix1 p), fun p q => f4 (ix2 p q), fun p => f5 (ix1 p), fun p q => f6 (ix2 p q), fun p => f7 (ix1 p), fun p q => f8 (ix2 p q), fun p => f9 (ix1 p), fun p q => f10 (ix2 p q), fun p => f11 (ix1 p), fun p q => f12 (ix2 p q), fun p => f13 (ix1 p), fun p q => f14 (ix2 p q), fun p => f15 (ix1 p), fun p q => f16 (ix2 p q), fun p => f17 (ix1 p), fun p q => f18 (ix2 p q), fun p => f19 (ix1 p),
    fun p q => hf0 (ix2 p q), fun p q => hf1 (ix2 p q), fun p q => hf2 (ix2 p q), fun p => hf3 (ix1 p), fun p q => hf4 (ix2 p q), fun p => hf5 (ix1 p), fun p q => hf6 (ix2 p q), fun p => hf7 (ix1 p), fun p q => hf8 (ix2 p q), fun p => hf9 (ix1 p), fun p q => hf10 (ix2 p q), fun p => hf11 (ix1 p), fun p q => hf12 (ix2 p q), fun p => hf13 (ix1 p), fun p q => hf14 (ix2 p q), fun p => hf15 (ix1 p), fun p q => hf16 (ix2 p q), fun p => hf17 (ix1 p), fun p q => hf18 (ix2 p q), fun p => hf19 (ix1 p)⟩
end Cert.Proof.Finite
end
-- ==== Proof.K.Region0.lean ====
import proofs.«139342_j40218073759787_2_alg».proof.Proof.Gen.Kernel.Launch
import proofs.«139342_j40218073759787_2_alg».proof.Proof.Gen.Kernel.Skeleton
import proofs.«139342_j40218073759787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the entry contents of its array.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x1024 := Rect.unit (s := S1024x1024) ![0, 0] S1024x1024.size inb_S1024x1024_S1024x1024_0_0

-- The transposed block, as a function of the input block.
def out0_1 (x0 : Vec F S1024x1024 .f32) : Vec F S1024x1024 .f32 :=
  View.canon [⟨r0_0, k0_pay1 (View.ld x0 r0_0)⟩]

-- The body leaves its input as it finds it and ends with the output at `out0_1` of it, whatever the output held before.
set_option maxHeartbeats 1000000 in
theorem sound_kernel0 (c : Dev nD) (E : Set ℕ) (i : grid0.Coords) (arg2 : Memref sig .tc .vmem S1024x1024 .f32) (harg2) (arg3 : Memref sig .tc .vmem S1024x1024 .f32) (harg3)
    (x0) (K : PUnit → sProp 𝕄) :
    iprop(owns c arg2 fullShare x0 ∗ (∃ d, owns c arg3 fullShare d)
        ∗ (iprop(owns c arg2 fullShare x0 ∗ owns c arg3 fullShare (out0_1 x0)) -∗ K ⟨⟩))
      ⊢ wp frame (wpE (defs₀ (F := F)) Variants.none c none) E (cc0__transpose_kernel i arg2 harg2 arg3 harg3) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled _ S1024x1024.size (by rfl))

-- The input window keeps its block; the output window ends at the transposed block at the point.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = out0_1 (iblk0 V c 0 t) := by dsimp only [dat0]

-- An input the body leaves in place holds its block at every point, so the body's triple applies there.
theorem sound_body0 (c : Dev nD) (t : Fin cfg0.N) :
    iprop((dat0 V c).Φ t.castSucc ∗ (dat0 V c).owesAt () t.castSucc
        ∗ bigSep Finset.univ fun w : Fin cfg0.W => iprop(∃ d, owns c ((cfg0.win w).stage (cfg0.slots t w)) fullShare ((dat0 V c).before w t d)))
      ⊢ wp frame (wpE (defs₀ (F := F)) Variants.none c none) Set.univ (bodyAt0 t) fun _ =>
        iprop((dat0 V c).Φ t.succ ∗ (dat0 V c).owesAt () t.succ
          ∗ bigSep Finset.univ fun w : Fin cfg0.W => owns c ((cfg0.win w).stage (cfg0.slots t w)) fullShare ((dat0 V c).after w t)) := by
  rw [bigSep_W0, bigSep_W0]; unfold bodyAt0
  simp only [(dat0 V c).before_in_eq_fetched 0 rfl (fun _ => rfl) (fun _ _ _ => rfl) fun _ => rfl]
  rw [show (dat0 V c).Φ t.succ = (dat0 V c).Φ t.castSucc from rfl,
    show (dat0 V c).owesAt () t.succ = (dat0 V c).owesAt () t.castSucc from rfl, after0_1]
  iintro ⟨HΦ, Ho, ⟨%d0, H0⟩, ⟨%d1, H1⟩⟩
  iapply (sound_kernel0 c Set.univ _ _ _ _ _ _ _)
  isplitl [H0]; · iexact H0
  isplitl [H1]; · iexists _; iexact H1
  iintro ⟨H0, H1⟩
  isplitl [HΦ]; · iexact HΦ
  isplitl [Ho]; · iexact Ho
  isplitl [H0]; · iexact H0
  iexact H1

-- The same, with the product over the windows written out.
theorem body_obligation0 (c : Dev nD) : BodyObligation (dat0 (F := F) V c) (defs₀ (F := F)) Variants.none () Set.univ := fun t => by
  have h := sound_body0 V c t
  rw [bigSep_W0, bigSep_W0] at h ⊢
  exact h

end Cert.Kernel.Hand

end
-- ==== Proof.K.Region1.lean ====
import proofs.«139342_j40218073759787_2_alg».proof.Proof.Gen.Kernel.Launch
import proofs.«139342_j40218073759787_2_alg».proof.Proof.Gen.Kernel.Skeleton
import proofs.«139342_j40218073759787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the entry contents of its array.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_h : Rect S1024x1024 := Rect.unit (s := S1024x1024) ![0, 0] S1024x1024.size inb_S1024x1024_S1024x1024_0_0
abbrev r1_w : Rect S512x1024 := Rect.unit (s := S512x1024) ![0, 0] S512x1024.size inb_S512x1024_S512x1024_0_0
abbrev r1_b : Rect S1x512 := Rect.unit (s := S1x512) ![0, 0] S1x512.size inb_S1x512_S1x512_0_0
abbrev r1_s : Rect S1x1 := Rect.unit (s := S1x1) ![0, 0] S1x1.size inb_S1x1_S1x1_0_0
abbrev r1_z : Rect S1024x512 := Rect.unit (s := S1024x512) ![0, 0] S1024x512.size inb_S1024x512_S1024x512_0_0
abbrev r1_row : Rect S1x1024 := Rect.unit (s := S1x1024) ![0, 0] S1x1024.size inb_S1x1024_S1x1024_0_0

-- The projected block, as a function of the three input blocks it is computed from.
def out1_7 (x0 : Vec F S1024x1024 .f32) (x1 : Vec F S512x1024 .f32) (x2 : Vec F S1x512 .f32) : Vec F S1024x512 .bf16 :=
  View.canon [⟨r1_z, k1_pay1 (View.ld x0 r1_h) (View.ld x1 r1_w) (View.ld x2 r1_b)⟩]

-- A score row: the projected block against a scoring row, plus its bias, as a row.
def out1_8 (x0 : Vec F S1024x1024 .f32) (x1 : Vec F S512x1024 .f32) (x2 : Vec F S1x512 .f32) (x3 : Vec F S1x512 .f32) (x4 : Vec F S1x1 .f32) : Vec F S1x1024 .f32 :=
  View.canon [⟨r1_row, k1_pay2 (View.ld x0 r1_h) (View.ld x1 r1_w) (View.ld x2 r1_b) (View.ld x3 r1_b) (View.ld x4 r1_s)⟩]

def out1_9 (x0 : Vec F S1024x1024 .f32) (x1 : Vec F S512x1024 .f32) (x2 : Vec F S1x512 .f32) (x5 : Vec F S1x512 .f32) (x6 : Vec F S1x1 .f32) : Vec F S1x1024 .f32 :=
  View.canon [⟨r1_row, k1_pay3 (View.ld x0 r1_h) (View.ld x1 r1_w) (View.ld x2 r1_b) (View.ld x5 r1_b) (View.ld x6 r1_s)⟩]

-- The body leaves its seven inputs as it finds them and ends with the outputs at `out1_7`, `out1_8`, `out1_9` of them, whatever the outputs held before.
set_option maxHeartbeats 4000000 in
theorem sound_kernel1 (c : Dev nD) (E : Set ℕ) (i : grid1.Coords)
    (arg1 : Memref sig .tc .vmem S1024x1024 .f32) (harg1) (arg2 : Memref sig .tc .vmem S512x1024 .f32) (harg2)
    (arg3 : Memref sig .tc .vmem S1x512 .f32) (harg3) (arg4 : Memref sig .tc .vmem S1x512 .f32) (harg4)
    (arg5 : Memref sig .tc .vmem S1x1 .f32) (harg5) (arg6 : Memref sig .tc .vmem S1x512 .f32) (harg6)
    (arg7 : Memref sig .tc .vmem S1x1 .f32) (harg7) (arg8 : Memref sig .tc .vmem S1024x512 .bf16) (harg8)
    (arg9 : Memref sig .tc .vmem S1x1024 .f32) (harg9) (arg10 : Memref sig .tc .vmem S1x1024 .f32) (harg10)
    (x0 x1 x2 x3 x4 x5 x6) (K : PUnit → sProp 𝕄) :
    iprop(((owns c arg8 fullShare (out1_7 x0 x1 x2) ∗ owns c arg9 fullShare (out1_8 x0 x1 x2 x3 x4)
          ∗ owns c arg10 fullShare (out1_9 x0 x1 x2 x5 x6) ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6) -∗ K ⟨⟩)
        ∗ (∃ d, owns c arg8 fullShare d) ∗ (∃ d, owns c arg9 fullShare d) ∗ (∃ d, owns c arg10 fullShare d)
        ∗ owns c arg1 fullShare x0 ∗ owns c arg2 fullShare x1 ∗ owns c arg3 fullShare x2
        ∗ owns c arg4 fullShare x3 ∗ owns c arg5 fullShare x4 ∗ owns c arg6 fullShare x5
        ∗ owns c arg7 fullShare x6)
      ⊢ wp frame (wpE (defs₀ (F := F)) Variants.none c none) E
          (cc1__proj_kernel i arg1 harg1 arg2 harg2 arg3 harg3 arg4 harg4 arg5 harg5 arg6 harg6 arg7 harg7 arg8 harg8 arg9 harg9 arg10 harg10) K := by
  simp only [cc1__proj_kernel_eq_skeleton]; unfold cc1__proj_kernel_skel
  simp only [k1_part1_eq_skeleton]; unfold k1_part1_skel
  unfold owns
  iintro ⟨Hk, ⟨%d7, %f7, -, H7⟩, ⟨%d8, %f8, -, H8⟩, ⟨%d9, %f9, -, H9⟩, ⟨%f0, %hf0, H0⟩, ⟨%f1, %hf1, H1⟩, ⟨%f2, %hf2, H2⟩, ⟨%f3, %hf3, H3⟩,
    ⟨%f4, %hf4, H4⟩, ⟨%f5, %hf5, H5⟩, ⟨%f6, %hf6, H6⟩⟩
  subst hf0 hf1 hf2 hf3 hf4 hf5 hf6
  sl_exec
  sl_step
  iapply Hk
  isplitl [H7]
  · iexists _; isplitr
    swap; · iexact H7
    ipureintro
    exact View.read_writes_eq_canon _ _ _ (View.cover_of_tiled _ S1024x512.size (by rfl))
  isplitl [H8]
  · iexists _; isplitr
    swap; · iexact H8
    ipureintro
    exact View.read_writes_eq_canon _ _ _ (View.cover_of_tiled _ S1x1024.size (by rfl))
  isplitl [H9]
  · iexists _; isplitr
    swap; · iexact H9
    ipureintro
    exact View.read_writes_eq_canon _ _ _ (View.cover_of_tiled _ S1x1024.size (by rfl))
  sl_close

-- Every input window keeps its block; every output window ends at its payload over the blocks at the point.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t)
    | ⟨8, _⟩ => out1_8 (iblk1 V c 0 t) (iblk1 V c 1 t) (iblk1 V c 2 t) (iblk1 V c 3 t) (iblk1 V c 4 t)
    | ⟨9, _⟩ => out1_9 (iblk1 V c 0 t) (iblk1 V c 1 t) (iblk1 V c 2 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) :
    (dat1 V c).after 7 t = out1_7 (iblk1 V c 0 t) (iblk1 V c 1 t) (iblk1 V c 2 t) := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) := by dsimp only [dat1]
theorem after1_9 (c : Dev nD) (t : Fin cfg1.N) :
    (dat1 V c).after 9 t = out1_9 (iblk1 V c 0 t) (iblk1 V c 1 t) (iblk1 V c 2 t) (iblk1 V c 5 t) (iblk1 V c 6 t) := by dsimp only [dat1]

-- An input the body leaves in place holds its block at every point, so the body's triple applies there.
set_option maxHeartbeats 2000000 in
theorem sound_body1 (c : Dev nD) (t : Fin cfg1.N) :
    iprop((dat1 V c).Φ t.castSucc ∗ (dat1 V c).owesAt () t.castSucc
        ∗ bigSep Finset.univ fun w : Fin cfg1.W => iprop(∃ d, owns c ((cfg1.win w).stage (cfg1.slots t w)) fullShare ((dat1 V c).before w t d)))
      ⊢ wp frame (wpE (defs₀ (F := F)) Variants.none c none) Set.univ (bodyAt1 t) fun _ =>
        iprop((dat1 V c).Φ t.succ ∗ (dat1 V c).owesAt () t.succ
          ∗ bigSep Finset.univ fun w : Fin cfg1.W => owns c ((cfg1.win w).stage (cfg1.slots t w)) fullShare ((dat1 V c).after w t)) := by
  rw [bigSep_W1, bigSep_W1]; unfold bodyAt1
  have hb := (dat1 V c).before_in_eq_fetched
  simp only [hb 0 rfl (fun _ => rfl) (fun _ _ _ => rfl) fun _ => rfl,
    hb 1 rfl (fun _ => rfl) (fun _ _ _ => rfl) fun _ => rfl,
    hb 2 rfl (fun _ => rfl) (fun _ _ _ => rfl) fun _ => rfl,
    hb 3 rfl (fun _ => rfl) (fun _ _ _ => rfl) fun _ => rfl,
    hb 4 rfl (fun _ => rfl) (fun _ _ _ => rfl) fun _ => rfl,
    hb 5 rfl (fun _ => rfl) (fun _ _ _ => rfl) fun _ => rfl,
    hb 6 rfl (fun _ => rfl) (fun _ _ _ => rfl) fun _ => rfl]
  rw [show (dat1 V c).Φ t.succ = (dat1 V c).Φ t.castSucc from rfl,
    show (dat1 V c).owesAt () t.succ = (dat1 V c).owesAt () t.castSucc from rfl,
    after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ _ _ _ _ _ _ _ _)
  isplitl [HΦ Ho]
  swap
  · isplitl [H7]; · iexists _; iexact H7
    isplitl [H8]; · iexists _; iexact H8
    isplitl [H9]; · iexists _; iexact H9
    isplitl [H0]; · iexact H0
    isplitl [H1]; · iexact H1
    isplitl [H2]; · iexact H2
    isplitl [H3]; · iexact H3
    isplitl [H4]; · iexact H4
    isplitl [H5]; · iexact H5
    iexact H6
  iintro ⟨H7, H8, H9, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

-- The same, with the product over the windows written out.
theorem body_obligation1 (c : Dev nD) : BodyObligation (dat1 (F := F) V c) (defs₀ (F := F)) Variants.none () Set.univ := fun t => by
  have h := sound_body1 V c t
  rw [bigSep_W1, bigSep_W1] at h ⊢
  exact h

end Cert.Kernel.Hand

end
-- ==== Proof.K.Region3.lean ====
import proofs.«139342_j40218073759787_2_alg».proof.Proof.Gen.Kernel.Launch
import proofs.«139342_j40218073759787_2_alg».proof.Proof.Gen.Kernel.Skeleton
import proofs.«139342_j40218073759787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the entry contents of its array.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_h : Rect S1024x512 := Rect.unit (s := S1024x512) ![0, 0] S1024x512.size inb_S1024x512_S1024x512_0_0
abbrev r3_w : Rect S256x512 := Rect.unit (s := S256x512) ![0, 0] S256x512.size inb_S256x512_S256x512_0_0
abbrev r3_b : Rect S1x256 := Rect.unit (s := S1x256) ![0, 0] S1x256.size inb_S1x256_S1x256_0_0
abbrev r3_s : Rect S1x1 := Rect.unit (s := S1x1) ![0, 0] S1x1.size inb_S1x1_S1x1_0_0
abbrev r3_z : Rect S1024x256 := Rect.unit (s := S1024x256) ![0, 0] S1024x256.size inb_S1024x256_S1024x256_0_0
abbrev r3_row : Rect S1x1024 := Rect.unit (s := S1x1024) ![0, 0] S1x1024.size inb_S1x1024_S1x1024_0_0

-- The projected block, as a function of the three input blocks it is computed from.
def out3_7 (x0 : Vec F S1024x512 .f32) (x1 : Vec F S256x512 .f32) (x2 : Vec F S1x256 .f32) : Vec F S1024x256 .bf16 :=
  View.canon [⟨r3_z, k3_pay1 (View.ld x0 r3_h) (View.ld x1 r3_w) (View.ld x2 r3_b)⟩]

-- A score row: the projected block against a scoring row, plus its bias, as a row.
def out3_8 (x0 : Vec F S1024x512 .f32) (x1 : Vec F S256x512 .f32) (x2 : Vec F S1x256 .f32) (x3 : Vec F S1x256 .f32) (x4 : Vec F S1x1 .f32) : Vec F S1x1024 .f32 :=
  View.canon [⟨r3_row, k3_pay2 (View.ld x0 r3_h) (View.ld x1 r3_w) (View.ld x2 r3_b) (View.ld x3 r3_b) (View.ld x4 r3_s)⟩]

def out3_9 (x0 : Vec F S1024x512 .f32) (x1 : Vec F S256x512 .f32) (x2 : Vec F S1x256 .f32) (x5 : Vec F S1x256 .f32) (x6 : Vec F S1x1 .f32) : Vec F S1x1024 .f32 :=
  View.canon [⟨r3_row, k3_pay3 (View.ld x0 r3_h) (View.ld x1 r3_w) (View.ld x2 r3_b) (View.ld x5 r3_b) (View.ld x6 r3_s)⟩]

-- The body leaves its seven inputs as it finds them and ends with the outputs at `out3_7`, `out3_8`, `out3_9` of them, whatever the outputs held before.
set_option maxHeartbeats 4000000 in
theorem sound_kernel3 (c : Dev nD) (E : Set ℕ) (i : grid3.Coords)
    (arg1 : Memref sig .tc .vmem S1024x512 .f32) (harg1) (arg2 : Memref sig .tc .vmem S256x512 .f32) (harg2)
    (arg3 : Memref sig .tc .vmem S1x256 .f32) (harg3) (arg4 : Memref sig .tc .vmem S1x256 .f32) (harg4)
    (arg5 : Memref sig .tc .vmem S1x1 .f32) (harg5) (arg6 : Memref sig .tc .vmem S1x256 .f32) (harg6)
    (arg7 : Memref sig .tc .vmem S1x1 .f32) (harg7) (arg8 : Memref sig .tc .vmem S1024x256 .bf16) (harg8)
    (arg9 : Memref sig .tc .vmem S1x1024 .f32) (harg9) (arg10 : Memref sig .tc .vmem S1x1024 .f32) (harg10)
    (x0 x1 x2 x3 x4 x5 x6) (K : PUnit → sProp 𝕄) :
    iprop(((owns c arg8 fullShare (out3_7 x0 x1 x2) ∗ owns c arg9 fullShare (out3_8 x0 x1 x2 x3 x4)
          ∗ owns c arg10 fullShare (out3_9 x0 x1 x2 x5 x6) ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6) -∗ K ⟨⟩)
        ∗ (∃ d, owns c arg8 fullShare d) ∗ (∃ d, owns c arg9 fullShare d) ∗ (∃ d, owns c arg10 fullShare d)
        ∗ owns c arg1 fullShare x0 ∗ owns c arg2 fullShare x1 ∗ owns c arg3 fullShare x2
        ∗ owns c arg4 fullShare x3 ∗ owns c arg5 fullShare x4 ∗ owns c arg6 fullShare x5
        ∗ owns c arg7 fullShare x6)
      ⊢ wp frame (wpE (defs₀ (F := F)) Variants.none c none) E
          (cc3__proj_kernel i arg1 harg1 arg2 harg2 arg3 harg3 arg4 harg4 arg5 harg5 arg6 harg6 arg7 harg7 arg8 harg8 arg9 harg9 arg10 harg10) K := by
  simp only [cc3__proj_kernel_eq_skeleton]; unfold cc3__proj_kernel_skel
  simp only [k3_part1_eq_skeleton]; unfold k3_part1_skel
  unfold owns
  iintro ⟨Hk, ⟨%d7, %f7, -, H7⟩, ⟨%d8, %f8, -, H8⟩, ⟨%d9, %f9, -, H9⟩, ⟨%f0, %hf0, H0⟩, ⟨%f1, %hf1, H1⟩, ⟨%f2, %hf2, H2⟩, ⟨%f3, %hf3, H3⟩,
    ⟨%f4, %hf4, H4⟩, ⟨%f5, %hf5, H5⟩, ⟨%f6, %hf6, H6⟩⟩
  subst hf0 hf1 hf2 hf3 hf4 hf5 hf6
  sl_exec
  sl_step
  iapply Hk
  isplitl [H7]
  · iexists _; isplitr
    swap; · iexact H7
    ipureintro
    exact View.read_writes_eq_canon _ _ _ (View.cover_of_tiled _ S1024x256.size (by rfl))
  isplitl [H8]
  · iexists _; isplitr
    swap; · iexact H8
    ipureintro
    exact View.read_writes_eq_canon _ _ _ (View.cover_of_tiled _ S1x1024.size (by rfl))
  isplitl [H9]
  · iexists _; isplitr
    swap; · iexact H9
    ipureintro
    exact View.read_writes_eq_canon _ _ _ (View.cover_of_tiled _ S1x1024.size (by rfl))
  sl_close

-- Every input window keeps its block; every output window ends at its payload over the blocks at the point.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t)
    | ⟨8, _⟩ => out3_8 (iblk3 V c 0 t) (iblk3 V c 1 t) (iblk3 V c 2 t) (iblk3 V c 3 t) (iblk3 V c 4 t)
    | ⟨9, _⟩ => out3_9 (iblk3 V c 0 t) (iblk3 V c 1 t) (iblk3 V c 2 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) :
    (dat3 V c).after 7 t = out3_7 (iblk3 V c 0 t) (iblk3 V c 1 t) (iblk3 V c 2 t) := by dsimp only [dat3]
theorem after3_8 (c : Dev nD) (t : Fin cfg3.N) :
    (dat3 V c).after 8 t = out3_8 (iblk3 V c 0 t) (iblk3 V c 1 t) (iblk3 V c 2 t) (iblk3 V c 3 t) (iblk3 V c 4 t) := by dsimp only [dat3]
theorem after3_9 (c : Dev nD) (t : Fin cfg3.N) :
    (dat3 V c).after 9 t = out3_9 (iblk3 V c 0 t) (iblk3 V c 1 t) (iblk3 V c 2 t) (iblk3 V c 5 t) (iblk3 V c 6 t) := by dsimp only [dat3]

-- An input the body leaves in place holds its block at every point, so the body's triple applies there.
set_option maxHeartbeats 2000000 in
theorem sound_body3 (c : Dev nD) (t : Fin cfg3.N) :
    iprop((dat3 V c).Φ t.castSucc ∗ (dat3 V c).owesAt () t.castSucc
        ∗ bigSep Finset.univ fun w : Fin cfg3.W => iprop(∃ d, owns c ((cfg3.win w).stage (cfg3.slots t w)) fullShare ((dat3 V c).before w t d)))
      ⊢ wp frame (wpE (defs₀ (F := F)) Variants.none c none) Set.univ (bodyAt3 t) fun _ =>
        iprop((dat3 V c).Φ t.succ ∗ (dat3 V c).owesAt () t.succ
          ∗ bigSep Finset.univ fun w : Fin cfg3.W => owns c ((cfg3.win w).stage (cfg3.slots t w)) fullShare ((dat3 V c).after w t)) := by
  rw [bigSep_W3, bigSep_W3]; unfold bodyAt3
  have hb := (dat3 V c).before_in_eq_fetched
  simp only [hb 0 rfl (fun _ => rfl) (fun _ _ _ => rfl) fun _ => rfl,
    hb 1 rfl (fun _ => rfl) (fun _ _ _ => rfl) fun _ => rfl,
    hb 2 rfl (fun _ => rfl) (fun _ _ _ => rfl) fun _ => rfl,
    hb 3 rfl (fun _ => rfl) (fun _ _ _ => rfl) fun _ => rfl,
    hb 4 rfl (fun _ => rfl) (fun _ _ _ => rfl) fun _ => rfl,
    hb 5 rfl (fun _ => rfl) (fun _ _ _ => rfl) fun _ => rfl,
    hb 6 rfl (fun _ => rfl) (fun _ _ _ => rfl) fun _ => rfl]
  rw [show (dat3 V c).Φ t.succ = (dat3 V c).Φ t.castSucc from rfl,
    show (dat3 V c).owesAt () t.succ = (dat3 V c).owesAt () t.castSucc from rfl,
    after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ _ _ _ _ _ _ _ _)
  isplitl [HΦ Ho]
  swap
  · isplitl [H7]; · iexists _; iexact H7
    isplitl [H8]; · iexists _; iexact H8
    isplitl [H9]; · iexists _; iexact H9
    isplitl [H0]; · iexact H0
    isplitl [H1]; · iexact H1
    isplitl [H2]; · iexact H2
    isplitl [H3]; · iexact H3
    isplitl [H4]; · iexact H4
    isplitl [H5]; · iexact H5
    iexact H6
  iintro ⟨H7, H8, H9, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

-- The same, with the product over the windows written out.
theorem body_obligation3 (c : Dev nD) : BodyObligation (dat3 (F := F) V c) (defs₀ (F := F)) Variants.none () Set.univ := fun t => by
  have h := sound_body3 V c t
  rw [bigSep_W3, bigSep_W3] at h ⊢
  exact h

end Cert.Kernel.Hand

end
-- ==== Proof.K.Region5.lean ====
import proofs.«139342_j40218073759787_2_alg».proof.Proof.Gen.Kernel.Launch
import proofs.«139342_j40218073759787_2_alg».proof.Proof.Gen.Kernel.Skeleton
import proofs.«139342_j40218073759787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the entry contents of its array.
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_h : Rect S1024x256 := Rect.unit (s := S1024x256) ![0, 0] S1024x256.size inb_S1024x256_S1024x256_0_0
abbrev r5_w : Rect S64x256 := Rect.unit (s := S64x256) ![0, 0] S64x256.size inb_S64x256_S64x256_0_0
abbrev r5_b : Rect S1x64 := Rect.unit (s := S1x64) ![0, 0] S1x64.size inb_S1x64_S1x64_0_0
abbrev r5_s : Rect S1x1 := Rect.unit (s := S1x1) ![0, 0] S1x1.size inb_S1x1_S1x1_0_0
abbrev r5_z : Rect S1024x64 := Rect.unit (s := S1024x64) ![0, 0] S1024x64.size inb_S1024x64_S1024x64_0_0
abbrev r5_row : Rect S1x1024 := Rect.unit (s := S1x1024) ![0, 0] S1x1024.size inb_S1x1024_S1x1024_0_0

-- The projected block, as a function of the three input blocks it is computed from.
def out5_7 (x0 : Vec F S1024x256 .f32) (x1 : Vec F S64x256 .f32) (x2 : Vec F S1x64 .f32) : Vec F S1024x64 .bf16 :=
  View.canon [⟨r5_z, k5_pay1 (View.ld x0 r5_h) (View.ld x1 r5_w) (View.ld x2 r5_b)⟩]

-- A score row: the projected block against a scoring row, plus its bias, as a row.
def out5_8 (x0 : Vec F S1024x256 .f32) (x1 : Vec F S64x256 .f32) (x2 : Vec F S1x64 .f32) (x3 : Vec F S1x64 .f32) (x4 : Vec F S1x1 .f32) : Vec F S1x1024 .f32 :=
  View.canon [⟨r5_row, k5_pay2 (View.ld x0 r5_h) (View.ld x1 r5_w) (View.ld x2 r5_b) (View.ld x3 r5_b) (View.ld x4 r5_s)⟩]

def out5_9 (x0 : Vec F S1024x256 .f32) (x1 : Vec F S64x256 .f32) (x2 : Vec F S1x64 .f32) (x5 : Vec F S1x64 .f32) (x6 : Vec F S1x1 .f32) : Vec F S1x1024 .f32 :=
  View.canon [⟨r5_row, k5_pay3 (View.ld x0 r5_h) (View.ld x1 r5_w) (View.ld x2 r5_b) (View.ld x5 r5_b) (View.ld x6 r5_s)⟩]

-- The body leaves its seven inputs as it finds them and ends with the outputs at `out5_7`, `out5_8`, `out5_9` of them, whatever the outputs held before.
set_option maxHeartbeats 4000000 in
theorem sound_kernel5 (c : Dev nD) (E : Set ℕ) (i : grid5.Coords)
    (arg1 : Memref sig .tc .vmem S1024x256 .f32) (harg1) (arg2 : Memref sig .tc .vmem S64x256 .f32) (harg2)
    (arg3 : Memref sig .tc .vmem S1x64 .f32) (harg3) (arg4 : Memref sig .tc .vmem S1x64 .f32) (harg4)
    (arg5 : Memref sig .tc .vmem S1x1 .f32) (harg5) (arg6 : Memref sig .tc .vmem S1x64 .f32) (harg6)
    (arg7 : Memref sig .tc .vmem S1x1 .f32) (harg7) (arg8 : Memref sig .tc .vmem S1024x64 .bf16) (harg8)
    (arg9 : Memref sig .tc .vmem S1x1024 .f32) (harg9) (arg10 : Memref sig .tc .vmem S1x1024 .f32) (harg10)
    (x0 x1 x2 x3 x4 x5 x6) (K : PUnit → sProp 𝕄) :
    iprop(((owns c arg8 fullShare (out5_7 x0 x1 x2) ∗ owns c arg9 fullShare (out5_8 x0 x1 x2 x3 x4)
          ∗ owns c arg10 fullShare (out5_9 x0 x1 x2 x5 x6) ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6) -∗ K ⟨⟩)
        ∗ (∃ d, owns c arg8 fullShare d) ∗ (∃ d, owns c arg9 fullShare d) ∗ (∃ d, owns c arg10 fullShare d)
        ∗ owns c arg1 fullShare x0 ∗ owns c arg2 fullShare x1 ∗ owns c arg3 fullShare x2
        ∗ owns c arg4 fullShare x3 ∗ owns c arg5 fullShare x4 ∗ owns c arg6 fullShare x5
        ∗ owns c arg7 fullShare x6)
      ⊢ wp frame (wpE (defs₀ (F := F)) Variants.none c none) E
          (cc5__proj_kernel i arg1 harg1 arg2 harg2 arg3 harg3 arg4 harg4 arg5 harg5 arg6 harg6 arg7 harg7 arg8 harg8 arg9 harg9 arg10 harg10) K := by
  simp only [cc5__proj_kernel_eq_skeleton]; unfold cc5__proj_kernel_skel
  simp only [k5_part1_eq_skeleton]; unfold k5_part1_skel
  unfold owns
  iintro ⟨Hk, ⟨%d7, %f7, -, H7⟩, ⟨%d8, %f8, -, H8⟩, ⟨%d9, %f9, -, H9⟩, ⟨%f0, %hf0, H0⟩, ⟨%f1, %hf1, H1⟩, ⟨%f2, %hf2, H2⟩, ⟨%f3, %hf3, H3⟩,
    ⟨%f4, %hf4, H4⟩, ⟨%f5, %hf5, H5⟩, ⟨%f6, %hf6, H6⟩⟩
  subst hf0 hf1 hf2 hf3 hf4 hf5 hf6
  sl_exec
  sl_step
  iapply Hk
  isplitl [H7]
  · iexists _; isplitr
    swap; · iexact H7
    ipureintro
    exact View.read_writes_eq_canon _ _ _ (View.cover_of_tiled _ S1024x64.size (by rfl))
  isplitl [H8]
  · iexists _; isplitr
    swap; · iexact H8
    ipureintro
    exact View.read_writes_eq_canon _ _ _ (View.cover_of_tiled _ S1x1024.size (by rfl))
  isplitl [H9]
  · iexists _; isplitr
    swap; · iexact H9
    ipureintro
    exact View.read_writes_eq_canon _ _ _ (View.cover_of_tiled _ S1x1024.size (by rfl))
  sl_close

-- Every input window keeps its block; every output window ends at its payload over the blocks at the point.
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t)
    | ⟨8, _⟩ => out5_8 (iblk5 V c 0 t) (iblk5 V c 1 t) (iblk5 V c 2 t) (iblk5 V c 3 t) (iblk5 V c 4 t)
    | ⟨9, _⟩ => out5_9 (iblk5 V c 0 t) (iblk5 V c 1 t) (iblk5 V c 2 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_7 (c : Dev nD) (t : Fin cfg5.N) :
    (dat5 V c).after 7 t = out5_7 (iblk5 V c 0 t) (iblk5 V c 1 t) (iblk5 V c 2 t) := by dsimp only [dat5]
theorem after5_8 (c : Dev nD) (t : Fin cfg5.N) :
    (dat5 V c).after 8 t = out5_8 (iblk5 V c 0 t) (iblk5 V c 1 t) (iblk5 V c 2 t) (iblk5 V c 3 t) (iblk5 V c 4 t) := by dsimp only [dat5]
theorem after5_9 (c : Dev nD) (t : Fin cfg5.N) :
    (dat5 V c).after 9 t = out5_9 (iblk5 V c 0 t) (iblk5 V c 1 t) (iblk5 V c 2 t) (iblk5 V c 5 t) (iblk5 V c 6 t) := by dsimp only [dat5]

-- An input the body leaves in place holds its block at every point, so the body's triple applies there.
set_option maxHeartbeats 2000000 in
theorem sound_body5 (c : Dev nD) (t : Fin cfg5.N) :
    iprop((dat5 V c).Φ t.castSucc ∗ (dat5 V c).owesAt () t.castSucc
        ∗ bigSep Finset.univ fun w : Fin cfg5.W => iprop(∃ d, owns c ((cfg5.win w).stage (cfg5.slots t w)) fullShare ((dat5 V c).before w t d)))
      ⊢ wp frame (wpE (defs₀ (F := F)) Variants.none c none) Set.univ (bodyAt5 t) fun _ =>
        iprop((dat5 V c).Φ t.succ ∗ (dat5 V c).owesAt () t.succ
          ∗ bigSep Finset.univ fun w : Fin cfg5.W => owns c ((cfg5.win w).stage (cfg5.slots t w)) fullShare ((dat5 V c).after w t)) := by
  rw [bigSep_W5, bigSep_W5]; unfold bodyAt5
  have hb := (dat5 V c).before_in_eq_fetched
  simp only [hb 0 rfl (fun _ => rfl) (fun _ _ _ => rfl) fun _ => rfl,
    hb 1 rfl (fun _ => rfl) (fun _ _ _ => rfl) fun _ => rfl,
    hb 2 rfl (fun _ => rfl) (fun _ _ _ => rfl) fun _ => rfl,
    hb 3 rfl (fun _ => rfl) (fun _ _ _ => rfl) fun _ => rfl,
    hb 4 rfl (fun _ => rfl) (fun _ _ _ => rfl) fun _ => rfl,
    hb 5 rfl (fun _ => rfl) (fun _ _ _ => rfl) fun _ => rfl,
    hb 6 rfl (fun _ => rfl) (fun _ _ _ => rfl) fun _ => rfl]
  rw [show (dat5 V c).Φ t.succ = (dat5 V c).Φ t.castSucc from rfl,
    show (dat5 V c).owesAt () t.succ = (dat5 V c).owesAt () t.castSucc from rfl,
    after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ _ _ _ _ _ _ _ _)
  isplitl [HΦ Ho]
  swap
  · isplitl [H7]; · iexists _; iexact H7
    isplitl [H8]; · iexists _; iexact H8
    isplitl [H9]; · iexists _; iexact H9
    isplitl [H0]; · iexact H0
    isplitl [H1]; · iexact H1
    isplitl [H2]; · iexact H2
    isplitl [H3]; · iexact H3
    isplitl [H4]; · iexact H4
    isplitl [H5]; · iexact H5
    iexact H6
  iintro ⟨H7, H8, H9, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

-- The same, with the product over the windows written out.
theorem body_obligation5 (c : Dev nD) : BodyObligation (dat5 (F := F) V c) (defs₀ (F := F)) Variants.none () Set.univ := fun t => by
  have h := sound_body5 V c t
  rw [bigSep_W5, bigSep_W5] at h ⊢
  exact h

end Cert.Kernel.Hand

end
-- ==== Proof.K.Glue.lean ====
import proofs.«139342_j40218073759787_2_alg».proof.Proof.K.Region0
import proofs.«139342_j40218073759787_2_alg».proof.Proof.K.Region1
import proofs.«139342_j40218073759787_2_alg».proof.Proof.K.Region3
import proofs.«139342_j40218073759787_2_alg».proof.Proof.K.Region5
noncomputable section
namespace Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)
open Cert.Kernel Cert.Kernel.Gen
variable {F : FTy → Type} [FloatOps F]
variable (V : (c : Dev nD) → (b : Ref sig .tc) → Buf (Elt F) ((c : Thread nD τ).loc b))
theorem hin0 (c : Dev nD) : Pipeline.ΦA spec0 c ⊢ (dat0 V c).Φ 0 := BIBase.Entails.rfl
theorem hout0 (c : Dev nD) : (dat0 V c).Φ (Fin.last cfg0.N) ⊢ Pipeline.ΦA spec0 c := BIBase.Entails.rfl
theorem hin1 (c : Dev nD) : Pipeline.ΦA spec1 c ⊢ (dat1 V c).Φ 0 := BIBase.Entails.rfl
theorem hout1 (c : Dev nD) : (dat1 V c).Φ (Fin.last cfg1.N) ⊢ Pipeline.ΦA spec1 c := BIBase.Entails.rfl
theorem hin3 (c : Dev nD) : Pipeline.ΦA spec3 c ⊢ (dat3 V c).Φ 0 := BIBase.Entails.rfl
theorem hout3 (c : Dev nD) : (dat3 V c).Φ (Fin.last cfg3.N) ⊢ Pipeline.ΦA spec3 c := BIBase.Entails.rfl
theorem hin5 (c : Dev nD) : Pipeline.ΦA spec5 c ⊢ (dat5 V c).Φ 0 := BIBase.Entails.rfl
theorem hout5 (c : Dev nD) : (dat5 V c).Φ (Fin.last cfg5.N) ⊢ Pipeline.ΦA spec5 c := BIBase.Entails.rfl
end Cert.Kernel.Hand
end
-- ==== Proof.K.Region2Runs.lean ====
/- The attention region: the body's run in its three control cases (first, middle and last block of columns) and what each case leaves in the output block and in the two carried sums. -/
import proofs.«139342_j40218073759787_2_alg».proof.Proof.Gen.Kernel.Launch
import proofs.«139342_j40218073759787_2_alg».proof.Proof.Gen.Kernel.Skeleton
import proofs.«139342_j40218073759787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
theorem liveAt2_5_C : ∀ t : Fin cfg2.N, ¬cond2_0 (grid2.coords t) → cond2_1 (grid2.coords t) → cfg2.idle 5 (grid2.coords t) = false := by decide +kernel
abbrev VO2_5 : View sig .tc .vmem S1024x512 .f32 := (win2_5.stage 0 : Memref sig .tc .vmem S1024x512 .f32).view
abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x512 .f32 := win2_5.stage (cfg2.slots t 5)
abbrev hs2_5 (t : Fin cfg2.N) : (ms2_5 t).IsWhole := hstage2_5 ((cfg2.slots t 5).cast nbuf2_5)
abbrev scM2_0 : Memref sig .tc .vmem S1024x1 .f32 := Memref.whole cc2_scratch0
abbrev scM2_1 : Memref sig .tc .vmem S1024x512 .f32 := Memref.whole cc2_scratch1
abbrev VS2_0 : View sig .tc .vmem S1024x1 .f32 := scM2_0.view
abbrev VS2_1 : View sig .tc .vmem S1024x512 .f32 := scM2_1.view
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl
section
variable (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole)
section
variable (hc0 : cond2_0 i) (hc1 : ¬cond2_1 i) (x0 : Vec F S1024x512 .f32) (x1 : Vec F S1024x512 .f32) (x2 : Vec F S512x512 .bf16) (x3 : Vec F S1x512 .f32) (x4 : Vec F S1x1024 .f32)
include hc0 hc1
set_option maxHeartbeats 1000000 in
noncomputable def kernelRun2_A :
    Σ' (LS0 : List (View.Piece (Elt F) S1024x1 .f32)), { LS1 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨?_, ?_, fun xi5 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover2_A_0 (y : S1024x1.Idx) : ∃ pc ∈ (kernelRun2_A c i arg2 harg2 arg3 harg3 arg4 harg4 arg5 harg5 arg6 harg6 arg7 harg7 arg8 harg8 arg9 harg9 hc0 hc1 x0 x1 x2 x3 x4).1, y ∈ pc.1.set :=
  View.cover_of_tiledL _ S1024x1.size (by sl_kernel_rfl) y
def sout2_A_0 : Vec F S1024x1 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4).1)
theorem scover2_A_1 (y : S1024x512.Idx) : ∃ pc ∈ (kernelRun2_A c i arg2 harg2 arg3 harg3 arg4 harg4 arg5 harg5 arg6 harg6 arg7 harg7 arg8 harg8 arg9 harg9 hc0 hc1 x0 x1 x2 x3 x4).2.1, y ∈ pc.1.set :=
  View.cover_of_tiledL _ S1024x512.size (by sl_kernel_rfl) y
def sout2_A_1 : Vec F S1024x512 .f32 :=
  VS2_1.read (Elt F) (VS2_1.writes (Elt F) VS2_1.junk (kernelRun2_A c i arg2 harg2 arg3 harg3 arg4 harg4 arg5 harg5 arg6 harg6 arg7 harg7 arg8 harg8 arg9 harg9 hc0 hc1 x0 x1 x2 x3 x4).2.1)
end
section
variable (hc0 : ¬cond2_0 i) (hc1 : ¬cond2_1 i) (x0 : Vec F S1024x512 .f32) (x1 : Vec F S1024x512 .f32) (x2 : Vec F S512x512 .bf16) (x3 : Vec F S1x512 .f32) (x4 : Vec F S1x1024 .f32) (xs0 : Vec F S1024x1 .f32) (xs1 : Vec F S1024x512 .f32)
include hc0 hc1
set_option maxHeartbeats 1000000 in
noncomputable def kernelRun2_B :
    Σ' (LS0 : List (View.Piece (Elt F) S1024x1 .f32)), { LS1 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨?_, ?_, fun xi5 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover2_B_0 (y : S1024x1.Idx) : ∃ pc ∈ (kernelRun2_B c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x1.size (by sl_kernel_rfl) y
def sout2_B_0 : Vec F S1024x1 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 xs0 xs1).1)
theorem scover2_B_1 (y : S1024x512.Idx) : ∃ pc ∈ (kernelRun2_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x512.size (by sl_kernel_rfl) y
def sout2_B_1 : Vec F S1024x512 .f32 :=
  VS2_1.read (Elt F) (VS2_1.writes (Elt F) VS2_1.junk (kernelRun2_B c i arg2 harg2 arg3 harg3 arg4 harg4 arg5 harg5 arg6 harg6 arg7 harg7 arg8 harg8 arg9 harg9 hc0 hc1 x0 x1 x2 x3 x4 xs0 xs1).2.1)
end
section
variable (hc0 : ¬cond2_0 i) (hc1 : cond2_1 i) (x0 : Vec F S1024x512 .f32) (x1 : Vec F S1024x512 .f32) (x2 : Vec F S512x512 .bf16) (x3 : Vec F S1x512 .f32) (x4 : Vec F S1x1024 .f32) (xs0 : Vec F S1024x1 .f32) (xs1 : Vec F S1024x512 .f32)
include hc0 hc1
set_option maxHeartbeats 1000000 in
noncomputable def kernelRun2_C :
    Σ' (L5 : List (View.Piece (Elt F) S1024x512 .f32)), Σ' (LS0 : List (View.Piece (Elt F) S1024x1 .f32)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨?_, ?_, ?_, fun E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4
    iapply Hk
    sl_close
theorem cover2_C_5 (y : S1024x512.Idx) : ∃ pc ∈ (kernelRun2_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x512.size (by sl_kernel_rfl) y
def out2_C_5 : Vec F S1024x512 .f32 :=
  VO2_5.read (Elt F) (VO2_5.writes (Elt F) VO2_5.junk (kernelRun2_C c i arg2 harg2 arg3 harg3 arg4 harg4 arg5 harg5 arg6 harg6 arg7 harg7 arg8 harg8 arg9 harg9 hc0 hc1 x0 x1 x2 x3 x4 xs0 xs1).1)
theorem scover2_C_0 (y : S1024x1.Idx) : ∃ pc ∈ (kernelRun2_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x1.size (by sl_kernel_rfl) y
def sout2_C_0 : Vec F S1024x1 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 xs0 xs1).2.1)
theorem scover2_C_1 (y : S1024x512.Idx) : ∃ pc ∈ (kernelRun2_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL _ S1024x512.size (by sl_kernel_rfl) y
def sout2_C_1 : Vec F S1024x512 .f32 :=
  VS2_1.read (Elt F) (VS2_1.writes (Elt F) VS2_1.junk (kernelRun2_C c i arg2 harg2 arg3 harg3 arg4 harg4 arg5 harg5 arg6 harg6 arg7 harg7 arg8 harg8 arg9 harg9 hc0 hc1 x0 x1 x2 x3 x4 xs0 xs1).2.2.1)
end
end
end Cert.Kernel.Hand
end
-- ==== Proof.K.Region2.lean ====
import proofs.«139342_j40218073759787_2_alg».proof.Proof.K.Region2Runs
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def outIdle2_5 : Vec F S1024x512 .f32 := VO2_5.read (Elt F) VO2_5.junk
def outsAt2 (c : Dev nD) : (n : ℕ) → n < cfg2.N → Vec F S1024x512 .f32 × Vec F S1024x1 .f32 × Vec F S1024x512 .f32
  | 0, hn => (outIdle2_5, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 16 = 0 then
      if h1 : (n + 1) % 16 = 15 then
        False.elim (by omega)
      else
        (outIdle2_5, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 16 = 15 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)
      else
        (outIdle2_5, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)
theorem outsAt2_A (c : Dev nD) (t : Fin cfg2.N) (h0 : t.val % 16 = 0) (h1 : ¬t.val % 16 = 15) :
    outsAt2 V c t.val t.isLt = (outIdle2_5, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)
theorem outsAt2_B (c : Dev nD) (t : Fin cfg2.N) (h0 : ¬t.val % 16 = 0) (h1 : ¬t.val % 16 = 15) :
    outsAt2 V c t.val t.isLt = (outIdle2_5, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 16 = 0) (h1 : t.val % 16 = 15) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)
def PhiS2 (c : Dev nD) : (n : ℕ) → n ≤ cfg2.N → sProp 𝕄
  | 0, _ => Pipeline.ΦA spec2 c
  | n + 1, hn => iprop(iprop(iprop(owns c scM2_0 fullShare ((outsAt2 V c n hn).2.1) ∗ owns c scM2_1 fullShare ((outsAt2 V c n hn).2.2))
      ∗ Pipeline.scopedRestBut spec2 c [cc2_scratch0, cc2_scratch1]) ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns c scM2_0 fullShare ((outsAt2 V c n hn).2.1) ∗ owns c scM2_1 fullShare ((outsAt2 V c n hn).2.2))
      ∗ Pipeline.scopedRestBut spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns c scM2_0 fullShare ((outsAt2 V c (n - 1) (by omega)).2.1) ∗ owns c scM2_1 fullShare ((outsAt2 V c (n - 1) (by omega)).2.2))
      ∗ Pipeline.scopedRestBut spec2 c [cc2_scratch0, cc2_scratch1]) ∗ (∃ r, prngReg c r)) := by
  cases n with
  | zero => exact absurd rfl hz
  | succ n => rfl
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0
theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_5 (c : Dev nD) (t : Fin cfg2.N) : (dat2 V c).after 5 t = (outsAt2 V c t.val t.isLt).1 := by dsimp only [dat2]
set_option maxHeartbeats 4800000 in
theorem sound_body2 (c : Dev nD) (t : Fin cfg2.N) :
    iprop((dat2 V c).Φ t.castSucc ∗ (dat2 V c).owesAt () t.castSucc
        ∗ bigSep Finset.univ fun w : Fin cfg2.W => iprop(∃ d, owns c ((cfg2.win w).stage (cfg2.slots t w)) fullShare ((dat2 V c).before w t d)))
      ⊢ wp frame (wpE (defs₀ (F := F)) Variants.none c none) Set.univ (bodyAt2 t) fun _ =>
        iprop((dat2 V c).Φ t.succ ∗ (dat2 V c).owesAt () t.succ ∗ bigSep Finset.univ fun w : Fin cfg2.W => (dat2 V c).leavesExact w t) := by
  rw [bigSep_W2, bigSep_W2]; unfold bodyAt2
  simp only [(dat2 V c).before_in_eq_fetched 0 rfl (fun _ => rfl) (fun _ _ _ => rfl) (fun _ => rfl),
    (dat2 V c).before_in_eq_fetched 1 rfl (fun _ => rfl) (fun _ _ _ => rfl) (fun _ => rfl),
    (dat2 V c).before_in_eq_fetched 2 rfl (fun _ => rfl) (fun _ _ _ => rfl) (fun _ => rfl),
    (dat2 V c).before_in_eq_fetched 3 rfl (fun _ => rfl) (fun _ _ _ => rfl) (fun _ => rfl),
    (dat2 V c).before_in_eq_fetched 4 rfl (fun _ => rfl) (fun _ _ _ => rfl) (fun _ => rfl)]
  rw [show (dat2 V c).owesAt () t.succ = (dat2 V c).owesAt () t.castSucc from rfl]
  rw [show (dat2 V c).Φ t.succ = PhiS2 V c (t.val + 1) t.isLt from rfl, PhiS2_succ]
  have hl (w : Fin cfg2.W) (h : cfg2.idle w (grid2.coords t) = false) :
      (dat2 V c).leavesExact w t = owns c ((cfg2.win w).stage (cfg2.slots t w)) fullShare ((dat2 V c).after w t) := by
    unfold Dat.leavesExact; rw [h]
  rw [hl 0 (liveAt2_0 t), hl 1 (liveAt2_1 t), hl 2 (liveAt2_2 t), hl 3 (liveAt2_3 t), hl 4 (liveAt2_4 t)]
  by_cases h0 : t.val % 16 = 0
  · by_cases h1 : t.val % 16 = 15
    · exfalso; omega
    ·
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0 sout2_A_1; (try dsimp only)
      rw [PhiS2_castSucc V c t]
      by_cases hz : t.val = 0 <;> [rw [PhiS2_zero V c _ _ hz, PhiA2_eq]; rw [PhiS2_pos V c _ _ hz]]
      all_goals
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        isplitl [HS1]; · first | iexact HS1 | (iexists _; iexact HS1)
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _)
              · unfold owns; iexists _; isplitr
                swap; · iexact HS1
                ipureintro; exact View.read_writes_of_cover _ _ _ _ _ (scover2_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [hl 5 (liveAt2_5_C t (fun h => h0 ((hcond2_0 t).mp h)) ((hcond2_1 t).mpr h1)), after2_5]
      rw [outsAt2_C V c t h0 h1]
      unfold out2_C_5 sout2_C_0 sout2_C_1; (try dsimp only)
      by_cases hz : t.val = 0
      · exfalso; omega
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _ _)
              · unfold owns; iexists _; isplitr
                swap; · iexact HS1
                ipureintro; exact View.read_writes_of_cover _ _ _ _ _ (scover2_C_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _ _ _ _)
    ·
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0 sout2_B_1; (try dsimp only)
      by_cases hz : t.val = 0
      · exfalso; omega
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _ _)
              · unfold owns; iexists _; isplitr
                swap; · iexact HS1
                ipureintro; exact View.read_writes_of_cover _ _ _ _ _ (scover2_B_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
theorem body_obligation2 (c : Dev nD) : BodyObligation (dat2 (F := F) V c) (defs₀ (F := F)) Variants.none () Set.univ := fun t => by
  have h := sound_body2 V c t
  rw [bigSep_W2, bigSep_W2] at h ⊢
  exact h
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg
theorem hout2 (c : Dev nD) : (dat2 V c).Φ (Fin.last cfg2.N) ⊢ Pipeline.ΦA spec2 c :=
  Phi_out2 V c _ (by rw [Fin.val_last]; have : cfg2.N = 128 := N_2; omega)
end Cert.Kernel.Hand
end
-- ==== Proof.K.Region4Runs.lean ====
/- The attention region: the body's run in its three control cases (first, middle and last block of columns) and what each case leaves in the output block and in the two carried sums. -/
import proofs.«139342_j40218073759787_2_alg».proof.Proof.Gen.Kernel.Launch
import proofs.«139342_j40218073759787_2_alg».proof.Proof.Gen.Kernel.Skeleton
import proofs.«139342_j40218073759787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 16 = 0 :=
  (by decide +kernel : ∀ t : Fin grid4.N, cond4_0 (grid4.coords t) ↔ t.val % 16 = 0)
abbrev cond4_1 (i : grid4.Coords) : Prop := k4_cond2 i = 1#1
theorem hcond4_1 : ∀ t : Fin cfg4.N, cond4_1 (grid4.coords t) ↔ t.val % 16 = 15 :=
  (by decide +kernel : ∀ t : Fin grid4.N, cond4_1 (grid4.coords t) ↔ t.val % 16 = 15)
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5_A : ∀ t : Fin cfg4.N, cond4_0 (grid4.coords t) → ¬cond4_1 (grid4.coords t) → cfg4.idle 5 (grid4.coords t) = true := by decide +kernel
theorem noFlush4_5_A : ∀ t : Fin cfg4.N, cond4_0 (grid4.coords t) → ¬cond4_1 (grid4.coords t) → (cfg4.win 5).flush t = false := by decide +kernel
theorem idleAt4_5_B : ∀ t : Fin cfg4.N, ¬cond4_0 (grid4.coords t) → ¬cond4_1 (grid4.coords t) → cfg4.idle 5 (grid4.coords t) = true := by decide +kernel
theorem noFlush4_5_B : ∀ t : Fin cfg4.N, ¬cond4_0 (grid4.coords t) → ¬cond4_1 (grid4.coords t) → (cfg4.win 5).flush t = false := by decide +kernel
theorem liveAt4_5_C : ∀ t : Fin cfg4.N, ¬cond4_0 (grid4.coords t) → cond4_1 (grid4.coords t) → cfg4.idle 5 (grid4.coords t) = false := by decide +kernel
abbrev VO4_5 : View sig .tc .vmem S1024x256 .f32 := (win4_5.stage 0 : Memref sig .tc .vmem S1024x256 .f32).view
abbrev ms4_0 (t : Fin cfg4.N) : Memref sig .tc .vmem S1024x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x256 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1024 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x256 .f32 := win4_5.stage (cfg4.slots t 5)
abbrev hs4_5 (t : Fin cfg4.N) : (ms4_5 t).IsWhole := hstage4_5 ((cfg4.slots t 5).cast nbuf4_5)
abbrev scM4_0 : Memref sig .tc .vmem S1024x1 .f32 := Memref.whole cc4_scratch0
abbrev scM4_1 : Memref sig .tc .vmem S1024x256 .f32 := Memref.whole cc4_scratch1
abbrev VS4_0 : View sig .tc .vmem S1024x1 .f32 := scM4_0.view
abbrev VS4_1 : View sig .tc .vmem S1024x256 .f32 := scM4_1.view
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl
section
variable (c : Dev nD) (i : grid4.Coords) (arg2 : Memref sig .tc .vmem S1024x512 .f32) (harg2 : arg2.IsWhole) (arg3 : Memref sig .tc .vmem S1024x512 .f32) (harg3 : arg3.IsWhole) (arg4 : Memref sig .tc .vmem S512x256 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole)
section
variable (hc0 : cond4_0 i) (hc1 : ¬cond4_1 i) (x0 : Vec F S1024x512 .f32) (x1 : Vec F S1024x512 .f32) (x2 : Vec F S512x256 .bf16) (x3 : Vec F S1x512 .f32) (x4 : Vec F S1x1024 .f32)
include hc0 hc1
set_option maxHeartbeats 1000000 in
noncomputable def kernelRun4_A :
    Σ' (LS0 : List (View.Piece (Elt F) S1024x1 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__attn_kernel i arg2 harg2 arg3 harg3 arg4 harg4 arg5 harg5 arg6 harg6 arg7 harg7 arg8 harg8 arg9 harg9) K } := by
  refine ⟨?_, ?_, fun xi5 E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover4_A_0 (y : S1024x1.Idx) : ∃ pc ∈ (kernelRun4_A c i arg2 harg2 arg3 harg3 arg4 harg4 arg5 harg5 arg6 harg6 arg7 harg7 arg8 harg8 arg9 harg9 hc0 hc1 x0 x1 x2 x3 x4).1, y ∈ pc.1.set :=
  View.cover_of_tiledL _ S1024x1.size (by sl_kernel_rfl) y
def sout4_A_0 : Vec F S1024x1 .f32 :=
  VS4_0.read (Elt F) (VS4_0.writes (Elt F) VS4_0.junk (kernelRun4_A c i arg2 harg2 arg3 harg3 arg4 harg4 arg5 harg5 arg6 harg6 arg7 harg7 arg8 harg8 arg9 harg9 hc0 hc1 x0 x1 x2 x3 x4).1)
theorem scover4_A_1 (y : S1024x256.Idx) : ∃ pc ∈ (kernelRun4_A c i arg2 harg2 arg3 harg3 arg4 harg4 arg5 harg5 arg6 harg6 arg7 harg7 arg8 harg8 arg9 harg9 hc0 hc1 x0 x1 x2 x3 x4).2.1, y ∈ pc.1.set :=
  View.cover_of_tiledL _ S1024x256.size (by sl_kernel_rfl) y
def sout4_A_1 : Vec F S1024x256 .f32 :=
  VS4_1.read (Elt F) (VS4_1.writes (Elt F) VS4_1.junk (kernelRun4_A c i arg2 harg2 arg3 harg3 arg4 harg4 arg5 harg5 arg6 harg6 arg7 harg7 arg8 harg8 arg9 harg9 hc0 hc1 x0 x1 x2 x3 x4).2.1)
end
section
variable (hc0 : ¬cond4_0 i) (hc1 : ¬cond4_1 i) (x0 : Vec F S1024x512 .f32) (x1 : Vec F S1024x512 .f32) (x2 : Vec F S512x256 .bf16) (x3 : Vec F S1x512 .f32) (x4 : Vec F S1x1024 .f32) (xs0 : Vec F S1024x1 .f32) (xs1 : Vec F S1024x256 .f32)
include hc0 hc1
set_option maxHeartbeats 1000000 in
noncomputable def kernelRun4_B :
    Σ' (LS0 : List (View.Piece (Elt F) S1024x1 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__attn_kernel i arg2 harg2 arg3 harg3 arg4 harg4 arg5 harg5 arg6 harg6 arg7 harg7 arg8 harg8 arg9 harg9) K } := by
  refine ⟨?_, ?_, fun xi5 E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover4_B_0 (y : S1024x1.Idx) : ∃ pc ∈ (kernelRun4_B c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x1.size (by sl_kernel_rfl) y
def sout4_B_0 : Vec F S1024x1 .f32 :=
  VS4_0.read (Elt F) (VS4_0.writes (Elt F) VS4_0.junk (kernelRun4_B c i arg2 harg2 arg3 harg3 arg4 harg4 arg5 harg5 arg6 harg6 arg7 harg7 arg8 harg8 arg9 harg9 hc0 hc1 x0 x1 x2 x3 x4 xs0 xs1).1)
theorem scover4_B_1 (y : S1024x256.Idx) : ∃ pc ∈ (kernelRun4_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x256.size (by sl_kernel_rfl) y
def sout4_B_1 : Vec F S1024x256 .f32 :=
  VS4_1.read (Elt F) (VS4_1.writes (Elt F) VS4_1.junk (kernelRun4_B c i arg2 harg2 arg3 harg3 arg4 harg4 arg5 harg5 arg6 harg6 arg7 harg7 arg8 harg8 arg9 harg9 hc0 hc1 x0 x1 x2 x3 x4 xs0 xs1).2.1)
end
section
variable (hc0 : ¬cond4_0 i) (hc1 : cond4_1 i) (x0 : Vec F S1024x512 .f32) (x1 : Vec F S1024x512 .f32) (x2 : Vec F S512x256 .bf16) (x3 : Vec F S1x512 .f32) (x4 : Vec F S1x1024 .f32) (xs0 : Vec F S1024x1 .f32) (xs1 : Vec F S1024x256 .f32)
include hc0 hc1
set_option maxHeartbeats 1000000 in
noncomputable def kernelRun4_C :
    Σ' (L5 : List (View.Piece (Elt F) S1024x256 .f32)), Σ' (LS0 : List (View.Piece (Elt F) S1024x1 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__attn_kernel i arg2 harg2 arg3 harg3 arg4 harg4 arg5 harg5 arg6 harg6 arg7 harg7 arg8 harg8 arg9 harg9) K } := by
  refine ⟨?_, ?_, ?_, fun E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4
    iapply Hk
    sl_close
theorem cover4_C_5 (y : S1024x256.Idx) : ∃ pc ∈ (kernelRun4_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x256.size (by sl_kernel_rfl) y
def out4_C_5 : Vec F S1024x256 .f32 :=
  VO4_5.read (Elt F) (VO4_5.writes (Elt F) VO4_5.junk (kernelRun4_C c i arg2 harg2 arg3 harg3 arg4 harg4 arg5 harg5 arg6 harg6 arg7 harg7 arg8 harg8 arg9 harg9 hc0 hc1 x0 x1 x2 x3 x4 xs0 xs1).1)
theorem scover4_C_0 (y : S1024x1.Idx) : ∃ pc ∈ (kernelRun4_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x1.size (by sl_kernel_rfl) y
def sout4_C_0 : Vec F S1024x1 .f32 :=
  VS4_0.read (Elt F) (VS4_0.writes (Elt F) VS4_0.junk (kernelRun4_C c i arg2 harg2 arg3 harg3 arg4 harg4 arg5 harg5 arg6 harg6 arg7 harg7 arg8 harg8 arg9 harg9 hc0 hc1 x0 x1 x2 x3 x4 xs0 xs1).2.1)
theorem scover4_C_1 (y : S1024x256.Idx) : ∃ pc ∈ (kernelRun4_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL _ S1024x256.size (by sl_kernel_rfl) y
def sout4_C_1 : Vec F S1024x256 .f32 :=
  VS4_1.read (Elt F) (VS4_1.writes (Elt F) VS4_1.junk (kernelRun4_C c i arg2 harg2 arg3 harg3 arg4 harg4 arg5 harg5 arg6 harg6 arg7 harg7 arg8 harg8 arg9 harg9 hc0 hc1 x0 x1 x2 x3 x4 xs0 xs1).2.2.1)
end
end
end Cert.Kernel.Hand
end
-- ==== Proof.K.Region4.lean ====
import proofs.«139342_j40218073759787_2_alg».proof.Proof.K.Region4Runs
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def outIdle4_5 : Vec F S1024x256 .f32 := VO4_5.read (Elt F) VO4_5.junk
def outsAt4 (c : Dev nD) : (n : ℕ) → n < cfg4.N → Vec F S1024x256 .f32 × Vec F S1024x1 .f32 × Vec F S1024x256 .f32
  | 0, hn => (outIdle4_5, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 16 = 0 then
      if h1 : (n + 1) % 16 = 15 then
        False.elim (by omega)
      else
        (outIdle4_5, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      if h1 : (n + 1) % 16 = 15 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2)
      else
        (outIdle4_5, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2)
theorem outsAt4_A (c : Dev nD) (t : Fin cfg4.N) (h0 : t.val % 16 = 0) (h1 : ¬t.val % 16 = 15) :
    outsAt4 V c t.val t.isLt = (outIdle4_5, sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)
theorem outsAt4_B (c : Dev nD) (t : Fin cfg4.N) (h0 : ¬t.val % 16 = 0) (h1 : ¬t.val % 16 = 15) :
    outsAt4 V c t.val t.isLt = (outIdle4_5, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt4_C (c : Dev nD) (t : Fin cfg4.N) (h0 : ¬t.val % 16 = 0) (h1 : t.val % 16 = 15) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)
def PhiS4 (c : Dev nD) : (n : ℕ) → n ≤ cfg4.N → sProp 𝕄
  | 0, _ => Pipeline.ΦA spec4 c
  | n + 1, hn => iprop(iprop(iprop(owns c scM4_0 fullShare ((outsAt4 V c n hn).2.1) ∗ owns c scM4_1 fullShare ((outsAt4 V c n hn).2.2))
      ∗ Pipeline.scopedRestBut spec4 c [cc4_scratch0, cc4_scratch1]) ∗ (∃ r, prngReg c r))
theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns c scM4_0 fullShare ((outsAt4 V c n hn).2.1) ∗ owns c scM4_1 fullShare ((outsAt4 V c n hn).2.2))
      ∗ Pipeline.scopedRestBut spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns c scM4_0 fullShare ((outsAt4 V c (n - 1) (by omega)).2.1) ∗ owns c scM4_1 fullShare ((outsAt4 V c (n - 1) (by omega)).2.2))
      ∗ Pipeline.scopedRestBut spec4 c [cc4_scratch0, cc4_scratch1]) ∗ (∃ r, prngReg c r)) := by
  cases n with
  | zero => exact absurd rfl hz
  | succ n => rfl
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
  Φ t := PhiS4 V c t.val (Nat.le_of_lt_succ t.isLt)
  q _ := fullShare
  owed _ := 0
theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_5 (c : Dev nD) (t : Fin cfg4.N) : (dat4 V c).after 5 t = (outsAt4 V c t.val t.isLt).1 := by dsimp only [dat4]
set_option maxHeartbeats 4800000 in
theorem sound_body4 (c : Dev nD) (t : Fin cfg4.N) :
    iprop((dat4 V c).Φ t.castSucc ∗ (dat4 V c).owesAt () t.castSucc
        ∗ bigSep Finset.univ fun w : Fin cfg4.W => iprop(∃ d, owns c ((cfg4.win w).stage (cfg4.slots t w)) fullShare ((dat4 V c).before w t d)))
      ⊢ wp frame (wpE (defs₀ (F := F)) Variants.none c none) Set.univ (bodyAt4 t) fun _ =>
        iprop((dat4 V c).Φ t.succ ∗ (dat4 V c).owesAt () t.succ ∗ bigSep Finset.univ fun w : Fin cfg4.W => (dat4 V c).leavesExact w t) := by
  rw [bigSep_W4, bigSep_W4]; unfold bodyAt4
  simp only [(dat4 V c).before_in_eq_fetched 0 rfl (fun _ => rfl) (fun _ _ _ => rfl) (fun _ => rfl),
    (dat4 V c).before_in_eq_fetched 1 rfl (fun _ => rfl) (fun _ _ _ => rfl) (fun _ => rfl),
    (dat4 V c).before_in_eq_fetched 2 rfl (fun _ => rfl) (fun _ _ _ => rfl) (fun _ => rfl),
    (dat4 V c).before_in_eq_fetched 3 rfl (fun _ => rfl) (fun _ _ _ => rfl) (fun _ => rfl),
    (dat4 V c).before_in_eq_fetched 4 rfl (fun _ => rfl) (fun _ _ _ => rfl) (fun _ => rfl)]
  rw [show (dat4 V c).owesAt () t.succ = (dat4 V c).owesAt () t.castSucc from rfl]
  rw [show (dat4 V c).Φ t.succ = PhiS4 V c (t.val + 1) t.isLt from rfl, PhiS4_succ]
  have hl (w : Fin cfg4.W) (h : cfg4.idle w (grid4.coords t) = false) :
      (dat4 V c).leavesExact w t = owns c ((cfg4.win w).stage (cfg4.slots t w)) fullShare ((dat4 V c).after w t) := by
    unfold Dat.leavesExact; rw [h]
  rw [hl 0 (liveAt4_0 t), hl 1 (liveAt4_1 t), hl 2 (liveAt4_2 t), hl 3 (liveAt4_3 t), hl 4 (liveAt4_4 t)]
  by_cases h0 : t.val % 16 = 0
  · by_cases h1 : t.val % 16 = 15
    · exfalso; omega
    ·
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      rw [outsAt4_A V c t h0 h1]
      unfold sout4_A_0 sout4_A_1; (try dsimp only)
      rw [PhiS4_castSucc V c t]
      by_cases hz : t.val = 0 <;> [rw [PhiS4_zero V c _ _ hz, PhiA4_eq]; rw [PhiS4_pos V c _ _ hz]]
      all_goals
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        isplitl [HS1]; · first | iexact HS1 | (iexists _; iexact HS1)
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _)
              · unfold owns; iexists _; isplitr
                swap; · iexact HS1
                ipureintro; exact View.read_writes_of_cover _ _ _ _ _ (scover4_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [hl 5 (liveAt4_5_C t (fun h => h0 ((hcond4_0 t).mp h)) ((hcond4_1 t).mpr h1)), after4_5]
      rw [outsAt4_C V c t h0 h1]
      unfold out4_C_5 sout4_C_0 sout4_C_1; (try dsimp only)
      by_cases hz : t.val = 0
      · exfalso; omega
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _ _ _ _ _ _ _ _ _ _)
              · unfold owns; iexists _; isplitr
                swap; · iexact HS1
                ipureintro; exact View.read_writes_of_cover _ _ _ _ _ (scover4_C_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover4_C_5 c _ _ _ _ _ _ _ _ _ _ _ _ _ _ _ _ _ _ _ _ _ _ _ _ _ _)
    ·
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      rw [outsAt4_B V c t h0 h1]
      unfold sout4_B_0 sout4_B_1; (try dsimp only)
      by_cases hz : t.val = 0
      · exfalso; omega
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _ _ _ _ _ _ _ _ _ _)
              · unfold owns; iexists _; isplitr
                swap; · iexact HS1
                ipureintro; exact View.read_writes_of_cover _ _ _ _ _ (scover4_B_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
theorem body_obligation4 (c : Dev nD) : BodyObligation (dat4 (F := F) V c) (defs₀ (F := F)) Variants.none () Set.univ := fun t => by
  have h := sound_body4 V c t
  rw [bigSep_W4, bigSep_W4] at h ⊢
  exact h
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg
theorem hout4 (c : Dev nD) : (dat4 V c).Φ (Fin.last cfg4.N) ⊢ Pipeline.ΦA spec4 c :=
  Phi_out4 V c _ (by rw [Fin.val_last]; have : cfg4.N = 128 := N_4; omega)
end Cert.Kernel.Hand
end
-- ==== Proof.K.Region6Runs.lean ====
/- The attention region: the body's run in its three control cases (first, middle and last block of columns) and what each case leaves in the output block and in the two carried sums. -/
import proofs.«139342_j40218073759787_2_alg».proof.Proof.Gen.Kernel.Launch
import proofs.«139342_j40218073759787_2_alg».proof.Proof.Gen.Kernel.Skeleton
import proofs.«139342_j40218073759787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 16 = 0 :=
  (by decide +kernel : ∀ t : Fin grid6.N, cond6_0 (grid6.coords t) ↔ t.val % 16 = 0)
abbrev cond6_1 (i : grid6.Coords) : Prop := k6_cond2 i = 1#1
theorem hcond6_1 : ∀ t : Fin cfg6.N, cond6_1 (grid6.coords t) ↔ t.val % 16 = 15 :=
  (by decide +kernel : ∀ t : Fin grid6.N, cond6_1 (grid6.coords t) ↔ t.val % 16 = 15)
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem idleAt6_5_A : ∀ t : Fin cfg6.N, cond6_0 (grid6.coords t) → ¬cond6_1 (grid6.coords t) → cfg6.idle 5 (grid6.coords t) = true := by decide +kernel
theorem noFlush6_5_A : ∀ t : Fin cfg6.N, cond6_0 (grid6.coords t) → ¬cond6_1 (grid6.coords t) → (cfg6.win 5).flush t = false := by decide +kernel
theorem idleAt6_5_B : ∀ t : Fin cfg6.N, ¬cond6_0 (grid6.coords t) → ¬cond6_1 (grid6.coords t) → cfg6.idle 5 (grid6.coords t) = true := by decide +kernel
theorem noFlush6_5_B : ∀ t : Fin cfg6.N, ¬cond6_0 (grid6.coords t) → ¬cond6_1 (grid6.coords t) → (cfg6.win 5).flush t = false := by decide +kernel
theorem liveAt6_5_C : ∀ t : Fin cfg6.N, ¬cond6_0 (grid6.coords t) → cond6_1 (grid6.coords t) → cfg6.idle 5 (grid6.coords t) = false := by decide +kernel
abbrev VO6_5 : View sig .tc .vmem S1024x64 .f32 := (win6_5.stage 0 : Memref sig .tc .vmem S1024x64 .f32).view
abbrev ms6_0 (t : Fin cfg6.N) : Memref sig .tc .vmem S1024x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x512 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x64 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x512 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x1024 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1024x64 .f32 := win6_5.stage (cfg6.slots t 5)
abbrev hs6_5 (t : Fin cfg6.N) : (ms6_5 t).IsWhole := hstage6_5 ((cfg6.slots t 5).cast nbuf6_5)
abbrev scM6_0 : Memref sig .tc .vmem S1024x1 .f32 := Memref.whole cc6_scratch0
abbrev scM6_1 : Memref sig .tc .vmem S1024x64 .f32 := Memref.whole cc6_scratch1
abbrev VS6_0 : View sig .tc .vmem S1024x1 .f32 := scM6_0.view
abbrev VS6_1 : View sig .tc .vmem S1024x64 .f32 := scM6_1.view
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut spec6 c [cc6_scratch0, cc6_scratch1]) ∗ (∃ r, prngReg c r)) := by
  unfold Pipeline.ΦA; rw [scopedRest6_split]; simp only [scM6_0, scM6_1, owns_whole]; try rfl
section
variable (c : Dev nD) (i : grid6.Coords) (arg2 : Memref sig .tc .vmem S1024x512 .f32) (harg2 : arg2.IsWhole) (arg3 : Memref sig .tc .vmem S1024x512 .f32) (harg3 : arg3.IsWhole) (arg4 : Memref sig .tc .vmem S512x64 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S1024x64 .f32) (harg9 : arg9.IsWhole)
section
variable (hc0 : cond6_0 i) (hc1 : ¬cond6_1 i) (x0 : Vec F S1024x512 .f32) (x1 : Vec F S1024x512 .f32) (x2 : Vec F S512x64 .bf16) (x3 : Vec F S1x512 .f32) (x4 : Vec F S1x1024 .f32)
include hc0 hc1
set_option maxHeartbeats 1000000 in
noncomputable def kernelRun6_A :
    Σ' (LS0 : List (View.Piece (Elt F) S1024x1 .f32)), { LS1 : List (View.Piece (Elt F) S1024x64 .f32) //
      ∀ (xi5 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_kernel i arg2 harg2 arg3 harg3 arg4 harg4 arg5 harg5 arg6 harg6 arg7 harg7 arg8 harg8 arg9 harg9) K } := by
  refine ⟨?_, ?_, fun xi5 E K => ?run⟩
  case run =>
    simp only [cc6__attn_kernel_eq_skeleton]; unfold cc6__attn_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover6_A_0 (y : S1024x1.Idx) : ∃ pc ∈ (kernelRun6_A c i arg2 harg2 arg3 harg3 arg4 harg4 arg5 harg5 arg6 harg6 arg7 harg7 arg8 harg8 arg9 harg9 hc0 hc1 x0 x1 x2 x3 x4).1, y ∈ pc.1.set :=
  View.cover_of_tiledL _ S1024x1.size (by sl_kernel_rfl) y
def sout6_A_0 : Vec F S1024x1 .f32 :=
  VS6_0.read (Elt F) (VS6_0.writes (Elt F) VS6_0.junk (kernelRun6_A c i arg2 harg2 arg3 harg3 arg4 harg4 arg5 harg5 arg6 harg6 arg7 harg7 arg8 harg8 arg9 harg9 hc0 hc1 x0 x1 x2 x3 x4).1)
theorem scover6_A_1 (y : S1024x64.Idx) : ∃ pc ∈ (kernelRun6_A c i arg2 harg2 arg3 harg3 arg4 harg4 arg5 harg5 arg6 harg6 arg7 harg7 arg8 harg8 arg9 harg9 hc0 hc1 x0 x1 x2 x3 x4).2.1, y ∈ pc.1.set :=
  View.cover_of_tiledL _ S1024x64.size (by sl_kernel_rfl) y
def sout6_A_1 : Vec F S1024x64 .f32 :=
  VS6_1.read (Elt F) (VS6_1.writes (Elt F) VS6_1.junk (kernelRun6_A c i arg2 harg2 arg3 harg3 arg4 harg4 arg5 harg5 arg6 harg6 arg7 harg7 arg8 harg8 arg9 harg9 hc0 hc1 x0 x1 x2 x3 x4).2.1)
end
section
variable (hc0 : ¬cond6_0 i) (hc1 : ¬cond6_1 i) (x0 : Vec F S1024x512 .f32) (x1 : Vec F S1024x512 .f32) (x2 : Vec F S512x64 .bf16) (x3 : Vec F S1x512 .f32) (x4 : Vec F S1x1024 .f32) (xs0 : Vec F S1024x1 .f32) (xs1 : Vec F S1024x64 .f32)
include hc0 hc1
set_option maxHeartbeats 1000000 in
noncomputable def kernelRun6_B :
    Σ' (LS0 : List (View.Piece (Elt F) S1024x1 .f32)), { LS1 : List (View.Piece (Elt F) S1024x64 .f32) //
      ∀ (xi5 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_kernel i arg2 harg2 arg3 harg3 arg4 harg4 arg5 harg5 arg6 harg6 arg7 harg7 arg8 harg8 arg9 harg9) K } := by
  refine ⟨?_, ?_, fun xi5 E K => ?run⟩
  case run =>
    simp only [cc6__attn_kernel_eq_skeleton]; unfold cc6__attn_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover6_B_0 (y : S1024x1.Idx) : ∃ pc ∈ (kernelRun6_B c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x1.size (by sl_kernel_rfl) y
def sout6_B_0 : Vec F S1024x1 .f32 :=
  VS6_0.read (Elt F) (VS6_0.writes (Elt F) VS6_0.junk (kernelRun6_B c i arg2 harg2 arg3 harg3 arg4 harg4 arg5 harg5 arg6 harg6 arg7 harg7 arg8 harg8 arg9 harg9 hc0 hc1 x0 x1 x2 x3 x4 xs0 xs1).1)
theorem scover6_B_1 (y : S1024x64.Idx) : ∃ pc ∈ (kernelRun6_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x64.size (by sl_kernel_rfl) y
def sout6_B_1 : Vec F S1024x64 .f32 :=
  VS6_1.read (Elt F) (VS6_1.writes (Elt F) VS6_1.junk (kernelRun6_B c i arg2 harg2 arg3 harg3 arg4 harg4 arg5 harg5 arg6 harg6 arg7 harg7 arg8 harg8 arg9 harg9 hc0 hc1 x0 x1 x2 x3 x4 xs0 xs1).2.1)
end
section
variable (hc0 : ¬cond6_0 i) (hc1 : cond6_1 i) (x0 : Vec F S1024x512 .f32) (x1 : Vec F S1024x512 .f32) (x2 : Vec F S512x64 .bf16) (x3 : Vec F S1x512 .f32) (x4 : Vec F S1x1024 .f32) (xs0 : Vec F S1024x1 .f32) (xs1 : Vec F S1024x64 .f32)
include hc0 hc1
set_option maxHeartbeats 1000000 in
noncomputable def kernelRun6_C :
    Σ' (L5 : List (View.Piece (Elt F) S1024x64 .f32)), Σ' (LS0 : List (View.Piece (Elt F) S1024x1 .f32)), { LS1 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_kernel i arg2 harg2 arg3 harg3 arg4 harg4 arg5 harg5 arg6 harg6 arg7 harg7 arg8 harg8 arg9 harg9) K } := by
  refine ⟨?_, ?_, ?_, fun E K => ?run⟩
  case run =>
    simp only [cc6__attn_kernel_eq_skeleton]; unfold cc6__attn_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4
    iapply Hk
    sl_close
theorem cover6_C_5 (y : S1024x64.Idx) : ∃ pc ∈ (kernelRun6_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x64.size (by sl_kernel_rfl) y
def out6_C_5 : Vec F S1024x64 .f32 :=
  VO6_5.read (Elt F) (VO6_5.writes (Elt F) VO6_5.junk (kernelRun6_C c i arg2 harg2 arg3 harg3 arg4 harg4 arg5 harg5 arg6 harg6 arg7 harg7 arg8 harg8 arg9 harg9 hc0 hc1 x0 x1 x2 x3 x4 xs0 xs1).1)
theorem scover6_C_0 (y : S1024x1.Idx) : ∃ pc ∈ (kernelRun6_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x1.size (by sl_kernel_rfl) y
def sout6_C_0 : Vec F S1024x1 .f32 :=
  VS6_0.read (Elt F) (VS6_0.writes (Elt F) VS6_0.junk (kernelRun6_C c i arg2 harg2 arg3 harg3 arg4 harg4 arg5 harg5 arg6 harg6 arg7 harg7 arg8 harg8 arg9 harg9 hc0 hc1 x0 x1 x2 x3 x4 xs0 xs1).2.1)
theorem scover6_C_1 (y : S1024x64.Idx) : ∃ pc ∈ (kernelRun6_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL _ S1024x64.size (by sl_kernel_rfl) y
def sout6_C_1 : Vec F S1024x64 .f32 :=
  VS6_1.read (Elt F) (VS6_1.writes (Elt F) VS6_1.junk (kernelRun6_C c i arg2 harg2 arg3 harg3 arg4 harg4 arg5 harg5 arg6 harg6 arg7 harg7 arg8 harg8 arg9 harg9 hc0 hc1 x0 x1 x2 x3 x4 xs0 xs1).2.2.1)
end
end
end Cert.Kernel.Hand
end
-- ==== Proof.K.Region6.lean ====
import proofs.«139342_j40218073759787_2_alg».proof.Proof.K.Region6Runs
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def outIdle6_5 : Vec F S1024x64 .f32 := VO6_5.read (Elt F) VO6_5.junk
def outsAt6 (c : Dev nD) : (n : ℕ) → n < cfg6.N → Vec F S1024x64 .f32 × Vec F S1024x1 .f32 × Vec F S1024x64 .f32
  | 0, hn => (outIdle6_5, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h0 : (n + 1) % 16 = 0 then
      if h1 : (n + 1) % 16 = 15 then
        False.elim (by omega)
      else
        (outIdle6_5, sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩), sout6_A_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩))
    else
      if h1 : (n + 1) % 16 = 15 then
        (out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2)
      else
        (outIdle6_5, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2)
theorem outsAt6_A (c : Dev nD) (t : Fin cfg6.N) (h0 : t.val % 16 = 0) (h1 : ¬t.val % 16 = 15) :
    outsAt6 V c t.val t.isLt = (outIdle6_5, sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t)) := by
  obtain ⟨n, hn⟩ := t
  cases n with
  | zero => exact rfl
  | succ n => exact (dif_pos h0).trans ((dif_neg h1).trans rfl)
theorem outsAt6_B (c : Dev nD) (t : Fin cfg6.N) (h0 : ¬t.val % 16 = 0) (h1 : ¬t.val % 16 = 15) :
    outsAt6 V c t.val t.isLt = (outIdle6_5, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt6_C (c : Dev nD) (t : Fin cfg6.N) (h0 : ¬t.val % 16 = 0) (h1 : t.val % 16 = 15) :
    outsAt6 V c t.val t.isLt = (out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)
def PhiS6 (c : Dev nD) : (n : ℕ) → n ≤ cfg6.N → sProp 𝕄
  | 0, _ => Pipeline.ΦA spec6 c
  | n + 1, hn => iprop(iprop(iprop(owns c scM6_0 fullShare ((outsAt6 V c n hn).2.1) ∗ owns c scM6_1 fullShare ((outsAt6 V c n hn).2.2))
      ∗ Pipeline.scopedRestBut spec6 c [cc6_scratch0, cc6_scratch1]) ∗ (∃ r, prngReg c r))
theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns c scM6_0 fullShare ((outsAt6 V c n hn).2.1) ∗ owns c scM6_1 fullShare ((outsAt6 V c n hn).2.2))
      ∗ Pipeline.scopedRestBut spec6 c [cc6_scratch0, cc6_scratch1]) ∗ (∃ r, prngReg c r)) := rfl
theorem PhiS6_pos (c : Dev nD) (n : ℕ) (h : n ≤ cfg6.N) (hz : n ≠ 0) :
    PhiS6 V c n h = iprop(iprop(iprop(owns c scM6_0 fullShare ((outsAt6 V c (n - 1) (by omega)).2.1) ∗ owns c scM6_1 fullShare ((outsAt6 V c (n - 1) (by omega)).2.2))
      ∗ Pipeline.scopedRestBut spec6 c [cc6_scratch0, cc6_scratch1]) ∗ (∃ r, prngReg c r)) := by
  cases n with
  | zero => exact absurd rfl hz
  | succ n => rfl
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
  Φ t := PhiS6 V c t.val (Nat.le_of_lt_succ t.isLt)
  q _ := fullShare
  owed _ := 0
theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_5 (c : Dev nD) (t : Fin cfg6.N) : (dat6 V c).after 5 t = (outsAt6 V c t.val t.isLt).1 := by dsimp only [dat6]
set_option maxHeartbeats 4800000 in
theorem sound_body6 (c : Dev nD) (t : Fin cfg6.N) :
    iprop((dat6 V c).Φ t.castSucc ∗ (dat6 V c).owesAt () t.castSucc
        ∗ bigSep Finset.univ fun w : Fin cfg6.W => iprop(∃ d, owns c ((cfg6.win w).stage (cfg6.slots t w)) fullShare ((dat6 V c).before w t d)))
      ⊢ wp frame (wpE (defs₀ (F := F)) Variants.none c none) Set.univ (bodyAt6 t) fun _ =>
        iprop((dat6 V c).Φ t.succ ∗ (dat6 V c).owesAt () t.succ ∗ bigSep Finset.univ fun w : Fin cfg6.W => (dat6 V c).leavesExact w t) := by
  rw [bigSep_W6, bigSep_W6]; unfold bodyAt6
  simp only [(dat6 V c).before_in_eq_fetched 0 rfl (fun _ => rfl) (fun _ _ _ => rfl) (fun _ => rfl),
    (dat6 V c).before_in_eq_fetched 1 rfl (fun _ => rfl) (fun _ _ _ => rfl) (fun _ => rfl),
    (dat6 V c).before_in_eq_fetched 2 rfl (fun _ => rfl) (fun _ _ _ => rfl) (fun _ => rfl),
    (dat6 V c).before_in_eq_fetched 3 rfl (fun _ => rfl) (fun _ _ _ => rfl) (fun _ => rfl),
    (dat6 V c).before_in_eq_fetched 4 rfl (fun _ => rfl) (fun _ _ _ => rfl) (fun _ => rfl)]
  rw [show (dat6 V c).owesAt () t.succ = (dat6 V c).owesAt () t.castSucc from rfl]
  rw [show (dat6 V c).Φ t.succ = PhiS6 V c (t.val + 1) t.isLt from rfl, PhiS6_succ]
  have hl (w : Fin cfg6.W) (h : cfg6.idle w (grid6.coords t) = false) :
      (dat6 V c).leavesExact w t = owns c ((cfg6.win w).stage (cfg6.slots t w)) fullShare ((dat6 V c).after w t) := by
    unfold Dat.leavesExact; rw [h]
  rw [hl 0 (liveAt6_0 t), hl 1 (liveAt6_1 t), hl 2 (liveAt6_2 t), hl 3 (liveAt6_3 t), hl 4 (liveAt6_4 t)]
  by_cases h0 : t.val % 16 = 0
  · by_cases h1 : t.val % 16 = 15
    · exfalso; omega
    ·
      rw [Dat.leavesExact_idle (dat6 V c) 5 t (idleAt6_5_A t ((hcond6_0 t).mpr h0) (fun h => h1 ((hcond6_1 t).mp h))) (noFlush6_5_A t ((hcond6_0 t).mpr h0) (fun h => h1 ((hcond6_1 t).mp h)))]
      rw [outsAt6_A V c t h0 h1]
      unfold sout6_A_0 sout6_A_1; (try dsimp only)
      rw [PhiS6_castSucc V c t]
      by_cases hz : t.val = 0 <;> [rw [PhiS6_zero V c _ _ hz, PhiA6_eq]; rw [PhiS6_pos V c _ _ hz]]
      all_goals
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        isplitl [HS1]; · first | iexact HS1 | (iexists _; iexact HS1)
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _ _ _ _ _ _ _ _ _ _)
              · unfold owns; iexists _; isplitr
                swap; · iexact HS1
                ipureintro; exact View.read_writes_of_cover _ _ _ _ _ (scover6_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [hl 5 (liveAt6_5_C t (fun h => h0 ((hcond6_0 t).mp h)) ((hcond6_1 t).mpr h1)), after6_5]
      rw [outsAt6_C V c t h0 h1]
      unfold out6_C_5 sout6_C_0 sout6_C_1; (try dsimp only)
      by_cases hz : t.val = 0
      · exfalso; omega
      · rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_C_0 c _ _ _ _ _ _ _ _ _ _ _ _ _ _ _ _ _ _ _ _ _ _ _ _ _ _)
              · unfold owns; iexists _; isplitr
                swap; · iexact HS1
                ipureintro; exact View.read_writes_of_cover _ _ _ _ _ (scover6_C_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover6_C_5 c _ _ _ _ _ _ _ _ _ _ _ _ _ _ _ _ _ _ _ _ _ _ _ _ _ _)
    ·
      rw [Dat.leavesExact_idle (dat6 V c) 5 t (idleAt6_5_B t (fun h => h0 ((hcond6_0 t).mp h)) (fun h => h1 ((hcond6_1 t).mp h))) (noFlush6_5_B t (fun h => h0 ((hcond6_0 t).mp h)) (fun h => h1 ((hcond6_1 t).mp h)))]
      rw [outsAt6_B V c t h0 h1]
      unfold sout6_B_0 sout6_B_1; (try dsimp only)
      by_cases hz : t.val = 0
      · exfalso; omega
      · rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_B_0 c _ _ _ _ _ _ _ _ _ _ _ _ _ _ _ _ _ _ _ _ _ _ _ _ _ _)
              · unfold owns; iexists _; isplitr
                swap; · iexact HS1
                ipureintro; exact View.read_writes_of_cover _ _ _ _ _ (scover6_B_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
theorem body_obligation6 (c : Dev nD) : BodyObligation (dat6 (F := F) V c) (defs₀ (F := F)) Variants.none () Set.univ := fun t => by
  have h := sound_body6 V c t
  rw [bigSep_W6, bigSep_W6] at h ⊢
  exact h
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg
theorem hout6 (c : Dev nD) : (dat6 V c).Φ (Fin.last cfg6.N) ⊢ Pipeline.ΦA spec6 c :=
  Phi_out6 V c _ (by rw [Fin.val_last]; have : cfg6.N = 128 := N_6; omega)
end Cert.Kernel.Hand
end
-- ==== Proof.K.Run.lean ====
import proofs.«139342_j40218073759787_2_alg».proof.Proof.K.Glue
import proofs.«139342_j40218073759787_2_alg».proof.Proof.K.Region2
import proofs.«139342_j40218073759787_2_alg».proof.Proof.K.Region4
import proofs.«139342_j40218073759787_2_alg».proof.Proof.K.Region6
import proofs.«139342_j40218073759787_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (c : Dev nD) : Valuation τ sig (Elt F) := fun b => m (c, b)
abbrev V0r : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (V0r m) c).arrAt w cfg0.N
abbrev W2 (c : Dev nD) : Valuation τ sig (Elt F) := StableHlo.after hostOps1 (W1 m c)
abbrev V2r : (c : Dev nD) → (b : Ref sig .tc) → Buf (Elt F) ((c : Thread nD τ).loc b) := fun c b => W2 m c b
def W3 (c : Dev nD) : Valuation τ sig (Elt F) :=
  Pipeline.withArrays spec1 c (W2 m c) fun w => (dat1 (V2r m) c).arrAt w cfg1.N
abbrev V3r : (c : Dev nD) → (b : Ref sig .tc) → Buf (Elt F) ((c : Thread nD τ).loc b) := fun c b => W3 m c b
def W4 (c : Dev nD) : Valuation τ sig (Elt F) :=
  Pipeline.withArrays spec2 c (W3 m c) fun w => (dat2 (V3r m) c).arrAt w cfg2.N
abbrev W5 (c : Dev nD) : Valuation τ sig (Elt F) := StableHlo.after hostOps3 (W4 m c)
abbrev V5r : (c : Dev nD) → (b : Ref sig .tc) → Buf (Elt F) ((c : Thread nD τ).loc b) := fun c b => W5 m c b
def W6 (c : Dev nD) : Valuation τ sig (Elt F) :=
  Pipeline.withArrays spec3 c (W5 m c) fun w => (dat3 (V5r m) c).arrAt w cfg3.N
abbrev V6r : (c : Dev nD) → (b : Ref sig .tc) → Buf (Elt F) ((c : Thread nD τ).loc b) := fun c b => W6 m c b
def W7 (c : Dev nD) : Valuation τ sig (Elt F) :=
  Pipeline.withArrays spec4 c (W6 m c) fun w => (dat4 (V6r m) c).arrAt w cfg4.N
abbrev W8 (c : Dev nD) : Valuation τ sig (Elt F) := StableHlo.after hostOps5 (W7 m c)
abbrev V8r : (c : Dev nD) → (b : Ref sig .tc) → Buf (Elt F) ((c : Thread nD τ).loc b) := fun c b => W8 m c b
def W9 (c : Dev nD) : Valuation τ sig (Elt F) :=
  Pipeline.withArrays spec5 c (W8 m c) fun w => (dat5 (V8r m) c).arrAt w cfg5.N
abbrev V9r : (c : Dev nD) → (b : Ref sig .tc) → Buf (Elt F) ((c : Thread nD τ).loc b) := fun c b => W9 m c b
def W10 (c : Dev nD) : Valuation τ sig (Elt F) :=
  Pipeline.withArrays spec6 c (W9 m c) fun w => (dat6 (V9r m) c).arrAt w cfg6.N

def pdats : (p : Fin 7) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c
  | ⟨2, _⟩ => fun c => dat2 (V3r m) c
  | ⟨3, _⟩ => fun c => dat3 (V5r m) c
  | ⟨4, _⟩ => fun c => dat4 (V6r m) c
  | ⟨5, _⟩ => fun c => dat5 (V8r m) c
  | ⟨6, _⟩ => fun c => dat6 (V9r m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region owing nothing runs from the unscoped buffers at `Wi` to its arrays as written back, the rest kept.
def regOf (p : Fin 7) (lf : Pipeline.LaunchFacts (nD := nD) (τ := τ) cfgs p) (Wi : Dev nD → Valuation τ sig (Elt F))
    (hb : ∀ c, BodyObligation (pdats m p c) (defs₀ (F := F)) Variants.none () Set.univ)
    (hq : ∀ c w, (pdats m p c).q w = fullShare) (h0 : ∀ c t, (pdats m p c).owed t = 0)
    (hr : ∀ c, (pdats m p c).recorded 0 = Set.univ)
    (hA : ∀ c w, (pdats m p c).A w = Wi c (Proc.devRef .tc (Pipeline.arrRef (cfgs p).spec w)))
    (hI : ∀ c, Pipeline.ΦA (cfgs p).spec c ⊢ (pdats m p c).Φ 0)
    (hO : ∀ c, (pdats m p c).Φ (Fin.last (cfgs p).N) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Pipeline.withArrays (cfgs p).spec c (Wi c) fun w => (pdats m p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (by rw [hr c]; exact Set.mem_univ x)
      iapply (show (owes (c : Thread nD τ) (0 : CellTallies nD τ sig Unit) W : sProp 𝕄) ⊢ owes (c : Thread nD τ) ((pdats m p c).owed 0) W from by rw [h0 c])
      iexact HO
    isplitl [Hp]; · iexact Hp
    iexact Hrest
  hin c := by
    refine .trans ?_ (hI c)
    unfold Pipeline.ΦA
    iintro ⟨Hp, -, Hr⟩
    isplitl [Hr]; · iexact Hr
    iexact Hp
  hout c := by
    rw [Pipeline.ownSems0_none]
    refine (hO c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => Wi c b)
      (fun b => Pipeline.withArrays (cfgs p).spec c (Wi c) (fun w => (pdats m p c).arrAt w (cfgs p).N) b) ((pdats m p c).arrAt · (cfgs p).N)
      (fun w => (Pipeline.withArrays_arr (cfgs p).spec lf.win.arr_inj c (Wi c) (fun w => (pdats m p c).arrAt w (cfgs p).N) w).symm)
      (fun b hb => Pipeline.withArrays_of_ne (cfgs p).spec c (Wi c) (fun w => (pdats m p c).arrAt w (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iapply (show (owes (c : Thread nD τ) ((pdats m p c).owed (Fin.last (cfgs p).N)) W : sProp 𝕄) ⊢ owes (c : Thread nD τ) (0 : CellTallies nD τ sig Unit) W from by rw [h0 c])
    iexact HO

abbrev segsR : List (Pipeline.Seg (pcfgs (F := F)) adm (pdats m) () defs₀ 𝒱₀ L lv) :=
  [ .region (regOf m 0 launch0 (W0 m) (body_obligation0 (V0r m)) (fun _ _ => rfl) (fun _ _ => rfl) (fun _ => rfl) (A_eq0 (V0r m)) (hin0 (V0r m)) (hout0 (V0r m))),
    .host (hseg hostOps1 hostOps1_sub hostOps1_fresh (W1 m)),
    .region (regOf m 1 launch1 (W2 m) (body_obligation1 (V2r m)) (fun _ _ => rfl) (fun _ _ => rfl) (fun _ => rfl) (A_eq1 (V2r m)) (hin1 (V2r m)) (hout1 (V2r m))),
    .region (regOf m 2 launch2 (W3 m) (body_obligation2 (V3r m)) (fun _ _ => rfl) (fun _ _ => rfl) (fun _ => rfl) (A_eq2 (V3r m)) (hin2 (V3r m)) (hout2 (V3r m))),
    .host (hseg hostOps3 hostOps3_sub hostOps3_fresh (W4 m)),
    .region (regOf m 3 launch3 (W5 m) (body_obligation3 (V5r m)) (fun _ _ => rfl) (fun _ _ => rfl) (fun _ => rfl) (A_eq3 (V5r m)) (hin3 (V5r m)) (hout3 (V5r m))),
    .region (regOf m 4 launch4 (W6 m) (body_obligation4 (V6r m)) (fun _ _ => rfl) (fun _ _ => rfl) (fun _ => rfl) (A_eq4 (V6r m)) (hin4 (V6r m)) (hout4 (V6r m))),
    .host (hseg hostOps5 hostOps5_sub hostOps5_fresh (W7 m)),
    .region (regOf m 5 launch5 (W8 m) (body_obligation5 (V8r m)) (fun _ _ => rfl) (fun _ _ => rfl) (fun _ => rfl) (A_eq5 (V8r m)) (hin5 (V8r m)) (hout5 (V8r m))),
    .region (regOf m 6 launch6 (W9 m) (body_obligation6 (V9r m)) (fun _ _ => rfl) (fun _ _ => rfl) (fun _ => rfl) (A_eq6 (V9r m)) (hin6 (V9r m)) (hout6 (V9r m))) ]
theorem main_run (c : Dev nD) : main (F := F) c = Pipeline.Seg.run (segsR m) := (main_chain c).trans (by chain_rfl)

set_option backward.isDefEq.respectTransparency.types false in
-- Every fair execution ends with each core's unscoped buffers at the last boundary's contents.
theorem run_all : θ_run defs (onTc (τ := τ) (main (F := F))) ⟨m, fun _ => 0, ρ⟩ (fun r => ∀ c : Dev nD,
      ∀ b ∈ Pipeline.ucRefs τ sig, r.2.mem ((c : Thread nD τ).1, b) = W10 m c b) :=
  Pipeline.θ_run_regions_kit (pcfgs (F := F)) adm (pdats m) () cellOf_inj emb₁ defs₀ 𝒱₀ L lv m ρ main (segsR m)
    (fun c Q => by rw [main_run m c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun c => show iprop(StableHlo.held (c : Thread nD τ) (Pipeline.ucRefs τ sig) (W10 m c) ∗ R c) ⊢ _ from by
      iintro ⟨H, P, O⟩
      isplitl [H P]
      · isplitl [H] <;> iassumption
      iexact O⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

end Cert.Kernel.HandRun

end
-- ==== Proof.K.RunFrame.lean ====
import proofs.«139342_j40218073759787_2_alg».proof.Proof.K.Run

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Hand

variable {F : FTy → Type} [FloatOps F]

variable (m : (ℓ : Loc nD τ sig) → Buf (Elt F) ℓ)

-- A region gives an input window's array back as entered and touches no buffer that is no window's array.
theorem keep_of {cfg : Cfg sig Λ₀} {c : Dev nD} (d : Dat τ (Elt F) Unit ℕ (UR sig nD τ) ℕ cfg c) (V : Valuation τ sig (Elt F))
    (hi : Function.Injective (Pipeline.arrRef cfg.spec)) (hA : ∀ w, d.A w = V (Proc.devRef .tc (Pipeline.arrRef cfg.spec w)))
    {o : List (Ref sig .tc)} (ho : ∀ w, Pipeline.arrRef cfg.spec w ∉ o → (cfg.win w).isOut = false) (b : Ref sig .tc) (hb : b ∉ o) :
    Pipeline.withArrays cfg.spec c V (fun w => d.arrAt w cfg.N) (Proc.devRef .tc b) = V (Proc.devRef .tc b) := by
  by_cases e : ∃ w, Pipeline.arrRef cfg.spec w = b
  · obtain ⟨w, rfl⟩ := e
    exact (Pipeline.withArrays_arr _ hi c V _ w).trans ((d.arrAt_in w (ho w hb) _).trans (hA w))
  · exact Pipeline.withArrays_of_ne _ c V _ b fun w h => e ⟨w, h⟩

variable (c : Dev nD)

theorem W1_keep (b : Ref sig .tc) (hb : b ∉ ([main_v0] : List (Ref sig .tc))) :
    W1 m c (Proc.devRef .tc b) = W0 m c (Proc.devRef .tc b) :=
  keep_of (dat0 (V0r m) c) (W0 m c) launch0.win.arr_inj (A_eq0 (V0r m) c) (by decide) b hb
theorem W2_keep (b : Ref sig .tc) (hb : b ∉ hostOps1_W) :
    W2 m c (Proc.devRef .tc b) = W1 m c (Proc.devRef .tc b) :=
  StableHlo.after_of_writes_sub hostOps1 _ hostOps1_writes hb
theorem W3_keep (b : Ref sig .tc) (hb : b ∉ ([main_v4_0, main_v4_1, main_v4_2] : List (Ref sig .tc))) :
    W3 m c (Proc.devRef .tc b) = W2 m c (Proc.devRef .tc b) :=
  keep_of (dat1 (V2r m) c) (W2 m c) launch1.win.arr_inj (A_eq1 (V2r m) c) (by decide) b hb
theorem W4_keep (b : Ref sig .tc) (hb : b ∉ ([main_v5] : List (Ref sig .tc))) :
    W4 m c (Proc.devRef .tc b) = W3 m c (Proc.devRef .tc b) :=
  keep_of (dat2 (V3r m) c) (W3 m c) launch2.win.arr_inj (A_eq2 (V3r m) c) (by decide) b hb
theorem W5_keep (b : Ref sig .tc) (hb : b ∉ hostOps3_W) :
    W5 m c (Proc.devRef .tc b) = W4 m c (Proc.devRef .tc b) :=
  StableHlo.after_of_writes_sub hostOps3 _ hostOps3_writes hb
theorem W6_keep (b : Ref sig .tc) (hb : b ∉ ([main_v9_0, main_v9_1, main_v9_2] : List (Ref sig .tc))) :
    W6 m c (Proc.devRef .tc b) = W5 m c (Proc.devRef .tc b) :=
  keep_of (dat3 (V5r m) c) (W5 m c) launch3.win.arr_inj (A_eq3 (V5r m) c) (by decide) b hb
theorem W7_keep (b : Ref sig .tc) (hb : b ∉ ([main_v10] : List (Ref sig .tc))) :
    W7 m c (Proc.devRef .tc b) = W6 m c (Proc.devRef .tc b) :=
  keep_of (dat4 (V6r m) c) (W6 m c) launch4.win.arr_inj (A_eq4 (V6r m) c) (by decide) b hb
theorem W8_keep (b : Ref sig .tc) (hb : b ∉ hostOps5_W) :
    W8 m c (Proc.devRef .tc b) = W7 m c (Proc.devRef .tc b) :=
  StableHlo.after_of_writes_sub hostOps5 _ hostOps5_writes hb
theorem W9_keep (b : Ref sig .tc) (hb : b ∉ ([main_v14_0, main_v14_1, main_v14_2] : List (Ref sig .tc))) :
    W9 m c (Proc.devRef .tc b) = W8 m c (Proc.devRef .tc b) :=
  keep_of (dat5 (V8r m) c) (W8 m c) launch5.win.arr_inj (A_eq5 (V8r m) c) (by decide) b hb
theorem W10_keep (b : Ref sig .tc) (hb : b ∉ ([main_v15] : List (Ref sig .tc))) :
    W10 m c (Proc.devRef .tc b) = W9 m c (Proc.devRef .tc b) :=
  keep_of (dat6 (V9r m) c) (W9 m c) launch6.win.arr_inj (A_eq6 (V9r m) c) (by decide) b hb

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem W1_args (b : Ref sig .tc) (hb : b ∈ mainArgs) : W1 m c (Proc.devRef .tc b) = m ((c : Thread nD τ).loc b) :=
  W1_keep m c b ((show ∀ b ∈ mainArgs, b ∉ ([main_v0] : List (Ref sig .tc)) from by decide) b hb)
theorem W2_args (b : Ref sig .tc) (hb : b ∈ mainArgs) : W2 m c (Proc.devRef .tc b) = m ((c : Thread nD τ).loc b) :=
  (W2_keep m c b ((show ∀ b ∈ mainArgs, b ∉ hostOps1_W from by decide) b hb)).trans (W1_args m c b hb)
theorem W3_args (b : Ref sig .tc) (hb : b ∈ mainArgs) : W3 m c (Proc.devRef .tc b) = m ((c : Thread nD τ).loc b) :=
  (W3_keep m c b ((show ∀ b ∈ mainArgs, b ∉ ([main_v4_0, main_v4_1, main_v4_2] : List (Ref sig .tc)) from by decide) b hb)).trans (W2_args m c b hb)
theorem W4_args (b : Ref sig .tc) (hb : b ∈ mainArgs) : W4 m c (Proc.devRef .tc b) = m ((c : Thread nD τ).loc b) :=
  (W4_keep m c b ((show ∀ b ∈ mainArgs, b ∉ ([main_v5] : List (Ref sig .tc)) from by decide) b hb)).trans (W3_args m c b hb)
theorem W5_args (b : Ref sig .tc) (hb : b ∈ mainArgs) : W5 m c (Proc.devRef .tc b) = m ((c : Thread nD τ).loc b) :=
  (W5_keep m c b ((show ∀ b ∈ mainArgs, b ∉ hostOps3_W from by decide) b hb)).trans (W4_args m c b hb)
theorem W6_args (b : Ref sig .tc) (hb : b ∈ mainArgs) : W6 m c (Proc.devRef .tc b) = m ((c : Thread nD τ).loc b) :=
  (W6_keep m c b ((show ∀ b ∈ mainArgs, b ∉ ([main_v9_0, main_v9_1, main_v9_2] : List (Ref sig .tc)) from by decide) b hb)).trans (W5_args m c b hb)
theorem W7_args (b : Ref sig .tc) (hb : b ∈ mainArgs) : W7 m c (Proc.devRef .tc b) = m ((c : Thread nD τ).loc b) :=
  (W7_keep m c b ((show ∀ b ∈ mainArgs, b ∉ ([main_v10] : List (Ref sig .tc)) from by decide) b hb)).trans (W6_args m c b hb)
theorem W8_args (b : Ref sig .tc) (hb : b ∈ mainArgs) : W8 m c (Proc.devRef .tc b) = m ((c : Thread nD τ).loc b) :=
  (W8_keep m c b ((show ∀ b ∈ mainArgs, b ∉ hostOps5_W from by decide) b hb)).trans (W7_args m c b hb)
theorem W9_args (b : Ref sig .tc) (hb : b ∈ mainArgs) : W9 m c (Proc.devRef .tc b) = m ((c : Thread nD τ).loc b) :=
  (W9_keep m c b ((show ∀ b ∈ mainArgs, b ∉ ([main_v14_0, main_v14_1, main_v14_2] : List (Ref sig .tc)) from by decide) b hb)).trans (W8_args m c b hb)
theorem W10_args (b : Ref sig .tc) (hb : b ∈ mainArgs) : W10 m c (Proc.devRef .tc b) = m ((c : Thread nD τ).loc b) :=
  (W10_keep m c b ((show ∀ b ∈ mainArgs, b ∉ ([main_v15] : List (Ref sig .tc)) from by decide) b hb)).trans (W9_args m c b hb)

-- No item writes an argument, so a final memory that agrees with the last boundary holds every argument as launched.
theorem args_end (s : MemSt nD τ sig (Elt F)) (h : ∀ b ∈ Pipeline.ucRefs τ sig, s.mem ((c : Thread nD τ).1, b) = W10 m c b) :
    mainArgs.Forall fun b => s.mem ((c.tc : Thread nD τ).loc b) = m ((c.tc : Thread nD τ).loc b) :=
  List.forall_iff_forall_mem.mpr fun b hb =>
    (h _ (mem_uc b ((show ∀ b ∈ mainArgs, ¬ (Proc.devRef .tc b : DevRef τ sig).isScoped from by decide) b hb))).trans (W10_args m c b hb)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => args_end m c r.2 (h c)) (run_all m ρ)

end Cert.Kernel.HandRun

end
-- ==== Proof.KI.Region0.lean ====
import proofs.«139342_j40218073759787_2_alg».proof.Proof.Gen.KernelIdeal.Launch
import proofs.«139342_j40218073759787_2_alg».proof.Proof.Gen.KernelIdeal.Skeleton
import proofs.«139342_j40218073759787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the entry contents of its array.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x1024 := Rect.unit (s := S1024x1024) ![0, 0] S1024x1024.size inb_S1024x1024_S1024x1024_0_0

-- The transposed block, as a function of the input block.
def out0_1 (x0 : Vec F S1024x1024 .f32) : Vec F S1024x1024 .f32 :=
  View.canon [⟨r0_0, k0_pay1 (View.ld x0 r0_0)⟩]

-- The body leaves its input as it finds it and ends with the output at `out0_1` of it, whatever the output held before.
set_option maxHeartbeats 1000000 in
theorem sound_kernel0 (c : Dev nD) (E : Set ℕ) (i : grid0.Coords) (arg2 : Memref sig .tc .vmem S1024x1024 .f32) (harg2) (arg3 : Memref sig .tc .vmem S1024x1024 .f32) (harg3)
    (x0) (K : PUnit → sProp 𝕄) :
    iprop(owns c arg2 fullShare x0 ∗ (∃ d, owns c arg3 fullShare d)
        ∗ (iprop(owns c arg2 fullShare x0 ∗ owns c arg3 fullShare (out0_1 x0)) -∗ K ⟨⟩))
      ⊢ wp frame (wpE (defs₀ (F := F)) Variants.none c none) E (cc0__transpose_kernel i arg2 harg2 arg3 harg3) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled _ S1024x1024.size (by rfl))

-- The input window keeps its block; the output window ends at the transposed block at the point.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = out0_1 (iblk0 V c 0 t) := by dsimp only [dat0]

-- An input the body leaves in place holds its block at every point, so the body's triple applies there.
theorem sound_body0 (c : Dev nD) (t : Fin cfg0.N) :
    iprop((dat0 V c).Φ t.castSucc ∗ (dat0 V c).owesAt () t.castSucc
        ∗ bigSep Finset.univ fun w : Fin cfg0.W => iprop(∃ d, owns c ((cfg0.win w).stage (cfg0.slots t w)) fullShare ((dat0 V c).before w t d)))
      ⊢ wp frame (wpE (defs₀ (F := F)) Variants.none c none) Set.univ (bodyAt0 t) fun _ =>
        iprop((dat0 V c).Φ t.succ ∗ (dat0 V c).owesAt () t.succ
          ∗ bigSep Finset.univ fun w : Fin cfg0.W => owns c ((cfg0.win w).stage (cfg0.slots t w)) fullShare ((dat0 V c).after w t)) := by
  rw [bigSep_W0, bigSep_W0]; unfold bodyAt0
  simp only [(dat0 V c).before_in_eq_fetched 0 rfl (fun _ => rfl) (fun _ _ _ => rfl) fun _ => rfl]
  rw [show (dat0 V c).Φ t.succ = (dat0 V c).Φ t.castSucc from rfl,
    show (dat0 V c).owesAt () t.succ = (dat0 V c).owesAt () t.castSucc from rfl, after0_1]
  iintro ⟨HΦ, Ho, ⟨%d0, H0⟩, ⟨%d1, H1⟩⟩
  iapply (sound_kernel0 c Set.univ _ _ _ _ _ _ _)
  isplitl [H0]; · iexact H0
  isplitl [H1]; · iexists _; iexact H1
  iintro ⟨H0, H1⟩
  isplitl [HΦ]; · iexact HΦ
  isplitl [Ho]; · iexact Ho
  isplitl [H0]; · iexact H0
  iexact H1

-- The same, with the product over the windows written out.
theorem body_obligation0 (c : Dev nD) : BodyObligation (dat0 (F := F) V c) (defs₀ (F := F)) Variants.none () Set.univ := fun t => by
  have h := sound_body0 V c t
  rw [bigSep_W0, bigSep_W0] at h ⊢
  exact h

end Cert.KernelIdeal.Hand

end
-- ==== Proof.KI.Region1.lean ====
import proofs.«139342_j40218073759787_2_alg».proof.Proof.Gen.KernelIdeal.Launch
import proofs.«139342_j40218073759787_2_alg».proof.Proof.Gen.KernelIdeal.Skeleton
import proofs.«139342_j40218073759787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the entry contents of its array.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_h : Rect S1024x1024 := Rect.unit (s := S1024x1024) ![0, 0] S1024x1024.size inb_S1024x1024_S1024x1024_0_0
abbrev r1_w : Rect S512x1024 := Rect.unit (s := S512x1024) ![0, 0] S512x1024.size inb_S512x1024_S512x1024_0_0
abbrev r1_b : Rect S1x512 := Rect.unit (s := S1x512) ![0, 0] S1x512.size inb_S1x512_S1x512_0_0
abbrev r1_s : Rect S1x1 := Rect.unit (s := S1x1) ![0, 0] S1x1.size inb_S1x1_S1x1_0_0
abbrev r1_z : Rect S1024x512 := Rect.unit (s := S1024x512) ![0, 0] S1024x512.size inb_S1024x512_S1024x512_0_0
abbrev r1_row : Rect S1x1024 := Rect.unit (s := S1x1024) ![0, 0] S1x1024.size inb_S1x1024_S1x1024_0_0

-- The projected block, as a function of the three input blocks it is computed from.
def out1_7 (x0 : Vec F S1024x1024 .f32) (x1 : Vec F S512x1024 .f32) (x2 : Vec F S1x512 .f32) : Vec F S1024x512 .bf16 :=
  View.canon [⟨r1_z, k1_pay1 (View.ld x0 r1_h) (View.ld x1 r1_w) (View.ld x2 r1_b)⟩]

-- A score row: the projected block against a scoring row, plus its bias, as a row.
def out1_8 (x0 : Vec F S1024x1024 .f32) (x1 : Vec F S512x1024 .f32) (x2 : Vec F S1x512 .f32) (x3 : Vec F S1x512 .f32) (x4 : Vec F S1x1 .f32) : Vec F S1x1024 .f32 :=
  View.canon [⟨r1_row, k1_pay2 (View.ld x0 r1_h) (View.ld x1 r1_w) (View.ld x2 r1_b) (View.ld x3 r1_b) (View.ld x4 r1_s)⟩]

def out1_9 (x0 : Vec F S1024x1024 .f32) (x1 : Vec F S512x1024 .f32) (x2 : Vec F S1x512 .f32) (x5 : Vec F S1x512 .f32) (x6 : Vec F S1x1 .f32) : Vec F S1x1024 .f32 :=
  View.canon [⟨r1_row, k1_pay3 (View.ld x0 r1_h) (View.ld x1 r1_w) (View.ld x2 r1_b) (View.ld x5 r1_b) (View.ld x6 r1_s)⟩]

-- The body leaves its seven inputs as it finds them and ends with the outputs at `out1_7`, `out1_8`, `out1_9` of them, whatever the outputs held before.
set_option maxHeartbeats 4000000 in
theorem sound_kernel1 (c : Dev nD) (E : Set ℕ) (i : grid1.Coords)
    (arg1 : Memref sig .tc .vmem S1024x1024 .f32) (harg1) (arg2 : Memref sig .tc .vmem S512x1024 .f32) (harg2)
    (arg3 : Memref sig .tc .vmem S1x512 .f32) (harg3) (arg4 : Memref sig .tc .vmem S1x512 .f32) (harg4)
    (arg5 : Memref sig .tc .vmem S1x1 .f32) (harg5) (arg6 : Memref sig .tc .vmem S1x512 .f32) (harg6)
    (arg7 : Memref sig .tc .vmem S1x1 .f32) (harg7) (arg8 : Memref sig .tc .vmem S1024x512 .bf16) (harg8)
    (arg9 : Memref sig .tc .vmem S1x1024 .f32) (harg9) (arg10 : Memref sig .tc .vmem S1x1024 .f32) (harg10)
    (x0 x1 x2 x3 x4 x5 x6) (K : PUnit → sProp 𝕄) :
    iprop(((owns c arg8 fullShare (out1_7 x0 x1 x2) ∗ owns c arg9 fullShare (out1_8 x0 x1 x2 x3 x4)
          ∗ owns c arg10 fullShare (out1_9 x0 x1 x2 x5 x6) ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6) -∗ K ⟨⟩)
        ∗ (∃ d, owns c arg8 fullShare d) ∗ (∃ d, owns c arg9 fullShare d) ∗ (∃ d, owns c arg10 fullShare d)
        ∗ owns c arg1 fullShare x0 ∗ owns c arg2 fullShare x1 ∗ owns c arg3 fullShare x2
        ∗ owns c arg4 fullShare x3 ∗ owns c arg5 fullShare x4 ∗ owns c arg6 fullShare x5
        ∗ owns c arg7 fullShare x6)
      ⊢ wp frame (wpE (defs₀ (F := F)) Variants.none c none) E
          (cc1__proj_kernel i arg1 harg1 arg2 harg2 arg3 harg3 arg4 harg4 arg5 harg5 arg6 harg6 arg7 harg7 arg8 harg8 arg9 harg9 arg10 harg10) K := by
  simp only [cc1__proj_kernel_eq_skeleton]; unfold cc1__proj_kernel_skel
  simp only [k1_part1_eq_skeleton]; unfold k1_part1_skel
  unfold owns
  iintro ⟨Hk, ⟨%d7, %f7, -, H7⟩, ⟨%d8, %f8, -, H8⟩, ⟨%d9, %f9, -, H9⟩, ⟨%f0, %hf0, H0⟩, ⟨%f1, %hf1, H1⟩, ⟨%f2, %hf2, H2⟩, ⟨%f3, %hf3, H3⟩,
    ⟨%f4, %hf4, H4⟩, ⟨%f5, %hf5, H5⟩, ⟨%f6, %hf6, H6⟩⟩
  subst hf0 hf1 hf2 hf3 hf4 hf5 hf6
  sl_exec
  sl_step
  iapply Hk
  isplitl [H7]
  · iexists _; isplitr
    swap; · iexact H7
    ipureintro
    exact View.read_writes_eq_canon _ _ _ (View.cover_of_tiled _ S1024x512.size (by rfl))
  isplitl [H8]
  · iexists _; isplitr
    swap; · iexact H8
    ipureintro
    exact View.read_writes_eq_canon _ _ _ (View.cover_of_tiled _ S1x1024.size (by rfl))
  isplitl [H9]
  · iexists _; isplitr
    swap; · iexact H9
    ipureintro
    exact View.read_writes_eq_canon _ _ _ (View.cover_of_tiled _ S1x1024.size (by rfl))
  sl_close

-- Every input window keeps its block; every output window ends at its payload over the blocks at the point.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t)
    | ⟨8, _⟩ => out1_8 (iblk1 V c 0 t) (iblk1 V c 1 t) (iblk1 V c 2 t) (iblk1 V c 3 t) (iblk1 V c 4 t)
    | ⟨9, _⟩ => out1_9 (iblk1 V c 0 t) (iblk1 V c 1 t) (iblk1 V c 2 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) :
    (dat1 V c).after 7 t = out1_7 (iblk1 V c 0 t) (iblk1 V c 1 t) (iblk1 V c 2 t) := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) := by dsimp only [dat1]
theorem after1_9 (c : Dev nD) (t : Fin cfg1.N) :
    (dat1 V c).after 9 t = out1_9 (iblk1 V c 0 t) (iblk1 V c 1 t) (iblk1 V c 2 t) (iblk1 V c 5 t) (iblk1 V c 6 t) := by dsimp only [dat1]

-- An input the body leaves in place holds its block at every point, so the body's triple applies there.
set_option maxHeartbeats 2000000 in
theorem sound_body1 (c : Dev nD) (t : Fin cfg1.N) :
    iprop((dat1 V c).Φ t.castSucc ∗ (dat1 V c).owesAt () t.castSucc
        ∗ bigSep Finset.univ fun w : Fin cfg1.W => iprop(∃ d, owns c ((cfg1.win w).stage (cfg1.slots t w)) fullShare ((dat1 V c).before w t d)))
      ⊢ wp frame (wpE (defs₀ (F := F)) Variants.none c none) Set.univ (bodyAt1 t) fun _ =>
        iprop((dat1 V c).Φ t.succ ∗ (dat1 V c).owesAt () t.succ
          ∗ bigSep Finset.univ fun w : Fin cfg1.W => owns c ((cfg1.win w).stage (cfg1.slots t w)) fullShare ((dat1 V c).after w t)) := by
  rw [bigSep_W1, bigSep_W1]; unfold bodyAt1
  have hb := (dat1 V c).before_in_eq_fetched
  simp only [hb 0 rfl (fun _ => rfl) (fun _ _ _ => rfl) fun _ => rfl,
    hb 1 rfl (fun _ => rfl) (fun _ _ _ => rfl) fun _ => rfl,
    hb 2 rfl (fun _ => rfl) (fun _ _ _ => rfl) fun _ => rfl,
    hb 3 rfl (fun _ => rfl) (fun _ _ _ => rfl) fun _ => rfl,
    hb 4 rfl (fun _ => rfl) (fun _ _ _ => rfl) fun _ => rfl,
    hb 5 rfl (fun _ => rfl) (fun _ _ _ => rfl) fun _ => rfl,
    hb 6 rfl (fun _ => rfl) (fun _ _ _ => rfl) fun _ => rfl]
  rw [show (dat1 V c).Φ t.succ = (dat1 V c).Φ t.castSucc from rfl,
    show (dat1 V c).owesAt () t.succ = (dat1 V c).owesAt () t.castSucc from rfl,
    after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ _ _ _ _ _ _ _ _)
  isplitl [HΦ Ho]
  swap
  · isplitl [H7]; · iexists _; iexact H7
    isplitl [H8]; · iexists _; iexact H8
    isplitl [H9]; · iexists _; iexact H9
    isplitl [H0]; · iexact H0
    isplitl [H1]; · iexact H1
    isplitl [H2]; · iexact H2
    isplitl [H3]; · iexact H3
    isplitl [H4]; · iexact H4
    isplitl [H5]; · iexact H5
    iexact H6
  iintro ⟨H7, H8, H9, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

-- The same, with the product over the windows written out.
theorem body_obligation1 (c : Dev nD) : BodyObligation (dat1 (F := F) V c) (defs₀ (F := F)) Variants.none () Set.univ := fun t => by
  have h := sound_body1 V c t
  rw [bigSep_W1, bigSep_W1] at h ⊢
  exact h

end Cert.KernelIdeal.Hand

end
-- ==== Proof.KI.Region3.lean ====
import proofs.«139342_j40218073759787_2_alg».proof.Proof.Gen.KernelIdeal.Launch
import proofs.«139342_j40218073759787_2_alg».proof.Proof.Gen.KernelIdeal.Skeleton
import proofs.«139342_j40218073759787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the entry contents of its array.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_h : Rect S1024x512 := Rect.unit (s := S1024x512) ![0, 0] S1024x512.size inb_S1024x512_S1024x512_0_0
abbrev r3_w : Rect S256x512 := Rect.unit (s := S256x512) ![0, 0] S256x512.size inb_S256x512_S256x512_0_0
abbrev r3_b : Rect S1x256 := Rect.unit (s := S1x256) ![0, 0] S1x256.size inb_S1x256_S1x256_0_0
abbrev r3_s : Rect S1x1 := Rect.unit (s := S1x1) ![0, 0] S1x1.size inb_S1x1_S1x1_0_0
abbrev r3_z : Rect S1024x256 := Rect.unit (s := S1024x256) ![0, 0] S1024x256.size inb_S1024x256_S1024x256_0_0
abbrev r3_row : Rect S1x1024 := Rect.unit (s := S1x1024) ![0, 0] S1x1024.size inb_S1x1024_S1x1024_0_0

-- The projected block, as a function of the three input blocks it is computed from.
def out3_7 (x0 : Vec F S1024x512 .f32) (x1 : Vec F S256x512 .f32) (x2 : Vec F S1x256 .f32) : Vec F S1024x256 .bf16 :=
  View.canon [⟨r3_z, k3_pay1 (View.ld x0 r3_h) (View.ld x1 r3_w) (View.ld x2 r3_b)⟩]

-- A score row: the projected block against a scoring row, plus its bias, as a row.
def out3_8 (x0 : Vec F S1024x512 .f32) (x1 : Vec F S256x512 .f32) (x2 : Vec F S1x256 .f32) (x3 : Vec F S1x256 .f32) (x4 : Vec F S1x1 .f32) : Vec F S1x1024 .f32 :=
  View.canon [⟨r3_row, k3_pay2 (View.ld x0 r3_h) (View.ld x1 r3_w) (View.ld x2 r3_b) (View.ld x3 r3_b) (View.ld x4 r3_s)⟩]

def out3_9 (x0 : Vec F S1024x512 .f32) (x1 : Vec F S256x512 .f32) (x2 : Vec F S1x256 .f32) (x5 : Vec F S1x256 .f32) (x6 : Vec F S1x1 .f32) : Vec F S1x1024 .f32 :=
  View.canon [⟨r3_row, k3_pay3 (View.ld x0 r3_h) (View.ld x1 r3_w) (View.ld x2 r3_b) (View.ld x5 r3_b) (View.ld x6 r3_s)⟩]

-- The body leaves its seven inputs as it finds them and ends with the outputs at `out3_7`, `out3_8`, `out3_9` of them, whatever the outputs held before.
set_option maxHeartbeats 4000000 in
theorem sound_kernel3 (c : Dev nD) (E : Set ℕ) (i : grid3.Coords)
    (arg1 : Memref sig .tc .vmem S1024x512 .f32) (harg1) (arg2 : Memref sig .tc .vmem S256x512 .f32) (harg2)
    (arg3 : Memref sig .tc .vmem S1x256 .f32) (harg3) (arg4 : Memref sig .tc .vmem S1x256 .f32) (harg4)
    (arg5 : Memref sig .tc .vmem S1x1 .f32) (harg5) (arg6 : Memref sig .tc .vmem S1x256 .f32) (harg6)
    (arg7 : Memref sig .tc .vmem S1x1 .f32) (harg7) (arg8 : Memref sig .tc .vmem S1024x256 .bf16) (harg8)
    (arg9 : Memref sig .tc .vmem S1x1024 .f32) (harg9) (arg10 : Memref sig .tc .vmem S1x1024 .f32) (harg10)
    (x0 x1 x2 x3 x4 x5 x6) (K : PUnit → sProp 𝕄) :
    iprop(((owns c arg8 fullShare (out3_7 x0 x1 x2) ∗ owns c arg9 fullShare (out3_8 x0 x1 x2 x3 x4)
          ∗ owns c arg10 fullShare (out3_9 x0 x1 x2 x5 x6) ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6) -∗ K ⟨⟩)
        ∗ (∃ d, owns c arg8 fullShare d) ∗ (∃ d, owns c arg9 fullShare d) ∗ (∃ d, owns c arg10 fullShare d)
        ∗ owns c arg1 fullShare x0 ∗ owns c arg2 fullShare x1 ∗ owns c arg3 fullShare x2
        ∗ owns c arg4 fullShare x3 ∗ owns c arg5 fullShare x4 ∗ owns c arg6 fullShare x5
        ∗ owns c arg7 fullShare x6)
      ⊢ wp frame (wpE (defs₀ (F := F)) Variants.none c none) E
          (cc3__proj_kernel i arg1 harg1 arg2 harg2 arg3 harg3 arg4 harg4 arg5 harg5 arg6 harg6 arg7 harg7 arg8 harg8 arg9 harg9 arg10 harg10) K := by
  simp only [cc3__proj_kernel_eq_skeleton]; unfold cc3__proj_kernel_skel
  simp only [k3_part1_eq_skeleton]; unfold k3_part1_skel
  unfold owns
  iintro ⟨Hk, ⟨%d7, %f7, -, H7⟩, ⟨%d8, %f8, -, H8⟩, ⟨%d9, %f9, -, H9⟩, ⟨%f0, %hf0, H0⟩, ⟨%f1, %hf1, H1⟩, ⟨%f2, %hf2, H2⟩, ⟨%f3, %hf3, H3⟩,
    ⟨%f4, %hf4, H4⟩, ⟨%f5, %hf5, H5⟩, ⟨%f6, %hf6, H6⟩⟩
  subst hf0 hf1 hf2 hf3 hf4 hf5 hf6
  sl_exec
  sl_step
  iapply Hk
  isplitl [H7]
  · iexists _; isplitr
    swap; · iexact H7
    ipureintro
    exact View.read_writes_eq_canon _ _ _ (View.cover_of_tiled _ S1024x256.size (by rfl))
  isplitl [H8]
  · iexists _; isplitr
    swap; · iexact H8
    ipureintro
    exact View.read_writes_eq_canon _ _ _ (View.cover_of_tiled _ S1x1024.size (by rfl))
  isplitl [H9]
  · iexists _; isplitr
    swap; · iexact H9
    ipureintro
    exact View.read_writes_eq_canon _ _ _ (View.cover_of_tiled _ S1x1024.size (by rfl))
  sl_close

-- Every input window keeps its block; every output window ends at its payload over the blocks at the point.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t)
    | ⟨8, _⟩ => out3_8 (iblk3 V c 0 t) (iblk3 V c 1 t) (iblk3 V c 2 t) (iblk3 V c 3 t) (iblk3 V c 4 t)
    | ⟨9, _⟩ => out3_9 (iblk3 V c 0 t) (iblk3 V c 1 t) (iblk3 V c 2 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) :
    (dat3 V c).after 7 t = out3_7 (iblk3 V c 0 t) (iblk3 V c 1 t) (iblk3 V c 2 t) := by dsimp only [dat3]
theorem after3_8 (c : Dev nD) (t : Fin cfg3.N) :
    (dat3 V c).after 8 t = out3_8 (iblk3 V c 0 t) (iblk3 V c 1 t) (iblk3 V c 2 t) (iblk3 V c 3 t) (iblk3 V c 4 t) := by dsimp only [dat3]
theorem after3_9 (c : Dev nD) (t : Fin cfg3.N) :
    (dat3 V c).after 9 t = out3_9 (iblk3 V c 0 t) (iblk3 V c 1 t) (iblk3 V c 2 t) (iblk3 V c 5 t) (iblk3 V c 6 t) := by dsimp only [dat3]

-- An input the body leaves in place holds its block at every point, so the body's triple applies there.
set_option maxHeartbeats 2000000 in
theorem sound_body3 (c : Dev nD) (t : Fin cfg3.N) :
    iprop((dat3 V c).Φ t.castSucc ∗ (dat3 V c).owesAt () t.castSucc
        ∗ bigSep Finset.univ fun w : Fin cfg3.W => iprop(∃ d, owns c ((cfg3.win w).stage (cfg3.slots t w)) fullShare ((dat3 V c).before w t d)))
      ⊢ wp frame (wpE (defs₀ (F := F)) Variants.none c none) Set.univ (bodyAt3 t) fun _ =>
        iprop((dat3 V c).Φ t.succ ∗ (dat3 V c).owesAt () t.succ
          ∗ bigSep Finset.univ fun w : Fin cfg3.W => owns c ((cfg3.win w).stage (cfg3.slots t w)) fullShare ((dat3 V c).after w t)) := by
  rw [bigSep_W3, bigSep_W3]; unfold bodyAt3
  have hb := (dat3 V c).before_in_eq_fetched
  simp only [hb 0 rfl (fun _ => rfl) (fun _ _ _ => rfl) fun _ => rfl,
    hb 1 rfl (fun _ => rfl) (fun _ _ _ => rfl) fun _ => rfl,
    hb 2 rfl (fun _ => rfl) (fun _ _ _ => rfl) fun _ => rfl,
    hb 3 rfl (fun _ => rfl) (fun _ _ _ => rfl) fun _ => rfl,
    hb 4 rfl (fun _ => rfl) (fun _ _ _ => rfl) fun _ => rfl,
    hb 5 rfl (fun _ => rfl) (fun _ _ _ => rfl) fun _ => rfl,
    hb 6 rfl (fun _ => rfl) (fun _ _ _ => rfl) fun _ => rfl]
  rw [show (dat3 V c).Φ t.succ = (dat3 V c).Φ t.castSucc from rfl,
    show (dat3 V c).owesAt () t.succ = (dat3 V c).owesAt () t.castSucc from rfl,
    after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ _ _ _ _ _ _ _ _)
  isplitl [HΦ Ho]
  swap
  · isplitl [H7]; · iexists _; iexact H7
    isplitl [H8]; · iexists _; iexact H8
    isplitl [H9]; · iexists _; iexact H9
    isplitl [H0]; · iexact H0
    isplitl [H1]; · iexact H1
    isplitl [H2]; · iexact H2
    isplitl [H3]; · iexact H3
    isplitl [H4]; · iexact H4
    isplitl [H5]; · iexact H5
    iexact H6
  iintro ⟨H7, H8, H9, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

-- The same, with the product over the windows written out.
theorem body_obligation3 (c : Dev nD) : BodyObligation (dat3 (F := F) V c) (defs₀ (F := F)) Variants.none () Set.univ := fun t => by
  have h := sound_body3 V c t
  rw [bigSep_W3, bigSep_W3] at h ⊢
  exact h

end Cert.KernelIdeal.Hand

end
-- ==== Proof.KI.Region5.lean ====
import proofs.«139342_j40218073759787_2_alg».proof.Proof.Gen.KernelIdeal.Launch
import proofs.«139342_j40218073759787_2_alg».proof.Proof.Gen.KernelIdeal.Skeleton
import proofs.«139342_j40218073759787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the entry contents of its array.
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_h : Rect S1024x256 := Rect.unit (s := S1024x256) ![0, 0] S1024x256.size inb_S1024x256_S1024x256_0_0
abbrev r5_w : Rect S64x256 := Rect.unit (s := S64x256) ![0, 0] S64x256.size inb_S64x256_S64x256_0_0
abbrev r5_b : Rect S1x64 := Rect.unit (s := S1x64) ![0, 0] S1x64.size inb_S1x64_S1x64_0_0
abbrev r5_s : Rect S1x1 := Rect.unit (s := S1x1) ![0, 0] S1x1.size inb_S1x1_S1x1_0_0
abbrev r5_z : Rect S1024x64 := Rect.unit (s := S1024x64) ![0, 0] S1024x64.size inb_S1024x64_S1024x64_0_0
abbrev r5_row : Rect S1x1024 := Rect.unit (s := S1x1024) ![0, 0] S1x1024.size inb_S1x1024_S1x1024_0_0

-- The projected block, as a function of the three input blocks it is computed from.
def out5_7 (x0 : Vec F S1024x256 .f32) (x1 : Vec F S64x256 .f32) (x2 : Vec F S1x64 .f32) : Vec F S1024x64 .bf16 :=
  View.canon [⟨r5_z, k5_pay1 (View.ld x0 r5_h) (View.ld x1 r5_w) (View.ld x2 r5_b)⟩]

-- A score row: the projected block against a scoring row, plus its bias, as a row.
def out5_8 (x0 : Vec F S1024x256 .f32) (x1 : Vec F S64x256 .f32) (x2 : Vec F S1x64 .f32) (x3 : Vec F S1x64 .f32) (x4 : Vec F S1x1 .f32) : Vec F S1x1024 .f32 :=
  View.canon [⟨r5_row, k5_pay2 (View.ld x0 r5_h) (View.ld x1 r5_w) (View.ld x2 r5_b) (View.ld x3 r5_b) (View.ld x4 r5_s)⟩]

def out5_9 (x0 : Vec F S1024x256 .f32) (x1 : Vec F S64x256 .f32) (x2 : Vec F S1x64 .f32) (x5 : Vec F S1x64 .f32) (x6 : Vec F S1x1 .f32) : Vec F S1x1024 .f32 :=
  View.canon [⟨r5_row, k5_pay3 (View.ld x0 r5_h) (View.ld x1 r5_w) (View.ld x2 r5_b) (View.ld x5 r5_b) (View.ld x6 r5_s)⟩]

-- The body leaves its seven inputs as it finds them and ends with the outputs at `out5_7`, `out5_8`, `out5_9` of them, whatever the outputs held before.
set_option maxHeartbeats 4000000 in
theorem sound_kernel5 (c : Dev nD) (E : Set ℕ) (i : grid5.Coords)
    (arg1 : Memref sig .tc .vmem S1024x256 .f32) (harg1) (arg2 : Memref sig .tc .vmem S64x256 .f32) (harg2)
    (arg3 : Memref sig .tc .vmem S1x64 .f32) (harg3) (arg4 : Memref sig .tc .vmem S1x64 .f32) (harg4)
    (arg5 : Memref sig .tc .vmem S1x1 .f32) (harg5) (arg6 : Memref sig .tc .vmem S1x64 .f32) (harg6)
    (arg7 : Memref sig .tc .vmem S1x1 .f32) (harg7) (arg8 : Memref sig .tc .vmem S1024x64 .bf16) (harg8)
    (arg9 : Memref sig .tc .vmem S1x1024 .f32) (harg9) (arg10 : Memref sig .tc .vmem S1x1024 .f32) (harg10)
    (x0 x1 x2 x3 x4 x5 x6) (K : PUnit → sProp 𝕄) :
    iprop(((owns c arg8 fullShare (out5_7 x0 x1 x2) ∗ owns c arg9 fullShare (out5_8 x0 x1 x2 x3 x4)
          ∗ owns c arg10 fullShare (out5_9 x0 x1 x2 x5 x6) ∗ owns c arg1 fullShare x0 ∗ owns c arg2 fullShare x1 ∗ owns c arg3 fullShare x2
          ∗ owns c arg4 fullShare x3 ∗ owns c arg5 fullShare x4 ∗ owns c arg6 fullShare x5
          ∗ owns c arg7 fullShare x6) -∗ K ⟨⟩)
        ∗ (∃ d, owns c arg8 fullShare d) ∗ (∃ d, owns c arg9 fullShare d) ∗ (∃ d, owns c arg10 fullShare d)
        ∗ owns c arg1 fullShare x0 ∗ owns c arg2 fullShare x1 ∗ owns c arg3 fullShare x2
        ∗ owns c arg4 fullShare x3 ∗ owns c arg5 fullShare x4 ∗ owns c arg6 fullShare x5
        ∗ owns c arg7 fullShare x6)
      ⊢ wp frame (wpE (defs₀ (F := F)) Variants.none c none) E
          (cc5__proj_kernel i arg1 harg1 arg2 harg2 arg3 harg3 arg4 harg4 arg5 harg5 arg6 harg6 arg7 harg7 arg8 harg8 arg9 harg9 arg10 harg10) K := by
  simp only [cc5__proj_kernel_eq_skeleton]; unfold cc5__proj_kernel_skel
  simp only [k5_part1_eq_skeleton]; unfold k5_part1_skel
  unfold owns
  iintro ⟨Hk, ⟨%d7, %f7, -, H7⟩, ⟨%d8, %f8, -, H8⟩, ⟨%d9, %f9, -, H9⟩, ⟨%f0, %hf0, H0⟩, ⟨%f1, %hf1, H1⟩, ⟨%f2, %hf2, H2⟩, ⟨%f3, %hf3, H3⟩,
    ⟨%f4, %hf4, H4⟩, ⟨%f5, %hf5, H5⟩, ⟨%f6, %hf6, H6⟩⟩
  subst hf0 hf1 hf2 hf3 hf4 hf5 hf6
  sl_exec
  sl_step
  iapply Hk
  isplitl [H7]
  · iexists _; isplitr
    swap; · iexact H7
    ipureintro
    exact View.read_writes_eq_canon _ _ _ (View.cover_of_tiled _ S1024x64.size (by rfl))
  isplitl [H8]
  · iexists _; isplitr
    swap; · iexact H8
    ipureintro
    exact View.read_writes_eq_canon _ _ _ (View.cover_of_tiled _ S1x1024.size (by rfl))
  isplitl [H9]
  · iexists _; isplitr
    swap; · iexact H9
    ipureintro
    exact View.read_writes_eq_canon _ _ _ (View.cover_of_tiled _ S1x1024.size (by rfl))
  sl_close

-- Every input window keeps its block; every output window ends at its payload over the blocks at the point.
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t)
    | ⟨8, _⟩ => out5_8 (iblk5 V c 0 t) (iblk5 V c 1 t) (iblk5 V c 2 t) (iblk5 V c 3 t) (iblk5 V c 4 t)
    | ⟨9, _⟩ => out5_9 (iblk5 V c 0 t) (iblk5 V c 1 t) (iblk5 V c 2 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_7 (c : Dev nD) (t : Fin cfg5.N) :
    (dat5 V c).after 7 t = out5_7 (iblk5 V c 0 t) (iblk5 V c 1 t) (iblk5 V c 2 t) := by dsimp only [dat5]
theorem after5_8 (c : Dev nD) (t : Fin cfg5.N) :
    (dat5 V c).after 8 t = out5_8 (iblk5 V c 0 t) (iblk5 V c 1 t) (iblk5 V c 2 t) (iblk5 V c 3 t) (iblk5 V c 4 t) := by dsimp only [dat5]
theorem after5_9 (c : Dev nD) (t : Fin cfg5.N) :
    (dat5 V c).after 9 t = out5_9 (iblk5 V c 0 t) (iblk5 V c 1 t) (iblk5 V c 2 t) (iblk5 V c 5 t) (iblk5 V c 6 t) := by dsimp only [dat5]

-- An input the body leaves in place holds its block at every point, so the body's triple applies there.
set_option maxHeartbeats 2000000 in
theorem sound_body5 (c : Dev nD) (t : Fin cfg5.N) :
    iprop((dat5 V c).Φ t.castSucc ∗ (dat5 V c).owesAt () t.castSucc
        ∗ bigSep Finset.univ fun w : Fin cfg5.W => iprop(∃ d, owns c ((cfg5.win w).stage (cfg5.slots t w)) fullShare ((dat5 V c).before w t d)))
      ⊢ wp frame (wpE (defs₀ (F := F)) Variants.none c none) Set.univ (bodyAt5 t) fun _ =>
        iprop((dat5 V c).Φ t.succ ∗ (dat5 V c).owesAt () t.succ
          ∗ bigSep Finset.univ fun w : Fin cfg5.W => owns c ((cfg5.win w).stage (cfg5.slots t w)) fullShare ((dat5 V c).after w t)) := by
  rw [bigSep_W5, bigSep_W5]; unfold bodyAt5
  have hb := (dat5 V c).before_in_eq_fetched
  simp only [hb 0 rfl (fun _ => rfl) (fun _ _ _ => rfl) fun _ => rfl,
    hb 1 rfl (fun _ => rfl) (fun _ _ _ => rfl) fun _ => rfl,
    hb 2 rfl (fun _ => rfl) (fun _ _ _ => rfl) fun _ => rfl,
    hb 3 rfl (fun _ => rfl) (fun _ _ _ => rfl) fun _ => rfl,
    hb 4 rfl (fun _ => rfl) (fun _ _ _ => rfl) fun _ => rfl,
    hb 5 rfl (fun _ => rfl) (fun _ _ _ => rfl) fun _ => rfl,
    hb 6 rfl (fun _ => rfl) (fun _ _ _ => rfl) fun _ => rfl]
  rw [show (dat5 V c).Φ t.succ = (dat5 V c).Φ t.castSucc from rfl,
    show (dat5 V c).owesAt () t.succ = (dat5 V c).owesAt () t.castSucc from rfl,
    after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ _ _ _ _ _ _ _ _)
  isplitl [HΦ Ho]
  swap
  · isplitl [H7]; · iexists _; iexact H7
    isplitl [H8]; · iexists _; iexact H8
    isplitl [H9]; · iexists _; iexact H9
    isplitl [H0]; · iexact H0
    isplitl [H1]; · iexact H1
    isplitl [H2]; · iexact H2
    isplitl [H3]; · iexact H3
    isplitl [H4]; · iexact H4
    isplitl [H5]; · iexact H5
    iexact H6
  iintro ⟨H7, H8, H9, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

-- The same, with the product over the windows written out.
theorem body_obligation5 (c : Dev nD) : BodyObligation (dat5 (F := F) V c) (defs₀ (F := F)) Variants.none () Set.univ := fun t => by
  have h := sound_body5 V c t
  rw [bigSep_W5, bigSep_W5] at h ⊢
  exact h

end Cert.KernelIdeal.Hand

end
-- ==== Proof.KI.Glue.lean ====
import proofs.«139342_j40218073759787_2_alg».proof.Proof.KI.Region0
import proofs.«139342_j40218073759787_2_alg».proof.Proof.KI.Region1
import proofs.«139342_j40218073759787_2_alg».proof.Proof.KI.Region3
import proofs.«139342_j40218073759787_2_alg».proof.Proof.KI.Region5
noncomputable section
namespace Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)
open Cert.KernelIdeal Cert.KernelIdeal.Gen
variable {F : FTy → Type} [FloatOps F]
variable (V : (c : Dev nD) → (b : Ref sig .tc) → Buf (Elt F) ((c : Thread nD τ).loc b))
theorem hin0 (c : Dev nD) : Pipeline.ΦA spec0 c ⊢ (dat0 V c).Φ 0 := BIBase.Entails.rfl
theorem hout0 (c : Dev nD) : (dat0 V c).Φ (Fin.last cfg0.N) ⊢ Pipeline.ΦA spec0 c := BIBase.Entails.rfl
theorem hin1 (c : Dev nD) : Pipeline.ΦA spec1 c ⊢ (dat1 V c).Φ 0 := BIBase.Entails.rfl
theorem hout1 (c : Dev nD) : (dat1 V c).Φ (Fin.last cfg1.N) ⊢ Pipeline.ΦA spec1 c := BIBase.Entails.rfl
theorem hin3 (c : Dev nD) : Pipeline.ΦA spec3 c ⊢ (dat3 V c).Φ 0 := BIBase.Entails.rfl
theorem hout3 (c : Dev nD) : (dat3 V c).Φ (Fin.last cfg3.N) ⊢ Pipeline.ΦA spec3 c := BIBase.Entails.rfl
theorem hin5 (c : Dev nD) : Pipeline.ΦA spec5 c ⊢ (dat5 V c).Φ 0 := BIBase.Entails.rfl
theorem hout5 (c : Dev nD) : (dat5 V c).Φ (Fin.last cfg5.N) ⊢ Pipeline.ΦA spec5 c := BIBase.Entails.rfl
end Cert.KernelIdeal.Hand
end
-- ==== Proof.KI.Region2Runs.lean ====
/- The attention region: the body's run in its three control cases (first, middle and last block of columns) and what each case leaves in the output block and in the two carried sums. -/
import proofs.«139342_j40218073759787_2_alg».proof.Proof.Gen.KernelIdeal.Launch
import proofs.«139342_j40218073759787_2_alg».proof.Proof.Gen.KernelIdeal.Skeleton
import proofs.«139342_j40218073759787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
theorem liveAt2_5_C : ∀ t : Fin cfg2.N, ¬cond2_0 (grid2.coords t) → cond2_1 (grid2.coords t) → cfg2.idle 5 (grid2.coords t) = false := by decide +kernel
abbrev VO2_5 : View sig .tc .vmem S1024x512 .f32 := (win2_5.stage 0 : Memref sig .tc .vmem S1024x512 .f32).view
abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x512 .f32 := win2_5.stage (cfg2.slots t 5)
abbrev hs2_5 (t : Fin cfg2.N) : (ms2_5 t).IsWhole := hstage2_5 ((cfg2.slots t 5).cast nbuf2_5)
abbrev scM2_0 : Memref sig .tc .vmem S1024x1 .f32 := Memref.whole cc2_scratch0
abbrev scM2_1 : Memref sig .tc .vmem S1024x512 .f32 := Memref.whole cc2_scratch1
abbrev VS2_0 : View sig .tc .vmem S1024x1 .f32 := scM2_0.view
abbrev VS2_1 : View sig .tc .vmem S1024x512 .f32 := scM2_1.view
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl
section
variable (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole)
section
variable (hc0 : cond2_0 i) (hc1 : ¬cond2_1 i) (x0 : Vec F S1024x512 .f32) (x1 : Vec F S1024x512 .f32) (x2 : Vec F S512x512 .bf16) (x3 : Vec F S1x512 .f32) (x4 : Vec F S1x1024 .f32)
include hc0 hc1
set_option maxHeartbeats 1000000 in
noncomputable def kernelRun2_A :
    Σ' (LS0 : List (View.Piece (Elt F) S1024x1 .f32)), { LS1 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨?_, ?_, fun xi5 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover2_A_0 (y : S1024x1.Idx) : ∃ pc ∈ (kernelRun2_A c i arg2 harg2 arg3 harg3 arg4 harg4 arg5 harg5 arg6 harg6 arg7 harg7 arg8 harg8 arg9 harg9 hc0 hc1 x0 x1 x2 x3 x4).1, y ∈ pc.1.set :=
  View.cover_of_tiledL _ S1024x1.size (by sl_kernel_rfl) y
def sout2_A_0 : Vec F S1024x1 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4).1)
theorem scover2_A_1 (y : S1024x512.Idx) : ∃ pc ∈ (kernelRun2_A c i arg2 harg2 arg3 harg3 arg4 harg4 arg5 harg5 arg6 harg6 arg7 harg7 arg8 harg8 arg9 harg9 hc0 hc1 x0 x1 x2 x3 x4).2.1, y ∈ pc.1.set :=
  View.cover_of_tiledL _ S1024x512.size (by sl_kernel_rfl) y
def sout2_A_1 : Vec F S1024x512 .f32 :=
  VS2_1.read (Elt F) (VS2_1.writes (Elt F) VS2_1.junk (kernelRun2_A c i arg2 harg2 arg3 harg3 arg4 harg4 arg5 harg5 arg6 harg6 arg7 harg7 arg8 harg8 arg9 harg9 hc0 hc1 x0 x1 x2 x3 x4).2.1)
end
section
variable (hc0 : ¬cond2_0 i) (hc1 : ¬cond2_1 i) (x0 : Vec F S1024x512 .f32) (x1 : Vec F S1024x512 .f32) (x2 : Vec F S512x512 .bf16) (x3 : Vec F S1x512 .f32) (x4 : Vec F S1x1024 .f32) (xs0 : Vec F S1024x1 .f32) (xs1 : Vec F S1024x512 .f32)
include hc0 hc1
set_option maxHeartbeats 1000000 in
noncomputable def kernelRun2_B :
    Σ' (LS0 : List (View.Piece (Elt F) S1024x1 .f32)), { LS1 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨?_, ?_, fun xi5 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover2_B_0 (y : S1024x1.Idx) : ∃ pc ∈ (kernelRun2_B c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x1.size (by sl_kernel_rfl) y
def sout2_B_0 : Vec F S1024x1 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 xs0 xs1).1)
theorem scover2_B_1 (y : S1024x512.Idx) : ∃ pc ∈ (kernelRun2_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x512.size (by sl_kernel_rfl) y
def sout2_B_1 : Vec F S1024x512 .f32 :=
  VS2_1.read (Elt F) (VS2_1.writes (Elt F) VS2_1.junk (kernelRun2_B c i arg2 harg2 arg3 harg3 arg4 harg4 arg5 harg5 arg6 harg6 arg7 harg7 arg8 harg8 arg9 harg9 hc0 hc1 x0 x1 x2 x3 x4 xs0 xs1).2.1)
end
section
variable (hc0 : ¬cond2_0 i) (hc1 : cond2_1 i) (x0 : Vec F S1024x512 .f32) (x1 : Vec F S1024x512 .f32) (x2 : Vec F S512x512 .bf16) (x3 : Vec F S1x512 .f32) (x4 : Vec F S1x1024 .f32) (xs0 : Vec F S1024x1 .f32) (xs1 : Vec F S1024x512 .f32)
include hc0 hc1
set_option maxHeartbeats 1000000 in
noncomputable def kernelRun2_C :
    Σ' (L5 : List (View.Piece (Elt F) S1024x512 .f32)), Σ' (LS0 : List (View.Piece (Elt F) S1024x1 .f32)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨?_, ?_, ?_, fun E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4
    iapply Hk
    sl_close
theorem cover2_C_5 (y : S1024x512.Idx) : ∃ pc ∈ (kernelRun2_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x512.size (by sl_kernel_rfl) y
def out2_C_5 : Vec F S1024x512 .f32 :=
  VO2_5.read (Elt F) (VO2_5.writes (Elt F) VO2_5.junk (kernelRun2_C c i arg2 harg2 arg3 harg3 arg4 harg4 arg5 harg5 arg6 harg6 arg7 harg7 arg8 harg8 arg9 harg9 hc0 hc1 x0 x1 x2 x3 x4 xs0 xs1).1)
theorem scover2_C_0 (y : S1024x1.Idx) : ∃ pc ∈ (kernelRun2_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x1.size (by sl_kernel_rfl) y
def sout2_C_0 : Vec F S1024x1 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 xs0 xs1).2.1)
theorem scover2_C_1 (y : S1024x512.Idx) : ∃ pc ∈ (kernelRun2_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL _ S1024x512.size (by sl_kernel_rfl) y
def sout2_C_1 : Vec F S1024x512 .f32 :=
  VS2_1.read (Elt F) (VS2_1.writes (Elt F) VS2_1.junk (kernelRun2_C c i arg2 harg2 arg3 harg3 arg4 harg4 arg5 harg5 arg6 harg6 arg7 harg7 arg8 harg8 arg9 harg9 hc0 hc1 x0 x1 x2 x3 x4 xs0 xs1).2.2.1)
end
end
end Cert.KernelIdeal.Hand
end
-- ==== Proof.KI.Region2.lean ====
import proofs.«139342_j40218073759787_2_alg».proof.Proof.KI.Region2Runs
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def outIdle2_5 : Vec F S1024x512 .f32 := VO2_5.read (Elt F) VO2_5.junk
def outsAt2 (c : Dev nD) : (n : ℕ) → n < cfg2.N → Vec F S1024x512 .f32 × Vec F S1024x1 .f32 × Vec F S1024x512 .f32
  | 0, hn => (outIdle2_5, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 16 = 0 then
      if h1 : (n + 1) % 16 = 15 then
        False.elim (by omega)
      else
        (outIdle2_5, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 16 = 15 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)
      else
        (outIdle2_5, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)
theorem outsAt2_A (c : Dev nD) (t : Fin cfg2.N) (h0 : t.val % 16 = 0) (h1 : ¬t.val % 16 = 15) :
    outsAt2 V c t.val t.isLt = (outIdle2_5, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)
theorem outsAt2_B (c : Dev nD) (t : Fin cfg2.N) (h0 : ¬t.val % 16 = 0) (h1 : ¬t.val % 16 = 15) :
    outsAt2 V c t.val t.isLt = (outIdle2_5, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 16 = 0) (h1 : t.val % 16 = 15) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)
def PhiS2 (c : Dev nD) : (n : ℕ) → n ≤ cfg2.N → sProp 𝕄
  | 0, _ => Pipeline.ΦA spec2 c
  | n + 1, hn => iprop(iprop(iprop(owns c scM2_0 fullShare ((outsAt2 V c n hn).2.1) ∗ owns c scM2_1 fullShare ((outsAt2 V c n hn).2.2))
      ∗ Pipeline.scopedRestBut spec2 c [cc2_scratch0, cc2_scratch1]) ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns c scM2_0 fullShare ((outsAt2 V c n hn).2.1) ∗ owns c scM2_1 fullShare ((outsAt2 V c n hn).2.2))
      ∗ Pipeline.scopedRestBut spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns c scM2_0 fullShare ((outsAt2 V c (n - 1) (by omega)).2.1) ∗ owns c scM2_1 fullShare ((outsAt2 V c (n - 1) (by omega)).2.2))
      ∗ Pipeline.scopedRestBut spec2 c [cc2_scratch0, cc2_scratch1]) ∗ (∃ r, prngReg c r)) := by
  cases n with
  | zero => exact absurd rfl hz
  | succ n => rfl
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0
theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_5 (c : Dev nD) (t : Fin cfg2.N) : (dat2 V c).after 5 t = (outsAt2 V c t.val t.isLt).1 := by dsimp only [dat2]
set_option maxHeartbeats 4800000 in
theorem sound_body2 (c : Dev nD) (t : Fin cfg2.N) :
    iprop((dat2 V c).Φ t.castSucc ∗ (dat2 V c).owesAt () t.castSucc
        ∗ bigSep Finset.univ fun w : Fin cfg2.W => iprop(∃ d, owns c ((cfg2.win w).stage (cfg2.slots t w)) fullShare ((dat2 V c).before w t d)))
      ⊢ wp frame (wpE (defs₀ (F := F)) Variants.none c none) Set.univ (bodyAt2 t) fun _ =>
        iprop((dat2 V c).Φ t.succ ∗ (dat2 V c).owesAt () t.succ ∗ bigSep Finset.univ fun w : Fin cfg2.W => (dat2 V c).leavesExact w t) := by
  rw [bigSep_W2, bigSep_W2]; unfold bodyAt2
  simp only [(dat2 V c).before_in_eq_fetched 0 rfl (fun _ => rfl) (fun _ _ _ => rfl) (fun _ => rfl),
    (dat2 V c).before_in_eq_fetched 1 rfl (fun _ => rfl) (fun _ _ _ => rfl) (fun _ => rfl),
    (dat2 V c).before_in_eq_fetched 2 rfl (fun _ => rfl) (fun _ _ _ => rfl) (fun _ => rfl),
    (dat2 V c).before_in_eq_fetched 3 rfl (fun _ => rfl) (fun _ _ _ => rfl) (fun _ => rfl),
    (dat2 V c).before_in_eq_fetched 4 rfl (fun _ => rfl) (fun _ _ _ => rfl) (fun _ => rfl)]
  rw [show (dat2 V c).owesAt () t.succ = (dat2 V c).owesAt () t.castSucc from rfl]
  rw [show (dat2 V c).Φ t.succ = PhiS2 V c (t.val + 1) t.isLt from rfl, PhiS2_succ]
  have hl (w : Fin cfg2.W) (h : cfg2.idle w (grid2.coords t) = false) :
      (dat2 V c).leavesExact w t = owns c ((cfg2.win w).stage (cfg2.slots t w)) fullShare ((dat2 V c).after w t) := by
    unfold Dat.leavesExact; rw [h]
  rw [hl 0 (liveAt2_0 t), hl 1 (liveAt2_1 t), hl 2 (liveAt2_2 t), hl 3 (liveAt2_3 t), hl 4 (liveAt2_4 t)]
  by_cases h0 : t.val % 16 = 0
  · by_cases h1 : t.val % 16 = 15
    · exfalso; omega
    ·
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0 sout2_A_1; (try dsimp only)
      rw [PhiS2_castSucc V c t]
      by_cases hz : t.val = 0 <;> [rw [PhiS2_zero V c _ _ hz, PhiA2_eq]; rw [PhiS2_pos V c _ _ hz]]
      all_goals
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        isplitl [HS1]; · first | iexact HS1 | (iexists _; iexact HS1)
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _)
              · unfold owns; iexists _; isplitr
                swap; · iexact HS1
                ipureintro; exact View.read_writes_of_cover _ _ _ _ _ (scover2_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [hl 5 (liveAt2_5_C t (fun h => h0 ((hcond2_0 t).mp h)) ((hcond2_1 t).mpr h1)), after2_5]
      rw [outsAt2_C V c t h0 h1]
      unfold out2_C_5 sout2_C_0 sout2_C_1; (try dsimp only)
      by_cases hz : t.val = 0
      · exfalso; omega
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _ _)
              · unfold owns; iexists _; isplitr
                swap; · iexact HS1
                ipureintro; exact View.read_writes_of_cover _ _ _ _ _ (scover2_C_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _ _ _ _)
    ·
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0 sout2_B_1; (try dsimp only)
      by_cases hz : t.val = 0
      · exfalso; omega
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _ _)
              · unfold owns; iexists _; isplitr
                swap; · iexact HS1
                ipureintro; exact View.read_writes_of_cover _ _ _ _ _ (scover2_B_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
theorem body_obligation2 (c : Dev nD) : BodyObligation (dat2 (F := F) V c) (defs₀ (F := F)) Variants.none () Set.univ := fun t => by
  have h := sound_body2 V c t
  rw [bigSep_W2, bigSep_W2] at h ⊢
  exact h
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg
theorem hout2 (c : Dev nD) : (dat2 V c).Φ (Fin.last cfg2.N) ⊢ Pipeline.ΦA spec2 c :=
  Phi_out2 V c _ (by rw [Fin.val_last]; have : cfg2.N = 128 := N_2; omega)
end Cert.KernelIdeal.Hand
end
-- ==== Proof.KI.Region4Runs.lean ====
/- The attention region: the body's run in its three control cases (first, middle and last block of columns) and what each case leaves in the output block and in the two carried sums. -/
import proofs.«139342_j40218073759787_2_alg».proof.Proof.Gen.KernelIdeal.Launch
import proofs.«139342_j40218073759787_2_alg».proof.Proof.Gen.KernelIdeal.Skeleton
import proofs.«139342_j40218073759787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 16 = 0 :=
  (by decide +kernel : ∀ t : Fin grid4.N, cond4_0 (grid4.coords t) ↔ t.val % 16 = 0)
abbrev cond4_1 (i : grid4.Coords) : Prop := k4_cond2 i = 1#1
theorem hcond4_1 : ∀ t : Fin cfg4.N, cond4_1 (grid4.coords t) ↔ t.val % 16 = 15 :=
  (by decide +kernel : ∀ t : Fin grid4.N, cond4_1 (grid4.coords t) ↔ t.val % 16 = 15)
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5_A : ∀ t : Fin cfg4.N, cond4_0 (grid4.coords t) → ¬cond4_1 (grid4.coords t) → cfg4.idle 5 (grid4.coords t) = true := by decide +kernel
theorem noFlush4_5_A : ∀ t : Fin cfg4.N, cond4_0 (grid4.coords t) → ¬cond4_1 (grid4.coords t) → (cfg4.win 5).flush t = false := by decide +kernel
theorem idleAt4_5_B : ∀ t : Fin cfg4.N, ¬cond4_0 (grid4.coords t) → ¬cond4_1 (grid4.coords t) → cfg4.idle 5 (grid4.coords t) = true := by decide +kernel
theorem noFlush4_5_B : ∀ t : Fin cfg4.N, ¬cond4_0 (grid4.coords t) → ¬cond4_1 (grid4.coords t) → (cfg4.win 5).flush t = false := by decide +kernel
theorem liveAt4_5_C : ∀ t : Fin cfg4.N, ¬cond4_0 (grid4.coords t) → cond4_1 (grid4.coords t) → cfg4.idle 5 (grid4.coords t) = false := by decide +kernel
abbrev VO4_5 : View sig .tc .vmem S1024x256 .f32 := (win4_5.stage 0 : Memref sig .tc .vmem S1024x256 .f32).view
abbrev ms4_0 (t : Fin cfg4.N) : Memref sig .tc .vmem S1024x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x256 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1024 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x256 .f32 := win4_5.stage (cfg4.slots t 5)
abbrev hs4_5 (t : Fin cfg4.N) : (ms4_5 t).IsWhole := hstage4_5 ((cfg4.slots t 5).cast nbuf4_5)
abbrev scM4_0 : Memref sig .tc .vmem S1024x1 .f32 := Memref.whole cc4_scratch0
abbrev scM4_1 : Memref sig .tc .vmem S1024x256 .f32 := Memref.whole cc4_scratch1
abbrev VS4_0 : View sig .tc .vmem S1024x1 .f32 := scM4_0.view
abbrev VS4_1 : View sig .tc .vmem S1024x256 .f32 := scM4_1.view
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl
section
variable (c : Dev nD) (i : grid4.Coords) (arg2 : Memref sig .tc .vmem S1024x512 .f32) (harg2 : arg2.IsWhole) (arg3 : Memref sig .tc .vmem S1024x512 .f32) (harg3 : arg3.IsWhole) (arg4 : Memref sig .tc .vmem S512x256 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole)
section
variable (hc0 : cond4_0 i) (hc1 : ¬cond4_1 i) (x0 : Vec F S1024x512 .f32) (x1 : Vec F S1024x512 .f32) (x2 : Vec F S512x256 .bf16) (x3 : Vec F S1x512 .f32) (x4 : Vec F S1x1024 .f32)
include hc0 hc1
set_option maxHeartbeats 1000000 in
noncomputable def kernelRun4_A :
    Σ' (LS0 : List (View.Piece (Elt F) S1024x1 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__attn_kernel i arg2 harg2 arg3 harg3 arg4 harg4 arg5 harg5 arg6 harg6 arg7 harg7 arg8 harg8 arg9 harg9) K } := by
  refine ⟨?_, ?_, fun xi5 E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover4_A_0 (y : S1024x1.Idx) : ∃ pc ∈ (kernelRun4_A c i arg2 harg2 arg3 harg3 arg4 harg4 arg5 harg5 arg6 harg6 arg7 harg7 arg8 harg8 arg9 harg9 hc0 hc1 x0 x1 x2 x3 x4).1, y ∈ pc.1.set :=
  View.cover_of_tiledL _ S1024x1.size (by sl_kernel_rfl) y
def sout4_A_0 : Vec F S1024x1 .f32 :=
  VS4_0.read (Elt F) (VS4_0.writes (Elt F) VS4_0.junk (kernelRun4_A c i arg2 harg2 arg3 harg3 arg4 harg4 arg5 harg5 arg6 harg6 arg7 harg7 arg8 harg8 arg9 harg9 hc0 hc1 x0 x1 x2 x3 x4).1)
theorem scover4_A_1 (y : S1024x256.Idx) : ∃ pc ∈ (kernelRun4_A c i arg2 harg2 arg3 harg3 arg4 harg4 arg5 harg5 arg6 harg6 arg7 harg7 arg8 harg8 arg9 harg9 hc0 hc1 x0 x1 x2 x3 x4).2.1, y ∈ pc.1.set :=
  View.cover_of_tiledL _ S1024x256.size (by sl_kernel_rfl) y
def sout4_A_1 : Vec F S1024x256 .f32 :=
  VS4_1.read (Elt F) (VS4_1.writes (Elt F) VS4_1.junk (kernelRun4_A c i arg2 harg2 arg3 harg3 arg4 harg4 arg5 harg5 arg6 harg6 arg7 harg7 arg8 harg8 arg9 harg9 hc0 hc1 x0 x1 x2 x3 x4).2.1)
end
section
variable (hc0 : ¬cond4_0 i) (hc1 : ¬cond4_1 i) (x0 : Vec F S1024x512 .f32) (x1 : Vec F S1024x512 .f32) (x2 : Vec F S512x256 .bf16) (x3 : Vec F S1x512 .f32) (x4 : Vec F S1x1024 .f32) (xs0 : Vec F S1024x1 .f32) (xs1 : Vec F S1024x256 .f32)
include hc0 hc1
set_option maxHeartbeats 1000000 in
noncomputable def kernelRun4_B :
    Σ' (LS0 : List (View.Piece (Elt F) S1024x1 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__attn_kernel i arg2 harg2 arg3 harg3 arg4 harg4 arg5 harg5 arg6 harg6 arg7 harg7 arg8 harg8 arg9 harg9) K } := by
  refine ⟨?_, ?_, fun xi5 E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover4_B_0 (y : S1024x1.Idx) : ∃ pc ∈ (kernelRun4_B c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x1.size (by sl_kernel_rfl) y
def sout4_B_0 : Vec F S1024x1 .f32 :=
  VS4_0.read (Elt F) (VS4_0.writes (Elt F) VS4_0.junk (kernelRun4_B c i arg2 harg2 arg3 harg3 arg4 harg4 arg5 harg5 arg6 harg6 arg7 harg7 arg8 harg8 arg9 harg9 hc0 hc1 x0 x1 x2 x3 x4 xs0 xs1).1)
theorem scover4_B_1 (y : S1024x256.Idx) : ∃ pc ∈ (kernelRun4_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x256.size (by sl_kernel_rfl) y
def sout4_B_1 : Vec F S1024x256 .f32 :=
  VS4_1.read (Elt F) (VS4_1.writes (Elt F) VS4_1.junk (kernelRun4_B c i arg2 harg2 arg3 harg3 arg4 harg4 arg5 harg5 arg6 harg6 arg7 harg7 arg8 harg8 arg9 harg9 hc0 hc1 x0 x1 x2 x3 x4 xs0 xs1).2.1)
end
section
variable (hc0 : ¬cond4_0 i) (hc1 : cond4_1 i) (x0 : Vec F S1024x512 .f32) (x1 : Vec F S1024x512 .f32) (x2 : Vec F S512x256 .bf16) (x3 : Vec F S1x512 .f32) (x4 : Vec F S1x1024 .f32) (xs0 : Vec F S1024x1 .f32) (xs1 : Vec F S1024x256 .f32)
include hc0 hc1
set_option maxHeartbeats 1000000 in
noncomputable def kernelRun4_C :
    Σ' (L5 : List (View.Piece (Elt F) S1024x256 .f32)), Σ' (LS0 : List (View.Piece (Elt F) S1024x1 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__attn_kernel i arg2 harg2 arg3 harg3 arg4 harg4 arg5 harg5 arg6 harg6 arg7 harg7 arg8 harg8 arg9 harg9) K } := by
  refine ⟨?_, ?_, ?_, fun E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4
    iapply Hk
    sl_close
theorem cover4_C_5 (y : S1024x256.Idx) : ∃ pc ∈ (kernelRun4_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x256.size (by sl_kernel_rfl) y
def out4_C_5 : Vec F S1024x256 .f32 :=
  VO4_5.read (Elt F) (VO4_5.writes (Elt F) VO4_5.junk (kernelRun4_C c i arg2 harg2 arg3 harg3 arg4 harg4 arg5 harg5 arg6 harg6 arg7 harg7 arg8 harg8 arg9 harg9 hc0 hc1 x0 x1 x2 x3 x4 xs0 xs1).1)
theorem scover4_C_0 (y : S1024x1.Idx) : ∃ pc ∈ (kernelRun4_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x1.size (by sl_kernel_rfl) y
def sout4_C_0 : Vec F S1024x1 .f32 :=
  VS4_0.read (Elt F) (VS4_0.writes (Elt F) VS4_0.junk (kernelRun4_C c i arg2 harg2 arg3 harg3 arg4 harg4 arg5 harg5 arg6 harg6 arg7 harg7 arg8 harg8 arg9 harg9 hc0 hc1 x0 x1 x2 x3 x4 xs0 xs1).2.1)
theorem scover4_C_1 (y : S1024x256.Idx) : ∃ pc ∈ (kernelRun4_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL _ S1024x256.size (by sl_kernel_rfl) y
def sout4_C_1 : Vec F S1024x256 .f32 :=
  VS4_1.read (Elt F) (VS4_1.writes (Elt F) VS4_1.junk (kernelRun4_C c i arg2 harg2 arg3 harg3 arg4 harg4 arg5 harg5 arg6 harg6 arg7 harg7 arg8 harg8 arg9 harg9 hc0 hc1 x0 x1 x2 x3 x4 xs0 xs1).2.2.1)
end
end
end Cert.KernelIdeal.Hand
end
-- ==== Proof.KI.Region4.lean ====
import proofs.«139342_j40218073759787_2_alg».proof.Proof.KI.Region4Runs
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def outIdle4_5 : Vec F S1024x256 .f32 := VO4_5.read (Elt F) VO4_5.junk
def outsAt4 (c : Dev nD) : (n : ℕ) → n < cfg4.N → Vec F S1024x256 .f32 × Vec F S1024x1 .f32 × Vec F S1024x256 .f32
  | 0, hn => (outIdle4_5, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 16 = 0 then
      if h1 : (n + 1) % 16 = 15 then
        False.elim (by omega)
      else
        (outIdle4_5, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      if h1 : (n + 1) % 16 = 15 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2)
      else
        (outIdle4_5, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2)
theorem outsAt4_A (c : Dev nD) (t : Fin cfg4.N) (h0 : t.val % 16 = 0) (h1 : ¬t.val % 16 = 15) :
    outsAt4 V c t.val t.isLt = (outIdle4_5, sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)
theorem outsAt4_B (c : Dev nD) (t : Fin cfg4.N) (h0 : ¬t.val % 16 = 0) (h1 : ¬t.val % 16 = 15) :
    outsAt4 V c t.val t.isLt = (outIdle4_5, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt4_C (c : Dev nD) (t : Fin cfg4.N) (h0 : ¬t.val % 16 = 0) (h1 : t.val % 16 = 15) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)
def PhiS4 (c : Dev nD) : (n : ℕ) → n ≤ cfg4.N → sProp 𝕄
  | 0, _ => Pipeline.ΦA spec4 c
  | n + 1, hn => iprop(iprop(iprop(owns c scM4_0 fullShare ((outsAt4 V c n hn).2.1) ∗ owns c scM4_1 fullShare ((outsAt4 V c n hn).2.2))
      ∗ Pipeline.scopedRestBut spec4 c [cc4_scratch0, cc4_scratch1]) ∗ (∃ r, prngReg c r))
theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns c scM4_0 fullShare ((outsAt4 V c n hn).2.1) ∗ owns c scM4_1 fullShare ((outsAt4 V c n hn).2.2))
      ∗ Pipeline.scopedRestBut spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns c scM4_0 fullShare ((outsAt4 V c (n - 1) (by omega)).2.1) ∗ owns c scM4_1 fullShare ((outsAt4 V c (n - 1) (by omega)).2.2))
      ∗ Pipeline.scopedRestBut spec4 c [cc4_scratch0, cc4_scratch1]) ∗ (∃ r, prngReg c r)) := by
  cases n with
  | zero => exact absurd rfl hz
  | succ n => rfl
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
  Φ t := PhiS4 V c t.val (Nat.le_of_lt_succ t.isLt)
  q _ := fullShare
  owed _ := 0
theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_5 (c : Dev nD) (t : Fin cfg4.N) : (dat4 V c).after 5 t = (outsAt4 V c t.val t.isLt).1 := by dsimp only [dat4]
set_option maxHeartbeats 4800000 in
theorem sound_body4 (c : Dev nD) (t : Fin cfg4.N) :
    iprop((dat4 V c).Φ t.castSucc ∗ (dat4 V c).owesAt () t.castSucc
        ∗ bigSep Finset.univ fun w : Fin cfg4.W => iprop(∃ d, owns c ((cfg4.win w).stage (cfg4.slots t w)) fullShare ((dat4 V c).before w t d)))
      ⊢ wp frame (wpE (defs₀ (F := F)) Variants.none c none) Set.univ (bodyAt4 t) fun _ =>
        iprop((dat4 V c).Φ t.succ ∗ (dat4 V c).owesAt () t.succ ∗ bigSep Finset.univ fun w : Fin cfg4.W => (dat4 V c).leavesExact w t) := by
  rw [bigSep_W4, bigSep_W4]; unfold bodyAt4
  simp only [(dat4 V c).before_in_eq_fetched 0 rfl (fun _ => rfl) (fun _ _ _ => rfl) (fun _ => rfl),
    (dat4 V c).before_in_eq_fetched 1 rfl (fun _ => rfl) (fun _ _ _ => rfl) (fun _ => rfl),
    (dat4 V c).before_in_eq_fetched 2 rfl (fun _ => rfl) (fun _ _ _ => rfl) (fun _ => rfl),
    (dat4 V c).before_in_eq_fetched 3 rfl (fun _ => rfl) (fun _ _ _ => rfl) (fun _ => rfl),
    (dat4 V c).before_in_eq_fetched 4 rfl (fun _ => rfl) (fun _ _ _ => rfl) (fun _ => rfl)]
  rw [show (dat4 V c).owesAt () t.succ = (dat4 V c).owesAt () t.castSucc from rfl]
  rw [show (dat4 V c).Φ t.succ = PhiS4 V c (t.val + 1) t.isLt from rfl, PhiS4_succ]
  have hl (w : Fin cfg4.W) (h : cfg4.idle w (grid4.coords t) = false) :
      (dat4 V c).leavesExact w t = owns c ((cfg4.win w).stage (cfg4.slots t w)) fullShare ((dat4 V c).after w t) := by
    unfold Dat.leavesExact; rw [h]
  rw [hl 0 (liveAt4_0 t), hl 1 (liveAt4_1 t), hl 2 (liveAt4_2 t), hl 3 (liveAt4_3 t), hl 4 (liveAt4_4 t)]
  by_cases h0 : t.val % 16 = 0
  · by_cases h1 : t.val % 16 = 15
    · exfalso; omega
    ·
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      rw [outsAt4_A V c t h0 h1]
      unfold sout4_A_0 sout4_A_1; (try dsimp only)
      rw [PhiS4_castSucc V c t]
      by_cases hz : t.val = 0 <;> [rw [PhiS4_zero V c _ _ hz, PhiA4_eq]; rw [PhiS4_pos V c _ _ hz]]
      all_goals
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        isplitl [HS1]; · first | iexact HS1 | (iexists _; iexact HS1)
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _)
              · unfold owns; iexists _; isplitr
                swap; · iexact HS1
                ipureintro; exact View.read_writes_of_cover _ _ _ _ _ (scover4_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [hl 5 (liveAt4_5_C t (fun h => h0 ((hcond4_0 t).mp h)) ((hcond4_1 t).mpr h1)), after4_5]
      rw [outsAt4_C V c t h0 h1]
      unfold out4_C_5 sout4_C_0 sout4_C_1; (try dsimp only)
      by_cases hz : t.val = 0
      · exfalso; omega
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _ _ _ _ _ _ _ _ _ _)
              · unfold owns; iexists _; isplitr
                swap; · iexact HS1
                ipureintro; exact View.read_writes_of_cover _ _ _ _ _ (scover4_C_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover4_C_5 c _ _ _ _ _ _ _ _ _ _ _ _ _ _ _ _ _ _ _ _ _ _ _ _ _ _)
    ·
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      rw [outsAt4_B V c t h0 h1]
      unfold sout4_B_0 sout4_B_1; (try dsimp only)
      by_cases hz : t.val = 0
      · exfalso; omega
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _ _ _ _ _ _ _ _ _ _)
              · unfold owns; iexists _; isplitr
                swap; · iexact HS1
                ipureintro; exact View.read_writes_of_cover _ _ _ _ _ (scover4_B_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
theorem body_obligation4 (c : Dev nD) : BodyObligation (dat4 (F := F) V c) (defs₀ (F := F)) Variants.none () Set.univ := fun t => by
  have h := sound_body4 V c t
  rw [bigSep_W4, bigSep_W4] at h ⊢
  exact h
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg
theorem hout4 (c : Dev nD) : (dat4 V c).Φ (Fin.last cfg4.N) ⊢ Pipeline.ΦA spec4 c :=
  Phi_out4 V c _ (by rw [Fin.val_last]; have : cfg4.N = 128 := N_4; omega)
end Cert.KernelIdeal.Hand
end
-- ==== Proof.KI.Region6Runs.lean ====
/- The attention region: the body's run in its three control cases (first, middle and last block of columns) and what each case leaves in the output block and in the two carried sums. -/
import proofs.«139342_j40218073759787_2_alg».proof.Proof.Gen.KernelIdeal.Launch
import proofs.«139342_j40218073759787_2_alg».proof.Proof.Gen.KernelIdeal.Skeleton
import proofs.«139342_j40218073759787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 16 = 0 :=
  (by decide +kernel : ∀ t : Fin grid6.N, cond6_0 (grid6.coords t) ↔ t.val % 16 = 0)
abbrev cond6_1 (i : grid6.Coords) : Prop := k6_cond2 i = 1#1
theorem hcond6_1 : ∀ t : Fin cfg6.N, cond6_1 (grid6.coords t) ↔ t.val % 16 = 15 :=
  (by decide +kernel : ∀ t : Fin grid6.N, cond6_1 (grid6.coords t) ↔ t.val % 16 = 15)
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem idleAt6_5_A : ∀ t : Fin cfg6.N, cond6_0 (grid6.coords t) → ¬cond6_1 (grid6.coords t) → cfg6.idle 5 (grid6.coords t) = true := by decide +kernel
theorem noFlush6_5_A : ∀ t : Fin cfg6.N, cond6_0 (grid6.coords t) → ¬cond6_1 (grid6.coords t) → (cfg6.win 5).flush t = false := by decide +kernel
theorem idleAt6_5_B : ∀ t : Fin cfg6.N, ¬cond6_0 (grid6.coords t) → ¬cond6_1 (grid6.coords t) → cfg6.idle 5 (grid6.coords t) = true := by decide +kernel
theorem noFlush6_5_B : ∀ t : Fin cfg6.N, ¬cond6_0 (grid6.coords t) → ¬cond6_1 (grid6.coords t) → (cfg6.win 5).flush t = false := by decide +kernel
theorem liveAt6_5_C : ∀ t : Fin cfg6.N, ¬cond6_0 (grid6.coords t) → cond6_1 (grid6.coords t) → cfg6.idle 5 (grid6.coords t) = false := by decide +kernel
abbrev VO6_5 : View sig .tc .vmem S1024x64 .f32 := (win6_5.stage 0 : Memref sig .tc .vmem S1024x64 .f32).view
abbrev ms6_0 (t : Fin cfg6.N) : Memref sig .tc .vmem S1024x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x512 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x64 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x512 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x1024 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1024x64 .f32 := win6_5.stage (cfg6.slots t 5)
abbrev hs6_5 (t : Fin cfg6.N) : (ms6_5 t).IsWhole := hstage6_5 ((cfg6.slots t 5).cast nbuf6_5)
abbrev scM6_0 : Memref sig .tc .vmem S1024x1 .f32 := Memref.whole cc6_scratch0
abbrev scM6_1 : Memref sig .tc .vmem S1024x64 .f32 := Memref.whole cc6_scratch1
abbrev VS6_0 : View sig .tc .vmem S1024x1 .f32 := scM6_0.view
abbrev VS6_1 : View sig .tc .vmem S1024x64 .f32 := scM6_1.view
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut spec6 c [cc6_scratch0, cc6_scratch1]) ∗ (∃ r, prngReg c r)) := by
  unfold Pipeline.ΦA; rw [scopedRest6_split]; simp only [scM6_0, scM6_1, owns_whole]; try rfl
section
variable (c : Dev nD) (i : grid6.Coords) (arg2 : Memref sig .tc .vmem S1024x512 .f32) (harg2 : arg2.IsWhole) (arg3 : Memref sig .tc .vmem S1024x512 .f32) (harg3 : arg3.IsWhole) (arg4 : Memref sig .tc .vmem S512x64 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S1024x64 .f32) (harg9 : arg9.IsWhole)
section
variable (hc0 : cond6_0 i) (hc1 : ¬cond6_1 i) (x0 : Vec F S1024x512 .f32) (x1 : Vec F S1024x512 .f32) (x2 : Vec F S512x64 .bf16) (x3 : Vec F S1x512 .f32) (x4 : Vec F S1x1024 .f32)
include hc0 hc1
set_option maxHeartbeats 1000000 in
noncomputable def kernelRun6_A :
    Σ' (LS0 : List (View.Piece (Elt F) S1024x1 .f32)), { LS1 : List (View.Piece (Elt F) S1024x64 .f32) //
      ∀ (xi5 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_kernel i arg2 harg2 arg3 harg3 arg4 harg4 arg5 harg5 arg6 harg6 arg7 harg7 arg8 harg8 arg9 harg9) K } := by
  refine ⟨?_, ?_, fun xi5 E K => ?run⟩
  case run =>
    simp only [cc6__attn_kernel_eq_skeleton]; unfold cc6__attn_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover6_A_0 (y : S1024x1.Idx) : ∃ pc ∈ (kernelRun6_A c i arg2 harg2 arg3 harg3 arg4 harg4 arg5 harg5 arg6 harg6 arg7 harg7 arg8 harg8 arg9 harg9 hc0 hc1 x0 x1 x2 x3 x4).1, y ∈ pc.1.set :=
  View.cover_of_tiledL _ S1024x1.size (by sl_kernel_rfl) y
def sout6_A_0 : Vec F S1024x1 .f32 :=
  VS6_0.read (Elt F) (VS6_0.writes (Elt F) VS6_0.junk (kernelRun6_A c i arg2 harg2 arg3 harg3 arg4 harg4 arg5 harg5 arg6 harg6 arg7 harg7 arg8 harg8 arg9 harg9 hc0 hc1 x0 x1 x2 x3 x4).1)
theorem scover6_A_1 (y : S1024x64.Idx) : ∃ pc ∈ (kernelRun6_A c i arg2 harg2 arg3 harg3 arg4 harg4 arg5 harg5 arg6 harg6 arg7 harg7 arg8 harg8 arg9 harg9 hc0 hc1 x0 x1 x2 x3 x4).2.1, y ∈ pc.1.set :=
  View.cover_of_tiledL _ S1024x64.size (by sl_kernel_rfl) y
def sout6_A_1 : Vec F S1024x64 .f32 :=
  VS6_1.read (Elt F) (VS6_1.writes (Elt F) VS6_1.junk (kernelRun6_A c i arg2 harg2 arg3 harg3 arg4 harg4 arg5 harg5 arg6 harg6 arg7 harg7 arg8 harg8 arg9 harg9 hc0 hc1 x0 x1 x2 x3 x4).2.1)
end
section
variable (hc0 : ¬cond6_0 i) (hc1 : ¬cond6_1 i) (x0 : Vec F S1024x512 .f32) (x1 : Vec F S1024x512 .f32) (x2 : Vec F S512x64 .bf16) (x3 : Vec F S1x512 .f32) (x4 : Vec F S1x1024 .f32) (xs0 : Vec F S1024x1 .f32) (xs1 : Vec F S1024x64 .f32)
include hc0 hc1
set_option maxHeartbeats 1000000 in
noncomputable def kernelRun6_B :
    Σ' (LS0 : List (View.Piece (Elt F) S1024x1 .f32)), { LS1 : List (View.Piece (Elt F) S1024x64 .f32) //
      ∀ (xi5 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_kernel i arg2 harg2 arg3 harg3 arg4 harg4 arg5 harg5 arg6 harg6 arg7 harg7 arg8 harg8 arg9 harg9) K } := by
  refine ⟨?_, ?_, fun xi5 E K => ?run⟩
  case run =>
    simp only [cc6__attn_kernel_eq_skeleton]; unfold cc6__attn_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4; have r5 := harg7.read_unread xi5
    iapply Hk
    sl_close
theorem scover6_B_0 (y : S1024x1.Idx) : ∃ pc ∈ (kernelRun6_B c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x1.size (by sl_kernel_rfl) y
def sout6_B_0 : Vec F S1024x1 .f32 :=
  VS6_0.read (Elt F) (VS6_0.writes (Elt F) VS6_0.junk (kernelRun6_B c i arg2 harg2 arg3 harg3 arg4 harg4 arg5 harg5 arg6 harg6 arg7 harg7 arg8 harg8 arg9 harg9 hc0 hc1 x0 x1 x2 x3 x4 xs0 xs1).1)
theorem scover6_B_1 (y : S1024x64.Idx) : ∃ pc ∈ (kernelRun6_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x64.size (by sl_kernel_rfl) y
def sout6_B_1 : Vec F S1024x64 .f32 :=
  VS6_1.read (Elt F) (VS6_1.writes (Elt F) VS6_1.junk (kernelRun6_B c i arg2 harg2 arg3 harg3 arg4 harg4 arg5 harg5 arg6 harg6 arg7 harg7 arg8 harg8 arg9 harg9 hc0 hc1 x0 x1 x2 x3 x4 xs0 xs1).2.1)
end
section
variable (hc0 : ¬cond6_0 i) (hc1 : cond6_1 i) (x0 : Vec F S1024x512 .f32) (x1 : Vec F S1024x512 .f32) (x2 : Vec F S512x64 .bf16) (x3 : Vec F S1x512 .f32) (x4 : Vec F S1x1024 .f32) (xs0 : Vec F S1024x1 .f32) (xs1 : Vec F S1024x64 .f32)
include hc0 hc1
set_option maxHeartbeats 1000000 in
noncomputable def kernelRun6_C :
    Σ' (L5 : List (View.Piece (Elt F) S1024x64 .f32)), Σ' (LS0 : List (View.Piece (Elt F) S1024x1 .f32)), { LS1 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_kernel i arg2 harg2 arg3 harg3 arg4 harg4 arg5 harg5 arg6 harg6 arg7 harg7 arg8 harg8 arg9 harg9) K } := by
  refine ⟨?_, ?_, ?_, fun E K => ?run⟩
  case run =>
    simp only [cc6__attn_kernel_eq_skeleton]; unfold cc6__attn_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    have r0 := harg2.read_unread x0; have r1 := harg3.read_unread x1; have r2 := harg4.read_unread x2; have r3 := harg5.read_unread x3; have r4 := harg6.read_unread x4
    iapply Hk
    sl_close
theorem cover6_C_5 (y : S1024x64.Idx) : ∃ pc ∈ (kernelRun6_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL _ S1024x64.size (by sl_kernel_rfl) y
def out6_C_5 : Vec F S1024x64 .f32 :=
  VO6_5.read (Elt F) (VO6_5.writes (Elt F) VO6_5.junk (kernelRun6_C c i arg2 harg2 arg3 harg3 arg4 harg4 arg5 harg5 arg6 harg6 arg7 harg7 arg8 harg8 arg9 harg9 hc0 hc1 x0 x1 x2 x3 x4 xs0 xs1).1)
theorem scover6_C_0 (y : S1024x1.Idx) : ∃ pc ∈ (kernelRun6_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL _ S1024x1.size (by sl_kernel_rfl) y
def sout6_C_0 : Vec F S1024x1 .f32 :=
  VS6_0.read (Elt F) (VS6_0.writes (Elt F) VS6_0.junk (kernelRun6_C c i arg2 harg2 arg3 harg3 arg4 harg4 arg5 harg5 arg6 harg6 arg7 harg7 arg8 harg8 arg9 harg9 hc0 hc1 x0 x1 x2 x3 x4 xs0 xs1).2.1)
theorem scover6_C_1 (y : S1024x64.Idx) : ∃ pc ∈ (kernelRun6_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL _ S1024x64.size (by sl_kernel_rfl) y
def sout6_C_1 : Vec F S1024x64 .f32 :=
  VS6_1.read (Elt F) (VS6_1.writes (Elt F) VS6_1.junk (kernelRun6_C c i arg2 harg2 arg3 harg3 arg4 harg4 arg5 harg5 arg6 harg6 arg7 harg7 arg8 harg8 arg9 harg9 hc0 hc1 x0 x1 x2 x3 x4 xs0 xs1).2.2.1)
end
end
end Cert.KernelIdeal.Hand
end
-- ==== Proof.KI.Region6.lean ====
import proofs.«139342_j40218073759787_2_alg».proof.Proof.KI.Region6Runs
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def outIdle6_5 : Vec F S1024x64 .f32 := VO6_5.read (Elt F) VO6_5.junk
def outsAt6 (c : Dev nD) : (n : ℕ) → n < cfg6.N → Vec F S1024x64 .f32 × Vec F S1024x1 .f32 × Vec F S1024x64 .f32
  | 0, hn => (outIdle6_5, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h0 : (n + 1) % 16 = 0 then
      if h1 : (n + 1) % 16 = 15 then
        False.elim (by omega)
      else
        (outIdle6_5, sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩), sout6_A_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩))
    else
      if h1 : (n + 1) % 16 = 15 then
        (out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2)
      else
        (outIdle6_5, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2)
theorem outsAt6_A (c : Dev nD) (t : Fin cfg6.N) (h0 : t.val % 16 = 0) (h1 : ¬t.val % 16 = 15) :
    outsAt6 V c t.val t.isLt = (outIdle6_5, sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t)) := by
  obtain ⟨n, hn⟩ := t
  cases n with
  | zero => exact rfl
  | succ n => exact (dif_pos h0).trans ((dif_neg h1).trans rfl)
theorem outsAt6_B (c : Dev nD) (t : Fin cfg6.N) (h0 : ¬t.val % 16 = 0) (h1 : ¬t.val % 16 = 15) :
    outsAt6 V c t.val t.isLt = (outIdle6_5, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt6_C (c : Dev nD) (t : Fin cfg6.N) (h0 : ¬t.val % 16 = 0) (h1 : t.val % 16 = 15) :
    outsAt6 V c t.val t.isLt = (out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)
def PhiS6 (c : Dev nD) : (n : ℕ) → n ≤ cfg6.N → sProp 𝕄
  | 0, _ => Pipeline.ΦA spec6 c
  | n + 1, hn => iprop(iprop(iprop(owns c scM6_0 fullShare ((outsAt6 V c n hn).2.1) ∗ owns c scM6_1 fullShare ((outsAt6 V c n hn).2.2))
      ∗ Pipeline.scopedRestBut spec6 c [cc6_scratch0, cc6_scratch1]) ∗ (∃ r, prngReg c r))
theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns c scM6_0 fullShare ((outsAt6 V c n hn).2.1) ∗ owns c scM6_1 fullShare ((outsAt6 V c n hn).2.2))
      ∗ Pipeline.scopedRestBut spec6 c [cc6_scratch0, cc6_scratch1]) ∗ (∃ r, prngReg c r)) := rfl
theorem PhiS6_pos (c : Dev nD) (n : ℕ) (h : n ≤ cfg6.N) (hz : n ≠ 0) :
    PhiS6 V c n h = iprop(iprop(iprop(owns c scM6_0 fullShare ((outsAt6 V c (n - 1) (by omega)).2.1) ∗ owns c scM6_1 fullShare ((outsAt6 V c (n - 1) (by omega)).2.2))
      ∗ Pipeline.scopedRestBut spec6 c [cc6_scratch0, cc6_scratch1]) ∗ (∃ r, prngReg c r)) := by
  cases n with
  | zero => exact absurd rfl hz
  | succ n => rfl
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
  Φ t := PhiS6 V c t.val (Nat.le_of_lt_succ t.isLt)
  q _ := fullShare
  owed _ := 0
theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_5 (c : Dev nD) (t : Fin cfg6.N) : (dat6 V c).after 5 t = (outsAt6 V c t.val t.isLt).1 := by dsimp only [dat6]
set_option maxHeartbeats 4800000 in
theorem sound_body6 (c : Dev nD) (t : Fin cfg6.N) :
    iprop((dat6 V c).Φ t.castSucc ∗ (dat6 V c).owesAt () t.castSucc
        ∗ bigSep Finset.univ fun w : Fin cfg6.W => iprop(∃ d, owns c ((cfg6.win w).stage (cfg6.slots t w)) fullShare ((dat6 V c).before w t d)))
      ⊢ wp frame (wpE (defs₀ (F := F)) Variants.none c none) Set.univ (bodyAt6 t) fun _ =>
        iprop((dat6 V c).Φ t.succ ∗ (dat6 V c).owesAt () t.succ ∗ bigSep Finset.univ fun w : Fin cfg6.W => (dat6 V c).leavesExact w t) := by
  rw [bigSep_W6, bigSep_W6]; unfold bodyAt6
  simp only [(dat6 V c).before_in_eq_fetched 0 rfl (fun _ => rfl) (fun _ _ _ => rfl) (fun _ => rfl),
    (dat6 V c).before_in_eq_fetched 1 rfl (fun _ => rfl) (fun _ _ _ => rfl) (fun _ => rfl),
    (dat6 V c).before_in_eq_fetched 2 rfl (fun _ => rfl) (fun _ _ _ => rfl) (fun _ => rfl),
    (dat6 V c).before_in_eq_fetched 3 rfl (fun _ => rfl) (fun _ _ _ => rfl) (fun _ => rfl),
    (dat6 V c).before_in_eq_fetched 4 rfl (fun _ => rfl) (fun _ _ _ => rfl) (fun _ => rfl)]
  rw [show (dat6 V c).owesAt () t.succ = (dat6 V c).owesAt () t.castSucc from rfl]
  rw [show (dat6 V c).Φ t.succ = PhiS6 V c (t.val + 1) t.isLt from rfl, PhiS6_succ]
  have hl (w : Fin cfg6.W) (h : cfg6.idle w (grid6.coords t) = false) :
      (dat6 V c).leavesExact w t = owns c ((cfg6.win w).stage (cfg6.slots t w)) fullShare ((dat6 V c).after w t) := by
    unfold Dat.leavesExact; rw [h]
  rw [hl 0 (liveAt6_0 t), hl 1 (liveAt6_1 t), hl 2 (liveAt6_2 t), hl 3 (liveAt6_3 t), hl 4 (liveAt6_4 t)]
  by_cases h0 : t.val % 16 = 0
  · by_cases h1 : t.val % 16 = 15
    · exfalso; omega
    ·
      rw [Dat.leavesExact_idle (dat6 V c) 5 t (idleAt6_5_A t ((hcond6_0 t).mpr h0) (fun h => h1 ((hcond6_1 t).mp h))) (noFlush6_5_A t ((hcond6_0 t).mpr h0) (fun h => h1 ((hcond6_1 t).mp h)))]
      rw [outsAt6_A V c t h0 h1]
      unfold sout6_A_0 sout6_A_1; (try dsimp only)
      rw [PhiS6_castSucc V c t]
      by_cases hz : t.val = 0 <;> [rw [PhiS6_zero V c _ _ hz, PhiA6_eq]; rw [PhiS6_pos V c _ _ hz]]
      all_goals
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        isplitl [HS1]; · first | iexact HS1 | (iexists _; iexact HS1)
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _ _ _ _ _ _ _ _ _ _)
              · unfold owns; iexists _; isplitr
                swap; · iexact HS1
                ipureintro; exact View.read_writes_of_cover _ _ _ _ _ (scover6_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [hl 5 (liveAt6_5_C t (fun h => h0 ((hcond6_0 t).mp h)) ((hcond6_1 t).mpr h1)), after6_5]
      rw [outsAt6_C V c t h0 h1]
      unfold out6_C_5 sout6_C_0 sout6_C_1; (try dsimp only)
      by_cases hz : t.val = 0
      · exfalso; omega
      · rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_C_0 c _ _ _ _ _ _ _ _ _ _ _ _ _ _ _ _ _ _ _ _ _ _ _ _ _ _)
              · unfold owns; iexists _; isplitr
                swap; · iexact HS1
                ipureintro; exact View.read_writes_of_cover _ _ _ _ _ (scover6_C_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover6_C_5 c _ _ _ _ _ _ _ _ _ _ _ _ _ _ _ _ _ _ _ _ _ _ _ _ _ _)
    ·
      rw [Dat.leavesExact_idle (dat6 V c) 5 t (idleAt6_5_B t (fun h => h0 ((hcond6_0 t).mp h)) (fun h => h1 ((hcond6_1 t).mp h))) (noFlush6_5_B t (fun h => h0 ((hcond6_0 t).mp h)) (fun h => h1 ((hcond6_1 t).mp h)))]
      rw [outsAt6_B V c t h0 h1]
      unfold sout6_B_0 sout6_B_1; (try dsimp only)
      by_cases hz : t.val = 0
      · exfalso; omega
      · rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_B_0 c _ _ _ _ _ _ _ _ _ _ _ _ _ _ _ _ _ _ _ _ _ _ _ _ _ _)
              · unfold owns; iexists _; isplitr
                swap; · iexact HS1
                ipureintro; exact View.read_writes_of_cover _ _ _ _ _ (scover6_B_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
theorem body_obligation6 (c : Dev nD) : BodyObligation (dat6 (F := F) V c) (defs₀ (F := F)) Variants.none () Set.univ := fun t => by
  have h := sound_body6 V c t
  rw [bigSep_W6, bigSep_W6] at h ⊢
  exact h
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg
theorem hout6 (c : Dev nD) : (dat6 V c).Φ (Fin.last cfg6.N) ⊢ Pipeline.ΦA spec6 c :=
  Phi_out6 V c _ (by rw [Fin.val_last]; have : cfg6.N = 128 := N_6; omega)
end Cert.KernelIdeal.Hand
end
-- ==== Proof.KI.Run.lean ====
import proofs.«139342_j40218073759787_2_alg».proof.Proof.KI.Glue
import proofs.«139342_j40218073759787_2_alg».proof.Proof.KI.Region2
import proofs.«139342_j40218073759787_2_alg».proof.Proof.KI.Region4
import proofs.«139342_j40218073759787_2_alg».proof.Proof.KI.Region6
import proofs.«139342_j40218073759787_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (c : Dev nD) : Valuation τ sig (Elt F) := fun b => m (c, b)
abbrev V0r : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (V0r m) c).arrAt w cfg0.N
abbrev W2 (c : Dev nD) : Valuation τ sig (Elt F) := StableHlo.after hostOps1 (W1 m c)
abbrev V2r : (c : Dev nD) → (b : Ref sig .tc) → Buf (Elt F) ((c : Thread nD τ).loc b) := fun c b => W2 m c b
def W3 (c : Dev nD) : Valuation τ sig (Elt F) :=
  Pipeline.withArrays spec1 c (W2 m c) fun w => (dat1 (V2r m) c).arrAt w cfg1.N
abbrev V3r : (c : Dev nD) → (b : Ref sig .tc) → Buf (Elt F) ((c : Thread nD τ).loc b) := fun c b => W3 m c b
def W4 (c : Dev nD) : Valuation τ sig (Elt F) :=
  Pipeline.withArrays spec2 c (W3 m c) fun w => (dat2 (V3r m) c).arrAt w cfg2.N
abbrev W5 (c : Dev nD) : Valuation τ sig (Elt F) := StableHlo.after hostOps3 (W4 m c)
abbrev V5r : (c : Dev nD) → (b : Ref sig .tc) → Buf (Elt F) ((c : Thread nD τ).loc b) := fun c b => W5 m c b
def W6 (c : Dev nD) : Valuation τ sig (Elt F) :=
  Pipeline.withArrays spec3 c (W5 m c) fun w => (dat3 (V5r m) c).arrAt w cfg3.N
abbrev V6r : (c : Dev nD) → (b : Ref sig .tc) → Buf (Elt F) ((c : Thread nD τ).loc b) := fun c b => W6 m c b
def W7 (c : Dev nD) : Valuation τ sig (Elt F) :=
  Pipeline.withArrays spec4 c (W6 m c) fun w => (dat4 (V6r m) c).arrAt w cfg4.N
abbrev W8 (c : Dev nD) : Valuation τ sig (Elt F) := StableHlo.after hostOps5 (W7 m c)
abbrev V8r : (c : Dev nD) → (b : Ref sig .tc) → Buf (Elt F) ((c : Thread nD τ).loc b) := fun c b => W8 m c b
def W9 (c : Dev nD) : Valuation τ sig (Elt F) :=
  Pipeline.withArrays spec5 c (W8 m c) fun w => (dat5 (V8r m) c).arrAt w cfg5.N
abbrev V9r : (c : Dev nD) → (b : Ref sig .tc) → Buf (Elt F) ((c : Thread nD τ).loc b) := fun c b => W9 m c b
def W10 (c : Dev nD) : Valuation τ sig (Elt F) :=
  Pipeline.withArrays spec6 c (W9 m c) fun w => (dat6 (V9r m) c).arrAt w cfg6.N

def pdats : (p : Fin 7) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c
  | ⟨2, _⟩ => fun c => dat2 (V3r m) c
  | ⟨3, _⟩ => fun c => dat3 (V5r m) c
  | ⟨4, _⟩ => fun c => dat4 (V6r m) c
  | ⟨5, _⟩ => fun c => dat5 (V8r m) c
  | ⟨6, _⟩ => fun c => dat6 (V9r m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region owing nothing runs from the unscoped buffers at `Wi` to its arrays as written back, the rest kept.
def regOf (p : Fin 7) (lf : Pipeline.LaunchFacts (nD := nD) (τ := τ) cfgs p) (Wi : Dev nD → Valuation τ sig (Elt F))
    (hb : ∀ c, BodyObligation (pdats m p c) (defs₀ (F := F)) Variants.none () Set.univ)
    (hq : ∀ c w, (pdats m p c).q w = fullShare) (h0 : ∀ c t, (pdats m p c).owed t = 0)
    (hr : ∀ c, (pdats m p c).recorded 0 = Set.univ)
    (hA : ∀ c w, (pdats m p c).A w = Wi c (Proc.devRef .tc (Pipeline.arrRef (cfgs p).spec w)))
    (hI : ∀ c, Pipeline.ΦA (cfgs p).spec c ⊢ (pdats m p c).Φ 0)
    (hO : ∀ c, (pdats m p c).Φ (Fin.last (cfgs p).N) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Pipeline.withArrays (cfgs p).spec c (Wi c) fun w => (pdats m p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (by rw [hr c]; exact Set.mem_univ x)
      iapply (show (owes (c : Thread nD τ) (0 : CellTallies nD τ sig Unit) W : sProp 𝕄) ⊢ owes (c : Thread nD τ) ((pdats m p c).owed 0) W from by rw [h0 c])
      iexact HO
    isplitl [Hp]; · iexact Hp
    iexact Hrest
  hin c := by
    refine .trans ?_ (hI c)
    unfold Pipeline.ΦA
    iintro ⟨Hp, -, Hr⟩
    isplitl [Hr]; · iexact Hr
    iexact Hp
  hout c := by
    rw [Pipeline.ownSems0_none]
    refine (hO c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => Wi c b)
      (fun b => Pipeline.withArrays (cfgs p).spec c (Wi c) (fun w => (pdats m p c).arrAt w (cfgs p).N) b) ((pdats m p c).arrAt · (cfgs p).N)
      (fun w => (Pipeline.withArrays_arr (cfgs p).spec lf.win.arr_inj c (Wi c) (fun w => (pdats m p c).arrAt w (cfgs p).N) w).symm)
      (fun b hb => Pipeline.withArrays_of_ne (cfgs p).spec c (Wi c) (fun w => (pdats m p c).arrAt w (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iapply (show (owes (c : Thread nD τ) ((pdats m p c).owed (Fin.last (cfgs p).N)) W : sProp 𝕄) ⊢ owes (c : Thread nD τ) (0 : CellTallies nD τ sig Unit) W from by rw [h0 c])
    iexact HO

abbrev segsR : List (Pipeline.Seg (pcfgs (F := F)) adm (pdats m) () defs₀ 𝒱₀ L lv) :=
  [ .region (regOf m 0 launch0 (W0 m) (body_obligation0 (V0r m)) (fun _ _ => rfl) (fun _ _ => rfl) (fun _ => rfl) (A_eq0 (V0r m)) (hin0 (V0r m)) (hout0 (V0r m))),
    .host (hseg hostOps1 hostOps1_sub hostOps1_fresh (W1 m)),
    .region (regOf m 1 launch1 (W2 m) (body_obligation1 (V2r m)) (fun _ _ => rfl) (fun _ _ => rfl) (fun _ => rfl) (A_eq1 (V2r m)) (hin1 (V2r m)) (hout1 (V2r m))),
    .region (regOf m 2 launch2 (W3 m) (body_obligation2 (V3r m)) (fun _ _ => rfl) (fun _ _ => rfl) (fun _ => rfl) (A_eq2 (V3r m)) (hin2 (V3r m)) (hout2 (V3r m))),
    .host (hseg hostOps3 hostOps3_sub hostOps3_fresh (W4 m)),
    .region (regOf m 3 launch3 (W5 m) (body_obligation3 (V5r m)) (fun _ _ => rfl) (fun _ _ => rfl) (fun _ => rfl) (A_eq3 (V5r m)) (hin3 (V5r m)) (hout3 (V5r m))),
    .region (regOf m 4 launch4 (W6 m) (body_obligation4 (V6r m)) (fun _ _ => rfl) (fun _ _ => rfl) (fun _ => rfl) (A_eq4 (V6r m)) (hin4 (V6r m)) (hout4 (V6r m))),
    .host (hseg hostOps5 hostOps5_sub hostOps5_fresh (W7 m)),
    .region (regOf m 5 launch5 (W8 m) (body_obligation5 (V8r m)) (fun _ _ => rfl) (fun _ _ => rfl) (fun _ => rfl) (A_eq5 (V8r m)) (hin5 (V8r m)) (hout5 (V8r m))),
    .region (regOf m 6 launch6 (W9 m) (body_obligation6 (V9r m)) (fun _ _ => rfl) (fun _ _ => rfl) (fun _ => rfl) (A_eq6 (V9r m)) (hin6 (V9r m)) (hout6 (V9r m))) ]
theorem main_run (c : Dev nD) : main (F := F) c = Pipeline.Seg.run (segsR m) := (main_chain c).trans (by chain_rfl)

set_option backward.isDefEq.respectTransparency.types false in
-- Every fair execution ends with each core's unscoped buffers at the last boundary's contents.
theorem run_all : θ_run defs (onTc (τ := τ) (main (F := F))) ⟨m, fun _ => 0, ρ⟩ (fun r => ∀ c : Dev nD,
      ∀ b ∈ Pipeline.ucRefs τ sig, r.2.mem ((c : Thread nD τ).1, b) = W10 m c b) :=
  Pipeline.θ_run_regions_kit (pcfgs (F := F)) adm (pdats m) () cellOf_inj emb₁ defs₀ 𝒱₀ L lv m ρ main (segsR m)
    (fun c Q => by rw [main_run m c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun c => show iprop(StableHlo.held (c : Thread nD τ) (Pipeline.ucRefs τ sig) (W10 m c) ∗ R c) ⊢ _ from by
      iintro ⟨H, P, O⟩
      isplitl [H P]
      · isplitl [H] <;> iassumption
      iexact O⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

end Cert.KernelIdeal.HandRun

end
-- ==== Proof.KI.RunFrame.lean ====
import proofs.«139342_j40218073759787_2_alg».proof.Proof.KI.Run

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Hand

variable {F : FTy → Type} [FloatOps F]

variable (m : (ℓ : Loc nD τ sig) → Buf (Elt F) ℓ)

-- A region gives an input window's array back as entered and touches no buffer that is no window's array.
theorem keep_of {cfg : Cfg sig Λ₀} {c : Dev nD} (d : Dat τ (Elt F) Unit ℕ (UR sig nD τ) ℕ cfg c) (V : Valuation τ sig (Elt F))
    (hi : Function.Injective (Pipeline.arrRef cfg.spec)) (hA : ∀ w, d.A w = V (Proc.devRef .tc (Pipeline.arrRef cfg.spec w)))
    {o : List (Ref sig .tc)} (ho : ∀ w, Pipeline.arrRef cfg.spec w ∉ o → (cfg.win w).isOut = false) (b : Ref sig .tc) (hb : b ∉ o) :
    Pipeline.withArrays cfg.spec c V (fun w => d.arrAt w cfg.N) (Proc.devRef .tc b) = V (Proc.devRef .tc b) := by
  by_cases e : ∃ w, Pipeline.arrRef cfg.spec w = b
  · obtain ⟨w, rfl⟩ := e
    exact (Pipeline.withArrays_arr _ hi c V _ w).trans ((d.arrAt_in w (ho w hb) _).trans (hA w))
  · exact Pipeline.withArrays_of_ne _ c V _ b fun w h => e ⟨w, h⟩

variable (c : Dev nD)

theorem W1_keep (b : Ref sig .tc) (hb : b ∉ ([main_v0] : List (Ref sig .tc))) :
    W1 m c (Proc.devRef .tc b) = W0 m c (Proc.devRef .tc b) :=
  keep_of (dat0 (V0r m) c) (W0 m c) launch0.win.arr_inj (A_eq0 (V0r m) c) (by decide) b hb
theorem W2_keep (b : Ref sig .tc) (hb : b ∉ hostOps1_W) :
    W2 m c (Proc.devRef .tc b) = W1 m c (Proc.devRef .tc b) :=
  StableHlo.after_of_writes_sub hostOps1 _ hostOps1_writes hb
theorem W3_keep (b : Ref sig .tc) (hb : b ∉ ([main_v4_0, main_v4_1, main_v4_2] : List (Ref sig .tc))) :
    W3 m c (Proc.devRef .tc b) = W2 m c (Proc.devRef .tc b) :=
  keep_of (dat1 (V2r m) c) (W2 m c) launch1.win.arr_inj (A_eq1 (V2r m) c) (by decide) b hb
theorem W4_keep (b : Ref sig .tc) (hb : b ∉ ([main_v5] : List (Ref sig .tc))) :
    W4 m c (Proc.devRef .tc b) = W3 m c (Proc.devRef .tc b) :=
  keep_of (dat2 (V3r m) c) (W3 m c) launch2.win.arr_inj (A_eq2 (V3r m) c) (by decide) b hb
theorem W5_keep (b : Ref sig .tc) (hb : b ∉ hostOps3_W) :
    W5 m c (Proc.devRef .tc b) = W4 m c (Proc.devRef .tc b) :=
  StableHlo.after_of_writes_sub hostOps3 _ hostOps3_writes hb
theorem W6_keep (b : Ref sig .tc) (hb : b ∉ ([main_v9_0, main_v9_1, main_v9_2] : List (Ref sig .tc))) :
    W6 m c (Proc.devRef .tc b) = W5 m c (Proc.devRef .tc b) :=
  keep_of (dat3 (V5r m) c) (W5 m c) launch3.win.arr_inj (A_eq3 (V5r m) c) (by decide) b hb
theorem W7_keep (b : Ref sig .tc) (hb : b ∉ ([main_v10] : List (Ref sig .tc))) :
    W7 m c (Proc.devRef .tc b) = W6 m c (Proc.devRef .tc b) :=
  keep_of (dat4 (V6r m) c) (W6 m c) launch4.win.arr_inj (A_eq4 (V6r m) c) (by decide) b hb
theorem W8_keep (b : Ref sig .tc) (hb : b ∉ hostOps5_W) :
    W8 m c (Proc.devRef .tc b) = W7 m c (Proc.devRef .tc b) :=
  StableHlo.after_of_writes_sub hostOps5 _ hostOps5_writes hb
theorem W9_keep (b : Ref sig .tc) (hb : b ∉ ([main_v14_0, main_v14_1, main_v14_2] : List (Ref sig .tc))) :
    W9 m c (Proc.devRef .tc b) = W8 m c (Proc.devRef .tc b) :=
  keep_of (dat5 (V8r m) c) (W8 m c) launch5.win.arr_inj (A_eq5 (V8r m) c) (by decide) b hb
theorem W10_keep (b : Ref sig .tc) (hb : b ∉ ([main_v15] : List (Ref sig .tc))) :
    W10 m c (Proc.devRef .tc b) = W9 m c (Proc.devRef .tc b) :=
  keep_of (dat6 (V9r m) c) (W9 m c) launch6.win.arr_inj (A_eq6 (V9r m) c) (by decide) b hb

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem W1_args (b : Ref sig .tc) (hb : b ∈ mainArgs) : W1 m c (Proc.devRef .tc b) = m ((c : Thread nD τ).loc b) :=
  W1_keep m c b ((show ∀ b ∈ mainArgs, b ∉ ([main_v0] : List (Ref sig .tc)) from by decide) b hb)
theorem W2_args (b : Ref sig .tc) (hb : b ∈ mainArgs) : W2 m c (Proc.devRef .tc b) = m ((c : Thread nD τ).loc b) :=
  (W2_keep m c b ((show ∀ b ∈ mainArgs, b ∉ hostOps1_W from by decide) b hb)).trans (W1_args m c b hb)
theorem W3_args (b : Ref sig .tc) (hb : b ∈ mainArgs) : W3 m c (Proc.devRef .tc b) = m ((c : Thread nD τ).loc b) :=
  (W3_keep m c b ((show ∀ b ∈ mainArgs, b ∉ ([main_v4_0, main_v4_1, main_v4_2] : List (Ref sig .tc)) from by decide) b hb)).trans (W2_args m c b hb)
theorem W4_args (b : Ref sig .tc) (hb : b ∈ mainArgs) : W4 m c (Proc.devRef .tc b) = m ((c : Thread nD τ).loc b) :=
  (W4_keep m c b ((show ∀ b ∈ mainArgs, b ∉ ([main_v5] : List (Ref sig .tc)) from by decide) b hb)).trans (W3_args m c b hb)
theorem W5_args (b : Ref sig .tc) (hb : b ∈ mainArgs) : W5 m c (Proc.devRef .tc b) = m ((c : Thread nD τ).loc b) :=
  (W5_keep m c b ((show ∀ b ∈ mainArgs, b ∉ hostOps3_W from by decide) b hb)).trans (W4_args m c b hb)
theorem W6_args (b : Ref sig .tc) (hb : b ∈ mainArgs) : W6 m c (Proc.devRef .tc b) = m ((c : Thread nD τ).loc b) :=
  (W6_keep m c b ((show ∀ b ∈ mainArgs, b ∉ ([main_v9_0, main_v9_1, main_v9_2] : List (Ref sig .tc)) from by decide) b hb)).trans (W5_args m c b hb)
theorem W7_args (b : Ref sig .tc) (hb : b ∈ mainArgs) : W7 m c (Proc.devRef .tc b) = m ((c : Thread nD τ).loc b) :=
  (W7_keep m c b ((show ∀ b ∈ mainArgs, b ∉ ([main_v10] : List (Ref sig .tc)) from by decide) b hb)).trans (W6_args m c b hb)
theorem W8_args (b : Ref sig .tc) (hb : b ∈ mainArgs) : W8 m c (Proc.devRef .tc b) = m ((c : Thread nD τ).loc b) :=
  (W8_keep m c b ((show ∀ b ∈ mainArgs, b ∉ hostOps5_W from by decide) b hb)).trans (W7_args m c b hb)
theorem W9_args (b : Ref sig .tc) (hb : b ∈ mainArgs) : W9 m c (Proc.devRef .tc b) = m ((c : Thread nD τ).loc b) :=
  (W9_keep m c b ((show ∀ b ∈ mainArgs, b ∉ ([main_v14_0, main_v14_1, main_v14_2] : List (Ref sig .tc)) from by decide) b hb)).trans (W8_args m c b hb)
theorem W10_args (b : Ref sig .tc) (hb : b ∈ mainArgs) : W10 m c (Proc.devRef .tc b) = m ((c : Thread nD τ).loc b) :=
  (W10_keep m c b ((show ∀ b ∈ mainArgs, b ∉ ([main_v15] : List (Ref sig .tc)) from by decide) b hb)).trans (W9_args m c b hb)

-- No item writes an argument, so a final memory that agrees with the last boundary holds every argument as launched.
theorem args_end (s : MemSt nD τ sig (Elt F)) (h : ∀ b ∈ Pipeline.ucRefs τ sig, s.mem ((c : Thread nD τ).1, b) = W10 m c b) :
    mainArgs.Forall fun b => s.mem ((c.tc : Thread nD τ).loc b) = m ((c.tc : Thread nD τ).loc b) :=
  List.forall_iff_forall_mem.mpr fun b hb =>
    (h _ (mem_uc b ((show ∀ b ∈ mainArgs, ¬ (Proc.devRef .tc b : DevRef τ sig).isScoped from by decide) b hb))).trans (W10_args m c b hb)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => args_end m c r.2 (h c)) (run_all m ρ)

end Cert.KernelIdeal.HandRun

end
-- ==== Proof.KI.RunFacts.lean ====
import proofs.«139342_j40218073759787_2_alg».proof.Proof.KI.RunFrame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Hand

variable {F : FTy → Type} [FloatOps F]

variable (m : (ℓ : Loc nD τ sig) → Buf (Elt F) ℓ) (c : Dev nD)

theorem W10_out : W10 m c (Proc.devRef .tc main_v15) = (dat6 (V9r m) c).arrAt 5 cfg6.N := Pipeline.withArrays_arr spec6 launch6.win.arr_inj c _ _ 5

theorem V0r_arg1 : V0r m c main_arg1 = m ((c : Thread nD τ).loc main_arg1) := rfl

theorem V2r_arg0 : V2r m c main_arg0 = m ((c : Thread nD τ).loc main_arg0) := W2_args m c main_arg0 (by decide)
theorem V2r_arg2 : V2r m c main_arg2 = m ((c : Thread nD τ).loc main_arg2) := W2_args m c main_arg2 (by decide)
theorem V2r_arg4 : V2r m c main_arg4 = m ((c : Thread nD τ).loc main_arg4) := W2_args m c main_arg4 (by decide)
theorem V2r_arg6 : V2r m c main_arg6 = m ((c : Thread nD τ).loc main_arg6) := W2_args m c main_arg6 (by decide)

theorem V3r_arg1 : V3r m c main_arg1 = m ((c : Thread nD τ).loc main_arg1) := W3_args m c main_arg1 (by decide)
theorem V3r_v0 : V3r m c main_v0 = (dat0 (V0r m) c).arrAt 1 cfg0.N :=
  (W3_keep m c main_v0 (by decide)).trans <| (W2_keep m c main_v0 (by decide)).trans <| Pipeline.withArrays_arr spec0 launch0.win.arr_inj c _ _ 1
theorem V3r_v4_0 : V3r m c main_v4_0 = (dat1 (V2r m) c).arrAt 7 cfg1.N := Pipeline.withArrays_arr spec1 launch1.win.arr_inj c _ _ 7
theorem V3r_v4_1 : V3r m c main_v4_1 = (dat1 (V2r m) c).arrAt 8 cfg1.N := Pipeline.withArrays_arr spec1 launch1.win.arr_inj c _ _ 8
theorem V3r_v4_2 : V3r m c main_v4_2 = (dat1 (V2r m) c).arrAt 9 cfg1.N := Pipeline.withArrays_arr spec1 launch1.win.arr_inj c _ _ 9

theorem V5r_v5 : V5r m c main_v5 = (dat2 (V3r m) c).arrAt 5 cfg2.N := (W5_keep m c main_v5 (by decide)).trans <| Pipeline.withArrays_arr spec2 launch2.win.arr_inj c _ _ 5
theorem V5r_arg8 : V5r m c main_arg8 = m ((c : Thread nD τ).loc main_arg8) := W5_args m c main_arg8 (by decide)
theorem V5r_arg10 : V5r m c main_arg10 = m ((c : Thread nD τ).loc main_arg10) := W5_args m c main_arg10 (by decide)
theorem V5r_arg12 : V5r m c main_arg12 = m ((c : Thread nD τ).loc main_arg12) := W5_args m c main_arg12 (by decide)

theorem V6r_arg1 : V6r m c main_arg1 = m ((c : Thread nD τ).loc main_arg1) := W6_args m c main_arg1 (by decide)
theorem V6r_v0 : V6r m c main_v0 = (dat0 (V0r m) c).arrAt 1 cfg0.N :=
  (W6_keep m c main_v0 (by decide)).trans <| (W5_keep m c main_v0 (by decide)).trans <| (W4_keep m c main_v0 (by decide)).trans <| V3r_v0 m c
theorem V6r_v9_0 : V6r m c main_v9_0 = (dat3 (V5r m) c).arrAt 7 cfg3.N := Pipeline.withArrays_arr spec3 launch3.win.arr_inj c _ _ 7
theorem V6r_v9_1 : V6r m c main_v9_1 = (dat3 (V5r m) c).arrAt 8 cfg3.N := Pipeline.withArrays_arr spec3 launch3.win.arr_inj c _ _ 8
theorem V6r_v9_2 : V6r m c main_v9_2 = (dat3 (V5r m) c).arrAt 9 cfg3.N := Pipeline.withArrays_arr spec3 launch3.win.arr_inj c _ _ 9

theorem V8r_v10 : V8r m c main_v10 = (dat4 (V6r m) c).arrAt 5 cfg4.N := (W8_keep m c main_v10 (by decide)).trans <| Pipeline.withArrays_arr spec4 launch4.win.arr_inj c _ _ 5
theorem V8r_arg14 : V8r m c main_arg14 = m ((c : Thread nD τ).loc main_arg14) := W8_args m c main_arg14 (by decide)
theorem V8r_arg16 : V8r m c main_arg16 = m ((c : Thread nD τ).loc main_arg16) := W8_args m c main_arg16 (by decide)
theorem V8r_arg18 : V8r m c main_arg18 = m ((c : Thread nD τ).loc main_arg18) := W8_args m c main_arg18 (by decide)

theorem V9r_arg1 : V9r m c main_arg1 = m ((c : Thread nD τ).loc main_arg1) := W9_args m c main_arg1 (by decide)
theorem V9r_v0 : V9r m c main_v0 = (dat0 (V0r m) c).arrAt 1 cfg0.N :=
  (W9_keep m c main_v0 (by decide)).trans <| (W8_keep m c main_v0 (by decide)).trans <| (W7_keep m c main_v0 (by decide)).trans <| V6r_v0 m c
theorem V9r_v14_0 : V9r m c main_v14_0 = (dat5 (V8r m) c).arrAt 7 cfg5.N := Pipeline.withArrays_arr spec5 launch5.win.arr_inj c _ _ 7
theorem V9r_v14_1 : V9r m c main_v14_1 = (dat5 (V8r m) c).arrAt 8 cfg5.N := Pipeline.withArrays_arr spec5 launch5.win.arr_inj c _ _ 8
theorem V9r_v14_2 : V9r m c main_v14_2 = (dat5 (V8r m) c).arrAt 9 cfg5.N := Pipeline.withArrays_arr spec5 launch5.win.arr_inj c _ _ 9

theorem run_value (ρ : Dev nD → PrngReg) : θ_run defs (onTc (τ := τ) (main (F := F))) ⟨m, fun _ => 0, ρ⟩ (fun r => ∀ c : Dev nD,
      r.2.mem ((c.tc : Thread nD τ).loc main_v15) = W10 m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨h c _ (mem_uc main_v15 (by decide)), args_end m c r.2 (h c)⟩) (run_all m ρ)

end Cert.KernelIdeal.HandRun

end
-- ==== Proof.KI.Value0.lean ====
import proofs.«139342_j40218073759787_2_alg».proof.Proof.KI.Region0
import Idealize.ShloMosaic.Lib.Pipeline.Value
import Idealize.ShloMosaic.Lib.ValueIdx
import Idealize.ShloMosaic.Lib.ValueLayout

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable {F : FTy → Type} [FloatOps F]
variable (V : (c : Dev nD) → (b : Ref sig .tc) → Buf (Elt F) ((c : Thread nD τ).loc b))

theorem zero_off0 : (![0, 0] : Fin 2 → Nat) = fun _ => 0 := funext fun a => by fin_cases a <;> rfl

def tr0 (c : Dev nD) : S8192x8192.Idx → Elt F .f32 :=
  fun j => (V c main_arg1 : S8192x8192.Idx → Elt F .f32) (ix2 (n0 := 8192) (n1 := 8192) (j 1) (j 0))

theorem pay0_apply (x0 : Vec F S1024x1024 .f32) (y k : S1024x1024.Idx)
    (h0 : (k 0).val = (y 1).val) (h1 : (k 1).val = (y 0).val) : k0_pay1 x0 y = x0 k := by
  unfold k0_pay1
  exact transpose_apply _ x0 _ y k fun b => match b with | ⟨0, _⟩ => h1 | ⟨1, _⟩ => h0

theorem idx_swap0 : ∀ t : Fin cfg0.N, win0_0.index t (0 : Fin 2) = win0_1.index t (1 : Fin 2)
    ∧ win0_0.index t (1 : Fin 2) = win0_1.index t (0 : Fin 2)
    ∧ win0_1.index t (0 : Fin 2) ≤ 7 ∧ win0_1.index t (1 : Fin 2) ≤ 7 :=
  (by decide +kernel : ∀ t : Fin grid0.N, _)

theorem idx_onto0 : ∀ (q0 q1 : Fin 8), ∃ t : Fin cfg0.N, win0_1.index t = ![q0.val, q1.val] :=
  (by decide +kernel : ∀ (q0 q1 : Fin 8), ∃ t : Fin grid0.N, win0_1.index t = ![q0.val, q1.val])

theorem iblk0_0_apply (c : Dev nD) (t : Fin cfg0.N) (x : S1024x1024.Idx) (k : S8192x8192.Idx)
    (hk0 : (k 0).val = win0_0.index t (0 : Fin 2) * 1024 + (x 0).val)
    (hk1 : (k 1).val = win0_0.index t (1 : Fin 2) * 1024 + (x 1).val) :
    (iblk0 V c 0 t : Vec F S1024x1024 .f32) x = (V c main_arg1 : S8192x8192.Idx → Elt F .f32) k := by
  unfold iblk0
  rw [View.read_apply]
  show V c main_arg1 _ = V c main_arg1 _
  congr 1
  funext a
  apply Fin.ext
  match a with
  | ⟨0, _⟩ => show win0_0.index t (0 : Fin 2) * 1024 + 1 * (x 0).val = (k 0).val; omega
  | ⟨1, _⟩ => show win0_0.index t (1 : Fin 2) * 1024 + 1 * (x 1).val = (k 1).val; omega

theorem flushed0_1_eq (c : Dev nD) (t : Fin cfg0.N) :
    (dat0 V c).flushed 1 t = ((cfg0.win 1).blk t).view.read (Elt F) (tr0 V c) := by
  show (cfg0.win 1).cut (grid0.coords t) ((dat0 V c).after 1 t) = _
  rw [after0_1]
  unfold out0_1
  rw [View.canon_unit_zero zero_off0]
  simp only [View.ld_unit_zero (S := S1024x1024) zero_off0]
  obtain ⟨e0, e1, -, -⟩ := idx_swap0 t
  funext j
  rw [View.read_apply]
  show k0_pay1 (iblk0 V c 0 t) ((cfg0.win 1).xinj (grid0.coords t) j) = _
  refine (pay0_apply (iblk0 V c 0 t) _
    (ix2 (n0 := 1024) (n1 := 1024) ⟨(j 1).val, (j 1).isLt⟩ ⟨(j 0).val, (j 0).isLt⟩) rfl rfl).trans ?_
  refine iblk0_0_apply V c t _ _ ?_ ?_
  · show win0_1.index t (1 : Fin 2) * 1024 + 1 * (j 1).val = win0_0.index t (0 : Fin 2) * 1024 + (j 1).val
    omega
  · show win0_1.index t (0 : Fin 2) * 1024 + 1 * (j 0).val = win0_0.index t (1 : Fin 2) * 1024 + (j 0).val
    omega

theorem covered0_1 (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := idx_onto0 ⟨(i 0).val / 1024, by omega⟩ ⟨(i 1).val / 1024, by omega⟩
  have q0 : win0_1.index t (0 : Fin 2) = (i 0).val / 1024 := congrFun ht 0
  have q1 : win0_1.index t (1 : Fin 2) = (i 1).val / 1024 := congrFun ht 1
  have he : (((cfg0.win 1).blk t).view.emb (ix2 (⟨(i 0).val % 1024, Nat.mod_lt _ (by decide)⟩ : Fin 1024)
      (⟨(i 1).val % 1024, Nat.mod_lt _ (by decide)⟩ : Fin 1024)) : S8192x8192.Idx) = i :=
    Shape.idx_ext₂ (by show win0_1.index t (0 : Fin 2) * 1024 + 1 * ((i 0).val % 1024) = (i 0).val; omega)
      (by show win0_1.index t (1 : Fin 2) * 1024 + 1 * ((i 1).val % 1024) = (i 1).val; omega)
  exact ⟨t, flush0_1 t, he ▸ ((cfg0.win 1).blk t).view.emb_mem_set _⟩

theorem arr0_eq (c : Dev nD) : (dat0 V c).arrAt 1 cfg0.N = tr0 V c :=
  (dat0 V c).arrAt_eq_of_cover 1 (tr0 V c) (fun t _ => flushed0_1_eq V c t) covered0_1

theorem arr0 (c : Dev nD) (p q : Fin 8192) :
    (dat0 V c).arrAt 1 cfg0.N (ix2 p q) = V c main_arg1 (ix2 q p) := by
  rw [arr0_eq]; rfl

end Cert.KernelIdeal.HandValue

end
-- ==== Proof.KI.HostOps.lean ====
import proofs.«139342_j40218073759787_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandValue

open Idealize.ShloMosaic Idealize.ShloMosaic.TcCoe Idealize.SL.Sem Idealize.ShloMosaic.ValueIdx
open Idealize.ShloMosaic.StableHlo
open Cert.KernelIdeal Cert.KernelIdeal.Gen

-- A vector reshaped to one row reads at (0, o) what the vector reads at o.
private theorem row_apply {α : Type} {n : ℕ} {x : (⟨2, ![1, n]⟩ : Shape).Idx → α} {y : (⟨1, ![n]⟩ : Shape).Idx → α}
    {h : (⟨1, ![n]⟩ : Shape).ShapeCasts ⟨2, ![1, n]⟩} (e : x = shapeCast ⟨2, ![1, n]⟩ y h) (o : Fin n) :
    x (ix2 (0 : Fin 1) o) = y (ix1 o) :=
  (congrFun e _).trans (shapeCast_a_1a_apply _ _ 0 o)

variable {F : FTy → Type} [FloatOps F]
variable (Wv : Valuation τ sig (Elt F))

theorem hostOps1_v1 (o : Fin 512) :
    StableHlo.after hostOps1 Wv (Proc.devRef .tc main_v1) (ix2 (0 : Fin 1) o)
      = Wv (Proc.devRef .tc main_arg3) (ix1 o) :=
  row_apply (h := shapeCasts_S512_S1x512) (by after_results; rfl) o

theorem hostOps1_v2 :
    StableHlo.after hostOps1 Wv (Proc.devRef .tc main_v2) (ix2 (0 : Fin 1) (0 : Fin 1))
      = Wv (Proc.devRef .tc main_arg5) (ix1 (0 : Fin 1)) :=
  row_apply (h := shapeCasts_S1_S1x1) (by after_results; rfl) 0

theorem hostOps1_v3 :
    StableHlo.after hostOps1 Wv (Proc.devRef .tc main_v3) (ix2 (0 : Fin 1) (0 : Fin 1))
      = Wv (Proc.devRef .tc main_arg7) (ix1 (0 : Fin 1)) :=
  row_apply (h := shapeCasts_S1_S1x1) (by after_results; rfl) 0

theorem hostOps3_v6 (o : Fin 256) :
    StableHlo.after hostOps3 Wv (Proc.devRef .tc main_v6) (ix2 (0 : Fin 1) o)
      = Wv (Proc.devRef .tc main_arg9) (ix1 o) :=
  row_apply (h := shapeCasts_S256_S1x256) (by after_results; rfl) o

theorem hostOps3_v7 :
    StableHlo.after hostOps3 Wv (Proc.devRef .tc main_v7) (ix2 (0 : Fin 1) (0 : Fin 1))
      = Wv (Proc.devRef .tc main_arg11) (ix1 (0 : Fin 1)) :=
  row_apply (h := shapeCasts_S1_S1x1) (by after_results; rfl) 0

theorem hostOps3_v8 :
    StableHlo.after hostOps3 Wv (Proc.devRef .tc main_v8) (ix2 (0 : Fin 1) (0 : Fin 1))
      = Wv (Proc.devRef .tc main_arg13) (ix1 (0 : Fin 1)) :=
  row_apply (h := shapeCasts_S1_S1x1) (by after_results; rfl) 0

theorem hostOps5_v11 (o : Fin 64) :
    StableHlo.after hostOps5 Wv (Proc.devRef .tc main_v11) (ix2 (0 : Fin 1) o)
      = Wv (Proc.devRef .tc main_arg15) (ix1 o) :=
  row_apply (h := shapeCasts_S64_S1x64) (by after_results; rfl) o

theorem hostOps5_v12 :
    StableHlo.after hostOps5 Wv (Proc.devRef .tc main_v12) (ix2 (0 : Fin 1) (0 : Fin 1))
      = Wv (Proc.devRef .tc main_arg17) (ix1 (0 : Fin 1)) :=
  row_apply (h := shapeCasts_S1_S1x1) (by after_results; rfl) 0

theorem hostOps5_v13 :
    StableHlo.after hostOps5 Wv (Proc.devRef .tc main_v13) (ix2 (0 : Fin 1) (0 : Fin 1))
      = Wv (Proc.devRef .tc main_arg19) (ix1 (0 : Fin 1)) :=
  row_apply (h := shapeCasts_S1_S1x1) (by after_results; rfl) 0

end Cert.KernelIdeal.HandValue

end
-- ==== Proof.KI.Blocks1.lean ====
import proofs.«139342_j40218073759787_2_alg».proof.Proof.KI.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable {F : FTy → Type} [FloatOps F]

variable (V : (c : Dev nD) → (b : Ref sig .tc) → Buf (Elt F) ((c : Thread nD τ).loc b))

local notation "nK" => 1024
local notation "nO" => 512

theorem r1_zero : (![0, 0] : Fin 2 → Nat) = fun _ => 0 := funext fun a => by fin_cases a <;> rfl

theorem idx1_facts : ∀ t : Fin cfg1.N,
    (∀ a : Fin 2, win1_1.index t a = 0) ∧ (∀ a : Fin 2, win1_2.index t a = 0) ∧ (∀ a : Fin 2, win1_3.index t a = 0)
    ∧ (∀ a : Fin 2, win1_4.index t a = 0) ∧ (∀ a : Fin 2, win1_5.index t a = 0) ∧ (∀ a : Fin 2, win1_6.index t a = 0)
    ∧ win1_7.index t (0 : Fin 2) = t.val ∧ win1_7.index t (1 : Fin 2) = 0
    ∧ win1_8.index t (0 : Fin 2) = 0 ∧ win1_8.index t (1 : Fin 2) = t.val
    ∧ win1_9.index t (0 : Fin 2) = 0 ∧ win1_9.index t (1 : Fin 2) = t.val
    ∧ win1_0.index t (0 : Fin 2) = t.val ∧ win1_0.index t (1 : Fin 2) = 0 :=
  (by decide +kernel : ∀ t : Fin grid1.N, _)

theorem row1_lt (t : Fin cfg1.N) (p : Fin 1024) : 1024 * t.val + p.val < 8192 := by
  have := t.isLt; have hN : cfg1.N = 8 := N_1; omega

def pt1 (r : Fin 8192) : Fin cfg1.N := ⟨r.val / 1024, by have hN : cfg1.N = 8 := N_1; have := r.isLt; omega⟩

theorem iblk1_0_apply (c : Dev nD) (t : Fin cfg1.N) (p : Fin 1024) (k : Fin nK) :
    (iblk1 V c 0 t : Vec F S1024x1024 .f32) (ix2 p k)
      = (V c (Pipeline.arrRef spec1 0) : S8192x1024.Idx → Elt F .f32) (ix2 (⟨1024 * t.val + p.val, row1_lt t p⟩ : Fin 8192) k) := by
  obtain ⟨-, -, -, -, -, -, -, -, -, -, -, -, e0, e1⟩ := idx1_facts t
  unfold iblk1
  rw [View.read_apply]
  show (V c (Pipeline.arrRef spec1 0) : S8192x1024.Idx → Elt F .f32) _ = _
  exact congrArg _ (Shape.idx_ext₂ (by show win1_0.index t (0 : Fin 2) * 1024 + 1 * p.val = 1024 * t.val + p.val; omega) (by show win1_0.index t (1 : Fin 2) * nK + 1 * k.val = k.val; omega))

-- A block read through an index map that moves no coordinate is the array itself.
private theorem read_fix {S : Shape} {α : Type} {A B : S.Idx → α} (em : S.Idx → S.Idx)
    (hB : ∀ y, B y = A (em y)) (h : ∀ y a, (em y a).val = (y a).val) : B = A :=
  funext fun y => (hB y).trans (congrArg A (funext fun a => Fin.ext (h y a)))

theorem iblk1_1_eq (c : Dev nD) (t : Fin cfg1.N) :
    (iblk1 V c 1 t : Vec F S512x1024 .f32) = (V c (Pipeline.arrRef spec1 1) : S512x1024.Idx → Elt F .f32) :=
  read_fix ((cfg1.win 1).blk t).view.emb (fun _ => rfl) fun y a => win1_1.rect_emb_val_of_index_zero t a ((idx1_facts t).1 a) y

theorem iblk1_2_eq (c : Dev nD) (t : Fin cfg1.N) :
    (iblk1 V c 2 t : Vec F S1x512 .f32) = (V c (Pipeline.arrRef spec1 2) : S1x512.Idx → Elt F .f32) :=
  read_fix ((cfg1.win 2).blk t).view.emb (fun _ => rfl) fun y a => win1_2.rect_emb_val_of_index_zero t a ((idx1_facts t).2.1 a) y

theorem iblk1_3_eq (c : Dev nD) (t : Fin cfg1.N) :
    (iblk1 V c 3 t : Vec F S1x512 .f32) = (V c (Pipeline.arrRef spec1 3) : S1x512.Idx → Elt F .f32) :=
  read_fix ((cfg1.win 3).blk t).view.emb (fun _ => rfl) fun y a => win1_3.rect_emb_val_of_index_zero t a ((idx1_facts t).2.2.1 a) y

theorem iblk1_4_eq (c : Dev nD) (t : Fin cfg1.N) :
    (iblk1 V c 4 t : Vec F S1x1 .f32) = (V c (Pipeline.arrRef spec1 4) : S1x1.Idx → Elt F .f32) :=
  read_fix ((cfg1.win 4).blk t).view.emb (fun _ => rfl) fun y a => win1_4.rect_emb_val_of_index_zero t a ((idx1_facts t).2.2.2.1 a) y

theorem iblk1_5_eq (c : Dev nD) (t : Fin cfg1.N) :
    (iblk1 V c 5 t : Vec F S1x512 .f32) = (V c (Pipeline.arrRef spec1 5) : S1x512.Idx → Elt F .f32) :=
  read_fix ((cfg1.win 5).blk t).view.emb (fun _ => rfl) fun y a => win1_5.rect_emb_val_of_index_zero t a ((idx1_facts t).2.2.2.2.1 a) y

theorem iblk1_6_eq (c : Dev nD) (t : Fin cfg1.N) :
    (iblk1 V c 6 t : Vec F S1x1 .f32) = (V c (Pipeline.arrRef spec1 6) : S1x1.Idx → Elt F .f32) :=
  read_fix ((cfg1.win 6).blk t).view.emb (fun _ => rfl) fun y a => win1_6.rect_emb_val_of_index_zero t a ((idx1_facts t).2.2.2.2.2.1 a) y

-- Blocks whose index on one axis is the point number are pairwise disjoint, so the final array under point t's block is the block t wrote back.
private theorem arr_emb (c : Dev nD) (w : Fin cfg1.W) (a : Fin (cfg1.win w).shape.rank) (hi : ∀ u, (cfg1.win w).index u a = u.val)
    (hf : ∀ u, (cfg1.win w).flush u = true) (t : Fin cfg1.N) (y : ((cfg1.win w).xblock (cfg1.grid.coords t)).Idx) :
    (dat1 V c).arrAt w cfg1.N (((cfg1.win w).blk t).view.emb y)
      = _root_.cast (congrArg (Elt F) ((cfg1.win w).blk t).view.elt_eq.symm) ((dat1 V c).flushed w t y) :=
  (dat1 V c).arrAt_emb_eq_flushed w (fun u u' _ _ h => (cfg1.win w).disjoint_blk fun e =>
    h (Fin.ext ((hi u).symm.trans ((congrFun e a).trans (hi u'))))) t (hf t) y

theorem arr1_7_apply (c : Dev nD) (t : Fin cfg1.N) (p : Fin 1024) (o : Fin nO) :
    ((dat1 V c).arrAt 7 cfg1.N : S8192x512.Idx → Elt F .bf16) (ix2 (⟨1024 * t.val + p.val, row1_lt t p⟩ : Fin 8192) o)
      = k1_pay1 (iblk1 V c 0 t) (iblk1 V c 1 t) (iblk1 V c 2 t) (ix2 p o) := by
  obtain ⟨-, -, -, -, -, -, e0, e1, -⟩ := idx1_facts t
  have he : (((cfg1.win 7).blk t).view.emb (ix2 p o) : S8192x512.Idx) = ix2 (⟨1024 * t.val + p.val, row1_lt t p⟩ : Fin 8192) o :=
    Shape.idx_ext₂ (by show win1_7.index t (0 : Fin 2) * 1024 + 1 * p.val = 1024 * t.val + p.val; omega) (by show win1_7.index t (1 : Fin 2) * nO + 1 * o.val = o.val; omega)
  rw [← he]
  refine (arr_emb V c 7 (0 : Fin 2) (fun u => (idx1_facts u).2.2.2.2.2.2.1) flush1_7 t _).trans ?_
  show (cfg1.win 7).cut (grid1.coords t) ((dat1 V c).after 7 t) (ix2 p o) = _
  rw [after1_7]
  unfold out1_7
  rw [View.canon_unit_zero r1_zero]
  simp only [View.ld_unit_zero (S := S1024x1024) r1_zero, View.ld_unit_zero (S := S512x1024) r1_zero, View.ld_unit_zero (S := S1x512) r1_zero]
  rfl

theorem arr1_8_apply (c : Dev nD) (t : Fin cfg1.N) (p : Fin 1024) :
    ((dat1 V c).arrAt 8 cfg1.N : S1x8192.Idx → Elt F .f32) (ix2 (0 : Fin 1) (⟨1024 * t.val + p.val, row1_lt t p⟩ : Fin 8192))
      = k1_pay2 (iblk1 V c 0 t) (iblk1 V c 1 t) (iblk1 V c 2 t) (iblk1 V c 3 t) (iblk1 V c 4 t) (ix2 (0 : Fin 1) p) := by
  obtain ⟨-, -, -, -, -, -, -, -, e0, e1, -⟩ := idx1_facts t
  have he : (((cfg1.win 8).blk t).view.emb (ix2 (0 : Fin 1) p) : S1x8192.Idx) = ix2 (0 : Fin 1) (⟨1024 * t.val + p.val, row1_lt t p⟩ : Fin 8192) :=
    Shape.idx_ext₂ (by show win1_8.index t (0 : Fin 2) * 1 + 1 * 0 = 0; omega) (by show win1_8.index t (1 : Fin 2) * 1024 + 1 * p.val = 1024 * t.val + p.val; omega)
  rw [← he]
  refine (arr_emb V c 8 (1 : Fin 2) (fun u => (idx1_facts u).2.2.2.2.2.2.2.2.2.1) flush1_8 t _).trans ?_
  show (cfg1.win 8).cut (grid1.coords t) ((dat1 V c).after 8 t) (ix2 (0 : Fin 1) p) = _
  rw [after1_8]
  unfold out1_8
  rw [View.canon_unit_zero r1_zero]
  simp only [View.ld_unit_zero (S := S1024x1024) r1_zero, View.ld_unit_zero (S := S512x1024) r1_zero, View.ld_unit_zero (S := S1x512) r1_zero,
    View.ld_unit_zero (S := S1x1) r1_zero]
  rfl

-- The two score payloads are one function of their five blocks.
theorem arr1_9_apply (c : Dev nD) (t : Fin cfg1.N) (p : Fin 1024) :
    ((dat1 V c).arrAt 9 cfg1.N : S1x8192.Idx → Elt F .f32) (ix2 (0 : Fin 1) (⟨1024 * t.val + p.val, row1_lt t p⟩ : Fin 8192))
      = k1_pay2 (iblk1 V c 0 t) (iblk1 V c 1 t) (iblk1 V c 2 t) (iblk1 V c 5 t) (iblk1 V c 6 t) (ix2 (0 : Fin 1) p) := by
  obtain ⟨-, -, -, -, -, -, -, -, -, -, e0, e1, -⟩ := idx1_facts t
  have he : (((cfg1.win 9).blk t).view.emb (ix2 (0 : Fin 1) p) : S1x8192.Idx) = ix2 (0 : Fin 1) (⟨1024 * t.val + p.val, row1_lt t p⟩ : Fin 8192) :=
    Shape.idx_ext₂ (by show win1_9.index t (0 : Fin 2) * 1 + 1 * 0 = 0; omega) (by show win1_9.index t (1 : Fin 2) * 1024 + 1 * p.val = 1024 * t.val + p.val; omega)
  rw [← he]
  refine (arr_emb V c 9 (1 : Fin 2) (fun u => (idx1_facts u).2.2.2.2.2.2.2.2.2.2.2.1) flush1_9 t _).trans ?_
  show (cfg1.win 9).cut (grid1.coords t) ((dat1 V c).after 9 t) (ix2 (0 : Fin 1) p) = _
  rw [after1_9]
  unfold out1_9
  rw [View.canon_unit_zero r1_zero]
  simp only [View.ld_unit_zero (S := S1024x1024) r1_zero, View.ld_unit_zero (S := S512x1024) r1_zero, View.ld_unit_zero (S := S1x512) r1_zero,
    View.ld_unit_zero (S := S1x1) r1_zero]
  rfl

end Cert.KernelIdeal.Hand

end
-- ==== Proof.SpecLemmas.lean ====
/- Real numbers seen inside the extended reals: sums, products, quotients, maxima; a softmax does not change when a constant is subtracted from a row. -/
import proofs.«139342_j40218073759787_2_alg».proof.Proof.Spec
import Mathlib.Data.EReal.Inv
import Mathlib.Data.Finset.Fold
import Mathlib.Data.Finset.Lattice.Fold
import Mathlib.Algebra.BigOperators.Fin
import Mathlib.Logic.Equiv.Fin.Basic
import Mathlib.Analysis.SpecialFunctions.Exp
import Mathlib.Tactic.Ring
import Mathlib.Tactic.Positivity
noncomputable section
open scoped BigOperators
namespace GAT
open Idealize.ShloMosaic
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]
theorem sum_mul_coe {ι : Type*} [Fintype ι] (f g : ι → ℝ) :
    (∑ i, ((f i : ℝ) : EReal) * ((g i : ℝ) : EReal)) = ((∑ i, f i * g i : ℝ) : EReal) := by
  rw [coe_sum]
  exact Finset.sum_congr rfl fun i _ => (EReal.coe_mul _ _).symm
theorem sum_mul_coe_finset {ι : Type*} (s : Finset ι) (f g : ι → ℝ) :
    (∑ i ∈ s, ((f i : ℝ) : EReal) * ((g i : ℝ) : EReal)) = ((∑ i ∈ s, f i * g i : ℝ) : EReal) := by
  rw [coe_sum]
  exact Finset.sum_congr rfl fun i _ => (EReal.coe_mul _ _).symm
theorem sum_mul_coe_add {ι : Type*} [Fintype ι] (f g : ι → ℝ) (b : ℝ) :
    (∑ i, ((f i : ℝ) : EReal) * ((g i : ℝ) : EReal)) + ((b : ℝ) : EReal) = ((∑ i, f i * g i + b : ℝ) : EReal) := by
  rw [sum_mul_coe, ← EReal.coe_add]
theorem coe_max (x y : ℝ) : ((max x y : ℝ) : EReal) = max ((x : ℝ) : EReal) ((y : ℝ) : EReal) :=
  EReal.coe_strictMono.monotone.map_max
theorem max_coe (x y : ℝ) : max ((x : ℝ) : EReal) ((y : ℝ) : EReal) = ((max x y : ℝ) : EReal) :=
  (coe_max x y).symm
theorem relu_coe (x : ℝ) : max ((x : ℝ) : EReal) 0 = ((max x 0 : ℝ) : EReal) := by
  rw [coe_max, EReal.coe_zero]
theorem relu_coe_left (x : ℝ) : max 0 ((x : ℝ) : EReal) = ((max x 0 : ℝ) : EReal) := by
  rw [max_comm, relu_coe]
theorem max_bot_left' (x : EReal) : max ⊥ x = x := max_eq_right bot_le
theorem max_bot_right' (x : EReal) : max x ⊥ = x := max_eq_left bot_le
theorem logistic_coe' (x : ℝ) : Ideal.logistic ((x : ℝ) : EReal) = (((1 + Real.exp (-x))⁻¹ : ℝ) : EReal) :=
  Ideal.logistic_coe x
theorem exp_coe' (x : ℝ) : Ideal.exp ((x : ℝ) : EReal) = ((Real.exp x : ℝ) : EReal) :=
  Ideal.exp_coe x
theorem div_coe' (x y : ℝ) (hy : y ≠ 0) : Ideal.div ((x : ℝ) : EReal) ((y : ℝ) : EReal) = ((x / y : ℝ) : EReal) := by
  rw [Ideal.div_coe hy, ← EReal.coe_mul, mul_one_div]
theorem neg_coe (x : ℝ) : -((x : ℝ) : EReal) = ((-x : ℝ) : EReal) := (EReal.coe_neg x).symm
theorem sub_coe (x y : ℝ) : ((x : ℝ) : EReal) - ((y : ℝ) : EReal) = ((x - y : ℝ) : EReal) := (EReal.coe_sub x y).symm
theorem ofBits_one_f32 : Ideal.ofBits .f32 0x3F800000#32 = 1 := by
  simp [Ideal.ofBits, Ideal.ieee, -EReal.coe_mul]; norm_num
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
theorem sum_exp_pos {ι : Type*} [Fintype ι] [Nonempty ι] (s : ι → ℝ) : 0 < ∑ j, Real.exp (s j) :=
  Finset.sum_pos (fun j _ => Real.exp_pos (s j)) Finset.univ_nonempty
theorem softmax_shift {ι : Type*} [Fintype ι] [Nonempty ι] (s z : ι → ℝ) (mx : ℝ) :
    ∑ j, (Real.exp (s j - mx) / ∑ j', Real.exp (s j' - mx)) * z j
      = (∑ j, Real.exp (s j) * z j) / ∑ j, Real.exp (s j) := by
  have hc : Real.exp mx ≠ 0 := (Real.exp_pos mx).ne'
  have hS : (∑ j', Real.exp (s j' - mx)) = (∑ j', Real.exp (s j')) / Real.exp mx := by
    rw [Finset.sum_div]; exact Finset.sum_congr rfl fun j _ => Real.exp_sub _ _
  have hpos : (∑ j', Real.exp (s j')) ≠ 0 := (sum_exp_pos s).ne'
  have hR : (∑ j, Real.exp (s j) * z j) / (∑ j, Real.exp (s j))
      = ∑ j, Real.exp (s j) * z j / (∑ j', Real.exp (s j')) := Finset.sum_div _ _ _
  rw [hS, hR]
  refine Finset.sum_congr rfl fun j _ => ?_
  rw [Real.exp_sub]
  field_simp
theorem fold_max_coe {ι : Type*} (s : Finset ι) (f : ι → ℝ) (hs : s.Nonempty) :
    s.fold max (⊥ : EReal) (fun j => ((f j : ℝ) : EReal)) = ((s.sup' hs f : ℝ) : EReal) := by
  have h1 : ((s.sup' hs f : ℝ) : EReal) = s.sup' hs ((fun x : ℝ => (x : EReal)) ∘ f) :=
    Finset.comp_sup'_eq_sup'_comp hs (fun x : ℝ => (x : EReal)) (fun x y => coe_max x y)
  rw [h1, Finset.sup'_eq_sup]
  rfl
theorem le_sup'_real {ι : Type*} (s : Finset ι) (f : ι → ℝ) (hs : s.Nonempty) {j : ι} (hj : j ∈ s) :
    f j ≤ s.sup' hs f := Finset.le_sup' f hj
theorem blocked_lt {nb b : ℕ} (jb : Fin nb) (jj : Fin b) : jb.val * b + jj.val < nb * b := by
  have h1 := jb.isLt
  have h2 := jj.isLt
  calc jb.val * b + jj.val < jb.val * b + b := by omega
    _ = (jb.val + 1) * b := by ring
    _ ≤ nb * b := Nat.mul_le_mul_right b h1
theorem blocked_sum {α : Type*} [AddCommMonoid α] (nb b : ℕ) (f : Fin (nb * b) → α) :
    (∑ jb : Fin nb, ∑ jj : Fin b, f ⟨jb.val * b + jj.val, blocked_lt jb jj⟩) = ∑ j, f j := by
  have h : (∑ x : Fin nb × Fin b, f ⟨x.1.val * b + x.2.val, blocked_lt x.1 x.2⟩)
      = ∑ jb : Fin nb, ∑ jj : Fin b, f ⟨jb.val * b + jj.val, blocked_lt jb jj⟩ :=
    Fintype.sum_prod_type _
  rw [← h]
  refine Fintype.sum_equiv finProdFinEquiv _ _ fun x => congrArg f (Fin.ext ?_)
  show x.1.val * b + x.2.val = x.2.val + b * x.1.val
  ring
theorem blocked_sum' {α : Type*} [AddCommMonoid α] (nb b : ℕ) (f : Fin (nb * b) → α) :
    ∑ j, f j = ∑ jb : Fin nb, ∑ jj : Fin b, f ⟨jb.val * b + jj.val, blocked_lt jb jj⟩ :=
  (blocked_sum nb b f).symm
end GAT
end
-- ==== Proof.KI.Value1Pay.lean ====
import proofs.«139342_j40218073759787_2_alg».proof.Proof.Gen.KernelIdeal.Skeleton
import proofs.«139342_j40218073759787_2_alg».proof.Proof.Spec
import proofs.«139342_j40218073759787_2_alg».proof.Proof.SpecLemmas
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen GAT

local notation "nK" => 1024
local notation "nO" => 512
local notation "SH" => S1024x1024
local notation "SW" => S512x1024
local notation "SRow" => S1x512

-- A product (a × k)·(k × b) into the zero accumulator, at (p, o): the sum over the contracted axis of left (p, j) times right (j, o).
private theorem mm_apply {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl : D.lhsContracting = [(1 : Fin 2)]) (hc : D.rhsContracting = [(0 : Fin 2)])
    (hl0 : ∀ i q, (D.lhsIdx i q (0 : Fin 2)).val = (i (0 : Fin 2)).val) (hr1 : ∀ i q, (D.rhsIdx i q (1 : Fin 2)).val = (i (1 : Fin 2)).val)
    (l : FVec Ideal ⟨2, ![a, k]⟩ φ₁) (r : FVec Ideal ⟨2, ![k, b]⟩ φ₂) (p : Fin a) (o : Fin b) :
    matmul D none l r (constant (F := Ideal) ⟨2, ![a, b]⟩ .f32 0x00000000#32) (ix2 p o) = ∑ j : Fin k, l (ix2 p j) * r (ix2 j o) := by
  simp only [matmul]
  rw [Ideal.matmul_constant_zero_apply, ← Equiv.sum_comp (ValueIdx.contrEquiv1 D k hr hs).symm]
  refine Finset.sum_congr rfl fun j _ => ?_
  have hj := ValueIdx.contrEquiv1_symm_val D k hr hs j
  have el : D.lhsIdx (ix2 p o) ((ValueIdx.contrEquiv1 D k hr hs).symm j) = ix2 p j := funext fun x => Fin.ext (by
    match x with
    | ⟨0, _⟩ => exact hl0 _ _
    | ⟨1, _⟩ => exact (D.lhsIdx_val_of_single hl _ _).trans hj)
  have er : D.rhsIdx (ix2 p o) ((ValueIdx.contrEquiv1 D k hr hs).symm j) = ix2 j o := funext fun x => Fin.ext (by
    match x with
    | ⟨0, _⟩ => exact (D.rhsIdx_val_of_single hc _ _).trans hj
    | ⟨1, _⟩ => exact hr1 _ _)
  rw [el, er]

variable (h : Vec Ideal SH .f32) (w : Vec Ideal SW .f32) (b : Vec Ideal SRow .f32) (tw : Vec Ideal SRow .f32) (tb : Vec Ideal S1x1 .f32)

theorem k1_pay1_apply (p : Fin 1024) (o : Fin nO) :
    k1_pay1 (F := Ideal) h w b (ix2 p o) = max ((∑ k : Fin nK, h (ix2 p k) * w (ix2 o k)) + b (ix2 0 o)) 0 := by
  unfold k1_pay1
  dsimp only
  simp only [shapeCast_self]
  rw [truncf_apply, maximumf_apply, addf_apply, broadcast_apply,
    mm_apply dot_S1024x1024_S1024x512_S1024x512_1_0_0_1_n_n rfl rfl rfl rfl
      (fun _ _ => rfl)
      (fun _ _ => rfl),
    broadcastTo_1b_ab_apply]
  refine congrArg₂ max (congrArg (· + b (ix2 0 o)) (Finset.sum_congr rfl fun k _ => ?_)) Ideal.ofBits_zero_f32
  rw [transpose_ix2_apply]; rfl

theorem k1_pay2_apply (p : Fin 1024) :
    k1_pay2 (F := Ideal) h w b tw tb (ix2 0 p) = (∑ o : Fin nO, k1_pay1 (F := Ideal) h w b (ix2 p o) * tw (ix2 0 o)) + tb (ix2 0 0) := by
  unfold k1_pay2
  dsimp only
  rw [transpose_ix2_apply, addf_apply,
    mm_apply dot_S1024x512_S512x1_S1024x1_1_0_0_1_n_n rfl rfl rfl rfl
      (fun _ _ => rfl)
      (fun _ _ => rfl),
    broadcastTo_1b_ab_apply, shapeCast_self]
  refine congrArg (· + tb (ix2 0 0)) (Finset.sum_congr rfl fun o _ => ?_)
  rw [transpose_ix2_apply]; rfl

variable {hr : Fin 1024 → Fin nK → ℝ} {wr : Fin nO → Fin nK → ℝ} {br : Fin 1 → Fin nO → ℝ} {twr : Fin 1 → Fin nO → ℝ} {tbr : Fin 1 → Fin 1 → ℝ}
  (hh : IsR2 (a := 1024) (b := nK) h hr) (hw : IsR2 (a := nO) (b := nK) w wr) (hb : IsR2 (a := 1) (b := nO) b br)
  (htw : IsR2 (a := 1) (b := nO) tw twr) (htb : IsR2 (a := 1) (b := 1) tb tbr)

include hh hw hb in
-- At real inputs the sums and products stay real: entry (p, o) of the Z block is the real projection.
theorem k1_pay1_real (p : Fin 1024) (o : Fin nO) :
    k1_pay1 (F := Ideal) h w b (ix2 p o) = ((zR hr wr (br 0) p o : ℝ) : EReal) := by
  rw [k1_pay1_apply, Finset.sum_congr rfl fun k _ => congrArg₂ (· * ·) (hh p k) (hw o k), hb 0 o, sum_mul_coe_add, relu_coe]
  rfl

include hh hw hb htw htb in
-- Entry p of a score row is the real gate of the real projection.
theorem k1_pay2_real (p : Fin 1024) :
    k1_pay2 (F := Ideal) h w b tw tb (ix2 0 p) = ((gateR (zR hr wr (br 0)) (twr 0) (tbr 0 0) p : ℝ) : EReal) := by
  rw [k1_pay2_apply, Finset.sum_congr rfl fun o _ => congrArg₂ (· * ·) (k1_pay1_real h w b hh hw hb p o) (htw 0 o), htb 0 0, sum_mul_coe_add]
  rfl

end Cert.KernelIdeal.HandValue

end
-- ==== Proof.KI.Value1.lean ====
import proofs.«139342_j40218073759787_2_alg».proof.Proof.KI.Blocks1
import proofs.«139342_j40218073759787_2_alg».proof.Proof.KI.Value1Pay

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand GAT

variable (V : (c : Dev nD) → (b : Ref sig .tc) → Buf (Elt Ideal) ((c : Thread nD τ).loc b))

local notation "nK" => 1024
local notation "nO" => 512
local notation "SHa" => S8192x1024
local notation "SW" => S512x1024
local notation "SRow" => S1x512
local notation "SZa" => S8192x512

theorem split1 (r : Fin 8192) : ∃ (t : Fin cfg1.N) (p : Fin 1024), r = ⟨1024 * t.val + p.val, row1_lt t p⟩ :=
  ⟨pt1 r, ⟨r.val % 1024, Nat.mod_lt _ (by decide)⟩, Fin.ext (by show r.val = 1024 * (r.val / 1024) + r.val % 1024; omega)⟩

private theorem isR2_of_eq {a b : ℕ} {x y : (⟨2, ![a, b]⟩ : Shape).Idx → EReal} {r : Fin a → Fin b → ℝ} (e : x = y) (h : IsR2 y r) :
    IsR2 x r := e ▸ h

variable (c : Dev nD) {Hr : Fin 8192 → Fin nK → ℝ} {Wr : Fin nO → Fin nK → ℝ} {b2 : Fin 1 → Fin nO → ℝ}

theorem iblk1_0_real (h0 : IsR2 (V c (Pipeline.arrRef spec1 0) : Shape.Idx SHa → EReal) Hr) (t : Fin cfg1.N) :
    IsR2 (a := 1024) (b := nK) (iblk1 V c 0 t) (fun p k => Hr ⟨1024 * t.val + p.val, row1_lt t p⟩ k) :=
  fun p k => (iblk1_0_apply V c t p k).trans (h0 _ k)

-- Row 1024·t + p of each result is point t's payload at p over blocks that are real, so it is the real model at that row.
theorem arr1_z
    (h0 : IsR2 (V c (Pipeline.arrRef spec1 0) : Shape.Idx SHa → EReal) Hr)
    (h1 : IsR2 (V c (Pipeline.arrRef spec1 1) : Shape.Idx SW → EReal) Wr)
    (h2 : IsR2 (V c (Pipeline.arrRef spec1 2) : Shape.Idx SRow → EReal) b2) :
    IsR2 ((dat1 V c).arrAt 7 cfg1.N : Shape.Idx SZa → EReal) (zR Hr Wr (b2 0)) := by
  intro r o
  obtain ⟨t, p, rfl⟩ := split1 r
  refine ((arr1_7_apply V c t p o).trans (k1_pay1_real _ _ _ (iblk1_0_real V c h0 t)
    (isR2_of_eq (iblk1_1_eq V c t) h1) (isR2_of_eq (iblk1_2_eq V c t) h2) p o)).trans ?_
  rfl

theorem arr1_t {tw : Fin 1 → Fin nO → ℝ} {tb : Fin 1 → Fin 1 → ℝ}
    (h0 : IsR2 (V c (Pipeline.arrRef spec1 0) : Shape.Idx SHa → EReal) Hr)
    (h1 : IsR2 (V c (Pipeline.arrRef spec1 1) : Shape.Idx SW → EReal) Wr)
    (h2 : IsR2 (V c (Pipeline.arrRef spec1 2) : Shape.Idx SRow → EReal) b2)
    (h3 : IsR2 (V c (Pipeline.arrRef spec1 3) : Shape.Idx SRow → EReal) tw)
    (h4 : IsR2 (V c (Pipeline.arrRef spec1 4) : S1x1.Idx → EReal) tb) :
    IsR2 ((dat1 V c).arrAt 8 cfg1.N : S1x8192.Idx → EReal) (fun _ i => gateR (zR Hr Wr (b2 0)) (tw 0) (tb 0 0) i) := by
  intro z r
  obtain rfl : z = 0 := Subsingleton.elim _ _
  obtain ⟨t, p, rfl⟩ := split1 r
  refine ((arr1_8_apply V c t p).trans (k1_pay2_real _ _ _ _ _ (iblk1_0_real V c h0 t)
    (isR2_of_eq (iblk1_1_eq V c t) h1) (isR2_of_eq (iblk1_2_eq V c t) h2)
    (isR2_of_eq (iblk1_3_eq V c t) h3) (isR2_of_eq (iblk1_4_eq V c t) h4) p)).trans ?_
  rfl

theorem arr1_r {rw' : Fin 1 → Fin nO → ℝ} {rb : Fin 1 → Fin 1 → ℝ}
    (h0 : IsR2 (V c (Pipeline.arrRef spec1 0) : Shape.Idx SHa → EReal) Hr)
    (h1 : IsR2 (V c (Pipeline.arrRef spec1 1) : Shape.Idx SW → EReal) Wr)
    (h2 : IsR2 (V c (Pipeline.arrRef spec1 2) : Shape.Idx SRow → EReal) b2)
    (h5 : IsR2 (V c (Pipeline.arrRef spec1 5) : Shape.Idx SRow → EReal) rw')
    (h6 : IsR2 (V c (Pipeline.arrRef spec1 6) : S1x1.Idx → EReal) rb) :
    IsR2 ((dat1 V c).arrAt 9 cfg1.N : S1x8192.Idx → EReal) (fun _ i => gateR (zR Hr Wr (b2 0)) (rw' 0) (rb 0 0) i) := by
  intro z r
  obtain rfl : z = 0 := Subsingleton.elim _ _
  obtain ⟨t, p, rfl⟩ := split1 r
  refine ((arr1_9_apply V c t p).trans (k1_pay2_real _ _ _ _ _ (iblk1_0_real V c h0 t)
    (isR2_of_eq (iblk1_1_eq V c t) h1) (isR2_of_eq (iblk1_2_eq V c t) h2)
    (isR2_of_eq (iblk1_5_eq V c t) h5) (isR2_of_eq (iblk1_6_eq V c t) h6) p)).trans ?_
  rfl

end Cert.KernelIdeal.HandValue

end
-- ==== Proof.KI.Region2Pieces.lean ====
import proofs.«139342_j40218073759787_2_alg».proof.Proof.KI.Region2Runs
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem offs_zero2 : (![0, 0] : Fin 2 → Nat) = fun _ => 0 := funext fun a => by fin_cases a <;> rfl

variable (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole)

section
variable (hc0 : cond2_0 i) (hc1 : ¬cond2_1 i)
    (x0 : Vec F S1024x512 .f32) (x1 : Vec F S1024x512 .f32) (x2 : Vec F S512x512 .bf16) (x3 : Vec F S1x512 .f32) (x4 : Vec F S1x1024 .f32)

theorem sout2_A_0_eq : sout2_A_0 c i arg2 harg2 arg3 harg3 arg4 harg4 arg5 harg5 arg6 harg6 arg7 harg7 arg8 harg8 arg9 harg9 hc0 hc1 x0 x1 x2 x3 x4 = k2_pay5 x0 x1 x3 x4 (k2_pay2 (F := F)) := by
  unfold sout2_A_0
  rw [View.read_writes_junk_eq_canon]
  unfold kernelRun2_A
  dsimp only
  sl_unfold_words
  rw [View.canon_cons_unit_zero (S := S1024x1) offs_zero2]
  simp only [View.readAt_eq_ld, Memref.IsWhole.read_unread, View.ld_unit_zero (S := ⟨2, ![_, _]⟩) offs_zero2,
    View.readCov_unit_zero (S := ⟨2, ![_, _]⟩) _ offs_zero2]

theorem sout2_A_1_eq : sout2_A_1 c i arg2 harg2 arg3 harg3 arg4 harg4 arg5 harg5 arg6 harg6 arg7 harg7 arg8 harg8 arg9 harg9 hc0 hc1 x0 x1 x2 x3 x4 = k2_pay6 x0 x1 x3 x4 (k2_pay3 (F := F)) x2 := by
  unfold sout2_A_1
  rw [View.read_writes_junk_eq_canon]
  unfold kernelRun2_A
  dsimp only
  sl_unfold_words
  rw [View.canon_cons_unit_zero (S := S1024x512) offs_zero2]
  simp only [View.readAt_eq_ld, Memref.IsWhole.read_unread, View.ld_unit_zero (S := ⟨2, ![_, _]⟩) offs_zero2,
    View.readCov_unit_zero (S := ⟨2, ![_, _]⟩) _ offs_zero2]

end

section
variable (hc0 : ¬cond2_0 i) (hc1 : ¬cond2_1 i)
    (x0 : Vec F S1024x512 .f32) (x1 : Vec F S1024x512 .f32) (x2 : Vec F S512x512 .bf16) (x3 : Vec F S1x512 .f32) (x4 : Vec F S1x1024 .f32) (xs0 : Vec F S1024x1 .f32) (xs1 : Vec F S1024x512 .f32)

theorem sout2_B_0_eq : sout2_B_0 c i arg2 harg2 arg3 harg3 arg4 harg4 arg5 harg5 arg6 harg6 arg7 harg7 arg8 harg8 arg9 harg9 hc0 hc1 x0 x1 x2 x3 x4 xs0 xs1 = k2_pay5 x0 x1 x3 x4 xs0 := by
  unfold sout2_B_0
  rw [View.read_writes_junk_eq_canon]
  unfold kernelRun2_B
  dsimp only
  sl_unfold_words
  rw [View.canon_unit_zero offs_zero2]
  simp only [View.readAt_eq_ld, Memref.IsWhole.read_unread, View.ld_unit_zero (S := ⟨2, ![_, _]⟩) offs_zero2,
    View.readCov_unit_zero (S := ⟨2, ![_, _]⟩) _ offs_zero2]

theorem sout2_B_1_eq : sout2_B_1 c i arg2 harg2 arg3 harg3 arg4 harg4 arg5 harg5 arg6 harg6 arg7 harg7 arg8 harg8 arg9 harg9 hc0 hc1 x0 x1 x2 x3 x4 xs0 xs1 = k2_pay6 x0 x1 x3 x4 xs1 x2 := by
  unfold sout2_B_1
  rw [View.read_writes_junk_eq_canon]
  unfold kernelRun2_B
  dsimp only
  sl_unfold_words
  rw [View.canon_unit_zero offs_zero2]
  simp only [View.readAt_eq_ld, Memref.IsWhole.read_unread, View.ld_unit_zero (S := ⟨2, ![_, _]⟩) offs_zero2,
    View.readCov_unit_zero (S := ⟨2, ![_, _]⟩) _ offs_zero2]

end

section
variable (hc0 : ¬cond2_0 i) (hc1 : cond2_1 i)
    (x0 : Vec F S1024x512 .f32) (x1 : Vec F S1024x512 .f32) (x2 : Vec F S512x512 .bf16) (x3 : Vec F S1x512 .f32) (x4 : Vec F S1x1024 .f32) (xs0 : Vec F S1024x1 .f32) (xs1 : Vec F S1024x512 .f32)

theorem sout2_C_0_eq : sout2_C_0 c i arg2 harg2 arg3 harg3 arg4 harg4 arg5 harg5 arg6 harg6 arg7 harg7 arg8 harg8 arg9 harg9 hc0 hc1 x0 x1 x2 x3 x4 xs0 xs1 = k2_pay5 x0 x1 x3 x4 xs0 := by
  unfold sout2_C_0
  rw [View.read_writes_junk_eq_canon]
  unfold kernelRun2_C
  dsimp only
  sl_unfold_words
  rw [View.canon_unit_zero offs_zero2]
  simp only [View.readAt_eq_ld, Memref.IsWhole.read_unread, View.ld_unit_zero (S := ⟨2, ![_, _]⟩) offs_zero2,
    View.readCov_unit_zero (S := ⟨2, ![_, _]⟩) _ offs_zero2]

theorem sout2_C_1_eq : sout2_C_1 c i arg2 harg2 arg3 harg3 arg4 harg4 arg5 harg5 arg6 harg6 arg7 harg7 arg8 harg8 arg9 harg9 hc0 hc1 x0 x1 x2 x3 x4 xs0 xs1 = k2_pay6 x0 x1 x3 x4 xs1 x2 := by
  unfold sout2_C_1
  rw [View.read_writes_junk_eq_canon]
  unfold kernelRun2_C
  dsimp only
  sl_unfold_words
  rw [View.canon_unit_zero offs_zero2]
  simp only [View.readAt_eq_ld, Memref.IsWhole.read_unread, View.ld_unit_zero (S := ⟨2, ![_, _]⟩) offs_zero2,
    View.readCov_unit_zero (S := ⟨2, ![_, _]⟩) _ offs_zero2]

theorem out2_C_5_eq : out2_C_5 c i arg2 harg2 arg3 harg3 arg4 harg4 arg5 harg5 arg6 harg6 arg7 harg7 arg8 harg8 arg9 harg9 hc0 hc1 x0 x1 x2 x3 x4 xs0 xs1 = k2_pay1 (k2_pay6 x0 x1 x3 x4 xs1 x2) (k2_pay5 x0 x1 x3 x4 xs0) := by
  unfold out2_C_5
  rw [View.read_writes_junk_eq_canon]
  unfold kernelRun2_C
  dsimp only
  sl_unfold_words
  rw [View.canon_unit_zero offs_zero2]
  simp only [View.readAt_eq_ld, Memref.IsWhole.read_unread, View.ld_unit_zero (S := ⟨2, ![_, _]⟩) offs_zero2,
    View.readCov_unit_zero (S := ⟨2, ![_, _]⟩) _ offs_zero2]

end

end Cert.KernelIdeal.Hand

end
-- ==== Proof.KI.Blocks2.lean ====
import proofs.«139342_j40218073759787_2_alg».proof.Proof.KI.Region2Runs
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem blkidx2 : ∀ t : Fin cfg2.N,
    win2_0.index t (0 : Fin 2) = t.val / 16 ∧ win2_0.index t (1 : Fin 2) = t.val % 16
    ∧ win2_1.index t (0 : Fin 2) = t.val / 16 ∧ win2_1.index t (1 : Fin 2) = t.val % 16
    ∧ win2_2.index t (0 : Fin 2) = t.val % 16 ∧ win2_2.index t (1 : Fin 2) = 0
    ∧ win2_3.index t (0 : Fin 2) = 0 ∧ win2_3.index t (1 : Fin 2) = t.val % 16
    ∧ win2_4.index t (0 : Fin 2) = 0 ∧ win2_4.index t (1 : Fin 2) = t.val / 16
    ∧ win2_5.index t (0 : Fin 2) = t.val / 16 ∧ win2_5.index t (1 : Fin 2) = 0 :=
  (by decide +kernel : ∀ t : Fin grid2.N, _)

theorem row_lt2 (t : Fin cfg2.N) (p : Fin 1024) : 1024 * (t.val / 16) + p.val < 8192 := by
  have hN : cfg2.N = 128 := N_2
  have ht : t.val < cfg2.N := t.isLt
  have hp : p.val < 1024 := p.isLt
  omega

theorem col_lt2 (t : Fin cfg2.N) (q : Fin 512) : 512 * (t.val % 16) + q.val < 8192 := by
  have hq : q.val < 512 := q.isLt
  omega

theorem iblk2_0_apply (c : Dev nD) (t : Fin cfg2.N) (p : Fin 1024) (q : Fin 512) :
    (iblk2 V c 0 t : Vec F S1024x512 .f32) (ix2 p q)
      = (V c main_arg1 : S8192x8192.Idx → Elt F .f32)
          (ix2 ⟨1024 * (t.val / 16) + p.val, row_lt2 t p⟩ ⟨512 * (t.val % 16) + q.val, col_lt2 t q⟩) := by
  have e := blkidx2 t
  unfold iblk2
  rw [View.read_apply]
  show V c main_arg1 _ = V c main_arg1 _
  congr 1
  funext a
  apply Fin.ext
  match a with
  | ⟨0, _⟩ => show win2_0.index t (0 : Fin 2) * 1024 + 1 * p.val = 1024 * (t.val / 16) + p.val; omega
  | ⟨1, _⟩ => show win2_0.index t (1 : Fin 2) * 512 + 1 * q.val = 512 * (t.val % 16) + q.val; omega

theorem iblk2_1_apply (c : Dev nD) (t : Fin cfg2.N) (p : Fin 1024) (q : Fin 512) :
    (iblk2 V c 1 t : Vec F S1024x512 .f32) (ix2 p q)
      = (V c main_v0 : S8192x8192.Idx → Elt F .f32)
          (ix2 ⟨1024 * (t.val / 16) + p.val, row_lt2 t p⟩ ⟨512 * (t.val % 16) + q.val, col_lt2 t q⟩) := by
  have e := blkidx2 t
  unfold iblk2
  rw [View.read_apply]
  show V c main_v0 _ = V c main_v0 _
  congr 1
  funext a
  apply Fin.ext
  match a with
  | ⟨0, _⟩ => show win2_1.index t (0 : Fin 2) * 1024 + 1 * p.val = 1024 * (t.val / 16) + p.val; omega
  | ⟨1, _⟩ => show win2_1.index t (1 : Fin 2) * 512 + 1 * q.val = 512 * (t.val % 16) + q.val; omega

theorem iblk2_2_apply (c : Dev nD) (t : Fin cfg2.N) (q : Fin 512) (o : Fin 512) :
    (iblk2 V c 2 t : Vec F S512x512 .bf16) (ix2 q o)
      = (V c main_v4_0 : S8192x512.Idx → Elt F .bf16) (ix2 ⟨512 * (t.val % 16) + q.val, col_lt2 t q⟩ o) := by
  have e := blkidx2 t
  unfold iblk2
  rw [View.read_apply]
  show V c main_v4_0 _ = V c main_v4_0 _
  congr 1
  funext a
  apply Fin.ext
  match a with
  | ⟨0, _⟩ => show win2_2.index t (0 : Fin 2) * 512 + 1 * q.val = 512 * (t.val % 16) + q.val; omega
  | ⟨1, _⟩ => show win2_2.index t (1 : Fin 2) * 512 + 1 * o.val = o.val; omega

theorem iblk2_3_apply (c : Dev nD) (t : Fin cfg2.N) (q : Fin 512) :
    (iblk2 V c 3 t : Vec F S1x512 .f32) (ix2 (0 : Fin 1) q)
      = (V c main_v4_1 : S1x8192.Idx → Elt F .f32) (ix2 (0 : Fin 1) ⟨512 * (t.val % 16) + q.val, col_lt2 t q⟩) := by
  have e := blkidx2 t
  unfold iblk2
  rw [View.read_apply]
  show V c main_v4_1 _ = V c main_v4_1 _
  congr 1
  funext a
  apply Fin.ext
  match a with
  | ⟨0, _⟩ => show win2_3.index t (0 : Fin 2) * 1 + 1 * 0 = 0; omega
  | ⟨1, _⟩ => show win2_3.index t (1 : Fin 2) * 512 + 1 * q.val = 512 * (t.val % 16) + q.val; omega

theorem iblk2_4_apply (c : Dev nD) (t : Fin cfg2.N) (p : Fin 1024) :
    (iblk2 V c 4 t : Vec F S1x1024 .f32) (ix2 (0 : Fin 1) p)
      = (V c main_v4_2 : S1x8192.Idx → Elt F .f32) (ix2 (0 : Fin 1) ⟨1024 * (t.val / 16) + p.val, row_lt2 t p⟩) := by
  have e := blkidx2 t
  unfold iblk2
  rw [View.read_apply]
  show V c main_v4_2 _ = V c main_v4_2 _
  congr 1
  funext a
  apply Fin.ext
  match a with
  | ⟨0, _⟩ => show win2_4.index t (0 : Fin 2) * 1 + 1 * 0 = 0; omega
  | ⟨1, _⟩ => show win2_4.index t (1 : Fin 2) * 1024 + 1 * p.val = 1024 * (t.val / 16) + p.val; omega

end Cert.KernelIdeal.Hand

end
-- ==== Proof.KI.Arr2.lean ====
import proofs.«139342_j40218073759787_2_alg».proof.Proof.Gen.KernelIdeal.Launch
import proofs.«139342_j40218073759787_2_alg».proof.Proof.Gen.KernelIdeal.Points
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Rounds
open Idealize.ShloMosaic.Pipeline (Dat)
open Cert.KernelIdeal Cert.KernelIdeal.Gen

variable {F : FTy → Type} [FloatOps F]

theorem residx2 : ∀ t : Fin cfg2.N,
    win2_5.index t (0 : Fin 2) = t.val / 16 ∧ win2_5.index t (1 : Fin 2) = 0 :=
  (by decide +kernel : ∀ t : Fin grid2.N, _)

section Result

variable {c : Dev nD} (dat : Dat τ (Elt F) Unit ℕ (UR sig nD τ) ℕ cfg2 c)
  (outs : (n : ℕ) → n < cfg2.N → Vec F S1024x512 .f32)

theorem last_lt2 (r : Fin 8192) : 16 * (r.val / 1024) + 15 < cfg2.N := by
  have hN : cfg2.N = 128 := N_2
  have hr : r.val < 8192 := r.isLt
  omega

theorem outs_congr2 {n n' : ℕ} (h : n = n') (hn : n < cfg2.N) (hn' : n' < cfg2.N) : outs n hn = outs n' hn' := by
  subst h; rfl

def res2 : S8192x512.Idx → Elt F .f32 := fun i =>
  outs (16 * ((i 0).val / 1024) + 15) (last_lt2 (i 0))
    (ix2 (n0 := 1024) (n1 := 512) ⟨(i 0).val % 1024, Nat.mod_lt _ (by decide)⟩ (i 1))

theorem res2_at (t : Fin cfg2.N) (h15 : t.val % 16 = 15) (x : S1024x512.Idx) (k : S8192x512.Idx)
    (hk0 : (k 0).val = 1024 * (t.val / 16) + (x 0).val) (hk1 : (k 1).val = (x 1).val) :
    res2 outs k = outs t.val t.isLt x := by
  have hx0 : (x 0).val < 1024 := (x 0).isLt
  unfold res2
  rw [outs_congr2 outs (show 16 * ((k 0).val / 1024) + 15 = t.val by omega) _ t.isLt]
  congr 1
  funext a
  apply Fin.ext
  match a with
  | ⟨0, _⟩ => show (k 0).val % 1024 = (x 0).val; omega
  | ⟨1, _⟩ => exact hk1

theorem flushed2_5_eq (hafter : ∀ t, dat.after 5 t = outs t.val t.isLt) (t : Fin cfg2.N)
    (hf : (cfg2.win 5).flush t = true) :
    dat.flushed 5 t = ((cfg2.win 5).blk t).view.read (Elt F) (res2 outs) := by
  have h15 : t.val % 16 = 15 := (flush2_5 t).mp hf
  obtain ⟨e0, e1⟩ := residx2 t
  show (cfg2.win 5).cut (grid2.coords t) (dat.after 5 t) = _
  rw [hafter]
  funext j
  rw [View.read_apply]
  show outs t.val t.isLt ((cfg2.win 5).xinj (grid2.coords t) j) = _
  refine (res2_at outs t h15 _ _ ?_ ?_).symm
  · show win2_5.index t (0 : Fin 2) * 1024 + 1 * (j 0).val = 1024 * (t.val / 16) + (j 0).val
    omega
  · show win2_5.index t (1 : Fin 2) * 512 + 1 * (j 1).val = (j 1).val
    omega

theorem mem_blk2_5 (t : Fin cfg2.N) (i : S8192x512.Idx) :
    i ∈ ((cfg2.win 5).blk t).view.set ↔ ∀ a : Fin 2, win2_5.index t a * S1024x512.size a ≤ (i a).val
      ∧ (i a).val < win2_5.index t a * S1024x512.size a + S1024x512.size a := by
  show i ∈ ((View.whole main_v5).slice (win2_5.rect t)).set ↔ _
  rw [View.set_slice_whole, Rect.mem_set_unit]
  exact Iff.rfl

theorem covered2_5 (i : S8192x512.Idx) :
    ∃ t : Fin cfg2.N, (cfg2.win 5).flush t = true ∧ i ∈ ((cfg2.win 5).blk t).view.set := by
  have hi0 : (i 0).val < 8192 := (i 0).isLt
  have hi1 : (i 1).val < 512 := (i 1).isLt
  obtain ⟨t, ht⟩ : ∃ t : Fin cfg2.N, t.val = 16 * ((i 0).val / 1024) + 15 := ⟨⟨_, last_lt2 (i 0)⟩, rfl⟩
  obtain ⟨e0, e1⟩ := residx2 t
  refine ⟨t, (flush2_5 t).mpr (by omega), ?_⟩
  rw [mem_blk2_5]
  intro a
  match a with
  | ⟨0, _⟩ =>
    show win2_5.index t (0 : Fin 2) * 1024 ≤ (i 0).val ∧ (i 0).val < win2_5.index t (0 : Fin 2) * 1024 + 1024
    omega
  | ⟨1, _⟩ =>
    show win2_5.index t (1 : Fin 2) * 512 ≤ (i 1).val ∧ (i 1).val < win2_5.index t (1 : Fin 2) * 512 + 512
    omega

theorem arr2_eq (hafter : ∀ t, dat.after 5 t = outs t.val t.isLt) : dat.arrAt 5 cfg2.N = res2 outs :=
  dat.arrAt_eq_of_cover 5 (res2 outs) (flushed2_5_eq dat outs hafter) covered2_5

theorem lastpt_lt2 (ib : Fin 8) : 16 * ib.val + 15 < cfg2.N := by
  have hN : cfg2.N = 128 := N_2
  have hb : ib.val < 8 := ib.isLt
  omega

theorem rowb_lt2 (ib : Fin 8) (p : Fin 1024) : 1024 * ib.val + p.val < 8192 := by
  have hb : ib.val < 8 := ib.isLt
  have hp : p.val < 1024 := p.isLt
  omega

theorem arr2_of (hafter : ∀ t, dat.after 5 t = outs t.val t.isLt) (ib : Fin 8) (p : Fin 1024) (o : Fin 512) :
    dat.arrAt 5 cfg2.N (ix2 (n0 := 8192) (n1 := 512) ⟨1024 * ib.val + p.val, rowb_lt2 ib p⟩ o)
      = outs (16 * ib.val + 15) (lastpt_lt2 ib) (ix2 p o) := by
  rw [arr2_eq dat outs hafter]
  exact res2_at outs ⟨_, lastpt_lt2 ib⟩ (by show (16 * ib.val + 15) % 16 = 15; omega) (ix2 p o) _
    (by show 1024 * ib.val + p.val = 1024 * ((16 * ib.val + 15) / 16) + p.val; omega) rfl

end Result

end Cert.KernelIdeal.Hand

end
-- ==== Proof.KI.Blocks2Arr.lean ====
import proofs.«139342_j40218073759787_2_alg».proof.Proof.KI.Region2
import proofs.«139342_j40218073759787_2_alg».proof.Proof.KI.Arr2

set_option maxRecDepth 16384

noncomputable section

namespace Cert.KernelIdeal.Hand

open Idealize.ShloMosaic Idealize.ShloMosaic.TcCoe Idealize.SL.Sem Idealize.ShloMosaic.ValueIdx
open Idealize.ShloMosaic.Rounds
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem arr2_apply (c : Dev nD) (ib : Fin 8) (p : Fin 1024) (o : Fin 512) :
    (dat2 V c).arrAt 5 cfg2.N (ix2 (n0 := 8192) (n1 := 512) ⟨1024 * ib.val + p.val, rowb_lt2 ib p⟩ o)
      = (outsAt2 V c (16 * ib.val + 15) (lastpt_lt2 ib)).1 (ix2 p o) :=
  arr2_of (dat2 V c) (fun n h => (outsAt2 V c n h).1) (after2_5 V c) ib p o

end Cert.KernelIdeal.Hand

end
-- ==== Proof.KI.ValueCols.lean ====
import Idealize.ShloMosaic.Lib.Pipeline.Value
import Idealize.ShloMosaic.Lib.ValueIdx
import Idealize.ShloMosaic.Lib.ValueLayout
import Idealize.ShloMosaic.PureOps.Ideal.Laws
noncomputable section
open scoped BigOperators
namespace Cert.KernelIdeal.HandValue
open Idealize.ShloMosaic Idealize.ShloMosaic.ValueIdx
section Layout
variable {α : Type}
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])
theorem rowsum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin b, src (ix2 p q) := by
  refine (Ideal.multiReduction_add_single src 0x00000000#32 h hφ hacc (ix1 p)).trans ?_
  refine Finset.sum_congr rfl fun q _ => congrArg src (funext fun c => Fin.ext ?_)
  match c with
  | ⟨0, _⟩ => rfl
  | ⟨1, _⟩ => rfl
end Layout
end Cert.KernelIdeal.HandValue
end
-- ==== Proof.KI.Value2Pay.lean ====
import proofs.«139342_j40218073759787_2_alg».proof.Proof.Gen.KernelIdeal.Skeleton
import proofs.«139342_j40218073759787_2_alg».proof.Proof.KI.ValueCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen

section
variable (a aT : Vec Ideal S1024x512 .f32) (tr : Vec Ideal S1x512 .f32) (rr : Vec Ideal S1x1024 .f32)

theorem k2_pay4_apply (p : Fin 1024) (q : Fin 512) :
    k2_pay4 (F := Ideal) a aT tr rr (ix2 p q)
      = Ideal.exp (Ideal.logistic (a (ix2 p q) * tr (ix2 0 q) + aT (ix2 p q) * rr (ix2 0 p))) := by
  unfold k2_pay4
  simp only [shapeCast_self]
  show Ideal.exp (Ideal.logistic (a (ix2 p q) * broadcastTo S1024x512 tr broadcasts_S1x512_S1024x512 (ix2 p q)
      + aT (ix2 p q) * broadcastTo S1024x512 (transpose S1024x1 [1, 0] rr transposes_S1x1024_p1_0_S1024x1)
          broadcasts_S1024x1_S1024x512 (ix2 p q))) = _
  rw [broadcastTo_1b_ab_apply, broadcastTo_a1_ab_apply, transpose_ix2_apply]

theorem k2_pay5_apply (l : Vec Ideal S1024x1 .f32) (p : Fin 1024) :
    k2_pay5 (F := Ideal) a aT tr rr l (ix2 p 0)
      = l (ix2 p 0) + ∑ q : Fin 512, k2_pay4 (F := Ideal) a aT tr rr (ix2 p q) := by
  unfold k2_pay5
  generalize k2_pay4 (F := Ideal) a aT tr rr = P
  simp only [shapeCast_self]
  show l (ix2 p 0) + shapeCast S1024x1 (multiReduction .add [1] S1024 P 0x00000000#32 reduces_S1024x512_S1024 (.inl rfl) rfl)
      shapeCasts_S1024_S1024x1 (ix2 p 0) = _
  rw [shapeCast_a_a1_apply]
  exact congrArg (l (ix2 p 0) + ·) (rowsum_apply P reduces_S1024x512_S1024 (.inl rfl) rfl p)

section
variable (i : S1024x512.Idx) (q : dot_S1024x512_S512x512_S1024x512_1_0_0_1_n_n.contr.Idx)

theorem k2_lhs_0 :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem k2_lhs_1 :
    (dot_S1024x512_S512x512_S1024x512_1_0_0_1_n_n.lhsIdx i q 1).val = (q ⟨0, by decide⟩).val :=
  dot_S1024x512_S512x512_S1024x512_1_0_0_1_n_n.lhsIdx_val_of_single rfl i q
theorem k2_rhs_0 :
    (dot_S1024x512_S512x512_S1024x512_1_0_0_1_n_n.rhsIdx i q 0).val = (q ⟨0, by decide⟩).val :=
  dot_S1024x512_S512x512_S1024x512_1_0_0_1_n_n.rhsIdx_val_of_single rfl i q
theorem k2_rhs_1 :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

end

theorem k2_matmul_apply (P : FVec Ideal S1024x512 .bf16) (z : FVec Ideal S512x512 .bf16) (p : Fin 1024) (o : Fin 512) :
    matmul dot_S1024x512_S512x512_S1024x512_1_0_0_1_n_n none P z (constant (F := Ideal) S1024x512 .f32 0x00000000#32) (ix2 p o)
      = ∑ q : Fin 512, P (ix2 p q) * z (ix2 q o) := by
  simp only [matmul]
  rw [Ideal.matmul_constant_zero_apply,
    ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p o)
      ((contrEquiv1 dot_S1024x512_S512x512_S1024x512_1_0_0_1_n_n 512 rfl rfl).symm k) = ix2 p k :=
    funext fun a => Fin.ext (by
      match a with
      | ⟨0, _⟩ => exact k2_lhs_0 _ _
      | ⟨1, _⟩ => exact (k2_lhs_1 _ _).trans hk)
  have er : dot_S1024x512_S512x512_S1024x512_1_0_0_1_n_n.rhsIdx (ix2 p o)
      ((contrEquiv1 dot_S1024x512_S512x512_S1024x512_1_0_0_1_n_n 512 rfl rfl).symm k) = ix2 k o :=
    funext fun a => Fin.ext (by
      match a with
      | ⟨0, _⟩ => exact (k2_rhs_0 _ _).trans hk
      | ⟨1, _⟩ => exact k2_rhs_1 _ _)
  rw [el, er]

theorem k2_pay6_apply (acc : Vec Ideal S1024x512 .f32) (z : Vec Ideal S512x512 .bf16) (p : Fin 1024) (o : Fin 512) :
    k2_pay6 (F := Ideal) a aT tr rr acc z (ix2 p o)
      = acc (ix2 p o) + ∑ q : Fin 512, k2_pay4 (F := Ideal) a aT tr rr (ix2 p q) * z (ix2 q o) := by
  unfold k2_pay6
  generalize k2_pay4 (F := Ideal) a aT tr rr = P
  simp only [shapeCast_self]
  show acc (ix2 p o) + matmul dot_S1024x512_S512x512_S1024x512_1_0_0_1_n_n none (truncf .bf16 P bitsLt_bf16_f32) z
      (constant (F := Ideal) S1024x512 .f32 0x00000000#32) (ix2 p o) = _
  rw [k2_matmul_apply]
  rfl

end

theorem k2_pay1_apply (acc : Vec Ideal S1024x512 .f32) (l : Vec Ideal S1024x1 .f32) (p : Fin 1024) (o : Fin 512) :
    k2_pay1 (F := Ideal) acc l (ix2 p o) = Ideal.div (acc (ix2 p o)) (l (ix2 p 0)) := by
  unfold k2_pay1
  show Ideal.div (acc (ix2 p o)) (broadcastTo S1024x512 l broadcasts_S1024x1_S1024x512 (ix2 p o)) = _
  rw [broadcastTo_a1_ab_apply]

theorem k2_pay2_apply (j : S1024x1.Idx) : (k2_pay2 (F := Ideal)) j = 0 := by
  unfold k2_pay2
  simp only [shapeCast_self]
  exact Ideal.ofBits_zero_f32

theorem k2_pay3_apply (j : S1024x512.Idx) : (k2_pay3 (F := Ideal)) j = 0 := by
  unfold k2_pay3
  simp only [shapeCast_self]
  exact Ideal.ofBits_zero_f32

end Cert.KernelIdeal.HandValue

end
-- ==== Proof.KI.Value2Fold.lean ====
import proofs.«139342_j40218073759787_2_alg».proof.Proof.Spec
import proofs.«139342_j40218073759787_2_alg».proof.Proof.SpecLemmas

noncomputable section

open scoped BigOperators

namespace GAT.Attn

open Idealize.ShloMosaic GAT

theorem fold16 {α : Type*} [AddCommMonoid α] (S : Fin 16 → α) (L : (n : ℕ) → n < 16 → α)
    (h0 : L 0 (by decide) = S 0)
    (hs : ∀ (n : ℕ) (h : n + 1 < 16), L (n + 1) h = L n (Nat.lt_of_succ_lt h) + S ⟨n + 1, h⟩) :
    L 15 (by decide) = ∑ k : Fin 16, S k := by
  have key : ∀ (n : ℕ) (h : n < 16),
      L n h = ∑ k ∈ Finset.range (n + 1), (if hk : k < 16 then S ⟨k, hk⟩ else 0) := by
    intro n
    induction n with
    | zero =>
      intro h
      rw [Finset.sum_range_one, dif_pos (by decide : (0 : ℕ) < 16)]
      exact h0
    | succ n ih =>
      intro h
      rw [Finset.sum_range_succ, ← ih (Nat.lt_of_succ_lt h), dif_pos h]
      exact hs n h
  rw [key 15 (by decide), Finset.sum_range]
  exact Finset.sum_congr rfl fun k _ => dif_pos k.isLt

theorem weight_coe (x u y v : ℝ) :
    Ideal.exp (Ideal.logistic (((x : ℝ) : EReal) * ((u : ℝ) : EReal) + ((y : ℝ) : EReal) * ((v : ℝ) : EReal)))
      = ((Real.exp ((1 + Real.exp (-(x * u + y * v)))⁻¹) : ℝ) : EReal) := by
  rw [← EReal.coe_mul, ← EReal.coe_mul, ← EReal.coe_add, logistic_coe', exp_coe']

def col (jb : Fin 16) (q : Fin 512) : Fin 8192 := ⟨jb.val * 512 + q.val, blocked_lt jb q⟩

def row (ib : Fin 8) (p : Fin 1024) : Fin 8192 := ⟨1024 * ib.val + p.val, by have := ib.isLt; have := p.isLt; omega⟩

theorem row_div_mod (i : Fin 8192) :
    row ⟨i.val / 1024, by have := i.isLt; omega⟩ ⟨i.val % 1024, Nat.mod_lt _ (by decide)⟩ = i :=
  Fin.ext (by show 1024 * (i.val / 1024) + i.val % 1024 = i.val; omega)

theorem sum_cols {α : Type*} [AddCommMonoid α] (f : Fin 8192 → α) :
    (∑ jb : Fin 16, ∑ q : Fin 512, f (col jb q)) = ∑ j, f j :=
  blocked_sum 16 512 f

theorem attn_of_sums {O : ℕ} (A : Fin 8192 → Fin 8192 → ℝ) (t r : Fin 8192 → ℝ) (Z : Fin 8192 → Fin O → ℝ)
    (i : Fin 8192) (o : Fin O) (l acc : EReal)
    (hl : l = ∑ jb : Fin 16, ∑ q : Fin 512, ((Real.exp (sigR A t r i (col jb q)) : ℝ) : EReal))
    (hacc : acc = ∑ jb : Fin 16, ∑ q : Fin 512,
      ((Real.exp (sigR A t r i (col jb q)) : ℝ) : EReal) * ((Z (col jb q) o : ℝ) : EReal)) :
    Ideal.div acc l = ((attnR A t r Z i o : ℝ) : EReal) := by
  haveI : Nonempty (Fin 8192) := ⟨⟨0, by decide⟩⟩
  have hl' : l = ((∑ j, Real.exp (sigR A t r i j) : ℝ) : EReal) := by
    rw [hl, sum_cols (fun j => ((Real.exp (sigR A t r i j) : ℝ) : EReal)), coe_sum]
  have hacc' : acc = ((∑ j, Real.exp (sigR A t r i j) * Z j o : ℝ) : EReal) := by
    rw [hacc, sum_cols (fun j => ((Real.exp (sigR A t r i j) : ℝ) : EReal) * ((Z j o : ℝ) : EReal)),
      sum_mul_coe (fun j => Real.exp (sigR A t r i j)) (fun j => Z j o)]
  rw [hl', hacc', div_coe' _ _ (sum_exp_pos (fun j => sigR A t r i j)).ne']
  rfl

end GAT.Attn

end
-- ==== Proof.KI.Value2Core.lean ====
import proofs.«139342_j40218073759787_2_alg».proof.Proof.KI.Value2Pay
import proofs.«139342_j40218073759787_2_alg».proof.Proof.KI.Value2Fold

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen GAT GAT.Attn

section RowBlock

variable (Ar : Fin 8192 → Fin 8192 → ℝ) (Zr : Fin 8192 → Fin 512 → ℝ) (tv rv : Fin 8192 → ℝ) (ib : Fin 8)
  (a aT : Fin 16 → Vec Ideal S1024x512 .f32) (z : Fin 16 → Vec Ideal S512x512 .bf16)
  (trb : Fin 16 → Vec Ideal S1x512 .f32) (rrb : Fin 16 → Vec Ideal S1x1024 .f32)
  (ha : ∀ (jb : Fin 16) (p : Fin 1024) (q : Fin 512), a jb (ix2 p q) = ((Ar (row ib p) (col jb q) : ℝ) : EReal))
  (haT : ∀ (jb : Fin 16) (p : Fin 1024) (q : Fin 512), aT jb (ix2 p q) = ((Ar (col jb q) (row ib p) : ℝ) : EReal))
  (hz : ∀ (jb : Fin 16) (q : Fin 512) (o : Fin 512), z jb (ix2 q o) = ((Zr (col jb q) o : ℝ) : EReal))
  (htr : ∀ (jb : Fin 16) (q : Fin 512), trb jb (ix2 0 q) = ((tv (col jb q) : ℝ) : EReal))
  (hrr : ∀ (jb : Fin 16) (p : Fin 1024), rrb jb (ix2 0 p) = ((rv (row ib p) : ℝ) : EReal))

include ha haT htr hrr in
theorem k2_weight_real (jb : Fin 16) (p : Fin 1024) (q : Fin 512) :
    k2_pay4 (F := Ideal) (a jb) (aT jb) (trb jb) (rrb jb) (ix2 p q)
      = ((Real.exp (sigR Ar tv rv (row ib p) (col jb q)) : ℝ) : EReal) := by
  rw [k2_pay4_apply, ha, haT, htr, hrr, weight_coe]
  rfl

variable (l : (n : ℕ) → n < 16 → Vec Ideal S1024x1 .f32) (acc : (n : ℕ) → n < 16 → Vec Ideal S1024x512 .f32)
  (hl0 : l 0 (by decide) = k2_pay5 (F := Ideal) (a 0) (aT 0) (trb 0) (rrb 0) (k2_pay2 (F := Ideal)))
  (hls : ∀ (n : ℕ) (h : n + 1 < 16), l (n + 1) h
    = k2_pay5 (F := Ideal) (a ⟨n + 1, h⟩) (aT ⟨n + 1, h⟩) (trb ⟨n + 1, h⟩) (rrb ⟨n + 1, h⟩) (l n (Nat.lt_of_succ_lt h)))
  (hacc0 : acc 0 (by decide) = k2_pay6 (F := Ideal) (a 0) (aT 0) (trb 0) (rrb 0) (k2_pay3 (F := Ideal)) (z 0))
  (haccs : ∀ (n : ℕ) (h : n + 1 < 16), acc (n + 1) h
    = k2_pay6 (F := Ideal) (a ⟨n + 1, h⟩) (aT ⟨n + 1, h⟩) (trb ⟨n + 1, h⟩) (rrb ⟨n + 1, h⟩) (acc n (Nat.lt_of_succ_lt h)) (z ⟨n + 1, h⟩))

include ha haT hz htr hrr hl0 hls hacc0 haccs in
-- Sixteen steps sum the sixteen blocks' terms; the blocks' columns are all the columns.
theorem k2_out_real (p : Fin 1024) (o : Fin 512) :
    k2_pay1 (F := Ideal) (acc 15 (by decide)) (l 15 (by decide)) (ix2 p o)
      = ((attnR Ar tv rv Zr (row ib p) o : ℝ) : EReal) := by
  have hw := k2_weight_real Ar tv rv ib a aT trb rrb ha haT htr hrr
  rw [k2_pay1_apply]
  refine attn_of_sums Ar tv rv Zr (row ib p) o _ _ ((fold16
    (fun jb : Fin 16 => ∑ q : Fin 512, k2_pay4 (F := Ideal) (a jb) (aT jb) (trb jb) (rrb jb) (ix2 p q))
    (fun n hn => l n hn (ix2 p 0)) ?_ fun n hn => ?_).trans ?_) ((fold16
    (fun jb : Fin 16 => ∑ q : Fin 512, k2_pay4 (F := Ideal) (a jb) (aT jb) (trb jb) (rrb jb) (ix2 p q) * z jb (ix2 q o))
    (fun n hn => acc n hn (ix2 p o)) ?_ fun n hn => ?_).trans ?_)
  · show l 0 _ (ix2 p 0) = _
    rw [hl0, k2_pay5_apply, k2_pay2_apply, zero_add]
  · show l (n + 1) hn (ix2 p 0) = _
    rw [hls n hn, k2_pay5_apply]
  · exact Finset.sum_congr rfl fun jb _ => Finset.sum_congr rfl fun q _ => hw jb p q
  · show acc 0 _ (ix2 p o) = _
    rw [hacc0, k2_pay6_apply, k2_pay3_apply, zero_add]
  · show acc (n + 1) hn (ix2 p o) = _
    rw [haccs n hn, k2_pay6_apply]
  · exact Finset.sum_congr rfl fun jb _ => Finset.sum_congr rfl fun q _ => by rw [hw, hz]

end RowBlock

end Cert.KernelIdeal.HandValue

end
-- ==== Proof.KI.Value2.lean ====
import proofs.«139342_j40218073759787_2_alg».proof.Proof.KI.Region2
import proofs.«139342_j40218073759787_2_alg».proof.Proof.KI.Region2Pieces
import proofs.«139342_j40218073759787_2_alg».proof.Proof.KI.Blocks2
import proofs.«139342_j40218073759787_2_alg».proof.Proof.KI.Blocks2Arr
import proofs.«139342_j40218073759787_2_alg».proof.Proof.KI.Value2Core

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand GAT GAT.Attn

variable (V : (c : Dev nD) → (b : Ref sig .tc) → Buf (Elt Ideal) ((c : Thread nD τ).loc b))

def k2_pt (ib : Fin 8) (n : ℕ) (h : n < 16) : Fin cfg2.N :=
  ⟨16 * ib.val + n, by have hN : cfg2.N = 128 := N_2; have := ib.isLt; omega⟩

theorem k2_pt_mod (ib : Fin 8) (n : ℕ) (h : n < 16) : (k2_pt ib n h).val % 16 = n := by
  show (16 * ib.val + n) % 16 = n; omega

private theorem pt_row (ib : Fin 8) (n : ℕ) (h : n < 16) (p : Fin 1024) (hlt : 1024 * ((k2_pt ib n h).val / 16) + p.val < 8192) :
    (⟨1024 * ((k2_pt ib n h).val / 16) + p.val, hlt⟩ : Fin 8192) = row ib p :=
  Fin.ext (by show 1024 * ((16 * ib.val + n) / 16) + p.val = 1024 * ib.val + p.val; omega)

private theorem pt_col (ib : Fin 8) (jb : Fin 16) (q : Fin 512) (hlt : 512 * ((k2_pt ib jb.val jb.isLt).val % 16) + q.val < 8192) :
    (⟨512 * ((k2_pt ib jb.val jb.isLt).val % 16) + q.val, hlt⟩ : Fin 8192) = col jb q :=
  Fin.ext (by show 512 * ((16 * ib.val + jb.val) % 16) + q.val = jb.val * 512 + q.val; have := jb.isLt; omega)

variable (c : Dev nD) {Ar ATr : Fin 8192 → Fin 8192 → ℝ} {Zr : Fin 8192 → Fin 512 → ℝ} {tr rr : Fin 1 → Fin 8192 → ℝ}
  (h0 : IsR2 (a := 8192) (b := 8192) (V c (Pipeline.arrRef spec2 0)) Ar)
  (h1 : IsR2 (a := 8192) (b := 8192) (V c (Pipeline.arrRef spec2 1)) ATr) (hT : ∀ p q, ATr p q = Ar q p)
  (h2 : IsR2 (a := 8192) (b := 512) (V c (Pipeline.arrRef spec2 2)) Zr)
  (h3 : IsR2 (a := 1) (b := 8192) (V c (Pipeline.arrRef spec2 3)) tr)
  (h4 : IsR2 (a := 1) (b := 8192) (V c (Pipeline.arrRef spec2 4)) rr)

include h0 in
theorem k2_blk0_real (ib : Fin 8) (jb : Fin 16) (p : Fin 1024) (q : Fin 512) :
    (iblk2 V c 0 (k2_pt ib jb.val jb.isLt) : Vec Ideal S1024x512 .f32) (ix2 p q) = ((Ar (row ib p) (col jb q) : ℝ) : EReal) :=
  (iblk2_0_apply V c _ p q).trans ((h0 _ _).trans (by rw [pt_row, pt_col]))

include h1 hT in
theorem k2_blk1_real (ib : Fin 8) (jb : Fin 16) (p : Fin 1024) (q : Fin 512) :
    (iblk2 V c 1 (k2_pt ib jb.val jb.isLt) : Vec Ideal S1024x512 .f32) (ix2 p q) = ((Ar (col jb q) (row ib p) : ℝ) : EReal) :=
  (iblk2_1_apply V c _ p q).trans ((h1 _ _).trans (by rw [hT, pt_row, pt_col]))

include h2 in
theorem k2_blk2_real (ib : Fin 8) (jb : Fin 16) (q : Fin 512) (o : Fin 512) :
    (iblk2 V c 2 (k2_pt ib jb.val jb.isLt) : Vec Ideal S512x512 .bf16) (ix2 q o) = ((Zr (col jb q) o : ℝ) : EReal) :=
  (iblk2_2_apply V c _ q o).trans ((h2 _ _).trans (by rw [pt_col]))

include h3 in
theorem k2_blk3_real (ib : Fin 8) (jb : Fin 16) (q : Fin 512) :
    (iblk2 V c 3 (k2_pt ib jb.val jb.isLt) : Vec Ideal S1x512 .f32) (ix2 (0 : Fin 1) q) = ((tr 0 (col jb q) : ℝ) : EReal) :=
  (iblk2_3_apply V c _ q).trans ((h3 _ _).trans (by rw [pt_col]))

include h4 in
theorem k2_blk4_real (ib : Fin 8) (jb : Fin 16) (p : Fin 1024) :
    (iblk2 V c 4 (k2_pt ib jb.val jb.isLt) : Vec Ideal S1x1024 .f32) (ix2 (0 : Fin 1) p) = ((rr 0 (row ib p) : ℝ) : EReal) :=
  (iblk2_4_apply V c _ p).trans ((h4 _ _).trans (by rw [pt_row]))

-- At a row block's first point the two running sums are the point's own terms added to zero.
private theorem carried_first (t : Fin cfg2.N) (h : t.val % 16 = 0) : (outsAt2 V c t.val t.isLt).2
    = (k2_pay5 (F := Ideal) (iblk2 V c 0 t) (iblk2 V c 1 t) (iblk2 V c 3 t) (iblk2 V c 4 t) (k2_pay2 (F := Ideal)),
       k2_pay6 (F := Ideal) (iblk2 V c 0 t) (iblk2 V c 1 t) (iblk2 V c 3 t) (iblk2 V c 4 t) (k2_pay3 (F := Ideal)) (iblk2 V c 2 t)) := by
  rw [outsAt2_A V c t h (by omega)]
  exact congrArg₂ Prod.mk (sout2_A_0_eq ..) (sout2_A_1_eq ..)

-- At a later point they are the point's own terms added to the running sums of the point before.
private theorem carried_next (t : Fin cfg2.N) (m : ℕ) (hm : m < cfg2.N) (e : t.val = m + 1) (h : ¬t.val % 16 = 0) :
    (outsAt2 V c t.val t.isLt).2
    = (k2_pay5 (F := Ideal) (iblk2 V c 0 t) (iblk2 V c 1 t) (iblk2 V c 3 t) (iblk2 V c 4 t) (outsAt2 V c m hm).2.1,
       k2_pay6 (F := Ideal) (iblk2 V c 0 t) (iblk2 V c 1 t) (iblk2 V c 3 t) (iblk2 V c 4 t) (outsAt2 V c m hm).2.2 (iblk2 V c 2 t)) := by
  obtain rfl : m = t.val - 1 := by omega
  by_cases h1 : t.val % 16 = 15
  · rw [outsAt2_C V c t h h1]
    exact congrArg₂ Prod.mk (sout2_C_0_eq ..) (sout2_C_1_eq ..)
  · rw [outsAt2_B V c t h h1]
    exact congrArg₂ Prod.mk (sout2_B_0_eq ..) (sout2_B_1_eq ..)

-- At a row block's last point the result is the quotient of the two running sums.
theorem k2_out_last (t : Fin cfg2.N) (h1 : t.val % 16 = 15) : (outsAt2 V c t.val t.isLt).1
    = k2_pay1 (F := Ideal) (outsAt2 V c t.val t.isLt).2.2 (outsAt2 V c t.val t.isLt).2.1 := by
  rw [outsAt2_C V c t (by omega) h1]
  dsimp only
  rw [out2_C_5_eq, sout2_C_1_eq, sout2_C_0_eq]

include h0 h1 hT h2 h3 h4 in
theorem k2_row_value (ib : Fin 8) (p : Fin 1024) (o : Fin 512) :
    (outsAt2 V c (k2_pt ib 15 (by decide)).val (k2_pt ib 15 (by decide)).isLt).1 (ix2 p o)
      = ((attnR Ar (tr 0) (rr 0) Zr (row ib p) o : ℝ) : EReal) := by
  have hn := fun (n : ℕ) (h : n + 1 < 16) => carried_next V c (k2_pt ib (n + 1) h) _ (k2_pt ib n (Nat.lt_of_succ_lt h)).isLt
    (by show 16 * ib.val + (n + 1) = 16 * ib.val + n + 1; omega)
    (by rw [k2_pt_mod]; omega)
  refine (congrFun (k2_out_last V c _ (k2_pt_mod ib 15 (by decide))) (ix2 p o)).trans ?_
  exact k2_out_real Ar Zr (tr 0) (rr 0) ib
    _ _ _ _ _
    (k2_blk0_real V c h0 ib) (k2_blk1_real V c h1 hT ib) (k2_blk2_real V c h2 ib) (k2_blk3_real V c h3 ib)
    (k2_blk4_real V c h4 ib)
    (fun n h => (outsAt2 V c (k2_pt ib n h).val (k2_pt ib n h).isLt).2.1)
    (fun n h => (outsAt2 V c (k2_pt ib n h).val (k2_pt ib n h).isLt).2.2)
    (congrArg Prod.fst (carried_first V c _ (k2_pt_mod ib 0 (by decide))))
    (fun n h => congrArg Prod.fst (hn n h))
    (congrArg Prod.snd (carried_first V c _ (k2_pt_mod ib 0 (by decide))))
    (fun n h => congrArg Prod.snd (hn n h))
    p o

include h0 h1 hT h2 h3 h4 in
theorem arr2 : IsR2 (a := 8192) (b := 512) ((dat2 V c).arrAt 5 cfg2.N) (attnR Ar (tr 0) (rr 0) Zr) := by
  intro i o
  obtain ⟨ib, p, rfl⟩ : ∃ ib p, row ib p = i := ⟨_, _, row_div_mod i⟩
  exact (arr2_apply V c ib p o).trans (k2_row_value V c h0 h1 hT h2 h3 h4 ib p o)

end Cert.KernelIdeal.HandValue

end
-- ==== Proof.KI.Blocks3.lean ====
import proofs.«139342_j40218073759787_2_alg».proof.Proof.KI.Region3
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable {F : FTy → Type} [FloatOps F]

variable (V : (c : Dev nD) → (b : Ref sig .tc) → Buf (Elt F) ((c : Thread nD τ).loc b))

local notation "nK" => 512
local notation "nO" => 256

theorem r3_zero : (![0, 0] : Fin 2 → Nat) = fun _ => 0 := funext fun a => by fin_cases a <;> rfl

theorem idx3_facts : ∀ t : Fin cfg3.N,
    (∀ a : Fin 2, win3_1.index t a = 0) ∧ (∀ a : Fin 2, win3_2.index t a = 0) ∧ (∀ a : Fin 2, win3_3.index t a = 0)
    ∧ (∀ a : Fin 2, win3_4.index t a = 0) ∧ (∀ a : Fin 2, win3_5.index t a = 0) ∧ (∀ a : Fin 2, win3_6.index t a = 0)
    ∧ win3_7.index t (0 : Fin 2) = t.val ∧ win3_7.index t (1 : Fin 2) = 0
    ∧ win3_8.index t (0 : Fin 2) = 0 ∧ win3_8.index t (1 : Fin 2) = t.val
    ∧ win3_9.index t (0 : Fin 2) = 0 ∧ win3_9.index t (1 : Fin 2) = t.val
    ∧ win3_0.index t (0 : Fin 2) = t.val ∧ win3_0.index t (1 : Fin 2) = 0 :=
  (by decide +kernel : ∀ t : Fin grid3.N, _)

theorem row3_lt (t : Fin cfg3.N) (p : Fin 1024) : 1024 * t.val + p.val < 8192 := by
  have := t.isLt; have hN : cfg3.N = 8 := N_3; omega

def pt3 (r : Fin 8192) : Fin cfg3.N := ⟨r.val / 1024, by have hN : cfg3.N = 8 := N_3; have := r.isLt; omega⟩

theorem iblk3_0_apply (c : Dev nD) (t : Fin cfg3.N) (p : Fin 1024) (k : Fin nK) :
    (iblk3 V c 0 t : Vec F S1024x512 .f32) (ix2 p k)
      = (V c (Pipeline.arrRef spec3 0) : S8192x512.Idx → Elt F .f32) (ix2 (⟨1024 * t.val + p.val, row3_lt t p⟩ : Fin 8192) k) := by
  obtain ⟨-, -, -, -, -, -, -, -, -, -, -, -, e0, e1⟩ := idx3_facts t
  unfold iblk3
  rw [View.read_apply]
  show (V c (Pipeline.arrRef spec3 0) : S8192x512.Idx → Elt F .f32) _ = _
  exact congrArg _ (Shape.idx_ext₂ (by show win3_0.index t (0 : Fin 2) * 1024 + 1 * p.val = 1024 * t.val + p.val; omega) (by show win3_0.index t (1 : Fin 2) * nK + 1 * k.val = k.val; omega))

-- A block read through an index map that moves no coordinate is the array itself.
private theorem read_fix {S : Shape} {α : Type} {A B : S.Idx → α} (em : S.Idx → S.Idx)
    (hB : ∀ y, B y = A (em y)) (h : ∀ y a, (em y a).val = (y a).val) : B = A :=
  funext fun y => (hB y).trans (congrArg A (funext fun a => Fin.ext (h y a)))

theorem iblk3_1_eq (c : Dev nD) (t : Fin cfg3.N) :
    (iblk3 V c 1 t : Vec F S256x512 .f32) = (V c (Pipeline.arrRef spec3 1) : S256x512.Idx → Elt F .f32) :=
  read_fix ((cfg3.win 1).blk t).view.emb (fun _ => rfl) fun y a => win3_1.rect_emb_val_of_index_zero t a ((idx3_facts t).1 a) y

theorem iblk3_2_eq (c : Dev nD) (t : Fin cfg3.N) :
    (iblk3 V c 2 t : Vec F S1x256 .f32) = (V c (Pipeline.arrRef spec3 2) : S1x256.Idx → Elt F .f32) :=
  read_fix ((cfg3.win 2).blk t).view.emb (fun _ => rfl) fun y a => win3_2.rect_emb_val_of_index_zero t a ((idx3_facts t).2.1 a) y

theorem iblk3_3_eq (c : Dev nD) (t : Fin cfg3.N) :
    (iblk3 V c 3 t : Vec F S1x256 .f32) = (V c (Pipeline.arrRef spec3 3) : S1x256.Idx → Elt F .f32) :=
  read_fix ((cfg3.win 3).blk t).view.emb (fun _ => rfl) fun y a => win3_3.rect_emb_val_of_index_zero t a ((idx3_facts t).2.2.1 a) y

theorem iblk3_4_eq (c : Dev nD) (t : Fin cfg3.N) :
    (iblk3 V c 4 t : Vec F S1x1 .f32) = (V c (Pipeline.arrRef spec3 4) : S1x1.Idx → Elt F .f32) :=
  read_fix ((cfg3.win 4).blk t).view.emb (fun _ => rfl) fun y a => win3_4.rect_emb_val_of_index_zero t a ((idx3_facts t).2.2.2.1 a) y

theorem iblk3_5_eq (c : Dev nD) (t : Fin cfg3.N) :
    (iblk3 V c 5 t : Vec F S1x256 .f32) = (V c (Pipeline.arrRef spec3 5) : S1x256.Idx → Elt F .f32) :=
  read_fix ((cfg3.win 5).blk t).view.emb (fun _ => rfl) fun y a => win3_5.rect_emb_val_of_index_zero t a ((idx3_facts t).2.2.2.2.1 a) y

theorem iblk3_6_eq (c : Dev nD) (t : Fin cfg3.N) :
    (iblk3 V c 6 t : Vec F S1x1 .f32) = (V c (Pipeline.arrRef spec3 6) : S1x1.Idx → Elt F .f32) :=
  read_fix ((cfg3.win 6).blk t).view.emb (fun _ => rfl) fun y a => win3_6.rect_emb_val_of_index_zero t a ((idx3_facts t).2.2.2.2.2.1 a) y

-- Blocks whose index on one axis is the point number are pairwise disjoint, so the final array under point t's block is the block t wrote back.
private theorem arr_emb (c : Dev nD) (w : Fin cfg3.W) (a : Fin (cfg3.win w).shape.rank) (hi : ∀ u, (cfg3.win w).index u a = u.val)
    (hf : ∀ u, (cfg3.win w).flush u = true) (t : Fin cfg3.N) (y : ((cfg3.win w).xblock (cfg3.grid.coords t)).Idx) :
    (dat3 V c).arrAt w cfg3.N (((cfg3.win w).blk t).view.emb y)
      = _root_.cast (congrArg (Elt F) ((cfg3.win w).blk t).view.elt_eq.symm) ((dat3 V c).flushed w t y) :=
  (dat3 V c).arrAt_emb_eq_flushed w (fun u u' _ _ h => (cfg3.win w).disjoint_blk fun e =>
    h (Fin.ext ((hi u).symm.trans ((congrFun e a).trans (hi u'))))) t (hf t) y

theorem arr3_7_apply (c : Dev nD) (t : Fin cfg3.N) (p : Fin 1024) (o : Fin nO) :
    ((dat3 V c).arrAt 7 cfg3.N : S8192x256.Idx → Elt F .bf16) (ix2 (⟨1024 * t.val + p.val, row3_lt t p⟩ : Fin 8192) o)
      = k3_pay1 (iblk3 V c 0 t) (iblk3 V c 1 t) (iblk3 V c 2 t) (ix2 p o) := by
  obtain ⟨-, -, -, -, -, -, e0, e1, -⟩ := idx3_facts t
  have he : (((cfg3.win 7).blk t).view.emb (ix2 p o) : S8192x256.Idx) = ix2 (⟨1024 * t.val + p.val, row3_lt t p⟩ : Fin 8192) o :=
    Shape.idx_ext₂ (by show win3_7.index t (0 : Fin 2) * 1024 + 1 * p.val = 1024 * t.val + p.val; omega) (by show win3_7.index t (1 : Fin 2) * nO + 1 * o.val = o.val; omega)
  rw [← he]
  refine (arr_emb V c 7 (0 : Fin 2) (fun u => (idx3_facts u).2.2.2.2.2.2.1) flush3_7 t _).trans ?_
  show (cfg3.win 7).cut (grid3.coords t) ((dat3 V c).after 7 t) (ix2 p o) = _
  rw [after3_7]
  unfold out3_7
  rw [View.canon_unit_zero r3_zero]
  simp only [View.ld_unit_zero (S := S1024x512) r3_zero, View.ld_unit_zero (S := S256x512) r3_zero, View.ld_unit_zero (S := S1x256) r3_zero]
  rfl

theorem arr3_8_apply (c : Dev nD) (t : Fin cfg3.N) (p : Fin 1024) :
    ((dat3 V c).arrAt 8 cfg3.N : S1x8192.Idx → Elt F .f32) (ix2 (0 : Fin 1) (⟨1024 * t.val + p.val, row3_lt t p⟩ : Fin 8192))
      = k3_pay2 (iblk3 V c 0 t) (iblk3 V c 1 t) (iblk3 V c 2 t) (iblk3 V c 3 t) (iblk3 V c 4 t) (ix2 (0 : Fin 1) p) := by
  obtain ⟨-, -, -, -, -, -, -, -, e0, e1, -⟩ := idx3_facts t
  have he : (((cfg3.win 8).blk t).view.emb (ix2 (0 : Fin 1) p) : S1x8192.Idx) = ix2 (0 : Fin 1) (⟨1024 * t.val + p.val, row3_lt t p⟩ : Fin 8192) :=
    Shape.idx_ext₂ (by show win3_8.index t (0 : Fin 2) * 1 + 1 * 0 = 0; omega) (by show win3_8.index t (1 : Fin 2) * 1024 + 1 * p.val = 1024 * t.val + p.val; omega)
  rw [← he]
  refine (arr_emb V c 8 (1 : Fin 2) (fun u => (idx3_facts u).2.2.2.2.2.2.2.2.2.1) flush3_8 t _).trans ?_
  show (cfg3.win 8).cut (grid3.coords t) ((dat3 V c).after 8 t) (ix2 (0 : Fin 1) p) = _
  rw [after3_8]
  unfold out3_8
  rw [View.canon_unit_zero r3_zero]
  simp only [View.ld_unit_zero (S := S1024x512) r3_zero, View.ld_unit_zero (S := S256x512) r3_zero, View.ld_unit_zero (S := S1x256) r3_zero,
    View.ld_unit_zero (S := S1x1) r3_zero]
  rfl

-- The two score payloads are one function of their five blocks.
theorem arr3_9_apply (c : Dev nD) (t : Fin cfg3.N) (p : Fin 1024) :
    ((dat3 V c).arrAt 9 cfg3.N : S1x8192.Idx → Elt F .f32) (ix2 (0 : Fin 1) (⟨1024 * t.val + p.val, row3_lt t p⟩ : Fin 8192))
      = k3_pay2 (iblk3 V c 0 t) (iblk3 V c 1 t) (iblk3 V c 2 t) (iblk3 V c 5 t) (iblk3 V c 6 t) (ix2 (0 : Fin 1) p) := by
  obtain ⟨-, -, -, -, -, -, -, -, -, -, e0, e1, -⟩ := idx3_facts t
  have he : (((cfg3.win 9).blk t).view.emb (ix2 (0 : Fin 1) p) : S1x8192.Idx) = ix2 (0 : Fin 1) (⟨1024 * t.val + p.val, row3_lt t p⟩ : Fin 8192) :=
    Shape.idx_ext₂ (by show win3_9.index t (0 : Fin 2) * 1 + 1 * 0 = 0; omega) (by show win3_9.index t (1 : Fin 2) * 1024 + 1 * p.val = 1024 * t.val + p.val; omega)
  rw [← he]
  refine (arr_emb V c 9 (1 : Fin 2) (fun u => (idx3_facts u).2.2.2.2.2.2.2.2.2.2.2.1) flush3_9 t _).trans ?_
  show (cfg3.win 9).cut (grid3.coords t) ((dat3 V c).after 9 t) (ix2 (0 : Fin 1) p) = _
  rw [after3_9]
  unfold out3_9
  rw [View.canon_unit_zero r3_zero]
  simp only [View.ld_unit_zero (S := S1024x512) r3_zero, View.ld_unit_zero (S := S256x512) r3_zero, View.ld_unit_zero (S := S1x256) r3_zero,
    View.ld_unit_zero (S := S1x1) r3_zero]
  rfl

end Cert.KernelIdeal.Hand

end
-- ==== Proof.KI.Value3Pay.lean ====
import proofs.«139342_j40218073759787_2_alg».proof.Proof.Gen.KernelIdeal.Skeleton
import proofs.«139342_j40218073759787_2_alg».proof.Proof.Spec
import proofs.«139342_j40218073759787_2_alg».proof.Proof.SpecLemmas
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen GAT

local notation "nK" => 512
local notation "nO" => 256
local notation "SH" => S1024x512
local notation "SW" => S256x512
local notation "SRow" => S1x256

-- A product (a × k)·(k × b) into the zero accumulator, at (p, o): the sum over the contracted axis of left (p, j) times right (j, o).
private theorem mm_apply {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl : D.lhsContracting = [(1 : Fin 2)]) (hc : D.rhsContracting = [(0 : Fin 2)])
    (hl0 : ∀ i q, (D.lhsIdx i q (0 : Fin 2)).val = (i (0 : Fin 2)).val) (hr1 : ∀ i q, (D.rhsIdx i q (1 : Fin 2)).val = (i (1 : Fin 2)).val)
    (l : FVec Ideal ⟨2, ![a, k]⟩ φ₁) (r : FVec Ideal ⟨2, ![k, b]⟩ φ₂) (p : Fin a) (o : Fin b) :
    matmul D none l r (constant (F := Ideal) ⟨2, ![a, b]⟩ .f32 0x00000000#32) (ix2 p o) = ∑ j : Fin k, l (ix2 p j) * r (ix2 j o) := by
  simp only [matmul]
  rw [Ideal.matmul_constant_zero_apply, ← Equiv.sum_comp (ValueIdx.contrEquiv1 D k hr hs).symm]
  refine Finset.sum_congr rfl fun j _ => ?_
  have hj := ValueIdx.contrEquiv1_symm_val D k hr hs j
  have el : D.lhsIdx (ix2 p o) ((ValueIdx.contrEquiv1 D k hr hs).symm j) = ix2 p j := funext fun x => Fin.ext (by
    match x with
    | ⟨0, _⟩ => exact hl0 _ _
    | ⟨1, _⟩ => exact (D.lhsIdx_val_of_single hl _ _).trans hj)
  have er : D.rhsIdx (ix2 p o) ((ValueIdx.contrEquiv1 D k hr hs).symm j) = ix2 j o := funext fun x => Fin.ext (by
    match x with
    | ⟨0, _⟩ => exact (D.rhsIdx_val_of_single hc _ _).trans hj
    | ⟨1, _⟩ => exact hr1 _ _)
  rw [el, er]

variable (h : Vec Ideal SH .f32) (w : Vec Ideal SW .f32) (b : Vec Ideal SRow .f32) (tw : Vec Ideal SRow .f32) (tb : Vec Ideal S1x1 .f32)

theorem k3_pay1_apply (p : Fin 1024) (o : Fin nO) :
    k3_pay1 (F := Ideal) h w b (ix2 p o) = max ((∑ k : Fin nK, h (ix2 p k) * w (ix2 o k)) + b (ix2 0 o)) 0 := by
  unfold k3_pay1
  dsimp only
  simp only [shapeCast_self]
  rw [truncf_apply, maximumf_apply, addf_apply, broadcast_apply,
    mm_apply dot_S1024x512_S512x256_S1024x256_1_0_0_1_n_n rfl rfl rfl rfl
      (fun _ _ => rfl)
      (fun _ _ => rfl),
    broadcastTo_1b_ab_apply]
  refine congrArg₂ max (congrArg (· + b (ix2 0 o)) (Finset.sum_congr rfl fun k _ => ?_)) Ideal.ofBits_zero_f32
  rw [transpose_ix2_apply]; rfl

theorem k3_pay2_apply (p : Fin 1024) :
    k3_pay2 (F := Ideal) h w b tw tb (ix2 0 p) = (∑ o : Fin nO, k3_pay1 (F := Ideal) h w b (ix2 p o) * tw (ix2 0 o)) + tb (ix2 0 0) := by
  unfold k3_pay2
  dsimp only
  rw [transpose_ix2_apply, addf_apply,
    mm_apply dot_S1024x256_S256x1_S1024x1_1_0_0_1_n_n rfl rfl rfl rfl
      (fun _ _ => rfl)
      (fun _ _ => rfl),
    broadcastTo_1b_ab_apply, shapeCast_self]
  refine congrArg (· + tb (ix2 0 0)) (Finset.sum_congr rfl fun o _ => ?_)
  rw [transpose_ix2_apply]; rfl

variable {hr : Fin 1024 → Fin nK → ℝ} {wr : Fin nO → Fin nK → ℝ} {br : Fin 1 → Fin nO → ℝ} {twr : Fin 1 → Fin nO → ℝ} {tbr : Fin 1 → Fin 1 → ℝ}
  (hh : IsR2 (a := 1024) (b := nK) h hr) (hw : IsR2 (a := nO) (b := nK) w wr) (hb : IsR2 (a := 1) (b := nO) b br)
  (htw : IsR2 (a := 1) (b := nO) tw twr) (htb : IsR2 (a := 1) (b := 1) tb tbr)

include hh hw hb in
-- At real inputs the sums and products stay real: entry (p, o) of the Z block is the real projection.
theorem k3_pay1_real (p : Fin 1024) (o : Fin nO) :
    k3_pay1 (F := Ideal) h w b (ix2 p o) = ((zR hr wr (br 0) p o : ℝ) : EReal) := by
  rw [k3_pay1_apply, Finset.sum_congr rfl fun k _ => congrArg₂ (· * ·) (hh p k) (hw o k), hb 0 o, sum_mul_coe_add, relu_coe]
  rfl

include hh hw hb htw htb in
-- Entry p of a score row is the real gate of the real projection.
theorem k3_pay2_real (p : Fin 1024) :
    k3_pay2 (F := Ideal) h w b tw tb (ix2 0 p) = ((gateR (zR hr wr (br 0)) (twr 0) (tbr 0 0) p : ℝ) : EReal) := by
  rw [k3_pay2_apply, Finset.sum_congr rfl fun o _ => congrArg₂ (· * ·) (k3_pay1_real h w b hh hw hb p o) (htw 0 o), htb 0 0, sum_mul_coe_add]
  rfl

end Cert.KernelIdeal.HandValue

end
-- ==== Proof.KI.Value3.lean ====
import proofs.«139342_j40218073759787_2_alg».proof.Proof.KI.Blocks3
import proofs.«139342_j40218073759787_2_alg».proof.Proof.KI.Value3Pay

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand GAT

variable (V : (c : Dev nD) → (b : Ref sig .tc) → Buf (Elt Ideal) ((c : Thread nD τ).loc b))

local notation "nK" => 512
local notation "nO" => 256
local notation "SHa" => S8192x512
local notation "SW" => S256x512
local notation "SRow" => S1x256
local notation "SZa" => S8192x256

theorem split3 (r : Fin 8192) : ∃ (t : Fin cfg3.N) (p : Fin 1024), r = ⟨1024 * t.val + p.val, row3_lt t p⟩ :=
  ⟨pt3 r, ⟨r.val % 1024, Nat.mod_lt _ (by decide)⟩, Fin.ext (by show r.val = 1024 * (r.val / 1024) + r.val % 1024; omega)⟩

private theorem isR2_of_eq {a b : ℕ} {x y : (⟨2, ![a, b]⟩ : Shape).Idx → EReal} {r : Fin a → Fin b → ℝ} (e : x = y) (h : IsR2 y r) :
    IsR2 x r := e ▸ h

variable (c : Dev nD) {Hr : Fin 8192 → Fin nK → ℝ} {Wr : Fin nO → Fin nK → ℝ} {b2 : Fin 1 → Fin nO → ℝ}

theorem iblk3_0_real (h0 : IsR2 (V c (Pipeline.arrRef spec3 0) : Shape.Idx SHa → EReal) Hr) (t : Fin cfg3.N) :
    IsR2 (a := 1024) (b := nK) (iblk3 V c 0 t) (fun p k => Hr ⟨1024 * t.val + p.val, row3_lt t p⟩ k) :=
  fun p k => (iblk3_0_apply V c t p k).trans (h0 _ k)

-- Row 1024·t + p of each result is point t's payload at p over blocks that are real, so it is the real model at that row.
theorem arr3_z
    (h0 : IsR2 (V c (Pipeline.arrRef spec3 0) : Shape.Idx SHa → EReal) Hr)
    (h1 : IsR2 (V c (Pipeline.arrRef spec3 1) : Shape.Idx SW → EReal) Wr)
    (h2 : IsR2 (V c (Pipeline.arrRef spec3 2) : Shape.Idx SRow → EReal) b2) :
    IsR2 ((dat3 V c).arrAt 7 cfg3.N : Shape.Idx SZa → EReal) (zR Hr Wr (b2 0)) := by
  intro r o
  obtain ⟨t, p, rfl⟩ := split3 r
  refine ((arr3_7_apply V c t p o).trans (k3_pay1_real _ _ _ (iblk3_0_real V c h0 t)
    (isR2_of_eq (iblk3_1_eq V c t) h1) (isR2_of_eq (iblk3_2_eq V c t) h2) p o)).trans ?_
  rfl

theorem arr3_t {tw : Fin 1 → Fin nO → ℝ} {tb : Fin 1 → Fin 1 → ℝ}
    (h0 : IsR2 (V c (Pipeline.arrRef spec3 0) : Shape.Idx SHa → EReal) Hr)
    (h1 : IsR2 (V c (Pipeline.arrRef spec3 1) : Shape.Idx SW → EReal) Wr)
    (h2 : IsR2 (V c (Pipeline.arrRef spec3 2) : Shape.Idx SRow → EReal) b2)
    (h3 : IsR2 (V c (Pipeline.arrRef spec3 3) : Shape.Idx SRow → EReal) tw)
    (h4 : IsR2 (V c (Pipeline.arrRef spec3 4) : S1x1.Idx → EReal) tb) :
    IsR2 ((dat3 V c).arrAt 8 cfg3.N : S1x8192.Idx → EReal) (fun _ i => gateR (zR Hr Wr (b2 0)) (tw 0) (tb 0 0) i) := by
  intro z r
  obtain rfl : z = 0 := Subsingleton.elim _ _
  obtain ⟨t, p, rfl⟩ := split3 r
  refine ((arr3_8_apply V c t p).trans (k3_pay2_real _ _ _ _ _ (iblk3_0_real V c h0 t)
    (isR2_of_eq (iblk3_1_eq V c t) h1) (isR2_of_eq (iblk3_2_eq V c t) h2)
    (isR2_of_eq (iblk3_3_eq V c t) h3) (isR2_of_eq (iblk3_4_eq V c t) h4) p)).trans ?_
  rfl

theorem arr3_r {rw' : Fin 1 → Fin nO → ℝ} {rb : Fin 1 → Fin 1 → ℝ}
    (h0 : IsR2 (V c (Pipeline.arrRef spec3 0) : Shape.Idx SHa → EReal) Hr)
    (h1 : IsR2 (V c (Pipeline.arrRef spec3 1) : Shape.Idx SW → EReal) Wr)
    (h2 : IsR2 (V c (Pipeline.arrRef spec3 2) : Shape.Idx SRow → EReal) b2)
    (h5 : IsR2 (V c (Pipeline.arrRef spec3 5) : Shape.Idx SRow → EReal) rw')
    (h6 : IsR2 (V c (Pipeline.arrRef spec3 6) : S1x1.Idx → EReal) rb) :
    IsR2 ((dat3 V c).arrAt 9 cfg3.N : S1x8192.Idx → EReal) (fun _ i => gateR (zR Hr Wr (b2 0)) (rw' 0) (rb 0 0) i) := by
  intro z r
  obtain rfl : z = 0 := Subsingleton.elim _ _
  obtain ⟨t, p, rfl⟩ := split3 r
  refine ((arr3_9_apply V c t p).trans (k3_pay2_real _ _ _ _ _ (iblk3_0_real V c h0 t)
    (isR2_of_eq (iblk3_1_eq V c t) h1) (isR2_of_eq (iblk3_2_eq V c t) h2)
    (isR2_of_eq (iblk3_5_eq V c t) h5) (isR2_of_eq (iblk3_6_eq V c t) h6) p)).trans ?_
  rfl

end Cert.KernelIdeal.HandValue

end
-- ==== Proof.KI.Region4Pieces.lean ====
import proofs.«139342_j40218073759787_2_alg».proof.Proof.KI.Region4Runs
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem offs_zero4 : (![0, 0] : Fin 2 → Nat) = fun _ => 0 := funext fun a => by fin_cases a <;> rfl

variable (c : Dev nD) (i : grid4.Coords) (arg2 : Memref sig .tc .vmem S1024x512 .f32) (harg2 : arg2.IsWhole) (arg3 : Memref sig .tc .vmem S1024x512 .f32) (harg3 : arg3.IsWhole) (arg4 : Memref sig .tc .vmem S512x256 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole)

section
variable (hc0 : cond4_0 i) (hc1 : ¬cond4_1 i)
    (x0 : Vec F S1024x512 .f32) (x1 : Vec F S1024x512 .f32) (x2 : Vec F S512x256 .bf16) (x3 : Vec F S1x512 .f32) (x4 : Vec F S1x1024 .f32)

theorem sout4_A_0_eq : sout4_A_0 c i arg2 harg2 arg3 harg3 arg4 harg4 arg5 harg5 arg6 harg6 arg7 harg7 arg8 harg8 arg9 harg9 hc0 hc1 x0 x1 x2 x3 x4 = k4_pay5 x0 x1 x3 x4 (k4_pay2 (F := F)) := by
  unfold sout4_A_0
  rw [View.read_writes_junk_eq_canon]
  unfold kernelRun4_A
  dsimp only
  sl_unfold_words
  rw [View.canon_cons_unit_zero (S := S1024x1) offs_zero4]
  simp only [View.readAt_eq_ld, Memref.IsWhole.read_unread, View.ld_unit_zero (S := ⟨2, ![_, _]⟩) offs_zero4,
    View.readCov_unit_zero (S := ⟨2, ![_, _]⟩) _ offs_zero4]

theorem sout4_A_1_eq : sout4_A_1 c i arg2 harg2 arg3 harg3 arg4 harg4 arg5 harg5 arg6 harg6 arg7 harg7 arg8 harg8 arg9 harg9 hc0 hc1 x0 x1 x2 x3 x4 = k4_pay6 x0 x1 x3 x4 (k4_pay3 (F := F)) x2 := by
  unfold sout4_A_1
  rw [View.read_writes_junk_eq_canon]
  unfold kernelRun4_A
  dsimp only
  sl_unfold_words
  rw [View.canon_cons_unit_zero (S := S1024x256) offs_zero4]
  simp only [View.readAt_eq_ld, Memref.IsWhole.read_unread, View.ld_unit_zero (S := ⟨2, ![_, _]⟩) offs_zero4,
    View.readCov_unit_zero (S := ⟨2, ![_, _]⟩) _ offs_zero4]

end

section
variable (hc0 : ¬cond4_0 i) (hc1 : ¬cond4_1 i)
    (x0 : Vec F S1024x512 .f32) (x1 : Vec F S1024x512 .f32) (x2 : Vec F S512x256 .bf16) (x3 : Vec F S1x512 .f32) (x4 : Vec F S1x1024 .f32) (xs0 : Vec F S1024x1 .f32) (xs1 : Vec F S1024x256 .f32)

theorem sout4_B_0_eq : sout4_B_0 c i arg2 harg2 arg3 harg3 arg4 harg4 arg5 harg5 arg6 harg6 arg7 harg7 arg8 harg8 arg9 harg9 hc0 hc1 x0 x1 x2 x3 x4 xs0 xs1 = k4_pay5 x0 x1 x3 x4 xs0 := by
  unfold sout4_B_0
  rw [View.read_writes_junk_eq_canon]
  unfold kernelRun4_B
  dsimp only
  sl_unfold_words
  rw [View.canon_unit_zero offs_zero4]
  simp only [View.readAt_eq_ld, Memref.IsWhole.read_unread, View.ld_unit_zero (S := ⟨2, ![_, _]⟩) offs_zero4,
    View.readCov_unit_zero (S := ⟨2, ![_, _]⟩) _ offs_zero4]

theorem sout4_B_1_eq : sout4_B_1 c i arg2 harg2 arg3 harg3 arg4 harg4 arg5 harg5 arg6 harg6 arg7 harg7 arg8 harg8 arg9 harg9 hc0 hc1 x0 x1 x2 x3 x4 xs0 xs1 = k4_pay6 x0 x1 x3 x4 xs1 x2 := by
  unfold sout4_B_1
  rw [View.read_writes_junk_eq_canon]
  unfold kernelRun4_B
  dsimp only
  sl_unfold_words
  rw [View.canon_unit_zero offs_zero4]
  simp only [View.readAt_eq_ld, Memref.IsWhole.read_unread, View.ld_unit_zero (S := ⟨2, ![_, _]⟩) offs_zero4,
    View.readCov_unit_zero (S := ⟨2, ![_, _]⟩) _ offs_zero4]

end

section
variable (hc0 : ¬cond4_0 i) (hc1 : cond4_1 i)
    (x0 : Vec F S1024x512 .f32) (x1 : Vec F S1024x512 .f32) (x2 : Vec F S512x256 .bf16) (x3 : Vec F S1x512 .f32) (x4 : Vec F S1x1024 .f32) (xs0 : Vec F S1024x1 .f32) (xs1 : Vec F S1024x256 .f32)

theorem sout4_C_0_eq : sout4_C_0 c i arg2 harg2 arg3 harg3 arg4 harg4 arg5 harg5 arg6 harg6 arg7 harg7 arg8 harg8 arg9 harg9 hc0 hc1 x0 x1 x2 x3 x4 xs0 xs1 = k4_pay5 x0 x1 x3 x4 xs0 := by
  unfold sout4_C_0
  rw [View.read_writes_junk_eq_canon]
  unfold kernelRun4_C
  dsimp only
  sl_unfold_words
  rw [View.canon_unit_zero offs_zero4]
  simp only [View.readAt_eq_ld, Memref.IsWhole.read_unread, View.ld_unit_zero (S := ⟨2, ![_, _]⟩) offs_zero4,
    View.readCov_unit_zero (S := ⟨2, ![_, _]⟩) _ offs_zero4]

theorem sout4_C_1_eq : sout4_C_1 c i arg2 harg2 arg3 harg3 arg4 harg4 arg5 harg5 arg6 harg6 arg7 harg7 arg8 harg8 arg9 harg9 hc0 hc1 x0 x1 x2 x3 x4 xs0 xs1 = k4_pay6 x0 x1 x3 x4 xs1 x2 := by
  unfold sout4_C_1
  rw [View.read_writes_junk_eq_canon]
  unfold kernelRun4_C
  dsimp only
  sl_unfold_words
  rw [View.canon_unit_zero offs_zero4]
  simp only [View.readAt_eq_ld, Memref.IsWhole.read_unread, View.ld_unit_zero (S := ⟨2, ![_, _]⟩) offs_zero4,
    View.readCov_unit_zero (S := ⟨2, ![_, _]⟩) _ offs_zero4]

theorem out4_C_5_eq : out4_C_5 c i arg2 harg2 arg3 harg3 arg4 harg4 arg5 harg5 arg6 harg6 arg7 harg7 arg8 harg8 arg9 harg9 hc0 hc1 x0 x1 x2 x3 x4 xs0 xs1 = k4_pay1 (k4_pay6 x0 x1 x3 x4 xs1 x2) (k4_pay5 x0 x1 x3 x4 xs0) := by
  unfold out4_C_5
  rw [View.read_writes_junk_eq_canon]
  unfold kernelRun4_C
  dsimp only
  sl_unfold_words
  rw [View.canon_unit_zero offs_zero4]
  simp only [View.readAt_eq_ld, Memref.IsWhole.read_unread, View.ld_unit_zero (S := ⟨2, ![_, _]⟩) offs_zero4,
    View.readCov_unit_zero (S := ⟨2, ![_, _]⟩) _ offs_zero4]

end

end Cert.KernelIdeal.Hand

end
-- ==== Proof.KI.Blocks4.lean ====
import proofs.«139342_j40218073759787_2_alg».proof.Proof.KI.Region4Runs
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem blkidx4 : ∀ t : Fin cfg4.N,
    win4_0.index t (0 : Fin 2) = t.val / 16 ∧ win4_0.index t (1 : Fin 2) = t.val % 16
    ∧ win4_1.index t (0 : Fin 2) = t.val / 16 ∧ win4_1.index t (1 : Fin 2) = t.val % 16
    ∧ win4_2.index t (0 : Fin 2) = t.val % 16 ∧ win4_2.index t (1 : Fin 2) = 0
    ∧ win4_3.index t (0 : Fin 2) = 0 ∧ win4_3.index t (1 : Fin 2) = t.val % 16
    ∧ win4_4.index t (0 : Fin 2) = 0 ∧ win4_4.index t (1 : Fin 2) = t.val / 16
    ∧ win4_5.index t (0 : Fin 2) = t.val / 16 ∧ win4_5.index t (1 : Fin 2) = 0 :=
  (by decide +kernel : ∀ t : Fin grid4.N, _)

theorem row_lt4 (t : Fin cfg4.N) (p : Fin 1024) : 1024 * (t.val / 16) + p.val < 8192 := by
  have hN : cfg4.N = 128 := N_4
  have ht : t.val < cfg4.N := t.isLt
  have hp : p.val < 1024 := p.isLt
  omega

theorem col_lt4 (t : Fin cfg4.N) (q : Fin 512) : 512 * (t.val % 16) + q.val < 8192 := by
  have hq : q.val < 512 := q.isLt
  omega

theorem iblk4_0_apply (c : Dev nD) (t : Fin cfg4.N) (p : Fin 1024) (q : Fin 512) :
    (iblk4 V c 0 t : Vec F S1024x512 .f32) (ix2 p q)
      = (V c main_arg1 : S8192x8192.Idx → Elt F .f32)
          (ix2 ⟨1024 * (t.val / 16) + p.val, row_lt4 t p⟩ ⟨512 * (t.val % 16) + q.val, col_lt4 t q⟩) := by
  have e := blkidx4 t
  unfold iblk4
  rw [View.read_apply]
  show V c main_arg1 _ = V c main_arg1 _
  congr 1
  funext a
  apply Fin.ext
  match a with
  | ⟨0, _⟩ => show win4_0.index t (0 : Fin 2) * 1024 + 1 * p.val = 1024 * (t.val / 16) + p.val; omega
  | ⟨1, _⟩ => show win4_0.index t (1 : Fin 2) * 512 + 1 * q.val = 512 * (t.val % 16) + q.val; omega

theorem iblk4_1_apply (c : Dev nD) (t : Fin cfg4.N) (p : Fin 1024) (q : Fin 512) :
    (iblk4 V c 1 t : Vec F S1024x512 .f32) (ix2 p q)
      = (V c main_v0 : S8192x8192.Idx → Elt F .f32)
          (ix2 ⟨1024 * (t.val / 16) + p.val, row_lt4 t p⟩ ⟨512 * (t.val % 16) + q.val, col_lt4 t q⟩) := by
  have e := blkidx4 t
  unfold iblk4
  rw [View.read_apply]
  show V c main_v0 _ = V c main_v0 _
  congr 1
  funext a
  apply Fin.ext
  match a with
  | ⟨0, _⟩ => show win4_1.index t (0 : Fin 2) * 1024 + 1 * p.val = 1024 * (t.val / 16) + p.val; omega
  | ⟨1, _⟩ => show win4_1.index t (1 : Fin 2) * 512 + 1 * q.val = 512 * (t.val % 16) + q.val; omega

theorem iblk4_2_apply (c : Dev nD) (t : Fin cfg4.N) (q : Fin 512) (o : Fin 256) :
    (iblk4 V c 2 t : Vec F S512x256 .bf16) (ix2 q o)
      = (V c main_v9_0 : S8192x256.Idx → Elt F .bf16) (ix2 ⟨512 * (t.val % 16) + q.val, col_lt4 t q⟩ o) := by
  have e := blkidx4 t
  unfold iblk4
  rw [View.read_apply]
  show V c main_v9_0 _ = V c main_v9_0 _
  congr 1
  funext a
  apply Fin.ext
  match a with
  | ⟨0, _⟩ => show win4_2.index t (0 : Fin 2) * 512 + 1 * q.val = 512 * (t.val % 16) + q.val; omega
  | ⟨1, _⟩ => show win4_2.index t (1 : Fin 2) * 256 + 1 * o.val = o.val; omega

theorem iblk4_3_apply (c : Dev nD) (t : Fin cfg4.N) (q : Fin 512) :
    (iblk4 V c 3 t : Vec F S1x512 .f32) (ix2 (0 : Fin 1) q)
      = (V c main_v9_1 : S1x8192.Idx → Elt F .f32) (ix2 (0 : Fin 1) ⟨512 * (t.val % 16) + q.val, col_lt4 t q⟩) := by
  have e := blkidx4 t
  unfold iblk4
  rw [View.read_apply]
  show V c main_v9_1 _ = V c main_v9_1 _
  congr 1
  funext a
  apply Fin.ext
  match a with
  | ⟨0, _⟩ => show win4_3.index t (0 : Fin 2) * 1 + 1 * 0 = 0; omega
  | ⟨1, _⟩ => show win4_3.index t (1 : Fin 2) * 512 + 1 * q.val = 512 * (t.val % 16) + q.val; omega

theorem iblk4_4_apply (c : Dev nD) (t : Fin cfg4.N) (p : Fin 1024) :
    (iblk4 V c 4 t : Vec F S1x1024 .f32) (ix2 (0 : Fin 1) p)
      = (V c main_v9_2 : S1x8192.Idx → Elt F .f32) (ix2 (0 : Fin 1) ⟨1024 * (t.val / 16) + p.val, row_lt4 t p⟩) := by
  have e := blkidx4 t
  unfold iblk4
  rw [View.read_apply]
  show V c main_v9_2 _ = V c main_v9_2 _
  congr 1
  funext a
  apply Fin.ext
  match a with
  | ⟨0, _⟩ => show win4_4.index t (0 : Fin 2) * 1 + 1 * 0 = 0; omega
  | ⟨1, _⟩ => show win4_4.index t (1 : Fin 2) * 1024 + 1 * p.val = 1024 * (t.val / 16) + p.val; omega

end Cert.KernelIdeal.Hand

end
-- ==== Proof.KI.Arr4.lean ====
import proofs.«139342_j40218073759787_2_alg».proof.Proof.Gen.KernelIdeal.Launch
import proofs.«139342_j40218073759787_2_alg».proof.Proof.Gen.KernelIdeal.Points
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Rounds
open Idealize.ShloMosaic.Pipeline (Dat)
open Cert.KernelIdeal Cert.KernelIdeal.Gen

variable {F : FTy → Type} [FloatOps F]

theorem residx4 : ∀ t : Fin cfg4.N,
    win4_5.index t (0 : Fin 2) = t.val / 16 ∧ win4_5.index t (1 : Fin 2) = 0 :=
  (by decide +kernel : ∀ t : Fin grid4.N, _)

section Result

variable {c : Dev nD} (dat : Dat τ (Elt F) Unit ℕ (UR sig nD τ) ℕ cfg4 c)
  (outs : (n : ℕ) → n < cfg4.N → Vec F S1024x256 .f32)

theorem last_lt4 (r : Fin 8192) : 16 * (r.val / 1024) + 15 < cfg4.N := by
  have hN : cfg4.N = 128 := N_4
  have hr : r.val < 8192 := r.isLt
  omega

theorem outs_congr4 {n n' : ℕ} (h : n = n') (hn : n < cfg4.N) (hn' : n' < cfg4.N) : outs n hn = outs n' hn' := by
  subst h; rfl

def res4 : S8192x256.Idx → Elt F .f32 := fun i =>
  outs (16 * ((i 0).val / 1024) + 15) (last_lt4 (i 0))
    (ix2 (n0 := 1024) (n1 := 256) ⟨(i 0).val % 1024, Nat.mod_lt _ (by decide)⟩ (i 1))

theorem res4_at (t : Fin cfg4.N) (h15 : t.val % 16 = 15) (x : S1024x256.Idx) (k : S8192x256.Idx)
    (hk0 : (k 0).val = 1024 * (t.val / 16) + (x 0).val) (hk1 : (k 1).val = (x 1).val) :
    res4 outs k = outs t.val t.isLt x := by
  have hx0 : (x 0).val < 1024 := (x 0).isLt
  unfold res4
  rw [outs_congr4 outs (show 16 * ((k 0).val / 1024) + 15 = t.val by omega) _ t.isLt]
  congr 1
  funext a
  apply Fin.ext
  match a with
  | ⟨0, _⟩ => show (k 0).val % 1024 = (x 0).val; omega
  | ⟨1, _⟩ => exact hk1

theorem flushed4_5_eq (hafter : ∀ t, dat.after 5 t = outs t.val t.isLt) (t : Fin cfg4.N)
    (hf : (cfg4.win 5).flush t = true) :
    dat.flushed 5 t = ((cfg4.win 5).blk t).view.read (Elt F) (res4 outs) := by
  have h15 : t.val % 16 = 15 := (flush4_5 t).mp hf
  obtain ⟨e0, e1⟩ := residx4 t
  show (cfg4.win 5).cut (grid4.coords t) (dat.after 5 t) = _
  rw [hafter]
  funext j
  rw [View.read_apply]
  show outs t.val t.isLt ((cfg4.win 5).xinj (grid4.coords t) j) = _
  refine (res4_at outs t h15 _ _ ?_ ?_).symm
  · show win4_5.index t (0 : Fin 2) * 1024 + 1 * (j 0).val = 1024 * (t.val / 16) + (j 0).val
    omega
  · show win4_5.index t (1 : Fin 2) * 256 + 1 * (j 1).val = (j 1).val
    omega

theorem mem_blk4_5 (t : Fin cfg4.N) (i : S8192x256.Idx) :
    i ∈ ((cfg4.win 5).blk t).view.set ↔ ∀ a : Fin 2, win4_5.index t a * S1024x256.size a ≤ (i a).val
      ∧ (i a).val < win4_5.index t a * S1024x256.size a + S1024x256.size a := by
  show i ∈ ((View.whole main_v10).slice (win4_5.rect t)).set ↔ _
  rw [View.set_slice_whole, Rect.mem_set_unit]
  exact Iff.rfl

theorem covered4_5 (i : S8192x256.Idx) :
    ∃ t : Fin cfg4.N, (cfg4.win 5).flush t = true ∧ i ∈ ((cfg4.win 5).blk t).view.set := by
  have hi0 : (i 0).val < 8192 := (i 0).isLt
  have hi1 : (i 1).val < 256 := (i 1).isLt
  obtain ⟨t, ht⟩ : ∃ t : Fin cfg4.N, t.val = 16 * ((i 0).val / 1024) + 15 := ⟨⟨_, last_lt4 (i 0)⟩, rfl⟩
  obtain ⟨e0, e1⟩ := residx4 t
  refine ⟨t, (flush4_5 t).mpr (by omega), ?_⟩
  rw [mem_blk4_5]
  intro a
  match a with
  | ⟨0, _⟩ =>
    show win4_5.index t (0 : Fin 2) * 1024 ≤ (i 0).val ∧ (i 0).val < win4_5.index t (0 : Fin 2) * 1024 + 1024
    omega
  | ⟨1, _⟩ =>
    show win4_5.index t (1 : Fin 2) * 256 ≤ (i 1).val ∧ (i 1).val < win4_5.index t (1 : Fin 2) * 256 + 256
    omega

theorem arr4_eq (hafter : ∀ t, dat.after 5 t = outs t.val t.isLt) : dat.arrAt 5 cfg4.N = res4 outs :=
  dat.arrAt_eq_of_cover 5 (res4 outs) (flushed4_5_eq dat outs hafter) covered4_5

theorem lastpt_lt4 (ib : Fin 8) : 16 * ib.val + 15 < cfg4.N := by
  have hN : cfg4.N = 128 := N_4
  have hb : ib.val < 8 := ib.isLt
  omega

theorem rowb_lt4 (ib : Fin 8) (p : Fin 1024) : 1024 * ib.val + p.val < 8192 := by
  have hb : ib.val < 8 := ib.isLt
  have hp : p.val < 1024 := p.isLt
  omega

theorem arr4_of (hafter : ∀ t, dat.after 5 t = outs t.val t.isLt) (ib : Fin 8) (p : Fin 1024) (o : Fin 256) :
    dat.arrAt 5 cfg4.N (ix2 (n0 := 8192) (n1 := 256) ⟨1024 * ib.val + p.val, rowb_lt4 ib p⟩ o)
      = outs (16 * ib.val + 15) (lastpt_lt4 ib) (ix2 p o) := by
  rw [arr4_eq dat outs hafter]
  exact res4_at outs ⟨_, lastpt_lt4 ib⟩ (by show (16 * ib.val + 15) % 16 = 15; omega) (ix2 p o) _
    (by show 1024 * ib.val + p.val = 1024 * ((16 * ib.val + 15) / 16) + p.val; omega) rfl

end Result

end Cert.KernelIdeal.Hand

end
-- ==== Proof.KI.Blocks4Arr.lean ====
import proofs.«139342_j40218073759787_2_alg».proof.Proof.KI.Region4
import proofs.«139342_j40218073759787_2_alg».proof.Proof.KI.Arr4

set_option maxRecDepth 16384

noncomputable section

namespace Cert.KernelIdeal.Hand

open Idealize.ShloMosaic Idealize.ShloMosaic.TcCoe Idealize.SL.Sem Idealize.ShloMosaic.ValueIdx
open Idealize.ShloMosaic.Rounds
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem arr4_apply (c : Dev nD) (ib : Fin 8) (p : Fin 1024) (o : Fin 256) :
    (dat4 V c).arrAt 5 cfg4.N (ix2 (n0 := 8192) (n1 := 256) ⟨1024 * ib.val + p.val, rowb_lt4 ib p⟩ o)
      = (outsAt4 V c (16 * ib.val + 15) (lastpt_lt4 ib)).1 (ix2 p o) :=
  arr4_of (dat4 V c) (fun n h => (outsAt4 V c n h).1) (after4_5 V c) ib p o

end Cert.KernelIdeal.Hand

end
-- ==== Proof.KI.Value4Pay.lean ====
import proofs.«139342_j40218073759787_2_alg».proof.Proof.Gen.KernelIdeal.Skeleton
import proofs.«139342_j40218073759787_2_alg».proof.Proof.KI.ValueCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen

section
variable (a aT : Vec Ideal S1024x512 .f32) (tr : Vec Ideal S1x512 .f32) (rr : Vec Ideal S1x1024 .f32)

theorem k4_pay4_apply (p : Fin 1024) (q : Fin 512) :
    k4_pay4 (F := Ideal) a aT tr rr (ix2 p q)
      = Ideal.exp (Ideal.logistic (a (ix2 p q) * tr (ix2 0 q) + aT (ix2 p q) * rr (ix2 0 p))) := by
  unfold k4_pay4
  simp only [shapeCast_self]
  show Ideal.exp (Ideal.logistic (a (ix2 p q) * broadcastTo S1024x512 tr broadcasts_S1x512_S1024x512 (ix2 p q)
      + aT (ix2 p q) * broadcastTo S1024x512 (transpose S1024x1 [1, 0] rr transposes_S1x1024_p1_0_S1024x1)
          broadcasts_S1024x1_S1024x512 (ix2 p q))) = _
  rw [broadcastTo_1b_ab_apply, broadcastTo_a1_ab_apply, transpose_ix2_apply]

theorem k4_pay5_apply (l : Vec Ideal S1024x1 .f32) (p : Fin 1024) :
    k4_pay5 (F := Ideal) a aT tr rr l (ix2 p 0)
      = l (ix2 p 0) + ∑ q : Fin 512, k4_pay4 (F := Ideal) a aT tr rr (ix2 p q) := by
  unfold k4_pay5
  generalize k4_pay4 (F := Ideal) a aT tr rr = P
  simp only [shapeCast_self]
  show l (ix2 p 0) + shapeCast S1024x1 (multiReduction .add [1] S1024 P 0x00000000#32 reduces_S1024x512_S1024 (.inl rfl) rfl)
      shapeCasts_S1024_S1024x1 (ix2 p 0) = _
  rw [shapeCast_a_a1_apply]
  exact congrArg (l (ix2 p 0) + ·) (rowsum_apply P reduces_S1024x512_S1024 (.inl rfl) rfl p)

section
variable (i : S1024x256.Idx) (q : dot_S1024x512_S512x256_S1024x256_1_0_0_1_n_n.contr.Idx)

theorem k4_lhs_0 :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem k4_lhs_1 :
    (dot_S1024x512_S512x256_S1024x256_1_0_0_1_n_n.lhsIdx i q 1).val = (q ⟨0, by decide⟩).val :=
  dot_S1024x512_S512x256_S1024x256_1_0_0_1_n_n.lhsIdx_val_of_single rfl i q
theorem k4_rhs_0 :
    (dot_S1024x512_S512x256_S1024x256_1_0_0_1_n_n.rhsIdx i q 0).val = (q ⟨0, by decide⟩).val :=
  dot_S1024x512_S512x256_S1024x256_1_0_0_1_n_n.rhsIdx_val_of_single rfl i q
theorem k4_rhs_1 :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

end

theorem k4_matmul_apply (P : FVec Ideal S1024x512 .bf16) (z : FVec Ideal S512x256 .bf16) (p : Fin 1024) (o : Fin 256) :
    matmul dot_S1024x512_S512x256_S1024x256_1_0_0_1_n_n none P z (constant (F := Ideal) S1024x256 .f32 0x00000000#32) (ix2 p o)
      = ∑ q : Fin 512, P (ix2 p q) * z (ix2 q o) := by
  simp only [matmul]
  rw [Ideal.matmul_constant_zero_apply,
    ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p o)
      ((contrEquiv1 dot_S1024x512_S512x256_S1024x256_1_0_0_1_n_n 512 rfl rfl).symm k) = ix2 p k :=
    funext fun a => Fin.ext (by
      match a with
      | ⟨0, _⟩ => exact k4_lhs_0 _ _
      | ⟨1, _⟩ => exact (k4_lhs_1 _ _).trans hk)
  have er : dot_S1024x512_S512x256_S1024x256_1_0_0_1_n_n.rhsIdx (ix2 p o)
      ((contrEquiv1 dot_S1024x512_S512x256_S1024x256_1_0_0_1_n_n 512 rfl rfl).symm k) = ix2 k o :=
    funext fun a => Fin.ext (by
      match a with
      | ⟨0, _⟩ => exact (k4_rhs_0 _ _).trans hk
      | ⟨1, _⟩ => exact k4_rhs_1 _ _)
  rw [el, er]

theorem k4_pay6_apply (acc : Vec Ideal S1024x256 .f32) (z : Vec Ideal S512x256 .bf16) (p : Fin 1024) (o : Fin 256) :
    k4_pay6 (F := Ideal) a aT tr rr acc z (ix2 p o)
      = acc (ix2 p o) + ∑ q : Fin 512, k4_pay4 (F := Ideal) a aT tr rr (ix2 p q) * z (ix2 q o) := by
  unfold k4_pay6
  generalize k4_pay4 (F := Ideal) a aT tr rr = P
  simp only [shapeCast_self]
  show acc (ix2 p o) + matmul dot_S1024x512_S512x256_S1024x256_1_0_0_1_n_n none (truncf .bf16 P bitsLt_bf16_f32) z
      (constant (F := Ideal) S1024x256 .f32 0x00000000#32) (ix2 p o) = _
  rw [k4_matmul_apply]
  rfl

end

theorem k4_pay1_apply (acc : Vec Ideal S1024x256 .f32) (l : Vec Ideal S1024x1 .f32) (p : Fin 1024) (o : Fin 256) :
    k4_pay1 (F := Ideal) acc l (ix2 p o) = Ideal.div (acc (ix2 p o)) (l (ix2 p 0)) := by
  unfold k4_pay1
  show Ideal.div (acc (ix2 p o)) (broadcastTo S1024x256 l broadcasts_S1024x1_S1024x256 (ix2 p o)) = _
  rw [broadcastTo_a1_ab_apply]

theorem k4_pay2_apply (j : S1024x1.Idx) : (k4_pay2 (F := Ideal)) j = 0 := by
  unfold k4_pay2
  simp only [shapeCast_self]
  exact Ideal.ofBits_zero_f32

theorem k4_pay3_apply (j : S1024x256.Idx) : (k4_pay3 (F := Ideal)) j = 0 := by
  unfold k4_pay3
  simp only [shapeCast_self]
  exact Ideal.ofBits_zero_f32

end Cert.KernelIdeal.HandValue

end
-- ==== Proof.KI.Value4Core.lean ====
import proofs.«139342_j40218073759787_2_alg».proof.Proof.KI.Value4Pay
import proofs.«139342_j40218073759787_2_alg».proof.Proof.KI.Value2Fold

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen GAT GAT.Attn

section RowBlock

variable (Ar : Fin 8192 → Fin 8192 → ℝ) (Zr : Fin 8192 → Fin 256 → ℝ) (tv rv : Fin 8192 → ℝ) (ib : Fin 8)
  (a aT : Fin 16 → Vec Ideal S1024x512 .f32) (z : Fin 16 → Vec Ideal S512x256 .bf16)
  (trb : Fin 16 → Vec Ideal S1x512 .f32) (rrb : Fin 16 → Vec Ideal S1x1024 .f32)
  (ha : ∀ (jb : Fin 16) (p : Fin 1024) (q : Fin 512), a jb (ix2 p q) = ((Ar (row ib p) (col jb q) : ℝ) : EReal))
  (haT : ∀ (jb : Fin 16) (p : Fin 1024) (q : Fin 512), aT jb (ix2 p q) = ((Ar (col jb q) (row ib p) : ℝ) : EReal))
  (hz : ∀ (jb : Fin 16) (q : Fin 512) (o : Fin 256), z jb (ix2 q o) = ((Zr (col jb q) o : ℝ) : EReal))
  (htr : ∀ (jb : Fin 16) (q : Fin 512), trb jb (ix2 0 q) = ((tv (col jb q) : ℝ) : EReal))
  (hrr : ∀ (jb : Fin 16) (p : Fin 1024), rrb jb (ix2 0 p) = ((rv (row ib p) : ℝ) : EReal))

include ha haT htr hrr in
theorem k4_weight_real (jb : Fin 16) (p : Fin 1024) (q : Fin 512) :
    k4_pay4 (F := Ideal) (a jb) (aT jb) (trb jb) (rrb jb) (ix2 p q)
      = ((Real.exp (sigR Ar tv rv (row ib p) (col jb q)) : ℝ) : EReal) := by
  rw [k4_pay4_apply, ha, haT, htr, hrr, weight_coe]
  rfl

variable (l : (n : ℕ) → n < 16 → Vec Ideal S1024x1 .f32) (acc : (n : ℕ) → n < 16 → Vec Ideal S1024x256 .f32)
  (hl0 : l 0 (by decide) = k4_pay5 (F := Ideal) (a 0) (aT 0) (trb 0) (rrb 0) (k4_pay2 (F := Ideal)))
  (hls : ∀ (n : ℕ) (h : n + 1 < 16), l (n + 1) h
    = k4_pay5 (F := Ideal) (a ⟨n + 1, h⟩) (aT ⟨n + 1, h⟩) (trb ⟨n + 1, h⟩) (rrb ⟨n + 1, h⟩) (l n (Nat.lt_of_succ_lt h)))
  (hacc0 : acc 0 (by decide) = k4_pay6 (F := Ideal) (a 0) (aT 0) (trb 0) (rrb 0) (k4_pay3 (F := Ideal)) (z 0))
  (haccs : ∀ (n : ℕ) (h : n + 1 < 16), acc (n + 1) h
    = k4_pay6 (F := Ideal) (a ⟨n + 1, h⟩) (aT ⟨n + 1, h⟩) (trb ⟨n + 1, h⟩) (rrb ⟨n + 1, h⟩) (acc n (Nat.lt_of_succ_lt h)) (z ⟨n + 1, h⟩))

include ha haT hz htr hrr hl0 hls hacc0 haccs in
-- Sixteen steps sum the sixteen blocks' terms; the blocks' columns are all the columns.
theorem k4_out_real (p : Fin 1024) (o : Fin 256) :
    k4_pay1 (F := Ideal) (acc 15 (by decide)) (l 15 (by decide)) (ix2 p o)
      = ((attnR Ar tv rv Zr (row ib p) o : ℝ) : EReal) := by
  have hw := k4_weight_real Ar tv rv ib a aT trb rrb ha haT htr hrr
  rw [k4_pay1_apply]
  refine attn_of_sums Ar tv rv Zr (row ib p) o _ _ ((fold16
    (fun jb : Fin 16 => ∑ q : Fin 512, k4_pay4 (F := Ideal) (a jb) (aT jb) (trb jb) (rrb jb) (ix2 p q))
    (fun n hn => l n hn (ix2 p 0)) ?_ fun n hn => ?_).trans ?_) ((fold16
    (fun jb : Fin 16 => ∑ q : Fin 512, k4_pay4 (F := Ideal) (a jb) (aT jb) (trb jb) (rrb jb) (ix2 p q) * z jb (ix2 q o))
    (fun n hn => acc n hn (ix2 p o)) ?_ fun n hn => ?_).trans ?_)
  · show l 0 _ (ix2 p 0) = _
    rw [hl0, k4_pay5_apply, k4_pay2_apply, zero_add]
  · show l (n + 1) hn (ix2 p 0) = _
    rw [hls n hn, k4_pay5_apply]
  · exact Finset.sum_congr rfl fun jb _ => Finset.sum_congr rfl fun q _ => hw jb p q
  · show acc 0 _ (ix2 p o) = _
    rw [hacc0, k4_pay6_apply, k4_pay3_apply, zero_add]
  · show acc (n + 1) hn (ix2 p o) = _
    rw [haccs n hn, k4_pay6_apply]
  · exact Finset.sum_congr rfl fun jb _ => Finset.sum_congr rfl fun q _ => by rw [hw, hz]

end RowBlock

end Cert.KernelIdeal.HandValue

end
-- ==== Proof.KI.Value4.lean ====
import proofs.«139342_j40218073759787_2_alg».proof.Proof.KI.Region4
import proofs.«139342_j40218073759787_2_alg».proof.Proof.KI.Region4Pieces
import proofs.«139342_j40218073759787_2_alg».proof.Proof.KI.Blocks4
import proofs.«139342_j40218073759787_2_alg».proof.Proof.KI.Blocks4Arr
import proofs.«139342_j40218073759787_2_alg».proof.Proof.KI.Value4Core

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand GAT GAT.Attn

variable (V : (c : Dev nD) → (b : Ref sig .tc) → Buf (Elt Ideal) ((c : Thread nD τ).loc b))

def k4_pt (ib : Fin 8) (n : ℕ) (h : n < 16) : Fin cfg4.N :=
  ⟨16 * ib.val + n, by have hN : cfg4.N = 128 := N_4; have := ib.isLt; omega⟩

theorem k4_pt_mod (ib : Fin 8) (n : ℕ) (h : n < 16) : (k4_pt ib n h).val % 16 = n := by
  show (16 * ib.val + n) % 16 = n; omega

private theorem pt_row (ib : Fin 8) (n : ℕ) (h : n < 16) (p : Fin 1024) (hlt : 1024 * ((k4_pt ib n h).val / 16) + p.val < 8192) :
    (⟨1024 * ((k4_pt ib n h).val / 16) + p.val, hlt⟩ : Fin 8192) = row ib p :=
  Fin.ext (by show 1024 * ((16 * ib.val + n) / 16) + p.val = 1024 * ib.val + p.val; omega)

private theorem pt_col (ib : Fin 8) (jb : Fin 16) (q : Fin 512) (hlt : 512 * ((k4_pt ib jb.val jb.isLt).val % 16) + q.val < 8192) :
    (⟨512 * ((k4_pt ib jb.val jb.isLt).val % 16) + q.val, hlt⟩ : Fin 8192) = col jb q :=
  Fin.ext (by show 512 * ((16 * ib.val + jb.val) % 16) + q.val = jb.val * 512 + q.val; have := jb.isLt; omega)

variable (c : Dev nD) {Ar ATr : Fin 8192 → Fin 8192 → ℝ} {Zr : Fin 8192 → Fin 256 → ℝ} {tr rr : Fin 1 → Fin 8192 → ℝ}
  (h0 : IsR2 (a := 8192) (b := 8192) (V c (Pipeline.arrRef spec4 0)) Ar)
  (h1 : IsR2 (a := 8192) (b := 8192) (V c (Pipeline.arrRef spec4 1)) ATr) (hT : ∀ p q, ATr p q = Ar q p)
  (h2 : IsR2 (a := 8192) (b := 256) (V c (Pipeline.arrRef spec4 2)) Zr)
  (h3 : IsR2 (a := 1) (b := 8192) (V c (Pipeline.arrRef spec4 3)) tr)
  (h4 : IsR2 (a := 1) (b := 8192) (V c (Pipeline.arrRef spec4 4)) rr)

include h0 in
theorem k4_blk0_real (ib : Fin 8) (jb : Fin 16) (p : Fin 1024) (q : Fin 512) :
    (iblk4 V c 0 (k4_pt ib jb.val jb.isLt) : Vec Ideal S1024x512 .f32) (ix2 p q) = ((Ar (row ib p) (col jb q) : ℝ) : EReal) :=
  (iblk4_0_apply V c _ p q).trans ((h0 _ _).trans (by rw [pt_row, pt_col]))

include h1 hT in
theorem k4_blk1_real (ib : Fin 8) (jb : Fin 16) (p : Fin 1024) (q : Fin 512) :
    (iblk4 V c 1 (k4_pt ib jb.val jb.isLt) : Vec Ideal S1024x512 .f32) (ix2 p q) = ((Ar (col jb q) (row ib p) : ℝ) : EReal) :=
  (iblk4_1_apply V c _ p q).trans ((h1 _ _).trans (by rw [hT, pt_row, pt_col]))

include h2 in
theorem k4_blk2_real (ib : Fin 8) (jb : Fin 16) (q : Fin 512) (o : Fin 256) :
    (iblk4 V c 2 (k4_pt ib jb.val jb.isLt) : Vec Ideal S512x256 .bf16) (ix2 q o) = ((Zr (col jb q) o : ℝ) : EReal) :=
  (iblk4_2_apply V c _ q o).trans ((h2 _ _).trans (by rw [pt_col]))

include h3 in
theorem k4_blk3_real (ib : Fin 8) (jb : Fin 16) (q : Fin 512) :
    (iblk4 V c 3 (k4_pt ib jb.val jb.isLt) : Vec Ideal S1x512 .f32) (ix2 (0 : Fin 1) q) = ((tr 0 (col jb q) : ℝ) : EReal) :=
  (iblk4_3_apply V c _ q).trans ((h3 _ _).trans (by rw [pt_col]))

include h4 in
theorem k4_blk4_real (ib : Fin 8) (jb : Fin 16) (p : Fin 1024) :
    (iblk4 V c 4 (k4_pt ib jb.val jb.isLt) : Vec Ideal S1x1024 .f32) (ix2 (0 : Fin 1) p) = ((rr 0 (row ib p) : ℝ) : EReal) :=
  (iblk4_4_apply V c _ p).trans ((h4 _ _).trans (by rw [pt_row]))

-- At a row block's first point the two running sums are the point's own terms added to zero.
private theorem carried_first (t : Fin cfg4.N) (h : t.val % 16 = 0) : (outsAt4 V c t.val t.isLt).2
    = (k4_pay5 (F := Ideal) (iblk4 V c 0 t) (iblk4 V c 1 t) (iblk4 V c 3 t) (iblk4 V c 4 t) (k4_pay2 (F := Ideal)),
       k4_pay6 (F := Ideal) (iblk4 V c 0 t) (iblk4 V c 1 t) (iblk4 V c 3 t) (iblk4 V c 4 t) (k4_pay3 (F := Ideal)) (iblk4 V c 2 t)) := by
  rw [outsAt4_A V c t h (by omega)]
  exact congrArg₂ Prod.mk (sout4_A_0_eq ..) (sout4_A_1_eq ..)

-- At a later point they are the point's own terms added to the running sums of the point before.
private theorem carried_next (t : Fin cfg4.N) (m : ℕ) (hm : m < cfg4.N) (e : t.val = m + 1) (h : ¬t.val % 16 = 0) :
    (outsAt4 V c t.val t.isLt).2
    = (k4_pay5 (F := Ideal) (iblk4 V c 0 t) (iblk4 V c 1 t) (iblk4 V c 3 t) (iblk4 V c 4 t) (outsAt4 V c m hm).2.1,
       k4_pay6 (F := Ideal) (iblk4 V c 0 t) (iblk4 V c 1 t) (iblk4 V c 3 t) (iblk4 V c 4 t) (outsAt4 V c m hm).2.2 (iblk4 V c 2 t)) := by
  obtain rfl : m = t.val - 1 := by omega
  by_cases h1 : t.val % 16 = 15
  · rw [outsAt4_C V c t h h1]
    exact congrArg₂ Prod.mk (sout4_C_0_eq ..) (sout4_C_1_eq ..)
  · rw [outsAt4_B V c t h h1]
    exact congrArg₂ Prod.mk (sout4_B_0_eq ..) (sout4_B_1_eq ..)

-- At a row block's last point the result is the quotient of the two running sums.
theorem k4_out_last (t : Fin cfg4.N) (h1 : t.val % 16 = 15) : (outsAt4 V c t.val t.isLt).1
    = k4_pay1 (F := Ideal) (outsAt4 V c t.val t.isLt).2.2 (outsAt4 V c t.val t.isLt).2.1 := by
  rw [outsAt4_C V c t (by omega) h1]
  dsimp only
  rw [out4_C_5_eq, sout4_C_1_eq, sout4_C_0_eq]

include h0 h1 hT h2 h3 h4 in
theorem k4_row_value (ib : Fin 8) (p : Fin 1024) (o : Fin 256) :
    (outsAt4 V c (k4_pt ib 15 (by decide)).val (k4_pt ib 15 (by decide)).isLt).1 (ix2 p o)
      = ((attnR Ar (tr 0) (rr 0) Zr (row ib p) o : ℝ) : EReal) := by
  have hn := fun (n : ℕ) (h : n + 1 < 16) => carried_next V c (k4_pt ib (n + 1) h) _ (k4_pt ib n (Nat.lt_of_succ_lt h)).isLt
    (by show 16 * ib.val + (n + 1) = 16 * ib.val + n + 1; omega)
    (by rw [k4_pt_mod]; omega)
  refine (congrFun (k4_out_last V c _ (k4_pt_mod ib 15 (by decide))) (ix2 p o)).trans ?_
  exact k4_out_real Ar Zr (tr 0) (rr 0) ib
    _ _ _ _ _
    (k4_blk0_real V c h0 ib) (k4_blk1_real V c h1 hT ib) (k4_blk2_real V c h2 ib) (k4_blk3_real V c h3 ib)
    (k4_blk4_real V c h4 ib)
    (fun n h => (outsAt4 V c (k4_pt ib n h).val (k4_pt ib n h).isLt).2.1)
    (fun n h => (outsAt4 V c (k4_pt ib n h).val (k4_pt ib n h).isLt).2.2)
    (congrArg Prod.fst (carried_first V c _ (k4_pt_mod ib 0 (by decide))))
    (fun n h => congrArg Prod.fst (hn n h))
    (congrArg Prod.snd (carried_first V c _ (k4_pt_mod ib 0 (by decide))))
    (fun n h => congrArg Prod.snd (hn n h))
    p o

include h0 h1 hT h2 h3 h4 in
theorem arr4 : IsR2 (a := 8192) (b := 256) ((dat4 V c).arrAt 5 cfg4.N) (attnR Ar (tr 0) (rr 0) Zr) := by
  intro i o
  obtain ⟨ib, p, rfl⟩ : ∃ ib p, row ib p = i := ⟨_, _, row_div_mod i⟩
  exact (arr4_apply V c ib p o).trans (k4_row_value V c h0 h1 hT h2 h3 h4 ib p o)

end Cert.KernelIdeal.HandValue

end
-- ==== Proof.KI.Blocks5.lean ====
import proofs.«139342_j40218073759787_2_alg».proof.Proof.KI.Region5
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable {F : FTy → Type} [FloatOps F]

variable (V : (c : Dev nD) → (b : Ref sig .tc) → Buf (Elt F) ((c : Thread nD τ).loc b))

local notation "nK" => 256
local notation "nO" => 64

theorem r5_zero : (![0, 0] : Fin 2 → Nat) = fun _ => 0 := funext fun a => by fin_cases a <;> rfl

theorem idx5_facts : ∀ t : Fin cfg5.N,
    (∀ a : Fin 2, win5_1.index t a = 0) ∧ (∀ a : Fin 2, win5_2.index t a = 0) ∧ (∀ a : Fin 2, win5_3.index t a = 0)
    ∧ (∀ a : Fin 2, win5_4.index t a = 0) ∧ (∀ a : Fin 2, win5_5.index t a = 0) ∧ (∀ a : Fin 2, win5_6.index t a = 0)
    ∧ win5_7.index t (0 : Fin 2) = t.val ∧ win5_7.index t (1 : Fin 2) = 0
    ∧ win5_8.index t (0 : Fin 2) = 0 ∧ win5_8.index t (1 : Fin 2) = t.val
    ∧ win5_9.index t (0 : Fin 2) = 0 ∧ win5_9.index t (1 : Fin 2) = t.val
    ∧ win5_0.index t (0 : Fin 2) = t.val ∧ win5_0.index t (1 : Fin 2) = 0 :=
  (by decide +kernel : ∀ t : Fin grid5.N, _)

theorem row5_lt (t : Fin cfg5.N) (p : Fin 1024) : 1024 * t.val + p.val < 8192 := by
  have := t.isLt; have hN : cfg5.N = 8 := N_5; omega

def pt5 (r : Fin 8192) : Fin cfg5.N := ⟨r.val / 1024, by have hN : cfg5.N = 8 := N_5; have := r.isLt; omega⟩

theorem iblk5_0_apply (c : Dev nD) (t : Fin cfg5.N) (p : Fin 1024) (k : Fin nK) :
    (iblk5 V c 0 t : Vec F S1024x256 .f32) (ix2 p k)
      = (V c (Pipeline.arrRef spec5 0) : S8192x256.Idx → Elt F .f32) (ix2 (⟨1024 * t.val + p.val, row5_lt t p⟩ : Fin 8192) k) := by
  obtain ⟨-, -, -, -, -, -, -, -, -, -, -, -, e0, e1⟩ := idx5_facts t
  unfold iblk5
  rw [View.read_apply]
  show (V c (Pipeline.arrRef spec5 0) : S8192x256.Idx → Elt F .f32) _ = _
  exact congrArg _ (Shape.idx_ext₂ (by show win5_0.index t (0 : Fin 2) * 1024 + 1 * p.val = 1024 * t.val + p.val; omega) (by show win5_0.index t (1 : Fin 2) * nK + 1 * k.val = k.val; omega))

-- A block read through an index map that moves no coordinate is the array itself.
private theorem read_fix {S : Shape} {α : Type} {A B : S.Idx → α} (em : S.Idx → S.Idx)
    (hB : ∀ y, B y = A (em y)) (h : ∀ y a, (em y a).val = (y a).val) : B = A :=
  funext fun y => (hB y).trans (congrArg A (funext fun a => Fin.ext (h y a)))

theorem iblk5_1_eq (c : Dev nD) (t : Fin cfg5.N) :
    (iblk5 V c 1 t : Vec F S64x256 .f32) = (V c (Pipeline.arrRef spec5 1) : S64x256.Idx → Elt F .f32) :=
  read_fix ((cfg5.win 1).blk t).view.emb (fun _ => rfl) fun y a => win5_1.rect_emb_val_of_index_zero t a ((idx5_facts t).1 a) y

theorem iblk5_2_eq (c : Dev nD) (t : Fin cfg5.N) :
    (iblk5 V c 2 t : Vec F S1x64 .f32) = (V c (Pipeline.arrRef spec5 2) : S1x64.Idx → Elt F .f32) :=
  read_fix ((cfg5.win 2).blk t).view.emb (fun _ => rfl) fun y a => win5_2.rect_emb_val_of_index_zero t a ((idx5_facts t).2.1 a) y

theorem iblk5_3_eq (c : Dev nD) (t : Fin cfg5.N) :
    (iblk5 V c 3 t : Vec F S1x64 .f32) = (V c (Pipeline.arrRef spec5 3) : S1x64.Idx → Elt F .f32) :=
  read_fix ((cfg5.win 3).blk t).view.emb (fun _ => rfl) fun y a => win5_3.rect_emb_val_of_index_zero t a ((idx5_facts t).2.2.1 a) y

theorem iblk5_4_eq (c : Dev nD) (t : Fin cfg5.N) :
    (iblk5 V c 4 t : Vec F S1x1 .f32) = (V c (Pipeline.arrRef spec5 4) : S1x1.Idx → Elt F .f32) :=
  read_fix ((cfg5.win 4).blk t).view.emb (fun _ => rfl) fun y a => win5_4.rect_emb_val_of_index_zero t a ((idx5_facts t).2.2.2.1 a) y

theorem iblk5_5_eq (c : Dev nD) (t : Fin cfg5.N) :
    (iblk5 V c 5 t : Vec F S1x64 .f32) = (V c (Pipeline.arrRef spec5 5) : S1x64.Idx → Elt F .f32) :=
  read_fix ((cfg5.win 5).blk t).view.emb (fun _ => rfl) fun y a => win5_5.rect_emb_val_of_index_zero t a ((idx5_facts t).2.2.2.2.1 a) y

theorem iblk5_6_eq (c : Dev nD) (t : Fin cfg5.N) :
    (iblk5 V c 6 t : Vec F S1x1 .f32) = (V c (Pipeline.arrRef spec5 6) : S1x1.Idx → Elt F .f32) :=
  read_fix ((cfg5.win 6).blk t).view.emb (fun _ => rfl) fun y a => win5_6.rect_emb_val_of_index_zero t a ((idx5_facts t).2.2.2.2.2.1 a) y

-- Blocks whose index on one axis is the point number are pairwise disjoint, so the final array under point t's block is the block t wrote back.
private theorem arr_emb (c : Dev nD) (w : Fin cfg5.W) (a : Fin (cfg5.win w).shape.rank) (hi : ∀ u, (cfg5.win w).index u a = u.val)
    (hf : ∀ u, (cfg5.win w).flush u = true) (t : Fin cfg5.N) (y : ((cfg5.win w).xblock (cfg5.grid.coords t)).Idx) :
    (dat5 V c).arrAt w cfg5.N (((cfg5.win w).blk t).view.emb y)
      = _root_.cast (congrArg (Elt F) ((cfg5.win w).blk t).view.elt_eq.symm) ((dat5 V c).flushed w t y) :=
  (dat5 V c).arrAt_emb_eq_flushed w (fun u u' _ _ h => (cfg5.win w).disjoint_blk fun e =>
    h (Fin.ext ((hi u).symm.trans ((congrFun e a).trans (hi u'))))) t (hf t) y

theorem arr5_7_apply (c : Dev nD) (t : Fin cfg5.N) (p : Fin 1024) (o : Fin nO) :
    ((dat5 V c).arrAt 7 cfg5.N : S8192x64.Idx → Elt F .bf16) (ix2 (⟨1024 * t.val + p.val, row5_lt t p⟩ : Fin 8192) o)
      = k5_pay1 (iblk5 V c 0 t) (iblk5 V c 1 t) (iblk5 V c 2 t) (ix2 p o) := by
  obtain ⟨-, -, -, -, -, -, e0, e1, -⟩ := idx5_facts t
  have he : (((cfg5.win 7).blk t).view.emb (ix2 p o) : S8192x64.Idx) = ix2 (⟨1024 * t.val + p.val, row5_lt t p⟩ : Fin 8192) o :=
    Shape.idx_ext₂ (by show win5_7.index t (0 : Fin 2) * 1024 + 1 * p.val = 1024 * t.val + p.val; omega) (by show win5_7.index t (1 : Fin 2) * nO + 1 * o.val = o.val; omega)
  rw [← he]
  refine (arr_emb V c 7 (0 : Fin 2) (fun u => (idx5_facts u).2.2.2.2.2.2.1) flush5_7 t _).trans ?_
  show (cfg5.win 7).cut (grid5.coords t) ((dat5 V c).after 7 t) (ix2 p o) = _
  rw [after5_7]
  unfold out5_7
  rw [View.canon_unit_zero r5_zero]
  simp only [View.ld_unit_zero (S := S1024x256) r5_zero, View.ld_unit_zero (S := S64x256) r5_zero, View.ld_unit_zero (S := S1x64) r5_zero]
  rfl

theorem arr5_8_apply (c : Dev nD) (t : Fin cfg5.N) (p : Fin 1024) :
    ((dat5 V c).arrAt 8 cfg5.N : S1x8192.Idx → Elt F .f32) (ix2 (0 : Fin 1) (⟨1024 * t.val + p.val, row5_lt t p⟩ : Fin 8192))
      = k5_pay2 (iblk5 V c 0 t) (iblk5 V c 1 t) (iblk5 V c 2 t) (iblk5 V c 3 t) (iblk5 V c 4 t) (ix2 (0 : Fin 1) p) := by
  obtain ⟨-, -, -, -, -, -, -, -, e0, e1, -⟩ := idx5_facts t
  have he : (((cfg5.win 8).blk t).view.emb (ix2 (0 : Fin 1) p) : S1x8192.Idx) = ix2 (0 : Fin 1) (⟨1024 * t.val + p.val, row5_lt t p⟩ : Fin 8192) :=
    Shape.idx_ext₂ (by show win5_8.index t (0 : Fin 2) * 1 + 1 * 0 = 0; omega) (by show win5_8.index t (1 : Fin 2) * 1024 + 1 * p.val = 1024 * t.val + p.val; omega)
  rw [← he]
  refine (arr_emb V c 8 (1 : Fin 2) (fun u => (idx5_facts u).2.2.2.2.2.2.2.2.2.1) flush5_8 t _).trans ?_
  show (cfg5.win 8).cut (grid5.coords t) ((dat5 V c).after 8 t) (ix2 (0 : Fin 1) p) = _
  rw [after5_8]
  unfold out5_8
  rw [View.canon_unit_zero r5_zero]
  simp only [View.ld_unit_zero (S := S1024x256) r5_zero, View.ld_unit_zero (S := S64x256) r5_zero, View.ld_unit_zero (S := S1x64) r5_zero,
    View.ld_unit_zero (S := S1x1) r5_zero]
  rfl

-- The two score payloads are one function of their five blocks.
theorem arr5_9_apply (c : Dev nD) (t : Fin cfg5.N) (p : Fin 1024) :
    ((dat5 V c).arrAt 9 cfg5.N : S1x8192.Idx → Elt F .f32) (ix2 (0 : Fin 1) (⟨1024 * t.val + p.val, row5_lt t p⟩ : Fin 8192))
      = k5_pay2 (iblk5 V c 0 t) (iblk5 V c 1 t) (iblk5 V c 2 t) (iblk5 V c 5 t) (iblk5 V c 6 t) (ix2 (0 : Fin 1) p) := by
  obtain ⟨-, -, -, -, -, -, -, -, -, -, e0, e1, -⟩ := idx5_facts t
  have he : (((cfg5.win 9).blk t).view.emb (ix2 (0 : Fin 1) p) : S1x8192.Idx) = ix2 (0 : Fin 1) (⟨1024 * t.val + p.val, row5_lt t p⟩ : Fin 8192) :=
    Shape.idx_ext₂ (by show win5_9.index t (0 : Fin 2) * 1 + 1 * 0 = 0; omega) (by show win5_9.index t (1 : Fin 2) * 1024 + 1 * p.val = 1024 * t.val + p.val; omega)
  rw [← he]
  refine (arr_emb V c 9 (1 : Fin 2) (fun u => (idx5_facts u).2.2.2.2.2.2.2.2.2.2.2.1) flush5_9 t _).trans ?_
  show (cfg5.win 9).cut (grid5.coords t) ((dat5 V c).after 9 t) (ix2 (0 : Fin 1) p) = _
  rw [after5_9]
  unfold out5_9
  rw [View.canon_unit_zero r5_zero]
  simp only [View.ld_unit_zero (S := S1024x256) r5_zero, View.ld_unit_zero (S := S64x256) r5_zero, View.ld_unit_zero (S := S1x64) r5_zero,
    View.ld_unit_zero (S := S1x1) r5_zero]
  rfl

end Cert.KernelIdeal.Hand

end
-- ==== Proof.KI.Value5Pay.lean ====
import proofs.«139342_j40218073759787_2_alg».proof.Proof.Gen.KernelIdeal.Skeleton
import proofs.«139342_j40218073759787_2_alg».proof.Proof.Spec
import proofs.«139342_j40218073759787_2_alg».proof.Proof.SpecLemmas
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen GAT

local notation "nK" => 256
local notation "nO" => 64
local notation "SH" => S1024x256
local notation "SW" => S64x256
local notation "SRow" => S1x64

-- A product (a × k)·(k × b) into the zero accumulator, at (p, o): the sum over the contracted axis of left (p, j) times right (j, o).
private theorem mm_apply {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl : D.lhsContracting = [(1 : Fin 2)]) (hc : D.rhsContracting = [(0 : Fin 2)])
    (hl0 : ∀ i q, (D.lhsIdx i q (0 : Fin 2)).val = (i (0 : Fin 2)).val) (hr1 : ∀ i q, (D.rhsIdx i q (1 : Fin 2)).val = (i (1 : Fin 2)).val)
    (l : FVec Ideal ⟨2, ![a, k]⟩ φ₁) (r : FVec Ideal ⟨2, ![k, b]⟩ φ₂) (p : Fin a) (o : Fin b) :
    matmul D none l r (constant (F := Ideal) ⟨2, ![a, b]⟩ .f32 0x00000000#32) (ix2 p o) = ∑ j : Fin k, l (ix2 p j) * r (ix2 j o) := by
  simp only [matmul]
  rw [Ideal.matmul_constant_zero_apply, ← Equiv.sum_comp (ValueIdx.contrEquiv1 D k hr hs).symm]
  refine Finset.sum_congr rfl fun j _ => ?_
  have hj := ValueIdx.contrEquiv1_symm_val D k hr hs j
  have el : D.lhsIdx (ix2 p o) ((ValueIdx.contrEquiv1 D k hr hs).symm j) = ix2 p j := funext fun x => Fin.ext (by
    match x with
    | ⟨0, _⟩ => exact hl0 _ _
    | ⟨1, _⟩ => exact (D.lhsIdx_val_of_single hl _ _).trans hj)
  have er : D.rhsIdx (ix2 p o) ((ValueIdx.contrEquiv1 D k hr hs).symm j) = ix2 j o := funext fun x => Fin.ext (by
    match x with
    | ⟨0, _⟩ => exact (D.rhsIdx_val_of_single hc _ _).trans hj
    | ⟨1, _⟩ => exact hr1 _ _)
  rw [el, er]

variable (h : Vec Ideal SH .f32) (w : Vec Ideal SW .f32) (b : Vec Ideal SRow .f32) (tw : Vec Ideal SRow .f32) (tb : Vec Ideal S1x1 .f32)

theorem k5_pay1_apply (p : Fin 1024) (o : Fin nO) :
    k5_pay1 (F := Ideal) h w b (ix2 p o) = max ((∑ k : Fin nK, h (ix2 p k) * w (ix2 o k)) + b (ix2 0 o)) 0 := by
  unfold k5_pay1
  dsimp only
  simp only [shapeCast_self]
  rw [truncf_apply, maximumf_apply, addf_apply, broadcast_apply,
    mm_apply dot_S1024x256_S256x64_S1024x64_1_0_0_1_n_n rfl rfl rfl rfl
      (fun _ _ => rfl)
      (fun _ _ => rfl),
    broadcastTo_1b_ab_apply]
  refine congrArg₂ max (congrArg (· + b (ix2 0 o)) (Finset.sum_congr rfl fun k _ => ?_)) Ideal.ofBits_zero_f32
  rw [transpose_ix2_apply]; rfl

theorem k5_pay2_apply (p : Fin 1024) :
    k5_pay2 (F := Ideal) h w b tw tb (ix2 0 p) = (∑ o : Fin nO, k5_pay1 (F := Ideal) h w b (ix2 p o) * tw (ix2 0 o)) + tb (ix2 0 0) := by
  unfold k5_pay2
  dsimp only
  rw [transpose_ix2_apply, addf_apply,
    mm_apply dot_S1024x64_S64x1_S1024x1_1_0_0_1_n_n rfl rfl rfl rfl
      (fun _ _ => rfl)
      (fun _ _ => rfl),
    broadcastTo_1b_ab_apply, shapeCast_self]
  refine congrArg (· + tb (ix2 0 0)) (Finset.sum_congr rfl fun o _ => ?_)
  rw [transpose_ix2_apply]; rfl

variable {hr : Fin 1024 → Fin nK → ℝ} {wr : Fin nO → Fin nK → ℝ} {br : Fin 1 → Fin nO → ℝ} {twr : Fin 1 → Fin nO → ℝ} {tbr : Fin 1 → Fin 1 → ℝ}
  (hh : IsR2 (a := 1024) (b := nK) h hr) (hw : IsR2 (a := nO) (b := nK) w wr) (hb : IsR2 (a := 1) (b := nO) b br)
  (htw : IsR2 (a := 1) (b := nO) tw twr) (htb : IsR2 (a := 1) (b := 1) tb tbr)

include hh hw hb in
-- At real inputs the sums and products stay real: entry (p, o) of the Z block is the real projection.
theorem k5_pay1_real (p : Fin 1024) (o : Fin nO) :
    k5_pay1 (F := Ideal) h w b (ix2 p o) = ((zR hr wr (br 0) p o : ℝ) : EReal) := by
  rw [k5_pay1_apply, Finset.sum_congr rfl fun k _ => congrArg₂ (· * ·) (hh p k) (hw o k), hb 0 o, sum_mul_coe_add, relu_coe]
  rfl

include hh hw hb htw htb in
-- Entry p of a score row is the real gate of the real projection.
theorem k5_pay2_real (p : Fin 1024) :
    k5_pay2 (F := Ideal) h w b tw tb (ix2 0 p) = ((gateR (zR hr wr (br 0)) (twr 0) (tbr 0 0) p : ℝ) : EReal) := by
  rw [k5_pay2_apply, Finset.sum_congr rfl fun o _ => congrArg₂ (· * ·) (k5_pay1_real h w b hh hw hb p o) (htw 0 o), htb 0 0, sum_mul_coe_add]
  rfl

end Cert.KernelIdeal.HandValue

end
-- ==== Proof.KI.Value5.lean ====
import proofs.«139342_j40218073759787_2_alg».proof.Proof.KI.Blocks5
import proofs.«139342_j40218073759787_2_alg».proof.Proof.KI.Value5Pay

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand GAT

variable (V : (c : Dev nD) → (b : Ref sig .tc) → Buf (Elt Ideal) ((c : Thread nD τ).loc b))

local notation "nK" => 256
local notation "nO" => 64
local notation "SHa" => S8192x256
local notation "SW" => S64x256
local notation "SRow" => S1x64
local notation "SZa" => S8192x64

theorem split5 (r : Fin 8192) : ∃ (t : Fin cfg5.N) (p : Fin 1024), r = ⟨1024 * t.val + p.val, row5_lt t p⟩ :=
  ⟨pt5 r, ⟨r.val % 1024, Nat.mod_lt _ (by decide)⟩, Fin.ext (by show r.val = 1024 * (r.val / 1024) + r.val % 1024; omega)⟩

private theorem isR2_of_eq {a b : ℕ} {x y : (⟨2, ![a, b]⟩ : Shape).Idx → EReal} {r : Fin a → Fin b → ℝ} (e : x = y) (h : IsR2 y r) :
    IsR2 x r := e ▸ h

variable (c : Dev nD) {Hr : Fin 8192 → Fin nK → ℝ} {Wr : Fin nO → Fin nK → ℝ} {b2 : Fin 1 → Fin nO → ℝ}

theorem iblk5_0_real (h0 : IsR2 (V c (Pipeline.arrRef spec5 0) : Shape.Idx SHa → EReal) Hr) (t : Fin cfg5.N) :
    IsR2 (a := 1024) (b := nK) (iblk5 V c 0 t) (fun p k => Hr ⟨1024 * t.val + p.val, row5_lt t p⟩ k) :=
  fun p k => (iblk5_0_apply V c t p k).trans (h0 _ k)

-- Row 1024·t + p of each result is point t's payload at p over blocks that are real, so it is the real model at that row.
theorem arr5_z
    (h0 : IsR2 (V c (Pipeline.arrRef spec5 0) : Shape.Idx SHa → EReal) Hr)
    (h1 : IsR2 (V c (Pipeline.arrRef spec5 1) : Shape.Idx SW → EReal) Wr)
    (h2 : IsR2 (V c (Pipeline.arrRef spec5 2) : Shape.Idx SRow → EReal) b2) :
    IsR2 ((dat5 V c).arrAt 7 cfg5.N : Shape.Idx SZa → EReal) (zR Hr Wr (b2 0)) := by
  intro r o
  obtain ⟨t, p, rfl⟩ := split5 r
  refine ((arr5_7_apply V c t p o).trans (k5_pay1_real _ _ _ (iblk5_0_real V c h0 t)
    (isR2_of_eq (iblk5_1_eq V c t) h1) (isR2_of_eq (iblk5_2_eq V c t) h2) p o)).trans ?_
  rfl

theorem arr5_t {tw : Fin 1 → Fin nO → ℝ} {tb : Fin 1 → Fin 1 → ℝ}
    (h0 : IsR2 (V c (Pipeline.arrRef spec5 0) : Shape.Idx SHa → EReal) Hr)
    (h1 : IsR2 (V c (Pipeline.arrRef spec5 1) : Shape.Idx SW → EReal) Wr)
    (h2 : IsR2 (V c (Pipeline.arrRef spec5 2) : Shape.Idx SRow → EReal) b2)
    (h3 : IsR2 (V c (Pipeline.arrRef spec5 3) : Shape.Idx SRow → EReal) tw)
    (h4 : IsR2 (V c (Pipeline.arrRef spec5 4) : S1x1.Idx → EReal) tb) :
    IsR2 ((dat5 V c).arrAt 8 cfg5.N : S1x8192.Idx → EReal) (fun _ i => gateR (zR Hr Wr (b2 0)) (tw 0) (tb 0 0) i) := by
  intro z r
  obtain rfl : z = 0 := Subsingleton.elim _ _
  obtain ⟨t, p, rfl⟩ := split5 r
  refine ((arr5_8_apply V c t p).trans (k5_pay2_real _ _ _ _ _ (iblk5_0_real V c h0 t)
    (isR2_of_eq (iblk5_1_eq V c t) h1) (isR2_of_eq (iblk5_2_eq V c t) h2)
    (isR2_of_eq (iblk5_3_eq V c t) h3) (isR2_of_eq (iblk5_4_eq V c t) h4) p)).trans ?_
  rfl

theorem arr5_r {rw' : Fin 1 → Fin nO → ℝ} {rb : Fin 1 → Fin 1 → ℝ}
    (h0 : IsR2 (V c (Pipeline.arrRef spec5 0) : Shape.Idx SHa → EReal) Hr)
    (h1 : IsR2 (V c (Pipeline.arrRef spec5 1) : Shape.Idx SW → EReal) Wr)
    (h2 : IsR2 (V c (Pipeline.arrRef spec5 2) : Shape.Idx SRow → EReal) b2)
    (h5 : IsR2 (V c (Pipeline.arrRef spec5 5) : Shape.Idx SRow → EReal) rw')
    (h6 : IsR2 (V c (Pipeline.arrRef spec5 6) : S1x1.Idx → EReal) rb) :
    IsR2 ((dat5 V c).arrAt 9 cfg5.N : S1x8192.Idx → EReal) (fun _ i => gateR (zR Hr Wr (b2 0)) (rw' 0) (rb 0 0) i) := by
  intro z r
  obtain rfl : z = 0 := Subsingleton.elim _ _
  obtain ⟨t, p, rfl⟩ := split5 r
  refine ((arr5_9_apply V c t p).trans (k5_pay2_real _ _ _ _ _ (iblk5_0_real V c h0 t)
    (isR2_of_eq (iblk5_1_eq V c t) h1) (isR2_of_eq (iblk5_2_eq V c t) h2)
    (isR2_of_eq (iblk5_5_eq V c t) h5) (isR2_of_eq (iblk5_6_eq V c t) h6) p)).trans ?_
  rfl

end Cert.KernelIdeal.HandValue

end
-- ==== Proof.KI.Region6Pieces.lean ====
import proofs.«139342_j40218073759787_2_alg».proof.Proof.KI.Region6Runs
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem offs_zero6 : (![0, 0] : Fin 2 → Nat) = fun _ => 0 := funext fun a => by fin_cases a <;> rfl

variable (c : Dev nD) (i : grid6.Coords) (arg2 : Memref sig .tc .vmem S1024x512 .f32) (harg2 : arg2.IsWhole) (arg3 : Memref sig .tc .vmem S1024x512 .f32) (harg3 : arg3.IsWhole) (arg4 : Memref sig .tc .vmem S512x64 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S1024x64 .f32) (harg9 : arg9.IsWhole)

section
variable (hc0 : cond6_0 i) (hc1 : ¬cond6_1 i)
    (x0 : Vec F S1024x512 .f32) (x1 : Vec F S1024x512 .f32) (x2 : Vec F S512x64 .bf16) (x3 : Vec F S1x512 .f32) (x4 : Vec F S1x1024 .f32)

theorem sout6_A_0_eq : sout6_A_0 c i arg2 harg2 arg3 harg3 arg4 harg4 arg5 harg5 arg6 harg6 arg7 harg7 arg8 harg8 arg9 harg9 hc0 hc1 x0 x1 x2 x3 x4 = k6_pay5 x0 x1 x3 x4 (k6_pay2 (F := F)) := by
  unfold sout6_A_0
  rw [View.read_writes_junk_eq_canon]
  unfold kernelRun6_A
  dsimp only
  sl_unfold_words
  rw [View.canon_cons_unit_zero (S := S1024x1) offs_zero6]
  simp only [View.readAt_eq_ld, Memref.IsWhole.read_unread, View.ld_unit_zero (S := ⟨2, ![_, _]⟩) offs_zero6,
    View.readCov_unit_zero (S := ⟨2, ![_, _]⟩) _ offs_zero6]

theorem sout6_A_1_eq : sout6_A_1 c i arg2 harg2 arg3 harg3 arg4 harg4 arg5 harg5 arg6 harg6 arg7 harg7 arg8 harg8 arg9 harg9 hc0 hc1 x0 x1 x2 x3 x4 = k6_pay6 x0 x1 x3 x4 (k6_pay3 (F := F)) x2 := by
  unfold sout6_A_1
  rw [View.read_writes_junk_eq_canon]
  unfold kernelRun6_A
  dsimp only
  sl_unfold_words
  rw [View.canon_cons_unit_zero (S := S1024x64) offs_zero6]
  simp only [View.readAt_eq_ld, Memref.IsWhole.read_unread, View.ld_unit_zero (S := ⟨2, ![_, _]⟩) offs_zero6,
    View.readCov_unit_zero (S := ⟨2, ![_, _]⟩) _ offs_zero6]

end

section
variable (hc0 : ¬cond6_0 i) (hc1 : ¬cond6_1 i)
    (x0 : Vec F S1024x512 .f32) (x1 : Vec F S1024x512 .f32) (x2 : Vec F S512x64 .bf16) (x3 : Vec F S1x512 .f32) (x4 : Vec F S1x1024 .f32) (xs0 : Vec F S1024x1 .f32) (xs1 : Vec F S1024x64 .f32)

theorem sout6_B_0_eq : sout6_B_0 c i arg2 harg2 arg3 harg3 arg4 harg4 arg5 harg5 arg6 harg6 arg7 harg7 arg8 harg8 arg9 harg9 hc0 hc1 x0 x1 x2 x3 x4 xs0 xs1 = k6_pay5 x0 x1 x3 x4 xs0 := by
  unfold sout6_B_0
  rw [View.read_writes_junk_eq_canon]
  unfold kernelRun6_B
  dsimp only
  sl_unfold_words
  rw [View.canon_unit_zero offs_zero6]
  simp only [View.readAt_eq_ld, Memref.IsWhole.read_unread, View.ld_unit_zero (S := ⟨2, ![_, _]⟩) offs_zero6,
    View.readCov_unit_zero (S := ⟨2, ![_, _]⟩) _ offs_zero6]

theorem sout6_B_1_eq : sout6_B_1 c i arg2 harg2 arg3 harg3 arg4 harg4 arg5 harg5 arg6 harg6 arg7 harg7 arg8 harg8 arg9 harg9 hc0 hc1 x0 x1 x2 x3 x4 xs0 xs1 = k6_pay6 x0 x1 x3 x4 xs1 x2 := by
  unfold sout6_B_1
  rw [View.read_writes_junk_eq_canon]
  unfold kernelRun6_B
  dsimp only
  sl_unfold_words
  rw [View.canon_unit_zero offs_zero6]
  simp only [View.readAt_eq_ld, Memref.IsWhole.read_unread, View.ld_unit_zero (S := ⟨2, ![_, _]⟩) offs_zero6,
    View.readCov_unit_zero (S := ⟨2, ![_, _]⟩) _ offs_zero6]

end

section
variable (hc0 : ¬cond6_0 i) (hc1 : cond6_1 i)
    (x0 : Vec F S1024x512 .f32) (x1 : Vec F S1024x512 .f32) (x2 : Vec F S512x64 .bf16) (x3 : Vec F S1x512 .f32) (x4 : Vec F S1x1024 .f32) (xs0 : Vec F S1024x1 .f32) (xs1 : Vec F S1024x64 .f32)

theorem sout6_C_0_eq : sout6_C_0 c i arg2 harg2 arg3 harg3 arg4 harg4 arg5 harg5 arg6 harg6 arg7 harg7 arg8 harg8 arg9 harg9 hc0 hc1 x0 x1 x2 x3 x4 xs0 xs1 = k6_pay5 x0 x1 x3 x4 xs0 := by
  unfold sout6_C_0
  rw [View.read_writes_junk_eq_canon]
  unfold kernelRun6_C
  dsimp only
  sl_unfold_words
  rw [View.canon_unit_zero offs_zero6]
  simp only [View.readAt_eq_ld, Memref.IsWhole.read_unread, View.ld_unit_zero (S := ⟨2, ![_, _]⟩) offs_zero6,
    View.readCov_unit_zero (S := ⟨2, ![_, _]⟩) _ offs_zero6]

theorem sout6_C_1_eq : sout6_C_1 c i arg2 harg2 arg3 harg3 arg4 harg4 arg5 harg5 arg6 harg6 arg7 harg7 arg8 harg8 arg9 harg9 hc0 hc1 x0 x1 x2 x3 x4 xs0 xs1 = k6_pay6 x0 x1 x3 x4 xs1 x2 := by
  unfold sout6_C_1
  rw [View.read_writes_junk_eq_canon]
  unfold kernelRun6_C
  dsimp only
  sl_unfold_words
  rw [View.canon_unit_zero offs_zero6]
  simp only [View.readAt_eq_ld, Memref.IsWhole.read_unread, View.ld_unit_zero (S := ⟨2, ![_, _]⟩) offs_zero6,
    View.readCov_unit_zero (S := ⟨2, ![_, _]⟩) _ offs_zero6]

theorem out6_C_5_eq : out6_C_5 c i arg2 harg2 arg3 harg3 arg4 harg4 arg5 harg5 arg6 harg6 arg7 harg7 arg8 harg8 arg9 harg9 hc0 hc1 x0 x1 x2 x3 x4 xs0 xs1 = k6_pay1 (k6_pay6 x0 x1 x3 x4 xs1 x2) (k6_pay5 x0 x1 x3 x4 xs0) := by
  unfold out6_C_5
  rw [View.read_writes_junk_eq_canon]
  unfold kernelRun6_C
  dsimp only
  sl_unfold_words
  rw [View.canon_unit_zero offs_zero6]
  simp only [View.readAt_eq_ld, Memref.IsWhole.read_unread, View.ld_unit_zero (S := ⟨2, ![_, _]⟩) offs_zero6,
    View.readCov_unit_zero (S := ⟨2, ![_, _]⟩) _ offs_zero6]

end

end Cert.KernelIdeal.Hand

end
-- ==== Proof.KI.Blocks6.lean ====
import proofs.«139342_j40218073759787_2_alg».proof.Proof.KI.Region6Runs
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem blkidx6 : ∀ t : Fin cfg6.N,
    win6_0.index t (0 : Fin 2) = t.val / 16 ∧ win6_0.index t (1 : Fin 2) = t.val % 16
    ∧ win6_1.index t (0 : Fin 2) = t.val / 16 ∧ win6_1.index t (1 : Fin 2) = t.val % 16
    ∧ win6_2.index t (0 : Fin 2) = t.val % 16 ∧ win6_2.index t (1 : Fin 2) = 0
    ∧ win6_3.index t (0 : Fin 2) = 0 ∧ win6_3.index t (1 : Fin 2) = t.val % 16
    ∧ win6_4.index t (0 : Fin 2) = 0 ∧ win6_4.index t (1 : Fin 2) = t.val / 16
    ∧ win6_5.index t (0 : Fin 2) = t.val / 16 ∧ win6_5.index t (1 : Fin 2) = 0 :=
  (by decide +kernel : ∀ t : Fin grid6.N, _)

theorem row_lt6 (t : Fin cfg6.N) (p : Fin 1024) : 1024 * (t.val / 16) + p.val < 8192 := by
  have hN : cfg6.N = 128 := N_6
  have ht : t.val < cfg6.N := t.isLt
  have hp : p.val < 1024 := p.isLt
  omega

theorem col_lt6 (t : Fin cfg6.N) (q : Fin 512) : 512 * (t.val % 16) + q.val < 8192 := by
  have hq : q.val < 512 := q.isLt
  omega

theorem iblk6_0_apply (c : Dev nD) (t : Fin cfg6.N) (p : Fin 1024) (q : Fin 512) :
    (iblk6 V c 0 t : Vec F S1024x512 .f32) (ix2 p q)
      = (V c main_arg1 : S8192x8192.Idx → Elt F .f32)
          (ix2 ⟨1024 * (t.val / 16) + p.val, row_lt6 t p⟩ ⟨512 * (t.val % 16) + q.val, col_lt6 t q⟩) := by
  have e := blkidx6 t
  unfold iblk6
  rw [View.read_apply]
  show V c main_arg1 _ = V c main_arg1 _
  congr 1
  funext a
  apply Fin.ext
  match a with
  | ⟨0, _⟩ => show win6_0.index t (0 : Fin 2) * 1024 + 1 * p.val = 1024 * (t.val / 16) + p.val; omega
  | ⟨1, _⟩ => show win6_0.index t (1 : Fin 2) * 512 + 1 * q.val = 512 * (t.val % 16) + q.val; omega

theorem iblk6_1_apply (c : Dev nD) (t : Fin cfg6.N) (p : Fin 1024) (q : Fin 512) :
    (iblk6 V c 1 t : Vec F S1024x512 .f32) (ix2 p q)
      = (V c main_v0 : S8192x8192.Idx → Elt F .f32)
          (ix2 ⟨1024 * (t.val / 16) + p.val, row_lt6 t p⟩ ⟨512 * (t.val % 16) + q.val, col_lt6 t q⟩) := by
  have e := blkidx6 t
  unfold iblk6
  rw [View.read_apply]
  show V c main_v0 _ = V c main_v0 _
  congr 1
  funext a
  apply Fin.ext
  match a with
  | ⟨0, _⟩ => show win6_1.index t (0 : Fin 2) * 1024 + 1 * p.val = 1024 * (t.val / 16) + p.val; omega
  | ⟨1, _⟩ => show win6_1.index t (1 : Fin 2) * 512 + 1 * q.val = 512 * (t.val % 16) + q.val; omega

theorem iblk6_2_apply (c : Dev nD) (t : Fin cfg6.N) (q : Fin 512) (o : Fin 64) :
    (iblk6 V c 2 t : Vec F S512x64 .bf16) (ix2 q o)
      = (V c main_v14_0 : S8192x64.Idx → Elt F .bf16) (ix2 ⟨512 * (t.val % 16) + q.val, col_lt6 t q⟩ o) := by
  have e := blkidx6 t
  unfold iblk6
  rw [View.read_apply]
  show V c main_v14_0 _ = V c main_v14_0 _
  congr 1
  funext a
  apply Fin.ext
  match a with
  | ⟨0, _⟩ => show win6_2.index t (0 : Fin 2) * 512 + 1 * q.val = 512 * (t.val % 16) + q.val; omega
  | ⟨1, _⟩ => show win6_2.index t (1 : Fin 2) * 64 + 1 * o.val = o.val; omega

theorem iblk6_3_apply (c : Dev nD) (t : Fin cfg6.N) (q : Fin 512) :
    (iblk6 V c 3 t : Vec F S1x512 .f32) (ix2 (0 : Fin 1) q)
      = (V c main_v14_1 : S1x8192.Idx → Elt F .f32) (ix2 (0 : Fin 1) ⟨512 * (t.val % 16) + q.val, col_lt6 t q⟩) := by
  have e := blkidx6 t
  unfold iblk6
  rw [View.read_apply]
  show V c main_v14_1 _ = V c main_v14_1 _
  congr 1
  funext a
  apply Fin.ext
  match a with
  | ⟨0, _⟩ => show win6_3.index t (0 : Fin 2) * 1 + 1 * 0 = 0; omega
  | ⟨1, _⟩ => show win6_3.index t (1 : Fin 2) * 512 + 1 * q.val = 512 * (t.val % 16) + q.val; omega

theorem iblk6_4_apply (c : Dev nD) (t : Fin cfg6.N) (p : Fin 1024) :
    (iblk6 V c 4 t : Vec F S1x1024 .f32) (ix2 (0 : Fin 1) p)
      = (V c main_v14_2 : S1x8192.Idx → Elt F .f32) (ix2 (0 : Fin 1) ⟨1024 * (t.val / 16) + p.val, row_lt6 t p⟩) := by
  have e := blkidx6 t
  unfold iblk6
  rw [View.read_apply]
  show V c main_v14_2 _ = V c main_v14_2 _
  congr 1
  funext a
  apply Fin.ext
  match a with
  | ⟨0, _⟩ => show win6_4.index t (0 : Fin 2) * 1 + 1 * 0 = 0; omega
  | ⟨1, _⟩ => show win6_4.index t (1 : Fin 2) * 1024 + 1 * p.val = 1024 * (t.val / 16) + p.val; omega

end Cert.KernelIdeal.Hand

end
-- ==== Proof.KI.Arr6.lean ====
import proofs.«139342_j40218073759787_2_alg».proof.Proof.Gen.KernelIdeal.Launch
import proofs.«139342_j40218073759787_2_alg».proof.Proof.Gen.KernelIdeal.Points
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Rounds
open Idealize.ShloMosaic.Pipeline (Dat)
open Cert.KernelIdeal Cert.KernelIdeal.Gen

variable {F : FTy → Type} [FloatOps F]

theorem residx6 : ∀ t : Fin cfg6.N,
    win6_5.index t (0 : Fin 2) = t.val / 16 ∧ win6_5.index t (1 : Fin 2) = 0 :=
  (by decide +kernel : ∀ t : Fin grid6.N, _)

section Result

variable {c : Dev nD} (dat : Dat τ (Elt F) Unit ℕ (UR sig nD τ) ℕ cfg6 c)
  (outs : (n : ℕ) → n < cfg6.N → Vec F S1024x64 .f32)

theorem last_lt6 (r : Fin 8192) : 16 * (r.val / 1024) + 15 < cfg6.N := by
  have hN : cfg6.N = 128 := N_6
  have hr : r.val < 8192 := r.isLt
  omega

theorem outs_congr6 {n n' : ℕ} (h : n = n') (hn : n < cfg6.N) (hn' : n' < cfg6.N) : outs n hn = outs n' hn' := by
  subst h; rfl

def res6 : S8192x64.Idx → Elt F .f32 := fun i =>
  outs (16 * ((i 0).val / 1024) + 15) (last_lt6 (i 0))
    (ix2 (n0 := 1024) (n1 := 64) ⟨(i 0).val % 1024, Nat.mod_lt _ (by decide)⟩ (i 1))

theorem res6_at (t : Fin cfg6.N) (h15 : t.val % 16 = 15) (x : S1024x64.Idx) (k : S8192x64.Idx)
    (hk0 : (k 0).val = 1024 * (t.val / 16) + (x 0).val) (hk1 : (k 1).val = (x 1).val) :
    res6 outs k = outs t.val t.isLt x := by
  have hx0 : (x 0).val < 1024 := (x 0).isLt
  unfold res6
  rw [outs_congr6 outs (show 16 * ((k 0).val / 1024) + 15 = t.val by omega) _ t.isLt]
  congr 1
  funext a
  apply Fin.ext
  match a with
  | ⟨0, _⟩ => show (k 0).val % 1024 = (x 0).val; omega
  | ⟨1, _⟩ => exact hk1

theorem flushed6_5_eq (hafter : ∀ t, dat.after 5 t = outs t.val t.isLt) (t : Fin cfg6.N)
    (hf : (cfg6.win 5).flush t = true) :
    dat.flushed 5 t = ((cfg6.win 5).blk t).view.read (Elt F) (res6 outs) := by
  have h15 : t.val % 16 = 15 := (flush6_5 t).mp hf
  obtain ⟨e0, e1⟩ := residx6 t
  show (cfg6.win 5).cut (grid6.coords t) (dat.after 5 t) = _
  rw [hafter]
  funext j
  rw [View.read_apply]
  show outs t.val t.isLt ((cfg6.win 5).xinj (grid6.coords t) j) = _
  refine (res6_at outs t h15 _ _ ?_ ?_).symm
  · show win6_5.index t (0 : Fin 2) * 1024 + 1 * (j 0).val = 1024 * (t.val / 16) + (j 0).val
    omega
  · show win6_5.index t (1 : Fin 2) * 64 + 1 * (j 1).val = (j 1).val
    omega

theorem mem_blk6_5 (t : Fin cfg6.N) (i : S8192x64.Idx) :
    i ∈ ((cfg6.win 5).blk t).view.set ↔ ∀ a : Fin 2, win6_5.index t a * S1024x64.size a ≤ (i a).val
      ∧ (i a).val < win6_5.index t a * S1024x64.size a + S1024x64.size a := by
  show i ∈ ((View.whole main_v15).slice (win6_5.rect t)).set ↔ _
  rw [View.set_slice_whole, Rect.mem_set_unit]
  exact Iff.rfl

theorem covered6_5 (i : S8192x64.Idx) :
    ∃ t : Fin cfg6.N, (cfg6.win 5).flush t = true ∧ i ∈ ((cfg6.win 5).blk t).view.set := by
  have hi0 : (i 0).val < 8192 := (i 0).isLt
  have hi1 : (i 1).val < 64 := (i 1).isLt
  obtain ⟨t, ht⟩ : ∃ t : Fin cfg6.N, t.val = 16 * ((i 0).val / 1024) + 15 := ⟨⟨_, last_lt6 (i 0)⟩, rfl⟩
  obtain ⟨e0, e1⟩ := residx6 t
  refine ⟨t, (flush6_5 t).mpr (by omega), ?_⟩
  rw [mem_blk6_5]
  intro a
  match a with
  | ⟨0, _⟩ =>
    show win6_5.index t (0 : Fin 2) * 1024 ≤ (i 0).val ∧ (i 0).val < win6_5.index t (0 : Fin 2) * 1024 + 1024
    omega
  | ⟨1, _⟩ =>
    show win6_5.index t (1 : Fin 2) * 64 ≤ (i 1).val ∧ (i 1).val < win6_5.index t (1 : Fin 2) * 64 + 64
    omega

theorem arr6_eq (hafter : ∀ t, dat.after 5 t = outs t.val t.isLt) : dat.arrAt 5 cfg6.N = res6 outs :=
  dat.arrAt_eq_of_cover 5 (res6 outs) (flushed6_5_eq dat outs hafter) covered6_5

theorem lastpt_lt6 (ib : Fin 8) : 16 * ib.val + 15 < cfg6.N := by
  have hN : cfg6.N = 128 := N_6
  have hb : ib.val < 8 := ib.isLt
  omega

theorem rowb_lt6 (ib : Fin 8) (p : Fin 1024) : 1024 * ib.val + p.val < 8192 := by
  have hb : ib.val < 8 := ib.isLt
  have hp : p.val < 1024 := p.isLt
  omega

theorem arr6_of (hafter : ∀ t, dat.after 5 t = outs t.val t.isLt) (ib : Fin 8) (p : Fin 1024) (o : Fin 64) :
    dat.arrAt 5 cfg6.N (ix2 (n0 := 8192) (n1 := 64) ⟨1024 * ib.val + p.val, rowb_lt6 ib p⟩ o)
      = outs (16 * ib.val + 15) (lastpt_lt6 ib) (ix2 p o) := by
  rw [arr6_eq dat outs hafter]
  exact res6_at outs ⟨_, lastpt_lt6 ib⟩ (by show (16 * ib.val + 15) % 16 = 15; omega) (ix2 p o) _
    (by show 1024 * ib.val + p.val = 1024 * ((16 * ib.val + 15) / 16) + p.val; omega) rfl

end Result

end Cert.KernelIdeal.Hand

end
-- ==== Proof.KI.Blocks6Arr.lean ====
import proofs.«139342_j40218073759787_2_alg».proof.Proof.KI.Region6
import proofs.«139342_j40218073759787_2_alg».proof.Proof.KI.Arr6

set_option maxRecDepth 16384

noncomputable section

namespace Cert.KernelIdeal.Hand

open Idealize.ShloMosaic Idealize.ShloMosaic.TcCoe Idealize.SL.Sem Idealize.ShloMosaic.ValueIdx
open Idealize.ShloMosaic.Rounds
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem arr6_apply (c : Dev nD) (ib : Fin 8) (p : Fin 1024) (o : Fin 64) :
    (dat6 V c).arrAt 5 cfg6.N (ix2 (n0 := 8192) (n1 := 64) ⟨1024 * ib.val + p.val, rowb_lt6 ib p⟩ o)
      = (outsAt6 V c (16 * ib.val + 15) (lastpt_lt6 ib)).1 (ix2 p o) :=
  arr6_of (dat6 V c) (fun n h => (outsAt6 V c n h).1) (after6_5 V c) ib p o

end Cert.KernelIdeal.Hand

end
-- ==== Proof.KI.Value6Pay.lean ====
import proofs.«139342_j40218073759787_2_alg».proof.Proof.Gen.KernelIdeal.Skeleton
import proofs.«139342_j40218073759787_2_alg».proof.Proof.KI.ValueCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen

section
variable (a aT : Vec Ideal S1024x512 .f32) (tr : Vec Ideal S1x512 .f32) (rr : Vec Ideal S1x1024 .f32)

theorem k6_pay4_apply (p : Fin 1024) (q : Fin 512) :
    k6_pay4 (F := Ideal) a aT tr rr (ix2 p q)
      = Ideal.exp (Ideal.logistic (a (ix2 p q) * tr (ix2 0 q) + aT (ix2 p q) * rr (ix2 0 p))) := by
  unfold k6_pay4
  simp only [shapeCast_self]
  show Ideal.exp (Ideal.logistic (a (ix2 p q) * broadcastTo S1024x512 tr broadcasts_S1x512_S1024x512 (ix2 p q)
      + aT (ix2 p q) * broadcastTo S1024x512 (transpose S1024x1 [1, 0] rr transposes_S1x1024_p1_0_S1024x1)
          broadcasts_S1024x1_S1024x512 (ix2 p q))) = _
  rw [broadcastTo_1b_ab_apply, broadcastTo_a1_ab_apply, transpose_ix2_apply]

theorem k6_pay5_apply (l : Vec Ideal S1024x1 .f32) (p : Fin 1024) :
    k6_pay5 (F := Ideal) a aT tr rr l (ix2 p 0)
      = l (ix2 p 0) + ∑ q : Fin 512, k6_pay4 (F := Ideal) a aT tr rr (ix2 p q) := by
  unfold k6_pay5
  generalize k6_pay4 (F := Ideal) a aT tr rr = P
  simp only [shapeCast_self]
  show l (ix2 p 0) + shapeCast S1024x1 (multiReduction .add [1] S1024 P 0x00000000#32 reduces_S1024x512_S1024 (.inl rfl) rfl)
      shapeCasts_S1024_S1024x1 (ix2 p 0) = _
  rw [shapeCast_a_a1_apply]
  exact congrArg (l (ix2 p 0) + ·) (rowsum_apply P reduces_S1024x512_S1024 (.inl rfl) rfl p)

section
variable (i : S1024x64.Idx) (q : dot_S1024x512_S512x64_S1024x64_1_0_0_1_n_n.contr.Idx)

theorem k6_lhs_0 :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide),
    dif_pos (show (0 : Fin S1024x512.rank) ∈ dot_S1024x512_S512x64_S1024x64_1_0_0_1_n_n.lhsNonContracting by decide)]
  rfl
theorem k6_lhs_1 :
    (dot_S1024x512_S512x64_S1024x64_1_0_0_1_n_n.lhsIdx i q 1).val = (q ⟨0, by decide⟩).val :=
  dot_S1024x512_S512x64_S1024x64_1_0_0_1_n_n.lhsIdx_val_of_single rfl i q
theorem k6_rhs_0 :
    (dot_S1024x512_S512x64_S1024x64_1_0_0_1_n_n.rhsIdx i q 0).val = (q ⟨0, by decide⟩).val :=
  dot_S1024x512_S512x64_S1024x64_1_0_0_1_n_n.rhsIdx_val_of_single rfl i q
theorem k6_rhs_1 :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide),
    dif_pos (show (1 : Fin S512x64.rank) ∈ dot_S1024x512_S512x64_S1024x64_1_0_0_1_n_n.rhsNonContracting by decide)]
  rfl

end

theorem k6_matmul_apply (P : FVec Ideal S1024x512 .bf16) (z : FVec Ideal S512x64 .bf16) (p : Fin 1024) (o : Fin 64) :
    matmul dot_S1024x512_S512x64_S1024x64_1_0_0_1_n_n none P z (constant (F := Ideal) S1024x64 .f32 0x00000000#32) (ix2 p o)
      = ∑ q : Fin 512, P (ix2 p q) * z (ix2 q o) := by
  simp only [matmul]
  rw [Ideal.matmul_constant_zero_apply,
    ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 p o)
      ((contrEquiv1 dot_S1024x512_S512x64_S1024x64_1_0_0_1_n_n 512 rfl rfl).symm k) = ix2 p k :=
    funext fun a => Fin.ext (by
      match a with
      | ⟨0, _⟩ => exact k6_lhs_0 _ _
      | ⟨1, _⟩ => exact (k6_lhs_1 _ _).trans hk)
  have er : dot_S1024x512_S512x64_S1024x64_1_0_0_1_n_n.rhsIdx (ix2 p o)
      ((contrEquiv1 dot_S1024x512_S512x64_S1024x64_1_0_0_1_n_n 512 rfl rfl).symm k) = ix2 k o :=
    funext fun a => Fin.ext (by
      match a with
      | ⟨0, _⟩ => exact (k6_rhs_0 _ _).trans hk
      | ⟨1, _⟩ => exact k6_rhs_1 _ _)
  rw [el, er]

theorem k6_pay6_apply (acc : Vec Ideal S1024x64 .f32) (z : Vec Ideal S512x64 .bf16) (p : Fin 1024) (o : Fin 64) :
    k6_pay6 (F := Ideal) a aT tr rr acc z (ix2 p o)
      = acc (ix2 p o) + ∑ q : Fin 512, k6_pay4 (F := Ideal) a aT tr rr (ix2 p q) * z (ix2 q o) := by
  unfold k6_pay6
  generalize k6_pay4 (F := Ideal) a aT tr rr = P
  simp only [shapeCast_self]
  show acc (ix2 p o) + matmul dot_S1024x512_S512x64_S1024x64_1_0_0_1_n_n none (truncf .bf16 P bitsLt_bf16_f32) z
      (constant (F := Ideal) S1024x64 .f32 0x00000000#32) (ix2 p o) = _
  rw [k6_matmul_apply]
  rfl

end

theorem k6_pay1_apply (acc : Vec Ideal S1024x64 .f32) (l : Vec Ideal S1024x1 .f32) (p : Fin 1024) (o : Fin 64) :
    k6_pay1 (F := Ideal) acc l (ix2 p o) = Ideal.div (acc (ix2 p o)) (l (ix2 p 0)) := by
  unfold k6_pay1
  show Ideal.div (acc (ix2 p o)) (broadcastTo S1024x64 l broadcasts_S1024x1_S1024x64 (ix2 p o)) = _
  rw [broadcastTo_a1_ab_apply]

theorem k6_pay2_apply (j : S1024x1.Idx) : (k6_pay2 (F := Ideal)) j = 0 := by
  unfold k6_pay2
  simp only [shapeCast_self]
  exact Ideal.ofBits_zero_f32

theorem k6_pay3_apply (j : S1024x64.Idx) : (k6_pay3 (F := Ideal)) j = 0 := by
  unfold k6_pay3
  simp only [shapeCast_self]
  exact Ideal.ofBits_zero_f32

end Cert.KernelIdeal.HandValue

end
-- ==== Proof.KI.Value6Core.lean ====
import proofs.«139342_j40218073759787_2_alg».proof.Proof.KI.Value6Pay
import proofs.«139342_j40218073759787_2_alg».proof.Proof.KI.Value2Fold

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen GAT GAT.Attn

section RowBlock

variable (Ar : Fin 8192 → Fin 8192 → ℝ) (Zr : Fin 8192 → Fin 64 → ℝ) (tv rv : Fin 8192 → ℝ) (ib : Fin 8)
  (a aT : Fin 16 → Vec Ideal S1024x512 .f32) (z : Fin 16 → Vec Ideal S512x64 .bf16)
  (trb : Fin 16 → Vec Ideal S1x512 .f32) (rrb : Fin 16 → Vec Ideal S1x1024 .f32)
  (ha : ∀ (jb : Fin 16) (p : Fin 1024) (q : Fin 512), a jb (ix2 p q) = ((Ar (row ib p) (col jb q) : ℝ) : EReal))
  (haT : ∀ (jb : Fin 16) (p : Fin 1024) (q : Fin 512), aT jb (ix2 p q) = ((Ar (col jb q) (row ib p) : ℝ) : EReal))
  (hz : ∀ (jb : Fin 16) (q : Fin 512) (o : Fin 64), z jb (ix2 q o) = ((Zr (col jb q) o : ℝ) : EReal))
  (htr : ∀ (jb : Fin 16) (q : Fin 512), trb jb (ix2 0 q) = ((tv (col jb q) : ℝ) : EReal))
  (hrr : ∀ (jb : Fin 16) (p : Fin 1024), rrb jb (ix2 0 p) = ((rv (row ib p) : ℝ) : EReal))

include ha haT htr hrr in
theorem k6_weight_real (jb : Fin 16) (p : Fin 1024) (q : Fin 512) :
    k6_pay4 (F := Ideal) (a jb) (aT jb) (trb jb) (rrb jb) (ix2 p q)
      = ((Real.exp (sigR Ar tv rv (row ib p) (col jb q)) : ℝ) : EReal) := by
  rw [k6_pay4_apply, ha, haT, htr, hrr, weight_coe]
  rfl

variable (l : (n : ℕ) → n < 16 → Vec Ideal S1024x1 .f32) (acc : (n : ℕ) → n < 16 → Vec Ideal S1024x64 .f32)
  (hl0 : l 0 (by decide) = k6_pay5 (F := Ideal) (a 0) (aT 0) (trb 0) (rrb 0) (k6_pay2 (F := Ideal)))
  (hls : ∀ (n : ℕ) (h : n + 1 < 16), l (n + 1) h
    = k6_pay5 (F := Ideal) (a ⟨n + 1, h⟩) (aT ⟨n + 1, h⟩) (trb ⟨n + 1, h⟩) (rrb ⟨n + 1, h⟩) (l n (Nat.lt_of_succ_lt h)))
  (hacc0 : acc 0 (by decide) = k6_pay6 (F := Ideal) (a 0) (aT 0) (trb 0) (rrb 0) (k6_pay3 (F := Ideal)) (z 0))
  (haccs : ∀ (n : ℕ) (h : n + 1 < 16), acc (n + 1) h
    = k6_pay6 (F := Ideal) (a ⟨n + 1, h⟩) (aT ⟨n + 1, h⟩) (trb ⟨n + 1, h⟩) (rrb ⟨n + 1, h⟩) (acc n (Nat.lt_of_succ_lt h)) (z ⟨n + 1, h⟩))

include ha haT hz htr hrr hl0 hls hacc0 haccs in
-- Sixteen steps sum the sixteen blocks' terms; the blocks' columns are all the columns.
theorem k6_out_real (p : Fin 1024) (o : Fin 64) :
    k6_pay1 (F := Ideal) (acc 15 (by decide)) (l 15 (by decide)) (ix2 p o)
      = ((attnR Ar tv rv Zr (row ib p) o : ℝ) : EReal) := by
  have hw := k6_weight_real Ar tv rv ib a aT trb rrb ha haT htr hrr
  rw [k6_pay1_apply]
  refine attn_of_sums Ar tv rv Zr (row ib p) o _ _ ((fold16
    (fun jb : Fin 16 => ∑ q : Fin 512, k6_pay4 (F := Ideal) (a jb) (aT jb) (trb jb) (rrb jb) (ix2 p q))
    (fun n hn => l n hn (ix2 p 0)) ?_ fun n hn => ?_).trans ?_) ((fold16
    (fun jb : Fin 16 => ∑ q : Fin 512, k6_pay4 (F := Ideal) (a jb) (aT jb) (trb jb) (rrb jb) (ix2 p q) * z jb (ix2 q o))
    (fun n hn => acc n hn (ix2 p o)) ?_ fun n hn => ?_).trans ?_)
  · show l 0 _ (ix2 p 0) = _
    rw [hl0, k6_pay5_apply, k6_pay2_apply, zero_add]
  · show l (n + 1) hn (ix2 p 0) = _
    rw [hls n hn, k6_pay5_apply]
  · exact Finset.sum_congr rfl fun jb _ => Finset.sum_congr rfl fun q _ => hw jb p q
  · show acc 0 _ (ix2 p o) = _
    rw [hacc0, k6_pay6_apply, k6_pay3_apply, zero_add]
  · show acc (n + 1) hn (ix2 p o) = _
    rw [haccs n hn, k6_pay6_apply]
  · exact Finset.sum_congr rfl fun jb _ => Finset.sum_congr rfl fun q _ => by rw [hw, hz]

end RowBlock

end Cert.KernelIdeal.HandValue

end
-- ==== Proof.KI.Value6.lean ====
import proofs.«139342_j40218073759787_2_alg».proof.Proof.KI.Region6
import proofs.«139342_j40218073759787_2_alg».proof.Proof.KI.Region6Pieces
import proofs.«139342_j40218073759787_2_alg».proof.Proof.KI.Blocks6
import proofs.«139342_j40218073759787_2_alg».proof.Proof.KI.Blocks6Arr
import proofs.«139342_j40218073759787_2_alg».proof.Proof.KI.Value6Core

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand GAT GAT.Attn

variable (V : (c : Dev nD) → (b : Ref sig .tc) → Buf (Elt Ideal) ((c : Thread nD τ).loc b))

def k6_pt (ib : Fin 8) (n : ℕ) (h : n < 16) : Fin cfg6.N :=
  ⟨16 * ib.val + n, by have hN : cfg6.N = 128 := N_6; have := ib.isLt; omega⟩

theorem k6_pt_mod (ib : Fin 8) (n : ℕ) (h : n < 16) : (k6_pt ib n h).val % 16 = n := by
  show (16 * ib.val + n) % 16 = n; omega

private theorem pt_row (ib : Fin 8) (n : ℕ) (h : n < 16) (p : Fin 1024) (hlt : 1024 * ((k6_pt ib n h).val / 16) + p.val < 8192) :
    (⟨1024 * ((k6_pt ib n h).val / 16) + p.val, hlt⟩ : Fin 8192) = row ib p :=
  Fin.ext (by show 1024 * ((16 * ib.val + n) / 16) + p.val = 1024 * ib.val + p.val; omega)

private theorem pt_col (ib : Fin 8) (jb : Fin 16) (q : Fin 512) (hlt : 512 * ((k6_pt ib jb.val jb.isLt).val % 16) + q.val < 8192) :
    (⟨512 * ((k6_pt ib jb.val jb.isLt).val % 16) + q.val, hlt⟩ : Fin 8192) = col jb q :=
  Fin.ext (by show 512 * ((16 * ib.val + jb.val) % 16) + q.val = jb.val * 512 + q.val; have := jb.isLt; omega)

variable (c : Dev nD) {Ar ATr : Fin 8192 → Fin 8192 → ℝ} {Zr : Fin 8192 → Fin 64 → ℝ} {tr rr : Fin 1 → Fin 8192 → ℝ}
  (h0 : IsR2 (a := 8192) (b := 8192) (V c (Pipeline.arrRef spec6 0)) Ar)
  (h1 : IsR2 (a := 8192) (b := 8192) (V c (Pipeline.arrRef spec6 1)) ATr) (hT : ∀ p q, ATr p q = Ar q p)
  (h2 : IsR2 (a := 8192) (b := 64) (V c (Pipeline.arrRef spec6 2)) Zr)
  (h3 : IsR2 (a := 1) (b := 8192) (V c (Pipeline.arrRef spec6 3)) tr)
  (h4 : IsR2 (a := 1) (b := 8192) (V c (Pipeline.arrRef spec6 4)) rr)

include h0 in
theorem k6_blk0_real (ib : Fin 8) (jb : Fin 16) (p : Fin 1024) (q : Fin 512) :
    (iblk6 V c 0 (k6_pt ib jb.val jb.isLt) : Vec Ideal S1024x512 .f32) (ix2 p q) = ((Ar (row ib p) (col jb q) : ℝ) : EReal) :=
  (iblk6_0_apply V c _ p q).trans ((h0 _ _).trans (by rw [pt_row, pt_col]))

include h1 hT in
theorem k6_blk1_real (ib : Fin 8) (jb : Fin 16) (p : Fin 1024) (q : Fin 512) :
    (iblk6 V c 1 (k6_pt ib jb.val jb.isLt) : Vec Ideal S1024x512 .f32) (ix2 p q) = ((Ar (col jb q) (row ib p) : ℝ) : EReal) :=
  (iblk6_1_apply V c _ p q).trans ((h1 _ _).trans (by rw [hT, pt_row, pt_col]))

include h2 in
theorem k6_blk2_real (ib : Fin 8) (jb : Fin 16) (q : Fin 512) (o : Fin 64) :
    (iblk6 V c 2 (k6_pt ib jb.val jb.isLt) : Vec Ideal S512x64 .bf16) (ix2 q o) = ((Zr (col jb q) o : ℝ) : EReal) :=
  (iblk6_2_apply V c _ q o).trans ((h2 _ _).trans (by rw [pt_col]))

include h3 in
theorem k6_blk3_real (ib : Fin 8) (jb : Fin 16) (q : Fin 512) :
    (iblk6 V c 3 (k6_pt ib jb.val jb.isLt) : Vec Ideal S1x512 .f32) (ix2 (0 : Fin 1) q) = ((tr 0 (col jb q) : ℝ) : EReal) :=
  (iblk6_3_apply V c _ q).trans ((h3 _ _).trans (by rw [pt_col]))

include h4 in
theorem k6_blk4_real (ib : Fin 8) (jb : Fin 16) (p : Fin 1024) :
    (iblk6 V c 4 (k6_pt ib jb.val jb.isLt) : Vec Ideal S1x1024 .f32) (ix2 (0 : Fin 1) p) = ((rr 0 (row ib p) : ℝ) : EReal) :=
  (iblk6_4_apply V c _ p).trans ((h4 _ _).trans (by rw [pt_row]))

-- At a row block's first point the two running sums are the point's own terms added to zero.
private theorem carried_first (t : Fin cfg6.N) (h : t.val % 16 = 0) : (outsAt6 V c t.val t.isLt).2
    = (k6_pay5 (F := Ideal) (iblk6 V c 0 t) (iblk6 V c 1 t) (iblk6 V c 3 t) (iblk6 V c 4 t) (k6_pay2 (F := Ideal)),
       k6_pay6 (F := Ideal) (iblk6 V c 0 t) (iblk6 V c 1 t) (iblk6 V c 3 t) (iblk6 V c 4 t) (k6_pay3 (F := Ideal)) (iblk6 V c 2 t)) := by
  rw [outsAt6_A V c t h (by omega)]
  exact congrArg₂ Prod.mk (sout6_A_0_eq ..) (sout6_A_1_eq ..)

-- At a later point they are the point's own terms added to the running sums of the point before.
private theorem carried_next (t : Fin cfg6.N) (m : ℕ) (hm : m < cfg6.N) (e : t.val = m + 1) (h : ¬t.val % 16 = 0) :
    (outsAt6 V c t.val t.isLt).2
    = (k6_pay5 (F := Ideal) (iblk6 V c 0 t) (iblk6 V c 1 t) (iblk6 V c 3 t) (iblk6 V c 4 t) (outsAt6 V c m hm).2.1,
       k6_pay6 (F := Ideal) (iblk6 V c 0 t) (iblk6 V c 1 t) (iblk6 V c 3 t) (iblk6 V c 4 t) (outsAt6 V c m hm).2.2 (iblk6 V c 2 t)) := by
  obtain rfl : m = t.val - 1 := by omega
  by_cases h1 : t.val % 16 = 15
  · rw [outsAt6_C V c t h h1]
    exact congrArg₂ Prod.mk (sout6_C_0_eq ..) (sout6_C_1_eq ..)
  · rw [outsAt6_B V c t h h1]
    exact congrArg₂ Prod.mk (sout6_B_0_eq ..) (sout6_B_1_eq ..)

-- At a row block's last point the result is the quotient of the two running sums.
theorem k6_out_last (t : Fin cfg6.N) (h1 : t.val % 16 = 15) : (outsAt6 V c t.val t.isLt).1
    = k6_pay1 (F := Ideal) (outsAt6 V c t.val t.isLt).2.2 (outsAt6 V c t.val t.isLt).2.1 := by
  rw [outsAt6_C V c t (by omega) h1]
  dsimp only
  rw [out6_C_5_eq, sout6_C_1_eq, sout6_C_0_eq]

include h0 h1 hT h2 h3 h4 in
theorem k6_row_value (ib : Fin 8) (p : Fin 1024) (o : Fin 64) :
    (outsAt6 V c (k6_pt ib 15 (by decide)).val (k6_pt ib 15 (by decide)).isLt).1 (ix2 p o)
      = ((attnR Ar (tr 0) (rr 0) Zr (row ib p) o : ℝ) : EReal) := by
  have hn := fun (n : ℕ) (h : n + 1 < 16) => carried_next V c (k6_pt ib (n + 1) h) _ (k6_pt ib n (Nat.lt_of_succ_lt h)).isLt
    (by show 16 * ib.val + (n + 1) = 16 * ib.val + n + 1; omega)
    (by rw [k6_pt_mod]; omega)
  refine (congrFun (k6_out_last V c _ (k6_pt_mod ib 15 (by decide))) (ix2 p o)).trans ?_
  exact k6_out_real Ar Zr (tr 0) (rr 0) ib
    _ _ _ _ _
    (k6_blk0_real V c h0 ib) (k6_blk1_real V c h1 hT ib) (k6_blk2_real V c h2 ib) (k6_blk3_real V c h3 ib)
    (k6_blk4_real V c h4 ib)
    (fun n h => (outsAt6 V c (k6_pt ib n h).val (k6_pt ib n h).isLt).2.1)
    (fun n h => (outsAt6 V c (k6_pt ib n h).val (k6_pt ib n h).isLt).2.2)
    (congrArg Prod.fst (carried_first V c _ (k6_pt_mod ib 0 (by decide))))
    (fun n h => congrArg Prod.fst (hn n h))
    (congrArg Prod.snd (carried_first V c _ (k6_pt_mod ib 0 (by decide))))
    (fun n h => congrArg Prod.snd (hn n h))
    p o

include h0 h1 hT h2 h3 h4 in
theorem arr6 : IsR2 (a := 8192) (b := 64) ((dat6 V c).arrAt 5 cfg6.N) (attnR Ar (tr 0) (rr 0) Zr) := by
  intro i o
  obtain ⟨ib, p, rfl⟩ : ∃ ib p, row ib p = i := ⟨_, _, row_div_mod i⟩
  exact (arr6_apply V c ib p o).trans (k6_row_value V c h0 h1 hT h2 h3 h4 ib p o)

end Cert.KernelIdeal.HandValue

end
-- ==== Proof.KI.Net.lean ====
import proofs.«139342_j40218073759787_2_alg».proof.Proof.Spec
import proofs.«139342_j40218073759787_2_alg».proof.Proof.KI.RunFacts
import proofs.«139342_j40218073759787_2_alg».proof.Proof.KI.Value0
import proofs.«139342_j40218073759787_2_alg».proof.Proof.KI.HostOps
import proofs.«139342_j40218073759787_2_alg».proof.Proof.KI.Value1
import proofs.«139342_j40218073759787_2_alg».proof.Proof.KI.Value2
import proofs.«139342_j40218073759787_2_alg».proof.Proof.KI.Value3
import proofs.«139342_j40218073759787_2_alg».proof.Proof.KI.Value4
import proofs.«139342_j40218073759787_2_alg».proof.Proof.KI.Value5
import proofs.«139342_j40218073759787_2_alg».proof.Proof.KI.Value6

set_option maxRecDepth 16384

noncomputable section

namespace Cert.KernelIdeal.HandNet

open Idealize.ShloMosaic Idealize.ShloMosaic.TcCoe Idealize.SL.Sem Idealize.ShloMosaic.ValueIdx
open Cert.KernelIdeal Cert.KernelIdeal.Gen Cert.KernelIdeal.Hand Cert.KernelIdeal.HandRun Cert.KernelIdeal.HandValue GAT

variable (m : (ℓ : Loc nD τ sig) → Buf (Elt Ideal) ℓ) (c : Dev nD)

theorem isR2_of_eq {a b : ℕ} {x y : (⟨2, ![a, b]⟩ : Shape).Idx → EReal} {xr : Fin a → Fin b → ℝ}
    (e : x = y) (h : IsR2 y xr) : IsR2 x xr := e ▸ h

-- A vector given a leading unit axis is the image of the real vector laid out as one row.
theorem isR2_row {n : ℕ} {x : (⟨2, ![1, n]⟩ : Shape).Idx → EReal} {y : (⟨1, ![n]⟩ : Shape).Idx → EReal} {br : Fin n → ℝ}
    (e : ∀ o : Fin n, x (ix2 (0 : Fin 1) o) = y (ix1 o)) (h : IsR1 y br) : IsR2 x (fun _ o => br o) := by
  intro z o
  obtain rfl : z = 0 := Subsingleton.elim _ _
  exact (e o).trans (h o)

theorem isR2_one {x : (⟨2, ![1, 1]⟩ : Shape).Idx → EReal} {y : (⟨1, ![1]⟩ : Shape).Idx → EReal} {br : Fin 1 → ℝ}
    (e : x (ix2 (0 : Fin 1) (0 : Fin 1)) = y (ix1 (0 : Fin 1))) (h : IsR1 y br) : IsR2 x (fun _ o => br o) :=
  isR2_row (fun o => by obtain rfl : o = 0 := Subsingleton.elim _ _; exact e) h

-- The transposed adjacency every attention region finds is the launch adjacency read at the swapped index.
theorem adjT {A : Fin 8192 → Fin 8192 → ℝ} (hA : IsR2 (m ((c : Thread nD τ).loc main_arg1) : S8192x8192.Idx → EReal) A) :
    IsR2 ((dat0 (V0r m) c).arrAt 1 cfg0.N : S8192x8192.Idx → EReal) (fun p q => A q p) :=
  fun p q => ((arr0 (V0r m) c p q).trans (congrFun (V0r_arg1 m c) (ix2 q p))).trans (hA q p)

variable {X : Fin 8192 → Fin 1024 → ℝ} {A : Fin 8192 → Fin 8192 → ℝ}
    {W1 : Fin 512 → Fin 1024 → ℝ} {b1 : Fin 512 → ℝ} {tw1 : Fin 1 → Fin 512 → ℝ} {tb1 : Fin 1 → ℝ} {rw1 : Fin 1 → Fin 512 → ℝ} {rb1 : Fin 1 → ℝ}
    {W2 : Fin 256 → Fin 512 → ℝ} {b2 : Fin 256 → ℝ} {tw2 : Fin 1 → Fin 256 → ℝ} {tb2 : Fin 1 → ℝ} {rw2 : Fin 1 → Fin 256 → ℝ} {rb2 : Fin 1 → ℝ}
    {W3 : Fin 64 → Fin 256 → ℝ} {b3 : Fin 64 → ℝ} {tw3 : Fin 1 → Fin 64 → ℝ} {tb3 : Fin 1 → ℝ} {rw3 : Fin 1 → Fin 64 → ℝ} {rb3 : Fin 1 → ℝ}
    (h0 : IsR2 (a := 8192) (b := 1024) (m ((c.tc : Thread nD τ).loc main_arg0)) X)
    (h1 : IsR2 (a := 8192) (b := 8192) (m ((c.tc : Thread nD τ).loc main_arg1)) A)
    (h2 : IsR2 (a := 512) (b := 1024) (m ((c.tc : Thread nD τ).loc main_arg2)) W1)
    (h3 : IsR1 (a := 512) (m ((c.tc : Thread nD τ).loc main_arg3)) b1)
    (h4 : IsR2 (a := 1) (b := 512) (m ((c.tc : Thread nD τ).loc main_arg4)) tw1)
    (h5 : IsR1 (a := 1) (m ((c.tc : Thread nD τ).loc main_arg5)) tb1)
    (h6 : IsR2 (a := 1) (b := 512) (m ((c.tc : Thread nD τ).loc main_arg6)) rw1)
    (h7 : IsR1 (a := 1) (m ((c.tc : Thread nD τ).loc main_arg7)) rb1)
    (h8 : IsR2 (a := 256) (b := 512) (m ((c.tc : Thread nD τ).loc main_arg8)) W2)
    (h9 : IsR1 (a := 256) (m ((c.tc : Thread nD τ).loc main_arg9)) b2)
    (h10 : IsR2 (a := 1) (b := 256) (m ((c.tc : Thread nD τ).loc main_arg10)) tw2)
    (h11 : IsR1 (a := 1) (m ((c.tc : Thread nD τ).loc main_arg11)) tb2)
    (h12 : IsR2 (a := 1) (b := 256) (m ((c.tc : Thread nD τ).loc main_arg12)) rw2)
    (h13 : IsR1 (a := 1) (m ((c.tc : Thread nD τ).loc main_arg13)) rb2)
    (h14 : IsR2 (a := 64) (b := 256) (m ((c.tc : Thread nD τ).loc main_arg14)) W3)
    (h15 : IsR1 (a := 64) (m ((c.tc : Thread nD τ).loc main_arg15)) b3)
    (h16 : IsR2 (a := 1) (b := 64) (m ((c.tc : Thread nD τ).loc main_arg16)) tw3)
    (h17 : IsR1 (a := 1) (m ((c.tc : Thread nD τ).loc main_arg17)) tb3)
    (h18 : IsR2 (a := 1) (b := 64) (m ((c.tc : Thread nD τ).loc main_arg18)) rw3)
    (h19 : IsR1 (a := 1) (m ((c.tc : Thread nD τ).loc main_arg19)) rb3)

include h0 h1 h2 h3 h4 h5 h6 h7 in
-- A layer: the projection region makes the real projection and its two gate rows of real features and parameters, the attention region makes of them, the adjacency and its transpose the real layer.
theorem layer1 : IsR2 (V5r m c main_v5 : S8192x512.Idx → EReal) (layerR X A W1 b1 (tw1 0) (tb1 0) (rw1 0) (rb1 0)) := by
  have a0 := isR2_of_eq (V2r_arg0 m c) h0
  have a1 := isR2_of_eq (V2r_arg2 m c) h2
  have a2 : IsR2 (V2r m c (Pipeline.arrRef spec1 2) : S1x512.Idx → EReal) (fun _ o => b1 o) :=
    isR2_row (fun o => (hostOps1_v1 (HandRun.W1 m c) o).trans (congrFun (W1_args m c main_arg3 (by decide)) (ix1 o))) h3
  have hres := arr2 (V3r m) c (isR2_of_eq (V3r_arg1 m c) h1) (isR2_of_eq (V3r_v0 m c) (adjT m c h1)) (fun _ _ => rfl)
    (isR2_of_eq (V3r_v4_0 m c) (arr1_z (V2r m) c a0 a1 a2))
    (isR2_of_eq (V3r_v4_1 m c) (arr1_t (V2r m) c a0 a1 a2 (isR2_of_eq (V2r_arg4 m c) h4)
      (isR2_one ((hostOps1_v2 (HandRun.W1 m c)).trans (congrFun (W1_args m c main_arg5 (by decide)) (ix1 0))) h5)))
    (isR2_of_eq (V3r_v4_2 m c) (arr1_r (V2r m) c a0 a1 a2 (isR2_of_eq (V2r_arg6 m c) h6)
      (isR2_one ((hostOps1_v3 (HandRun.W1 m c)).trans (congrFun (W1_args m c main_arg7 (by decide)) (ix1 0))) h7)))
  exact isR2_of_eq (V5r_v5 m c) hres

include h0 h1 h2 h3 h4 h5 h6 h7 h8 h9 h10 h11 h12 h13 in
theorem layer2 : IsR2 (V8r m c main_v10 : S8192x256.Idx → EReal)
    (layerR (layerR X A W1 b1 (tw1 0) (tb1 0) (rw1 0) (rb1 0)) A W2 b2 (tw2 0) (tb2 0) (rw2 0) (rb2 0)) := by
  have a0 := layer1 m c h0 h1 h2 h3 h4 h5 h6 h7
  have a1 := isR2_of_eq (V5r_arg8 m c) h8
  have a2 : IsR2 (V5r m c (Pipeline.arrRef spec3 2) : S1x256.Idx → EReal) (fun _ o => b2 o) :=
    isR2_row (fun o => (hostOps3_v6 (W4 m c) o).trans (congrFun (W4_args m c main_arg9 (by decide)) (ix1 o))) h9
  have hres := arr4 (V6r m) c (isR2_of_eq (V6r_arg1 m c) h1) (isR2_of_eq (V6r_v0 m c) (adjT m c h1)) (fun _ _ => rfl)
    (isR2_of_eq (V6r_v9_0 m c) (arr3_z (V5r m) c a0 a1 a2))
    (isR2_of_eq (V6r_v9_1 m c) (arr3_t (V5r m) c a0 a1 a2 (isR2_of_eq (V5r_arg10 m c) h10)
      (isR2_one ((hostOps3_v7 (W4 m c)).trans (congrFun (W4_args m c main_arg11 (by decide)) (ix1 0))) h11)))
    (isR2_of_eq (V6r_v9_2 m c) (arr3_r (V5r m) c a0 a1 a2 (isR2_of_eq (V5r_arg12 m c) h12)
      (isR2_one ((hostOps3_v8 (W4 m c)).trans (congrFun (W4_args m c main_arg13 (by decide)) (ix1 0))) h13)))
  exact isR2_of_eq (V8r_v10 m c) hres

include h0 h1 h2 h3 h4 h5 h6 h7 h8 h9 h10 h11 h12 h13 h14 h15 h16 h17 h18 h19 in
theorem kernel_net :
    IsR2 (a := 8192) (b := 64) (W10 m c (Proc.devRef .tc main_v15))
      (netR X A W1 b1 (tw1 0) (tb1 0) (rw1 0) (rb1 0) W2 b2 (tw2 0) (tb2 0) (rw2 0) (rb2 0) W3 b3 (tw3 0) (tb3 0) (rw3 0) (rb3 0)) := by
  have a0 := layer2 m c h0 h1 h2 h3 h4 h5 h6 h7 h8 h9 h10 h11 h12 h13
  have a1 := isR2_of_eq (V8r_arg14 m c) h14
  have a2 : IsR2 (V8r m c (Pipeline.arrRef spec5 2) : S1x64.Idx → EReal) (fun _ o => b3 o) :=
    isR2_row (fun o => (hostOps5_v11 (W7 m c) o).trans (congrFun (W7_args m c main_arg15 (by decide)) (ix1 o))) h15
  have hres := arr6 (V9r m) c (isR2_of_eq (V9r_arg1 m c) h1) (isR2_of_eq (V9r_v0 m c) (adjT m c h1)) (fun _ _ => rfl)
    (isR2_of_eq (V9r_v14_0 m c) (arr5_z (V8r m) c a0 a1 a2))
    (isR2_of_eq (V9r_v14_1 m c) (arr5_t (V8r m) c a0 a1 a2 (isR2_of_eq (V8r_arg16 m c) h16)
      (isR2_one ((hostOps5_v12 (W7 m c)).trans (congrFun (W7_args m c main_arg17 (by decide)) (ix1 0))) h17)))
    (isR2_of_eq (V9r_v14_2 m c) (arr5_r (V8r m) c a0 a1 a2 (isR2_of_eq (V8r_arg18 m c) h18)
      (isR2_one ((hostOps5_v13 (W7 m c)).trans (congrFun (W7_args m c main_arg19 (by decide)) (ix1 0))) h19)))
  exact isR2_of_eq (W10_out m c) hres

end Cert.KernelIdeal.HandNet

end
-- ==== Proof.Ref.Stages.lean ====
import proofs.«139342_j40218073759787_2_alg».proof.Proof.SpecLemmas
noncomputable section
open scoped BigOperators
namespace Cert.ReferenceIdeal.RefValue
open Idealize.ShloMosaic Idealize.ShloMosaic.ValueIdx GAT
variable {N D O : ℕ} [Nonempty (Fin N)]
theorem layer_of_stages
    (Hr : Fin N → Fin D → ℝ) (A : Fin N → Fin N → ℝ) (W : Fin O → Fin D → ℝ) (b : Fin O → ℝ)
    (tw : Fin 1 → Fin O → ℝ) (tb : Fin 1 → ℝ) (rw : Fin 1 → Fin O → ℝ) (rb : Fin 1 → ℝ)
    (h : (⟨2, ![N, D]⟩ : Shape).Idx → EReal) (a : (⟨2, ![N, N]⟩ : Shape).Idx → EReal)
    (w : (⟨2, ![O, D]⟩ : Shape).Idx → EReal) (bv : (⟨1, ![O]⟩ : Shape).Idx → EReal)
    (twv : (⟨2, ![1, O]⟩ : Shape).Idx → EReal) (tbv : (⟨1, ![1]⟩ : Shape).Idx → EReal)
    (rwv : (⟨2, ![1, O]⟩ : Shape).Idx → EReal) (rbv : (⟨1, ![1]⟩ : Shape).Idx → EReal)
    (hh : IsR2 h Hr) (ha : IsR2 a A) (hw : IsR2 w W) (hb : IsR1 bv b)
    (htw : IsR2 twv tw) (htb : IsR1 tbv tb) (hrw : IsR2 rwv rw) (hrb : IsR1 rbv rb)
    (z : (⟨2, ![N, O]⟩ : Shape).Idx → EReal) (t r : (⟨1, ![N]⟩ : Shape).Idx → EReal)
    (s e q : (⟨2, ![N, N]⟩ : Shape).Idx → EReal) (mx sm : (⟨1, ![N]⟩ : Shape).Idx → EReal)
    (out : (⟨2, ![N, O]⟩ : Shape).Idx → EReal)
    (hz : ∀ p o, z (ix2 p o) = max ((∑ k, h (ix2 p k) * w (ix2 o k)) + bv (ix1 o)) 0)
    (ht : ∀ p, t (ix1 p) = (∑ k, z (ix2 p k) * twv (ix2 0 k)) + tbv (ix1 0))
    (hr : ∀ p, r (ix1 p) = (∑ k, z (ix2 p k) * rwv (ix2 0 k)) + rbv (ix1 0))
    (hs : ∀ p j, s (ix2 p j)
      = Ideal.div 1 (1 + Ideal.exp (-(a (ix2 p j) * t (ix1 j) + a (ix2 j p) * r (ix1 p)))))
    (hmx : ∀ p, mx (ix1 p) = max ⊥ (Finset.univ.fold max ⊥ fun k => s (ix2 p k)))
    (he : ∀ p j, e (ix2 p j) = Ideal.exp (s (ix2 p j) - mx (ix1 p)))
    (hsm : ∀ p, sm (ix1 p) = 0 + ∑ k, e (ix2 p k))
    (hq : ∀ p j, q (ix2 p j) = Ideal.div (e (ix2 p j)) (sm (ix1 p)))
    (hout : ∀ p o, out (ix2 p o) = ∑ k, q (ix2 p k) * z (ix2 k o)) :
    IsR2 out (layerR Hr A W b (tw 0) (tb 0) (rw 0) (rb 0)) := by
  have hh' : ∀ p k, h (ix2 p k) = ((Hr p k : ℝ) : EReal) := hh
  have ha' : ∀ p k, a (ix2 p k) = ((A p k : ℝ) : EReal) := ha
  have hw' : ∀ p k, w (ix2 p k) = ((W p k : ℝ) : EReal) := hw
  have hb' : ∀ p, bv (ix1 p) = ((b p : ℝ) : EReal) := hb
  have htw' : ∀ p k, twv (ix2 p k) = ((tw p k : ℝ) : EReal) := htw
  have htb' : ∀ p, tbv (ix1 p) = ((tb p : ℝ) : EReal) := htb
  have hrw' : ∀ p k, rwv (ix2 p k) = ((rw p k : ℝ) : EReal) := hrw
  have hrb' : ∀ p, rbv (ix1 p) = ((rb p : ℝ) : EReal) := hrb
  have Z : ∀ p o, z (ix2 p o) = ((zR Hr W b p o : ℝ) : EReal) := fun p o => by
    rw [hz]; simp only [hh', hw', hb']
    rw [sum_mul_coe_add, relu_coe]; rfl
  have T : ∀ p, t (ix1 p) = ((gateR (zR Hr W b) (tw 0) (tb 0) p : ℝ) : EReal) := fun p => by
    rw [ht]; simp only [Z, htw', htb']
    rw [sum_mul_coe_add]; rfl
  have R : ∀ p, r (ix1 p) = ((gateR (zR Hr W b) (rw 0) (rb 0) p : ℝ) : EReal) := fun p => by
    rw [hr]; simp only [Z, hrw', hrb']
    rw [sum_mul_coe_add]; rfl
  have S : ∀ p j, s (ix2 p j)
      = ((sigR A (gateR (zR Hr W b) (tw 0) (tb 0)) (gateR (zR Hr W b) (rw 0) (rb 0)) p j : ℝ) : EReal) :=
    fun p j => by
      rw [hs]; simp only [ha', T, R]
      rw [← EReal.coe_mul, ← EReal.coe_mul, ← EReal.coe_add, neg_coe, exp_coe', ← EReal.coe_one, ← EReal.coe_add,
        div_coe' _ _ (by positivity)]
      unfold sigR; rw [one_div]
  generalize hsR : sigR A (gateR (zR Hr W b) (tw 0) (tb 0)) (gateR (zR Hr W b) (rw 0) (rb 0)) = sR at S
  have MX : ∀ p, mx (ix1 p) = ((Finset.univ.sup' Finset.univ_nonempty (sR p) : ℝ) : EReal) := fun p => by
    rw [hmx]; simp only [S]
    rw [fold_max_coe Finset.univ (sR p) Finset.univ_nonempty, max_bot_left']
  generalize hmR : (fun p => Finset.univ.sup' Finset.univ_nonempty (sR p)) = mR at MX
  have MX' : ∀ p, mx (ix1 p) = ((mR p : ℝ) : EReal) := fun p => by rw [MX p, ← hmR]
  have E : ∀ p j, e (ix2 p j) = ((Real.exp (sR p j - mR p) : ℝ) : EReal) := fun p j => by
    rw [he, S, MX', sub_coe, exp_coe']
  have SM : ∀ p, sm (ix1 p) = ((∑ k, Real.exp (sR p k - mR p) : ℝ) : EReal) := fun p => by
    rw [hsm]; simp only [E]
    rw [zero_add, ← coe_sum]
  have Q : ∀ p j, q (ix2 p j)
      = ((Real.exp (sR p j - mR p) / ∑ k, Real.exp (sR p k - mR p) : ℝ) : EReal) := fun p j => by
    rw [hq, E, SM, div_coe' _ _ (sum_exp_pos fun k => sR p k - mR p).ne']
  intro p o
  rw [hout]; simp only [Q, Z]
  rw [sum_mul_coe, softmax_shift (sR p) (fun k => zR Hr W b k o) (mR p), ← hsR]
  rfl
end Cert.ReferenceIdeal.RefValue
end
-- ==== Proof.Ref.RowMax.lean ====
import proofs.«139342_j40218073759787_2_alg».proof.Proof.Gen.ReferenceIdeal
import Idealize.ShloMosaic.PureOps.Ideal.Laws
import Idealize.ShloMosaic.Lib.ValueIdx
noncomputable section
namespace Cert.ReferenceIdeal.RefValue
open Cert.ReferenceIdeal Cert.ReferenceIdeal.Gen Idealize.ShloMosaic Idealize.ShloMosaic.ValueIdx
theorem idx2_ext {n0 n1 : Nat} (i j : (⟨2, ![n0, n1]⟩ : Shape).Idx) (h0 : (i 0).val = (j 0).val)
    (h1 : (i 1).val = (j 1).val) : i = j :=
  funext fun a => Fin.ext (by
    match a with
    | ⟨0, _⟩ => exact h0
    | ⟨1, _⟩ => exact h1)
theorem idx1_ext {n0 : Nat} (i j : (⟨1, ![n0]⟩ : Shape).Idx) (h0 : (i 0).val = (j 0).val) : i = j :=
  funext fun a => Fin.ext (by
    match a with
    | ⟨0, _⟩ => exact h0)
theorem rowmax_apply (y : S8192x8192.Idx → EReal) (init : S_.Idx → EReal) (p : Fin 8192) :
    Host.reduce (FloatOps.maximumf (F := Ideal) (φ := .f32)) y init reducesTo_S8192x8192_S8192_d1 h_S_ (ix1 p)
      = (Finset.univ : Finset (Fin 8192)).fold max (init (Shape.Idx.first h_S_)) (fun k => y (ix2 p k)) := by
  have hred : S8192x8192.Reduces [1] S8192 := by decide
  refine (Host.reduce_eq_fold_single (FloatOps.maximumf (F := Ideal) (φ := .f32)) y init
    reducesTo_S8192x8192_S8192_d1 hred h_S_ (ix1 p)).trans ?_
  show (Finset.univ : Finset (Fin 8192)).fold max (init (Shape.Idx.first h_S_)) (y ∘ hred.lift (ix1 p)) = _
  have e : (y ∘ hred.lift (ix1 p)) = fun k : Fin 8192 => y (ix2 p k) :=
    funext fun k => congrArg y (funext fun a => Fin.ext (by
      match a with
      | ⟨0, _⟩ => rfl
      | ⟨1, _⟩ => rfl))
  rw [e]
  rfl
end Cert.ReferenceIdeal.RefValue
end
-- ==== Proof.Ref.Layer1.lean ====
import proofs.«139342_j40218073759787_2_alg».proof.Proof.RefReadP
import proofs.«139342_j40218073759787_2_alg».proof.Proof.Ref.Stages
import proofs.«139342_j40218073759787_2_alg».proof.Proof.Ref.RowMax

noncomputable section

open scoped BigOperators

namespace Cert.ReferenceIdeal.RefValue

open Cert.ReferenceIdeal Cert.ReferenceIdeal.Gen Cert.ReferenceIdeal.ReadP Idealize.ShloMosaic
  Idealize.ShloMosaic.ValueIdx GAT

variable (x0 : (⟨S8192x1024, .f32⟩ : BufTy).Contents (Elt Ideal)) (x1 : (⟨S8192x8192, .f32⟩ : BufTy).Contents (Elt Ideal))
  (x2 : (⟨S512x1024, .f32⟩ : BufTy).Contents (Elt Ideal)) (x3 : (⟨S512, .f32⟩ : BufTy).Contents (Elt Ideal))
  (x4 : (⟨S1x512, .f32⟩ : BufTy).Contents (Elt Ideal)) (x5 : (⟨S1, .f32⟩ : BufTy).Contents (Elt Ideal))
  (x6 : (⟨S1x512, .f32⟩ : BufTy).Contents (Elt Ideal)) (x7 : (⟨S1, .f32⟩ : BufTy).Contents (Elt Ideal))

theorem l1_z (p : Fin 8192) (o : Fin 512) :
    val_main_v5 (F := Ideal) x0 x2 x3 (ix2 p o)
      = max ((∑ k : Fin 1024, x0 (ix2 p k) * x2 (ix2 o k)) + x3 (ix1 o)) (0 : EReal) := by
  have e1 : ∀ k : Fin 1024, lidx_main_v1 (ix2 p o) k = ix2 p k := fun k => idx2_ext _ _ rfl rfl
  have e2 : ∀ k : Fin 1024, idx_main_v0 (ridx_main_v1 (ix2 p o) k) = ix2 o k := fun k => idx2_ext _ _ rfl rfl
  have e3 : idx_main_v2 (idx_main_v3 (ix2 p o)) = ix1 o := idx1_ext _ _ rfl
  rw [val_main_v5_apply, val_main_v4_apply, val_main_v1_apply, val_main_v3_apply, val_main_v2_apply,
    val_main_call0_v0_apply, val_main_call0_cst_apply]
  simp only [val_main_v0_apply, e1, e2, e3, Ideal.maximumf_def, Ideal.addf_def, Ideal.ofBits_def,
    Ideal.ofBits_zero_f32]

theorem l1_t (p : Fin 8192) :
    val_main_v11 (F := Ideal) x0 x2 x3 x4 x5 (ix1 p)
      = (∑ k : Fin 512, val_main_v5 (F := Ideal) x0 x2 x3 (ix2 p k) * x4 (ix2 0 k)) + x5 (ix1 0) := by
  have e1 : ∀ k : Fin 512, lidx_main_v7 (idx_main_v11 (ix1 p)) k = ix2 p k := fun k => idx2_ext _ _ (Nat.div_one _) rfl
  have e2 : ∀ k : Fin 512, idx_main_v6 (ridx_main_v7 (idx_main_v11 (ix1 p)) k) = ix2 0 k := fun k => idx2_ext _ _ rfl rfl
  have e3 : idx_main_v8 (idx_main_v9 (idx_main_v11 (ix1 p))) = ix1 0 := idx1_ext _ _ rfl
  rw [val_main_v11_apply, val_main_v10_apply, val_main_v7_apply, val_main_v9_apply, val_main_v8_apply]
  simp only [val_main_v6_apply, e1, e2, e3, Ideal.addf_def]

theorem l1_r (p : Fin 8192) :
    val_main_v17 (F := Ideal) x0 x2 x3 x6 x7 (ix1 p)
      = (∑ k : Fin 512, val_main_v5 (F := Ideal) x0 x2 x3 (ix2 p k) * x6 (ix2 0 k)) + x7 (ix1 0) := by
  have e1 : ∀ k : Fin 512, lidx_main_v13 (idx_main_v17 (ix1 p)) k = ix2 p k := fun k => idx2_ext _ _ (Nat.div_one _) rfl
  have e2 : ∀ k : Fin 512, idx_main_v12 (ridx_main_v13 (idx_main_v17 (ix1 p)) k) = ix2 0 k := fun k => idx2_ext _ _ rfl rfl
  have e3 : idx_main_v14 (idx_main_v15 (idx_main_v17 (ix1 p))) = ix1 0 := idx1_ext _ _ rfl
  rw [val_main_v17_apply, val_main_v16_apply, val_main_v13_apply, val_main_v15_apply, val_main_v14_apply]
  simp only [val_main_v12_apply, e1, e2, e3, Ideal.addf_def]

theorem l1_s (p j : Fin 8192) :
    val_main_v31 (F := Ideal) x0 x1 x2 x3 x4 x5 x6 x7 (ix2 p j)
      = Ideal.div 1 (1 + Ideal.exp (-(x1 (ix2 p j) * val_main_v11 (F := Ideal) x0 x2 x3 x4 x5 (ix1 j)
          + x1 (ix2 j p) * val_main_v17 (F := Ideal) x0 x2 x3 x6 x7 (ix1 p)))) := by
  have e1 : idx_main_v18 (idx_main_v19 (ix2 p j)) = ix1 j := idx1_ext _ _ rfl
  have e2 : idx_main_v21 (ix2 p j) = ix2 j p := idx2_ext _ _ rfl rfl
  have e3 : idx_main_v22 (idx_main_v23 (ix2 p j)) = ix1 p := idx1_ext _ _ rfl
  rw [val_main_v31_apply, val_main_v30_apply, val_main_cst_0_apply, val_main_v29_apply, val_main_v28_apply,
    val_main_cst_apply, val_main_v27_apply, val_main_v26_apply, val_main_v25_apply, val_main_v20_apply,
    val_main_v19_apply, val_main_v18_apply, val_main_v24_apply, val_main_v21_apply, val_main_v23_apply,
    val_main_v22_apply, e1, e2, e3]
  simp only [Ideal.hostDivf_def, Ideal.addf_def, Ideal.hostUnary_exp_def, Ideal.hostNegf_def, Ideal.negf_def,
    Ideal.mulf_def, Ideal.ofBits_def, ofBits_one_f32]

theorem l1_mx (p : Fin 8192) :
    val_main_v34 (F := Ideal) x0 x1 x2 x3 x4 x5 x6 x7 (ix1 p)
      = max (⊥ : EReal) ((Finset.univ : Finset (Fin 8192)).fold max (⊥ : EReal)
          fun k => val_main_v31 (F := Ideal) x0 x1 x2 x3 x4 x5 x6 x7 (ix2 p k)) := by
  have hv : val_main_v32 (F := Ideal) x0 x1 x2 x3 x4 x5 x6 x7 (ix1 p)
      = (Finset.univ : Finset (Fin 8192)).fold max (val_main_cst_1 (F := Ideal) (Shape.Idx.first h_S_))
          (fun k => val_main_v31 (F := Ideal) x0 x1 x2 x3 x4 x5 x6 x7 (ix2 p k)) :=
    rowmax_apply (val_main_v31 (F := Ideal) x0 x1 x2 x3 x4 x5 x6 x7) (val_main_cst_1 (F := Ideal)) p
  rw [val_main_v34_apply, val_main_v33_apply, val_main_cst_2_apply, hv, val_main_cst_1_apply]
  simp only [Ideal.maximumf_def, Ideal.ofBits_def, ofBits_neg_inf_f32]

theorem l1_e (p j : Fin 8192) :
    val_main_v38 (F := Ideal) x0 x1 x2 x3 x4 x5 x6 x7 (ix2 p j)
      = Ideal.exp (val_main_v31 (F := Ideal) x0 x1 x2 x3 x4 x5 x6 x7 (ix2 p j)
          - val_main_v34 (F := Ideal) x0 x1 x2 x3 x4 x5 x6 x7 (ix1 p)) := by
  have e1 : idx_main_v35 (idx_main_v36 (ix2 p j)) = ix1 p := idx1_ext _ _ rfl
  rw [val_main_v38_apply, val_main_v37_apply, val_main_v36_apply, val_main_v35_apply, e1]
  simp only [Ideal.hostUnary_exp_def, Ideal.subf_def]

theorem l1_sm (p : Fin 8192) :
    val_main_v39 (F := Ideal) x0 x1 x2 x3 x4 x5 x6 x7 (ix1 p)
      = (0 : EReal) + ∑ k : Fin 8192, val_main_v38 (F := Ideal) x0 x1 x2 x3 x4 x5 x6 x7 (ix2 p k) := by
  have e1 : ∀ k : Fin 8192, idx_main_v39 (ix1 p) k = ix2 p k := fun k => idx2_ext _ _ rfl rfl
  rw [val_main_v39_apply, val_main_cst_3_apply]
  simp only [e1, Ideal.ofBits_def, Ideal.ofBits_zero_f32]

theorem l1_q (p j : Fin 8192) :
    val_main_v42 (F := Ideal) x0 x1 x2 x3 x4 x5 x6 x7 (ix2 p j)
      = Ideal.div (val_main_v38 (F := Ideal) x0 x1 x2 x3 x4 x5 x6 x7 (ix2 p j))
          (val_main_v39 (F := Ideal) x0 x1 x2 x3 x4 x5 x6 x7 (ix1 p)) := by
  have e1 : idx_main_v40 (idx_main_v41 (ix2 p j)) = ix1 p := idx1_ext _ _ rfl
  rw [val_main_v42_apply, val_main_v41_apply, val_main_v40_apply, e1]
  simp only [Ideal.hostDivf_def]

theorem l1_out (p : Fin 8192) (o : Fin 512) :
    val_main_v43 (F := Ideal) x0 x1 x2 x3 x4 x5 x6 x7 (ix2 p o)
      = ∑ k : Fin 8192, val_main_v42 (F := Ideal) x0 x1 x2 x3 x4 x5 x6 x7 (ix2 p k)
          * val_main_v5 (F := Ideal) x0 x2 x3 (ix2 k o) := by
  have e1 : ∀ k : Fin 8192, lidx_main_v43 (ix2 p o) k = ix2 p k := fun k => idx2_ext _ _ rfl rfl
  have e2 : ∀ k : Fin 8192, ridx_main_v43 (ix2 p o) k = ix2 k o := fun k => idx2_ext _ _ rfl rfl
  rw [val_main_v43_apply]
  simp only [e1, e2]

theorem layer1
    (X : Fin 8192 → Fin 1024 → ℝ) (A : Fin 8192 → Fin 8192 → ℝ) (W1 : Fin 512 → Fin 1024 → ℝ) (b1 : Fin 512 → ℝ)
    (tw1 : Fin 1 → Fin 512 → ℝ) (tb1 : Fin 1 → ℝ) (rw1 : Fin 1 → Fin 512 → ℝ) (rb1 : Fin 1 → ℝ)
    (hx : IsR2 x0 X) (ha : IsR2 x1 A) (hw : IsR2 x2 W1) (hb : IsR1 x3 b1)
    (htw : IsR2 x4 tw1) (htb : IsR1 x5 tb1) (hrw : IsR2 x6 rw1) (hrb : IsR1 x7 rb1) :
    IsR2 (val_main_v43 (F := Ideal) x0 x1 x2 x3 x4 x5 x6 x7)
      (layerR X A W1 b1 (tw1 0) (tb1 0) (rw1 0) (rb1 0)) :=
  layer_of_stages _ _ _ _ _ _ _ _ _ _ _ _ _ _ _ _ hx ha hw hb htw htb hrw hrb _ _ _ _ _ _ _ _ _
    (l1_z x0 x2 x3) (l1_t x0 x2 x3 x4 x5) (l1_r x0 x2 x3 x6 x7) (l1_s x0 x1 x2 x3 x4 x5 x6 x7)
    (l1_mx x0 x1 x2 x3 x4 x5 x6 x7) (l1_e x0 x1 x2 x3 x4 x5 x6 x7) (l1_sm x0 x1 x2 x3 x4 x5 x6 x7)
    (l1_q x0 x1 x2 x3 x4 x5 x6 x7) (l1_out x0 x1 x2 x3 x4 x5 x6 x7)

end Cert.ReferenceIdeal.RefValue

end
-- ==== Proof.Ref.Layer2.lean ====
import proofs.«139342_j40218073759787_2_alg».proof.Proof.RefReadP
import proofs.«139342_j40218073759787_2_alg».proof.Proof.Ref.Stages
import proofs.«139342_j40218073759787_2_alg».proof.Proof.Ref.RowMax

noncomputable section

open scoped BigOperators

namespace Cert.ReferenceIdeal.RefValue

open Cert.ReferenceIdeal Cert.ReferenceIdeal.Gen Cert.ReferenceIdeal.ReadP Idealize.ShloMosaic
  Idealize.ShloMosaic.ValueIdx GAT

variable (x0 : (⟨S8192x1024, .f32⟩ : BufTy).Contents (Elt Ideal)) (x1 : (⟨S8192x8192, .f32⟩ : BufTy).Contents (Elt Ideal))
  (x2 : (⟨S512x1024, .f32⟩ : BufTy).Contents (Elt Ideal)) (x3 : (⟨S512, .f32⟩ : BufTy).Contents (Elt Ideal))
  (x4 : (⟨S1x512, .f32⟩ : BufTy).Contents (Elt Ideal)) (x5 : (⟨S1, .f32⟩ : BufTy).Contents (Elt Ideal))
  (x6 : (⟨S1x512, .f32⟩ : BufTy).Contents (Elt Ideal)) (x7 : (⟨S1, .f32⟩ : BufTy).Contents (Elt Ideal))
  (x8 : (⟨S256x512, .f32⟩ : BufTy).Contents (Elt Ideal)) (x9 : (⟨S256, .f32⟩ : BufTy).Contents (Elt Ideal))
  (x10 : (⟨S1x256, .f32⟩ : BufTy).Contents (Elt Ideal)) (x11 : (⟨S1, .f32⟩ : BufTy).Contents (Elt Ideal))
  (x12 : (⟨S1x256, .f32⟩ : BufTy).Contents (Elt Ideal)) (x13 : (⟨S1, .f32⟩ : BufTy).Contents (Elt Ideal))

theorem l2_z (p : Fin 8192) (o : Fin 256) :
    val_main_v49 (F := Ideal) x0 x1 x2 x3 x4 x5 x6 x7 x8 x9 (ix2 p o)
      = max ((∑ k : Fin 512, (val_main_v43 (F := Ideal) x0 x1 x2 x3 x4 x5 x6 x7) (ix2 p k) * x8 (ix2 o k)) + x9 (ix1 o)) (0 : EReal) := by
  have e1 : ∀ k : Fin 512, lidx_main_v45 (ix2 p o) k = ix2 p k := fun k => idx2_ext _ _ rfl rfl
  have e2 : ∀ k : Fin 512, idx_main_v44 (ridx_main_v45 (ix2 p o) k) = ix2 o k := fun k => idx2_ext _ _ rfl rfl
  have e3 : idx_main_v46 (idx_main_v47 (ix2 p o)) = ix1 o := idx1_ext _ _ rfl
  rw [val_main_v49_apply, val_main_v48_apply, val_main_v45_apply, val_main_v47_apply, val_main_v46_apply,
    val_main_call1_v0_apply, val_main_call1_cst_apply]
  simp only [val_main_v44_apply, e1, e2, e3, Ideal.maximumf_def, Ideal.addf_def, Ideal.ofBits_def,
    Ideal.ofBits_zero_f32]

theorem l2_t (p : Fin 8192) :
    val_main_v55 (F := Ideal) x0 x1 x2 x3 x4 x5 x6 x7 x8 x9 x10 x11 (ix1 p)
      = (∑ k : Fin 256, val_main_v49 (F := Ideal) x0 x1 x2 x3 x4 x5 x6 x7 x8 x9 (ix2 p k) * x10 (ix2 0 k)) + x11 (ix1 0) := by
  have e1 : ∀ k : Fin 256, lidx_main_v51 (idx_main_v55 (ix1 p)) k = ix2 p k := fun k => idx2_ext _ _ (Nat.div_one _) rfl
  have e2 : ∀ k : Fin 256, idx_main_v50 (ridx_main_v51 (idx_main_v55 (ix1 p)) k) = ix2 0 k := fun k => idx2_ext _ _ rfl rfl
  have e3 : idx_main_v52 (idx_main_v53 (idx_main_v55 (ix1 p))) = ix1 0 := idx1_ext _ _ rfl
  rw [val_main_v55_apply, val_main_v54_apply, val_main_v51_apply, val_main_v53_apply, val_main_v52_apply]
  simp only [val_main_v50_apply, e1, e2, e3, Ideal.addf_def]

theorem l2_r (p : Fin 8192) :
    val_main_v61 (F := Ideal) x0 x1 x2 x3 x4 x5 x6 x7 x8 x9 x12 x13 (ix1 p)
      = (∑ k : Fin 256, val_main_v49 (F := Ideal) x0 x1 x2 x3 x4 x5 x6 x7 x8 x9 (ix2 p k) * x12 (ix2 0 k)) + x13 (ix1 0) := by
  have e1 : ∀ k : Fin 256, lidx_main_v57 (idx_main_v61 (ix1 p)) k = ix2 p k := fun k => idx2_ext _ _ (Nat.div_one _) rfl
  have e2 : ∀ k : Fin 256, idx_main_v56 (ridx_main_v57 (idx_main_v61 (ix1 p)) k) = ix2 0 k := fun k => idx2_ext _ _ rfl rfl
  have e3 : idx_main_v58 (idx_main_v59 (idx_main_v61 (ix1 p))) = ix1 0 := idx1_ext _ _ rfl
  rw [val_main_v61_apply, val_main_v60_apply, val_main_v57_apply, val_main_v59_apply, val_main_v58_apply]
  simp only [val_main_v56_apply, e1, e2, e3, Ideal.addf_def]

theorem l2_s (p j : Fin 8192) :
    val_main_v75 (F := Ideal) x0 x1 x2 x3 x4 x5 x6 x7 x8 x9 x10 x11 x12 x13 (ix2 p j)
      = Ideal.div 1 (1 + Ideal.exp (-(x1 (ix2 p j) * val_main_v55 (F := Ideal) x0 x1 x2 x3 x4 x5 x6 x7 x8 x9 x10 x11 (ix1 j)
          + x1 (ix2 j p) * val_main_v61 (F := Ideal) x0 x1 x2 x3 x4 x5 x6 x7 x8 x9 x12 x13 (ix1 p)))) := by
  have e1 : idx_main_v62 (idx_main_v63 (ix2 p j)) = ix1 j := idx1_ext _ _ rfl
  have e2 : idx_main_v65 (ix2 p j) = ix2 j p := idx2_ext _ _ rfl rfl
  have e3 : idx_main_v66 (idx_main_v67 (ix2 p j)) = ix1 p := idx1_ext _ _ rfl
  rw [val_main_v75_apply, val_main_v74_apply, val_main_cst_5_apply, val_main_v73_apply, val_main_v72_apply,
    val_main_cst_4_apply, val_main_v71_apply, val_main_v70_apply, val_main_v69_apply, val_main_v64_apply,
    val_main_v63_apply, val_main_v62_apply, val_main_v68_apply, val_main_v65_apply, val_main_v67_apply,
    val_main_v66_apply, e1, e2, e3]
  simp only [Ideal.hostDivf_def, Ideal.addf_def, Ideal.hostUnary_exp_def, Ideal.hostNegf_def, Ideal.negf_def,
    Ideal.mulf_def, Ideal.ofBits_def, ofBits_one_f32]

theorem l2_mx (p : Fin 8192) :
    val_main_v78 (F := Ideal) x0 x1 x2 x3 x4 x5 x6 x7 x8 x9 x10 x11 x12 x13 (ix1 p)
      = max (⊥ : EReal) ((Finset.univ : Finset (Fin 8192)).fold max (⊥ : EReal)
          fun k => val_main_v75 (F := Ideal) x0 x1 x2 x3 x4 x5 x6 x7 x8 x9 x10 x11 x12 x13 (ix2 p k)) := by
  have hv : val_main_v76 (F := Ideal) x0 x1 x2 x3 x4 x5 x6 x7 x8 x9 x10 x11 x12 x13 (ix1 p)
      = (Finset.univ : Finset (Fin 8192)).fold max (val_main_cst_6 (F := Ideal) (Shape.Idx.first h_S_))
          (fun k => val_main_v75 (F := Ideal) x0 x1 x2 x3 x4 x5 x6 x7 x8 x9 x10 x11 x12 x13 (ix2 p k)) :=
    rowmax_apply (val_main_v75 (F := Ideal) x0 x1 x2 x3 x4 x5 x6 x7 x8 x9 x10 x11 x12 x13) (val_main_cst_6 (F := Ideal)) p
  rw [val_main_v78_apply, val_main_v77_apply, val_main_cst_7_apply, hv, val_main_cst_6_apply]
  simp only [Ideal.maximumf_def, Ideal.ofBits_def, ofBits_neg_inf_f32]

theorem l2_e (p j : Fin 8192) :
    val_main_v82 (F := Ideal) x0 x1 x2 x3 x4 x5 x6 x7 x8 x9 x10 x11 x12 x13 (ix2 p j)
      = Ideal.exp (val_main_v75 (F := Ideal) x0 x1 x2 x3 x4 x5 x6 x7 x8 x9 x10 x11 x12 x13 (ix2 p j)
          - val_main_v78 (F := Ideal) x0 x1 x2 x3 x4 x5 x6 x7 x8 x9 x10 x11 x12 x13 (ix1 p)) := by
  have e1 : idx_main_v79 (idx_main_v80 (ix2 p j)) = ix1 p := idx1_ext _ _ rfl
  rw [val_main_v82_apply, val_main_v81_apply, val_main_v80_apply, val_main_v79_apply, e1]
  simp only [Ideal.hostUnary_exp_def, Ideal.subf_def]

theorem l2_sm (p : Fin 8192) :
    val_main_v83 (F := Ideal) x0 x1 x2 x3 x4 x5 x6 x7 x8 x9 x10 x11 x12 x13 (ix1 p)
      = (0 : EReal) + ∑ k : Fin 8192, val_main_v82 (F := Ideal) x0 x1 x2 x3 x4 x5 x6 x7 x8 x9 x10 x11 x12 x13 (ix2 p k) := by
  have e1 : ∀ k : Fin 8192, idx_main_v83 (ix1 p) k = ix2 p k := fun k => idx2_ext _ _ rfl rfl
  rw [val_main_v83_apply, val_main_cst_8_apply]
  simp only [e1, Ideal.ofBits_def, Ideal.ofBits_zero_f32]

theorem l2_q (p j : Fin 8192) :
    val_main_v86 (F := Ideal) x0 x1 x2 x3 x4 x5 x6 x7 x8 x9 x10 x11 x12 x13 (ix2 p j)
      = Ideal.div (val_main_v82 (F := Ideal) x0 x1 x2 x3 x4 x5 x6 x7 x8 x9 x10 x11 x12 x13 (ix2 p j))
          (val_main_v83 (F := Ideal) x0 x1 x2 x3 x4 x5 x6 x7 x8 x9 x10 x11 x12 x13 (ix1 p)) := by
  have e1 : idx_main_v84 (idx_main_v85 (ix2 p j)) = ix1 p := idx1_ext _ _ rfl
  rw [val_main_v86_apply, val_main_v85_apply, val_main_v84_apply, e1]
  simp only [Ideal.hostDivf_def]

theorem l2_out (p : Fin 8192) (o : Fin 256) :
    val_main_v87 (F := Ideal) x0 x1 x2 x3 x4 x5 x6 x7 x8 x9 x10 x11 x12 x13 (ix2 p o)
      = ∑ k : Fin 8192, val_main_v86 (F := Ideal) x0 x1 x2 x3 x4 x5 x6 x7 x8 x9 x10 x11 x12 x13 (ix2 p k)
          * val_main_v49 (F := Ideal) x0 x1 x2 x3 x4 x5 x6 x7 x8 x9 (ix2 k o) := by
  have e1 : ∀ k : Fin 8192, lidx_main_v87 (ix2 p o) k = ix2 p k := fun k => idx2_ext _ _ rfl rfl
  have e2 : ∀ k : Fin 8192, ridx_main_v87 (ix2 p o) k = ix2 k o := fun k => idx2_ext _ _ rfl rfl
  rw [val_main_v87_apply]
  simp only [e1, e2]

theorem layer2
    (X : Fin 8192 → Fin 512 → ℝ) (A : Fin 8192 → Fin 8192 → ℝ) (W2 : Fin 256 → Fin 512 → ℝ) (b2 : Fin 256 → ℝ)
    (tw2 : Fin 1 → Fin 256 → ℝ) (tb2 : Fin 1 → ℝ) (rw2 : Fin 1 → Fin 256 → ℝ) (rb2 : Fin 1 → ℝ)
    (hx : IsR2 (val_main_v43 (F := Ideal) x0 x1 x2 x3 x4 x5 x6 x7) X) (ha : IsR2 x1 A) (hw : IsR2 x8 W2) (hb : IsR1 x9 b2)
    (htw : IsR2 x10 tw2) (htb : IsR1 x11 tb2) (hrw : IsR2 x12 rw2) (hrb : IsR1 x13 rb2) :
    IsR2 (val_main_v87 (F := Ideal) x0 x1 x2 x3 x4 x5 x6 x7 x8 x9 x10 x11 x12 x13)
      (layerR X A W2 b2 (tw2 0) (tb2 0) (rw2 0) (rb2 0)) :=
  layer_of_stages _ _ _ _ _ _ _ _ _ _ _ _ _ _ _ _ hx ha hw hb htw htb hrw hrb _ _ _ _ _ _ _ _ _
    (l2_z x0 x1 x2 x3 x4 x5 x6 x7 x8 x9) (l2_t x0 x1 x2 x3 x4 x5 x6 x7 x8 x9 x10 x11) (l2_r x0 x1 x2 x3 x4 x5 x6 x7 x8 x9 x12 x13) (l2_s x0 x1 x2 x3 x4 x5 x6 x7 x8 x9 x10 x11 x12 x13)
    (l2_mx x0 x1 x2 x3 x4 x5 x6 x7 x8 x9 x10 x11 x12 x13) (l2_e x0 x1 x2 x3 x4 x5 x6 x7 x8 x9 x10 x11 x12 x13) (l2_sm x0 x1 x2 x3 x4 x5 x6 x7 x8 x9 x10 x11 x12 x13)
    (l2_q x0 x1 x2 x3 x4 x5 x6 x7 x8 x9 x10 x11 x12 x13) (l2_out x0 x1 x2 x3 x4 x5 x6 x7 x8 x9 x10 x11 x12 x13)

end Cert.ReferenceIdeal.RefValue

end
-- ==== Proof.Ref.Layer3.lean ====
import proofs.«139342_j40218073759787_2_alg».proof.Proof.RefReadP
import proofs.«139342_j40218073759787_2_alg».proof.Proof.Ref.Stages
import proofs.«139342_j40218073759787_2_alg».proof.Proof.Ref.RowMax

noncomputable section

open scoped BigOperators

namespace Cert.ReferenceIdeal.RefValue

open Cert.ReferenceIdeal Cert.ReferenceIdeal.Gen Cert.ReferenceIdeal.ReadP Idealize.ShloMosaic
  Idealize.ShloMosaic.ValueIdx GAT

variable (x0 : (⟨S8192x1024, .f32⟩ : BufTy).Contents (Elt Ideal)) (x1 : (⟨S8192x8192, .f32⟩ : BufTy).Contents (Elt Ideal))
  (x2 : (⟨S512x1024, .f32⟩ : BufTy).Contents (Elt Ideal)) (x3 : (⟨S512, .f32⟩ : BufTy).Contents (Elt Ideal))
  (x4 : (⟨S1x512, .f32⟩ : BufTy).Contents (Elt Ideal)) (x5 : (⟨S1, .f32⟩ : BufTy).Contents (Elt Ideal))
  (x6 : (⟨S1x512, .f32⟩ : BufTy).Contents (Elt Ideal)) (x7 : (⟨S1, .f32⟩ : BufTy).Contents (Elt Ideal))
  (x8 : (⟨S256x512, .f32⟩ : BufTy).Contents (Elt Ideal)) (x9 : (⟨S256, .f32⟩ : BufTy).Contents (Elt Ideal))
  (x10 : (⟨S1x256, .f32⟩ : BufTy).Contents (Elt Ideal)) (x11 : (⟨S1, .f32⟩ : BufTy).Contents (Elt Ideal))
  (x12 : (⟨S1x256, .f32⟩ : BufTy).Contents (Elt Ideal)) (x13 : (⟨S1, .f32⟩ : BufTy).Contents (Elt Ideal))
  (x14 : (⟨S64x256, .f32⟩ : BufTy).Contents (Elt Ideal)) (x15 : (⟨S64, .f32⟩ : BufTy).Contents (Elt Ideal))
  (x16 : (⟨S1x64, .f32⟩ : BufTy).Contents (Elt Ideal)) (x17 : (⟨S1, .f32⟩ : BufTy).Contents (Elt Ideal))
  (x18 : (⟨S1x64, .f32⟩ : BufTy).Contents (Elt Ideal)) (x19 : (⟨S1, .f32⟩ : BufTy).Contents (Elt Ideal))

theorem l3_z (p : Fin 8192) (o : Fin 64) :
    val_main_v93 (F := Ideal) x0 x1 x2 x3 x4 x5 x6 x7 x8 x9 x10 x11 x12 x13 x14 x15 (ix2 p o)
      = max ((∑ k : Fin 256, (val_main_v87 (F := Ideal) x0 x1 x2 x3 x4 x5 x6 x7 x8 x9 x10 x11 x12 x13) (ix2 p k) * x14 (ix2 o k)) + x15 (ix1 o)) (0 : EReal) := by
  have e1 : ∀ k : Fin 256, lidx_main_v89 (ix2 p o) k = ix2 p k := fun k => idx2_ext _ _ rfl rfl
  have e2 : ∀ k : Fin 256, idx_main_v88 (ridx_main_v89 (ix2 p o) k) = ix2 o k := fun k => idx2_ext _ _ rfl rfl
  have e3 : idx_main_v90 (idx_main_v91 (ix2 p o)) = ix1 o := idx1_ext _ _ rfl
  rw [val_main_v93_apply, val_main_v92_apply, val_main_v89_apply, val_main_v91_apply, val_main_v90_apply,
    val_main_call2_v0_apply, val_main_call2_cst_apply]
  simp only [val_main_v88_apply, e1, e2, e3, Ideal.maximumf_def, Ideal.addf_def, Ideal.ofBits_def,
    Ideal.ofBits_zero_f32]

theorem l3_t (p : Fin 8192) :
    val_main_v99 (F := Ideal) x0 x1 x2 x3 x4 x5 x6 x7 x8 x9 x10 x11 x12 x13 x14 x15 x16 x17 (ix1 p)
      = (∑ k : Fin 64, val_main_v93 (F := Ideal) x0 x1 x2 x3 x4 x5 x6 x7 x8 x9 x10 x11 x12 x13 x14 x15 (ix2 p k) * x16 (ix2 0 k)) + x17 (ix1 0) := by
  have e1 : ∀ k : Fin 64, lidx_main_v95 (idx_main_v99 (ix1 p)) k = ix2 p k := fun k => idx2_ext _ _ (Nat.div_one _) rfl
  have e2 : ∀ k : Fin 64, idx_main_v94 (ridx_main_v95 (idx_main_v99 (ix1 p)) k) = ix2 0 k := fun k => idx2_ext _ _ rfl rfl
  have e3 : idx_main_v96 (idx_main_v97 (idx_main_v99 (ix1 p))) = ix1 0 := idx1_ext _ _ rfl
  rw [val_main_v99_apply, val_main_v98_apply, val_main_v95_apply, val_main_v97_apply, val_main_v96_apply]
  simp only [val_main_v94_apply, e1, e2, e3, Ideal.addf_def]

theorem l3_r (p : Fin 8192) :
    val_main_v105 (F := Ideal) x0 x1 x2 x3 x4 x5 x6 x7 x8 x9 x10 x11 x12 x13 x14 x15 x18 x19 (ix1 p)
      = (∑ k : Fin 64, val_main_v93 (F := Ideal) x0 x1 x2 x3 x4 x5 x6 x7 x8 x9 x10 x11 x12 x13 x14 x15 (ix2 p k) * x18 (ix2 0 k)) + x19 (ix1 0) := by
  have e1 : ∀ k : Fin 64, lidx_main_v101 (idx_main_v105 (ix1 p)) k = ix2 p k := fun k => idx2_ext _ _ (Nat.div_one _) rfl
  have e2 : ∀ k : Fin 64, idx_main_v100 (ridx_main_v101 (idx_main_v105 (ix1 p)) k) = ix2 0 k := fun k => idx2_ext _ _ rfl rfl
  have e3 : idx_main_v102 (idx_main_v103 (idx_main_v105 (ix1 p))) = ix1 0 := idx1_ext _ _ rfl
  rw [val_main_v105_apply, val_main_v104_apply, val_main_v101_apply, val_main_v103_apply, val_main_v102_apply]
  simp only [val_main_v100_apply, e1, e2, e3, Ideal.addf_def]

theorem l3_s (p j : Fin 8192) :
    val_main_v119 (F := Ideal) x0 x1 x2 x3 x4 x5 x6 x7 x8 x9 x10 x11 x12 x13 x14 x15 x16 x17 x18 x19 (ix2 p j)
      = Ideal.div 1 (1 + Ideal.exp (-(x1 (ix2 p j) * val_main_v99 (F := Ideal) x0 x1 x2 x3 x4 x5 x6 x7 x8 x9 x10 x11 x12 x13 x14 x15 x16 x17 (ix1 j)
          + x1 (ix2 j p) * val_main_v105 (F := Ideal) x0 x1 x2 x3 x4 x5 x6 x7 x8 x9 x10 x11 x12 x13 x14 x15 x18 x19 (ix1 p)))) := by
  have e1 : idx_main_v106 (idx_main_v107 (ix2 p j)) = ix1 j := idx1_ext _ _ rfl
  have e2 : idx_main_v109 (ix2 p j) = ix2 j p := idx2_ext _ _ rfl rfl
  have e3 : idx_main_v110 (idx_main_v111 (ix2 p j)) = ix1 p := idx1_ext _ _ rfl
  rw [val_main_v119_apply, val_main_v118_apply, val_main_cst_10_apply, val_main_v117_apply, val_main_v116_apply,
    val_main_cst_9_apply, val_main_v115_apply, val_main_v114_apply, val_main_v113_apply, val_main_v108_apply,
    val_main_v107_apply, val_main_v106_apply, val_main_v112_apply, val_main_v109_apply, val_main_v111_apply,
    val_main_v110_apply, e1, e2, e3]
  simp only [Ideal.hostDivf_def, Ideal.addf_def, Ideal.hostUnary_exp_def, Ideal.hostNegf_def, Ideal.negf_def,
    Ideal.mulf_def, Ideal.ofBits_def, ofBits_one_f32]

theorem l3_mx (p : Fin 8192) :
    val_main_v122 (F := Ideal) x0 x1 x2 x3 x4 x5 x6 x7 x8 x9 x10 x11 x12 x13 x14 x15 x16 x17 x18 x19 (ix1 p)
      = max (⊥ : EReal) ((Finset.univ : Finset (Fin 8192)).fold max (⊥ : EReal)
          fun k => val_main_v119 (F := Ideal) x0 x1 x2 x3 x4 x5 x6 x7 x8 x9 x10 x11 x12 x13 x14 x15 x16 x17 x18 x19 (ix2 p k)) := by
  have hv : val_main_v120 (F := Ideal) x0 x1 x2 x3 x4 x5 x6 x7 x8 x9 x10 x11 x12 x13 x14 x15 x16 x17 x18 x19 (ix1 p)
      = (Finset.univ : Finset (Fin 8192)).fold max (val_main_cst_11 (F := Ideal) (Shape.Idx.first h_S_))
          (fun k => val_main_v119 (F := Ideal) x0 x1 x2 x3 x4 x5 x6 x7 x8 x9 x10 x11 x12 x13 x14 x15 x16 x17 x18 x19 (ix2 p k)) :=
    rowmax_apply (val_main_v119 (F := Ideal) x0 x1 x2 x3 x4 x5 x6 x7 x8 x9 x10 x11 x12 x13 x14 x15 x16 x17 x18 x19) (val_main_cst_11 (F := Ideal)) p
  rw [val_main_v122_apply, val_main_v121_apply, val_main_cst_12_apply, hv, val_main_cst_11_apply]
  simp only [Ideal.maximumf_def, Ideal.ofBits_def, ofBits_neg_inf_f32]

theorem l3_e (p j : Fin 8192) :
    val_main_v126 (F := Ideal) x0 x1 x2 x3 x4 x5 x6 x7 x8 x9 x10 x11 x12 x13 x14 x15 x16 x17 x18 x19 (ix2 p j)
      = Ideal.exp (val_main_v119 (F := Ideal) x0 x1 x2 x3 x4 x5 x6 x7 x8 x9 x10 x11 x12 x13 x14 x15 x16 x17 x18 x19 (ix2 p j)
          - val_main_v122 (F := Ideal) x0 x1 x2 x3 x4 x5 x6 x7 x8 x9 x10 x11 x12 x13 x14 x15 x16 x17 x18 x19 (ix1 p)) := by
  have e1 : idx_main_v123 (idx_main_v124 (ix2 p j)) = ix1 p := idx1_ext _ _ rfl
  rw [val_main_v126_apply, val_main_v125_apply, val_main_v124_apply, val_main_v123_apply, e1]
  simp only [Ideal.hostUnary_exp_def, Ideal.subf_def]

theorem l3_sm (p : Fin 8192) :
    val_main_v127 (F := Ideal) x0 x1 x2 x3 x4 x5 x6 x7 x8 x9 x10 x11 x12 x13 x14 x15 x16 x17 x18 x19 (ix1 p)
      = (0 : EReal) + ∑ k : Fin 8192, val_main_v126 (F := Ideal) x0 x1 x2 x3 x4 x5 x6 x7 x8 x9 x10 x11 x12 x13 x14 x15 x16 x17 x18 x19 (ix2 p k) := by
  have e1 : ∀ k : Fin 8192, idx_main_v127 (ix1 p) k = ix2 p k := fun k => idx2_ext _ _ rfl rfl
  rw [val_main_v127_apply, val_main_cst_13_apply]
  simp only [e1, Ideal.ofBits_def, Ideal.ofBits_zero_f32]

theorem l3_q (p j : Fin 8192) :
    val_main_v130 (F := Ideal) x0 x1 x2 x3 x4 x5 x6 x7 x8 x9 x10 x11 x12 x13 x14 x15 x16 x17 x18 x19 (ix2 p j)
      = Ideal.div (val_main_v126 (F := Ideal) x0 x1 x2 x3 x4 x5 x6 x7 x8 x9 x10 x11 x12 x13 x14 x15 x16 x17 x18 x19 (ix2 p j))
          (val_main_v127 (F := Ideal) x0 x1 x2 x3 x4 x5 x6 x7 x8 x9 x10 x11 x12 x13 x14 x15 x16 x17 x18 x19 (ix1 p)) := by
  have e1 : idx_main_v128 (idx_main_v129 (ix2 p j)) = ix1 p := idx1_ext _ _ rfl
  rw [val_main_v130_apply, val_main_v129_apply, val_main_v128_apply, e1]
  simp only [Ideal.hostDivf_def]

theorem l3_out (p : Fin 8192) (o : Fin 64) :
    val_main_v131 (F := Ideal) x0 x1 x2 x3 x4 x5 x6 x7 x8 x9 x10 x11 x12 x13 x14 x15 x16 x17 x18 x19 (ix2 p o)
      = ∑ k : Fin 8192, val_main_v130 (F := Ideal) x0 x1 x2 x3 x4 x5 x6 x7 x8 x9 x10 x11 x12 x13 x14 x15 x16 x17 x18 x19 (ix2 p k)
          * val_main_v93 (F := Ideal) x0 x1 x2 x3 x4 x5 x6 x7 x8 x9 x10 x11 x12 x13 x14 x15 (ix2 k o) := by
  have e1 : ∀ k : Fin 8192, lidx_main_v131 (ix2 p o) k = ix2 p k := fun k => idx2_ext _ _ rfl rfl
  have e2 : ∀ k : Fin 8192, ridx_main_v131 (ix2 p o) k = ix2 k o := fun k => idx2_ext _ _ rfl rfl
  rw [val_main_v131_apply]
  simp only [e1, e2]

theorem layer3
    (X : Fin 8192 → Fin 256 → ℝ) (A : Fin 8192 → Fin 8192 → ℝ) (W3 : Fin 64 → Fin 256 → ℝ) (b3 : Fin 64 → ℝ)
    (tw3 : Fin 1 → Fin 64 → ℝ) (tb3 : Fin 1 → ℝ) (rw3 : Fin 1 → Fin 64 → ℝ) (rb3 : Fin 1 → ℝ)
    (hx : IsR2 (val_main_v87 (F := Ideal) x0 x1 x2 x3 x4 x5 x6 x7 x8 x9 x10 x11 x12 x13) X) (ha : IsR2 x1 A) (hw : IsR2 x14 W3) (hb : IsR1 x15 b3)
    (htw : IsR2 x16 tw3) (htb : IsR1 x17 tb3) (hrw : IsR2 x18 rw3) (hrb : IsR1 x19 rb3) :
    IsR2 (val_main_v131 (F := Ideal) x0 x1 x2 x3 x4 x5 x6 x7 x8 x9 x10 x11 x12 x13 x14 x15 x16 x17 x18 x19)
      (layerR X A W3 b3 (tw3 0) (tb3 0) (rw3 0) (rb3 0)) :=
  layer_of_stages _ _ _ _ _ _ _ _ _ _ _ _ _ _ _ _ hx ha hw hb htw htb hrw hrb _ _ _ _ _ _ _ _ _
    (l3_z x0 x1 x2 x3 x4 x5 x6 x7 x8 x9 x10 x11 x12 x13 x14 x15) (l3_t x0 x1 x2 x3 x4 x5 x6 x7 x8 x9 x10 x11 x12 x13 x14 x15 x16 x17) (l3_r x0 x1 x2 x3 x4 x5 x6 x7 x8 x9 x10 x11 x12 x13 x14 x15 x18 x19) (l3_s x0 x1 x2 x3 x4 x5 x6 x7 x8 x9 x10 x11 x12 x13 x14 x15 x16 x17 x18 x19)
    (l3_mx x0 x1 x2 x3 x4 x5 x6 x7 x8 x9 x10 x11 x12 x13 x14 x15 x16 x17 x18 x19) (l3_e x0 x1 x2 x3 x4 x5 x6 x7 x8 x9 x10 x11 x12 x13 x14 x15 x16 x17 x18 x19) (l3_sm x0 x1 x2 x3 x4 x5 x6 x7 x8 x9 x10 x11 x12 x13 x14 x15 x16 x17 x18 x19)
    (l3_q x0 x1 x2 x3 x4 x5 x6 x7 x8 x9 x10 x11 x12 x13 x14 x15 x16 x17 x18 x19) (l3_out x0 x1 x2 x3 x4 x5 x6 x7 x8 x9 x10 x11 x12 x13 x14 x15 x16 x17 x18 x19)

end Cert.ReferenceIdeal.RefValue

end
-- ==== Proof.Ref.Net.lean ====
import proofs.«139342_j40218073759787_2_alg».proof.Proof.Ref.Layer1
import proofs.«139342_j40218073759787_2_alg».proof.Proof.Ref.Layer2
import proofs.«139342_j40218073759787_2_alg».proof.Proof.Ref.Layer3
noncomputable section
namespace Cert.ReferenceIdeal.RefValue
open Cert.ReferenceIdeal Cert.ReferenceIdeal.Gen Cert.ReferenceIdeal.ReadP Idealize.ShloMosaic
  Idealize.ShloMosaic.ValueIdx GAT
variable (x0 : (⟨S8192x1024, .f32⟩ : BufTy).Contents (Elt Ideal)) (x1 : (⟨S8192x8192, .f32⟩ : BufTy).Contents (Elt Ideal))
  (x2 : (⟨S512x1024, .f32⟩ : BufTy).Contents (Elt Ideal)) (x3 : (⟨S512, .f32⟩ : BufTy).Contents (Elt Ideal))
  (x4 : (⟨S1x512, .f32⟩ : BufTy).Contents (Elt Ideal)) (x5 : (⟨S1, .f32⟩ : BufTy).Contents (Elt Ideal))
  (x6 : (⟨S1x512, .f32⟩ : BufTy).Contents (Elt Ideal)) (x7 : (⟨S1, .f32⟩ : BufTy).Contents (Elt Ideal))
  (x8 : (⟨S256x512, .f32⟩ : BufTy).Contents (Elt Ideal)) (x9 : (⟨S256, .f32⟩ : BufTy).Contents (Elt Ideal))
  (x10 : (⟨S1x256, .f32⟩ : BufTy).Contents (Elt Ideal)) (x11 : (⟨S1, .f32⟩ : BufTy).Contents (Elt Ideal))
  (x12 : (⟨S1x256, .f32⟩ : BufTy).Contents (Elt Ideal)) (x13 : (⟨S1, .f32⟩ : BufTy).Contents (Elt Ideal))
  (x14 : (⟨S64x256, .f32⟩ : BufTy).Contents (Elt Ideal)) (x15 : (⟨S64, .f32⟩ : BufTy).Contents (Elt Ideal))
  (x16 : (⟨S1x64, .f32⟩ : BufTy).Contents (Elt Ideal)) (x17 : (⟨S1, .f32⟩ : BufTy).Contents (Elt Ideal))
  (x18 : (⟨S1x64, .f32⟩ : BufTy).Contents (Elt Ideal)) (x19 : (⟨S1, .f32⟩ : BufTy).Contents (Elt Ideal))
theorem net
    (X : Fin 8192 → Fin 1024 → ℝ) (A : Fin 8192 → Fin 8192 → ℝ)
    (W1 : Fin 512 → Fin 1024 → ℝ) (b1 : Fin 512 → ℝ) (tw1 : Fin 1 → Fin 512 → ℝ) (tb1 : Fin 1 → ℝ)
    (rw1 : Fin 1 → Fin 512 → ℝ) (rb1 : Fin 1 → ℝ)
    (W2 : Fin 256 → Fin 512 → ℝ) (b2 : Fin 256 → ℝ) (tw2 : Fin 1 → Fin 256 → ℝ) (tb2 : Fin 1 → ℝ)
    (rw2 : Fin 1 → Fin 256 → ℝ) (rb2 : Fin 1 → ℝ)
    (W3 : Fin 64 → Fin 256 → ℝ) (b3 : Fin 64 → ℝ) (tw3 : Fin 1 → Fin 64 → ℝ) (tb3 : Fin 1 → ℝ)
    (rw3 : Fin 1 → Fin 64 → ℝ) (rb3 : Fin 1 → ℝ)
    (h0 : IsR2 x0 X) (h1 : IsR2 x1 A)
    (h2 : IsR2 x2 W1) (h3 : IsR1 x3 b1) (h4 : IsR2 x4 tw1) (h5 : IsR1 x5 tb1) (h6 : IsR2 x6 rw1) (h7 : IsR1 x7 rb1)
    (h8 : IsR2 x8 W2) (h9 : IsR1 x9 b2) (h10 : IsR2 x10 tw2) (h11 : IsR1 x11 tb2) (h12 : IsR2 x12 rw2)
    (h13 : IsR1 x13 rb2)
    (h14 : IsR2 x14 W3) (h15 : IsR1 x15 b3) (h16 : IsR2 x16 tw3) (h17 : IsR1 x17 tb3) (h18 : IsR2 x18 rw3)
    (h19 : IsR1 x19 rb3) :
    IsR2 (val_main_v131 (F := Ideal) x0 x1 x2 x3 x4 x5 x6 x7 x8 x9 x10 x11 x12 x13 x14 x15 x16 x17 x18 x19)
      (netR X A W1 b1 (tw1 0) (tb1 0) (rw1 0) (rb1 0) W2 b2 (tw2 0) (tb2 0) (rw2 0) (rb2 0)
        W3 b3 (tw3 0) (tb3 0) (rw3 0) (rb3 0)) :=
  layer3 x0 x1 x2 x3 x4 x5 x6 x7 x8 x9 x10 x11 x12 x13 x14 x15 x16 x17 x18 x19 _ A W3 b3 tw3 tb3 rw3 rb3
    (layer2 x0 x1 x2 x3 x4 x5 x6 x7 x8 x9 x10 x11 x12 x13 _ A W2 b2 tw2 tb2 rw2 rb2
      (layer1 x0 x1 x2 x3 x4 x5 x6 x7 X A W1 b1 tw1 tb1 rw1 rb1 h0 h1 h2 h3 h4 h5 h6 h7)
      h1 h8 h9 h10 h11 h12 h13)
    h1 h14 h15 h16 h17 h18 h19
end Cert.ReferenceIdeal.RefValue
end
-- ==== Proof.Ref.RunHand.lean ====
import proofs.«139342_j40218073759787_2_alg».proof.Proof.RefOpsP
import proofs.«139342_j40218073759787_2_alg».proof.Proof.RefReadP
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

abbrev argsList : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19]

def Frame (X W : Valuation τ sig (Elt F)) : Prop :=
  ∀ r ∈ argsList, W (Proc.devRef .tc r) = X (Proc.devRef .tc r)

theorem sub_of_mem {y : Ref sig .tc} {w : List (Ref sig .tc)} (h : y ∈ w) :
    ({Proc.devRef .tc y} : Finset (DevRef τ sig)) ⊆ (w.map (Proc.devRef (τ := τ) .tc)).toFinset :=
  Finset.singleton_subset_iff.2 (List.mem_toFinset.2 (List.mem_map_of_mem h))

-- Operations that write only buffers of `w`, none an argument, leave every argument as it was.
theorem frame_of {c : List (HloOp τ sig (Elt F))} {w : List (Ref sig .tc)}
    (hw : c.Forall fun op => op.writes ⊆ (w.map (Proc.devRef (τ := τ) .tc)).toFinset) (ha : ∀ r ∈ argsList, r ∉ w)
    (X W : Valuation τ sig (Elt F)) (hF : Frame X W) : Frame X (after c W) :=
  fun r hr => (after_of_writes_sub c W hw (ha r hr)).trans (hF r hr)

variable (X : Valuation τ sig (Elt F))

set_option quotPrecheck false

local notation "x0" => X (Proc.devRef .tc main_arg0)
local notation "x1" => X (Proc.devRef .tc main_arg1)
local notation "x2" => X (Proc.devRef .tc main_arg2)
local notation "x3" => X (Proc.devRef .tc main_arg3)
local notation "x4" => X (Proc.devRef .tc main_arg4)
local notation "x5" => X (Proc.devRef .tc main_arg5)
local notation "x6" => X (Proc.devRef .tc main_arg6)
local notation "x7" => X (Proc.devRef .tc main_arg7)
local notation "x8" => X (Proc.devRef .tc main_arg8)
local notation "x9" => X (Proc.devRef .tc main_arg9)
local notation "x10" => X (Proc.devRef .tc main_arg10)
local notation "x11" => X (Proc.devRef .tc main_arg11)
local notation "x12" => X (Proc.devRef .tc main_arg12)
local notation "x13" => X (Proc.devRef .tc main_arg13)
local notation "x14" => X (Proc.devRef .tc main_arg14)
local notation "x15" => X (Proc.devRef .tc main_arg15)
local notation "x16" => X (Proc.devRef .tc main_arg16)
local notation "x17" => X (Proc.devRef .tc main_arg17)
local notation "x18" => X (Proc.devRef .tc main_arg18)
local notation "x19" => X (Proc.devRef .tc main_arg19)

abbrev c1 : List (HloOp τ sig (Elt F)) :=
  [ unary main_arg2 main_v0 ((transpose S1024x512 [1, 0] · transposes_S512x1024_S1024x512_1_0) : (⟨S512x1024, .f32⟩ : BufTy).Contents (Elt F) → (⟨S1024x512, .f32⟩ : BufTy).Contents (Elt F)),
    binary main_arg0 main_v0 main_v1 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S8192x512 ![0, 1] bcast_S1x512_S8192x512_0_1 : (⟨S1x512, .f32⟩ : BufTy).Contents (Elt F) → (⟨S8192x512, .f32⟩ : BufTy).Contents (Elt F)),
    binary main_v1 main_v3 main_v4 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x512, .f32⟩) main_call0_v0) (broadcastInDim S8192x512 ![] bcast_S_S8192x512),
    TRef.binary (TRef.of (T := ⟨S8192x512, .f32⟩) main_v4) (TRef.of (T := ⟨S8192x512, .f32⟩) main_call0_v0) (TRef.of (T := ⟨S8192x512, .f32⟩) main_v5) maximumf ]

abbrev w1 : List (Ref sig .tc) := [main_v0, main_v1, main_v2, main_v3, main_v4, main_call0_cst, main_call0_v0, main_v5]

theorem c1_writes : (c1 : List (HloOp τ sig (Elt F))).Forall fun op => op.writes ⊆ (w1.map (Proc.devRef (τ := τ) .tc)).toFinset := by
  simp only [List.Forall]; (repeat' constructor) <;> exact sub_of_mem (by decide)

theorem c1_out_v5 (W : Valuation τ sig (Elt F)) (hF : Frame X W) :
    after c1 W (Proc.devRef .tc main_v5) = ReadP.val_main_v5 (F := F) x0 x2 x3 := by
  after_results
  rw [hF main_arg2 (by decide), hF main_arg0 (by decide), hF main_arg3 (by decide)]
  rfl

abbrev c2 : List (HloOp τ sig (Elt F)) :=
  [ unary main_arg4 main_v6 ((transpose S512x1 [1, 0] · transposes_S1x512_S512x1_1_0) : (⟨S1x512, .f32⟩ : BufTy).Contents (Elt F) → (⟨S512x1, .f32⟩ : BufTy).Contents (Elt F)),
    binary main_v5 main_v6 main_v7 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)),
    unary main_arg5 main_v8 (broadcastInDim S1x1 ![1] bcast_S1_S1x1_1 : (⟨S1, .f32⟩ : BufTy).Contents (Elt F) → (⟨S1x1, .f32⟩ : BufTy).Contents (Elt F)),
    unary main_v8 main_v9 (broadcastInDim S8192x1 ![0, 1] bcast_S1x1_S8192x1_0_1 : (⟨S1x1, .f32⟩ : BufTy).Contents (Elt F) → (⟨S8192x1, .f32⟩ : BufTy).Contents (Elt F)),
    binary main_v7 main_v9 main_v10 (addf : (⟨S8192x1, .f32⟩ : BufTy).Contents (Elt F) → (⟨S8192x1, .f32⟩ : BufTy).Contents (Elt F) → (⟨S8192x1, .f32⟩ : BufTy).Contents (Elt F)),
    reshape main_v10 main_v11 rfl shapeCasts_S8192x1_S8192 ]

abbrev w2 : List (Ref sig .tc) := [main_v6, main_v7, main_v8, main_v9, main_v10, main_v11]

theorem c2_writes : (c2 : List (HloOp τ sig (Elt F))).Forall fun op => op.writes ⊆ (w2.map (Proc.devRef (τ := τ) .tc)).toFinset := by
  simp only [List.Forall]; (repeat' constructor) <;> exact sub_of_mem (by decide)

theorem c2_out_v11 (W : Valuation τ sig (Elt F)) (hF : Frame X W)
    (h_v5 : W (Proc.devRef .tc main_v5) = ReadP.val_main_v5 (F := F) x0 x2 x3) :
    after c2 W (Proc.devRef .tc main_v11) = ReadP.val_main_v11 (F := F) x0 x2 x3 x4 x5 := by
  after_results
  rw [hF main_arg4 (by decide), hF main_arg5 (by decide), h_v5]
  rfl

abbrev c3 : List (HloOp τ sig (Elt F)) :=
  [ unary main_arg6 main_v12 ((transpose S512x1 [1, 0] · transposes_S1x512_S512x1_1_0) : (⟨S1x512, .f32⟩ : BufTy).Contents (Elt F) → (⟨S512x1, .f32⟩ : BufTy).Contents (Elt F)),
    binary main_v5 main_v12 main_v13 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)),
    unary main_arg7 main_v14 (broadcastInDim S1x1 ![1] bcast_S1_S1x1_1 : (⟨S1, .f32⟩ : BufTy).Contents (Elt F) → (⟨S1x1, .f32⟩ : BufTy).Contents (Elt F)),
    unary main_v14 main_v15 (broadcastInDim S8192x1 ![0, 1] bcast_S1x1_S8192x1_0_1 : (⟨S1x1, .f32⟩ : BufTy).Contents (Elt F) → (⟨S8192x1, .f32⟩ : BufTy).Contents (Elt F)),
    binary main_v13 main_v15 main_v16 (addf : (⟨S8192x1, .f32⟩ : BufTy).Contents (Elt F) → (⟨S8192x1, .f32⟩ : BufTy).Contents (Elt F) → (⟨S8192x1, .f32⟩ : BufTy).Contents (Elt F)),
    reshape main_v16 main_v17 rfl shapeCasts_S8192x1_S8192 ]

abbrev w3 : List (Ref sig .tc) := [main_v12, main_v13, main_v14, main_v15, main_v16, main_v17]

theorem c3_writes : (c3 : List (HloOp τ sig (Elt F))).Forall fun op => op.writes ⊆ (w3.map (Proc.devRef (τ := τ) .tc)).toFinset := by
  simp only [List.Forall]; (repeat' constructor) <;> exact sub_of_mem (by decide)

theorem c3_out_v17 (W : Valuation τ sig (Elt F)) (hF : Frame X W)
    (h_v5 : W (Proc.devRef .tc main_v5) = ReadP.val_main_v5 (F := F) x0 x2 x3) :
    after c3 W (Proc.devRef .tc main_v17) = ReadP.val_main_v17 (F := F) x0 x2 x3 x6 x7 := by
  after_results
  rw [hF main_arg6 (by decide), hF main_arg7 (by decide), h_v5]
  rfl

abbrev c4 : List (HloOp τ sig (Elt F)) :=
  [ unary main_v11 main_v18 (broadcastInDim S1x8192 ![1] bcast_S8192_S1x8192_1 : (⟨S8192, .f32⟩ : BufTy).Contents (Elt F) → (⟨S1x8192, .f32⟩ : BufTy).Contents (Elt F)),
    unary main_v18 main_v19 (broadcastInDim S8192x8192 ![0, 1] bcast_S1x8192_S8192x8192_0_1 : (⟨S1x8192, .f32⟩ : BufTy).Contents (Elt F) → (⟨S8192x8192, .f32⟩ : BufTy).Contents (Elt F)),
    binary main_arg1 main_v19 main_v20 (mulf : (⟨S8192x8192, .f32⟩ : BufTy).Contents (Elt F) → (⟨S8192x8192, .f32⟩ : BufTy).Contents (Elt F) → (⟨S8192x8192, .f32⟩ : BufTy).Contents (Elt F)),
    unary main_arg1 main_v21 ((transpose S8192x8192 [1, 0] · transposes_S8192x8192_S8192x8192_1_0) : (⟨S8192x8192, .f32⟩ : BufTy).Contents (Elt F) → (⟨S8192x8192, .f32⟩ : BufTy).Contents (Elt F)),
    unary main_v17 main_v22 (broadcastInDim S8192x1 ![0] bcast_S8192_S8192x1_0 : (⟨S8192, .f32⟩ : BufTy).Contents (Elt F) → (⟨S8192x1, .f32⟩ : BufTy).Contents (Elt F)),
    unary main_v22 main_v23 (broadcastInDim S8192x8192 ![0, 1] bcast_S8192x1_S8192x8192_0_1 : (⟨S8192x1, .f32⟩ : BufTy).Contents (Elt F) → (⟨S8192x8192, .f32⟩ : BufTy).Contents (Elt F)),
    binary main_v21 main_v23 main_v24 (mulf : (⟨S8192x8192, .f32⟩ : BufTy).Contents (Elt F) → (⟨S8192x8192, .f32⟩ : BufTy).Contents (Elt F) → (⟨S8192x8192, .f32⟩ : BufTy).Contents (Elt F)),
    binary main_v20 main_v24 main_v25 (addf : (⟨S8192x8192, .f32⟩ : BufTy).Contents (Elt F) → (⟨S8192x8192, .f32⟩ : BufTy).Contents (Elt F) → (⟨S8192x8192, .f32⟩ : BufTy).Contents (Elt F)) ]

abbrev w4 : List (Ref sig .tc) := [main_v18, main_v19, main_v20, main_v21, main_v22, main_v23, main_v24, main_v25]

theorem c4_writes : (c4 : List (HloOp τ sig (Elt F))).Forall fun op => op.writes ⊆ (w4.map (Proc.devRef (τ := τ) .tc)).toFinset := by
  simp only [List.Forall]; (repeat' constructor) <;> exact sub_of_mem (by decide)

theorem c4_out_v25 (W : Valuation τ sig (Elt F)) (hF : Frame X W)
    (h_v11 : W (Proc.devRef .tc main_v11) = ReadP.val_main_v11 (F := F) x0 x2 x3 x4 x5)
    (h_v17 : W (Proc.devRef .tc main_v17) = ReadP.val_main_v17 (F := F) x0 x2 x3 x6 x7) :
    after c4 W (Proc.devRef .tc main_v25) = ReadP.val_main_v25 (F := F) x0 x1 x2 x3 x4 x5 x6 x7 := by
  after_results
  rw [hF main_arg1 (by decide), h_v11, h_v17]
  rfl

abbrev c5 : List (HloOp τ sig (Elt F)) :=
  [ unary main_v25 main_v26 (Host.negf : (⟨S8192x8192, .f32⟩ : BufTy).Contents (Elt F) → (⟨S8192x8192, .f32⟩ : BufTy).Contents (Elt F)),
    unary main_v26 main_v27 (Host.exp : (⟨S8192x8192, .f32⟩ : BufTy).Contents (Elt F) → (⟨S8192x8192, .f32⟩ : BufTy).Contents (Elt F)),
    nullary main_cst (constant S_ .f32 0x3F800000#32),
    unary main_cst main_v28 (broadcastInDim S8192x8192 ![] bcast_S_S8192x8192 : (⟨S_, .f32⟩ : BufTy).Contents (Elt F) → (⟨S8192x8192, .f32⟩ : BufTy).Contents (Elt F)),
    binary main_v28 main_v27 main_v29 (addf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x3F800000#32),
    unary main_cst_0 main_v30 (broadcastInDim S8192x8192 ![] bcast_S_S8192x8192 : (⟨S_, .f32⟩ : BufTy).Contents (Elt F) → (⟨S8192x8192, .f32⟩ : BufTy).Contents (Elt F)),
    binary main_v30 main_v29 main_v31 (Host.divf : (⟨S8192x8192, .f32⟩ : BufTy).Contents (Elt F) → (⟨S8192x8192, .f32⟩ : BufTy).Contents (Elt F) → (⟨S8192x8192, .f32⟩ : BufTy).Contents (Elt F)) ]

abbrev w5 : List (Ref sig .tc) := [main_v26, main_v27, main_cst, main_v28, main_v29, main_cst_0, main_v30, main_v31]

theorem c5_writes : (c5 : List (HloOp τ sig (Elt F))).Forall fun op => op.writes ⊆ (w5.map (Proc.devRef (τ := τ) .tc)).toFinset := by
  simp only [List.Forall]; (repeat' constructor) <;> exact sub_of_mem (by decide)

theorem c5_out_v31 (W : Valuation τ sig (Elt F)) (hF : Frame X W)
    (h_v25 : W (Proc.devRef .tc main_v25) = ReadP.val_main_v25 (F := F) x0 x1 x2 x3 x4 x5 x6 x7) :
    after c5 W (Proc.devRef .tc main_v31) = ReadP.val_main_v31 (F := F) x0 x1 x2 x3 x4 x5 x6 x7 := by
  after_results
  rw [h_v25]
  rfl

abbrev c6 : List (HloOp τ sig (Elt F)) :=
  [ nullary main_cst_1 (constant S_ .f32 0xFF800000#32),
    binary main_v31 main_cst_1 main_v32 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v33 (broadcastInDim S8192 ![] bcast_S_S8192 : (⟨S_, .f32⟩ : BufTy).Contents (Elt F) → (⟨S8192, .f32⟩ : BufTy).Contents (Elt F)),
    binary main_v33 main_v32 main_v34 (maximumf : (⟨S8192, .f32⟩ : BufTy).Contents (Elt F) → (⟨S8192, .f32⟩ : BufTy).Contents (Elt F) → (⟨S8192, .f32⟩ : BufTy).Contents (Elt F)),
    unary main_v34 main_v35 (broadcastInDim S8192x1 ![0] bcast_S8192_S8192x1_0 : (⟨S8192, .f32⟩ : BufTy).Contents (Elt F) → (⟨S8192x1, .f32⟩ : BufTy).Contents (Elt F)),
    unary main_v35 main_v36 (broadcastInDim S8192x8192 ![0, 1] bcast_S8192x1_S8192x8192_0_1 : (⟨S8192x1, .f32⟩ : BufTy).Contents (Elt F) → (⟨S8192x8192, .f32⟩ : BufTy).Contents (Elt F)),
    binary main_v31 main_v36 main_v37 (subf : (⟨S8192x8192, .f32⟩ : BufTy).Contents (Elt F) → (⟨S8192x8192, .f32⟩ : BufTy).Contents (Elt F) → (⟨S8192x8192, .f32⟩ : BufTy).Contents (Elt F)),
    unary main_v37 main_v38 (Host.exp : (⟨S8192x8192, .f32⟩ : BufTy).Contents (Elt F) → (⟨S8192x8192, .f32⟩ : BufTy).Contents (Elt F)) ]

abbrev w6 : List (Ref sig .tc) := [main_cst_1, main_v32, main_cst_2, main_v33, main_v34, main_v35, main_v36, main_v37, main_v38]

theorem c6_writes : (c6 : List (HloOp τ sig (Elt F))).Forall fun op => op.writes ⊆ (w6.map (Proc.devRef (τ := τ) .tc)).toFinset := by
  simp only [List.Forall]; (repeat' constructor) <;> exact sub_of_mem (by decide)

theorem c6_out_v38 (W : Valuation τ sig (Elt F)) (hF : Frame X W)
    (h_v31 : W (Proc.devRef .tc main_v31) = ReadP.val_main_v31 (F := F) x0 x1 x2 x3 x4 x5 x6 x7) :
    after c6 W (Proc.devRef .tc main_v38) = ReadP.val_main_v38 (F := F) x0 x1 x2 x3 x4 x5 x6 x7 := by
  after_results
  rw [h_v31]
  rfl

abbrev c7 : List (HloOp τ sig (Elt F)) :=
  [ nullary main_cst_3 (constant S_ .f32 0x00000000#32),
    binary main_v38 main_cst_3 main_v39 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v39 main_v40 (broadcastInDim S8192x1 ![0] bcast_S8192_S8192x1_0 : (⟨S8192, .f32⟩ : BufTy).Contents (Elt F) → (⟨S8192x1, .f32⟩ : BufTy).Contents (Elt F)),
    unary main_v40 main_v41 (broadcastInDim S8192x8192 ![0, 1] bcast_S8192x1_S8192x8192_0_1 : (⟨S8192x1, .f32⟩ : BufTy).Contents (Elt F) → (⟨S8192x8192, .f32⟩ : BufTy).Contents (Elt F)),
    binary main_v38 main_v41 main_v42 (Host.divf : (⟨S8192x8192, .f32⟩ : BufTy).Contents (Elt F) → (⟨S8192x8192, .f32⟩ : BufTy).Contents (Elt F) → (⟨S8192x8192, .f32⟩ : BufTy).Contents (Elt F)),
    binary main_v42 main_v5 main_v43 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)) ]

abbrev w7 : List (Ref sig .tc) := [main_cst_3, main_v39, main_v40, main_v41, main_v42, main_v43]

theorem c7_writes : (c7 : List (HloOp τ sig (Elt F))).Forall fun op => op.writes ⊆ (w7.map (Proc.devRef (τ := τ) .tc)).toFinset := by
  simp only [List.Forall]; (repeat' constructor) <;> exact sub_of_mem (by decide)

theorem c7_out_v43 (W : Valuation τ sig (Elt F)) (hF : Frame X W)
    (h_v38 : W (Proc.devRef .tc main_v38) = ReadP.val_main_v38 (F := F) x0 x1 x2 x3 x4 x5 x6 x7)
    (h_v5 : W (Proc.devRef .tc main_v5) = ReadP.val_main_v5 (F := F) x0 x2 x3) :
    after c7 W (Proc.devRef .tc main_v43) = ReadP.val_main_v43 (F := F) x0 x1 x2 x3 x4 x5 x6 x7 := by
  after_results
  rw [h_v38, h_v5]
  rfl

abbrev c8 : List (HloOp τ sig (Elt F)) :=
  [ unary main_arg8 main_v44 ((transpose S512x256 [1, 0] · transposes_S256x512_S512x256_1_0) : (⟨S256x512, .f32⟩ : BufTy).Contents (Elt F) → (⟨S512x256, .f32⟩ : BufTy).Contents (Elt F)),
    binary main_v43 main_v44 main_v45 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg9 main_v46 (broadcastInDim S1x256 ![1] bcast_S256_S1x256_1 : (⟨S256, .f32⟩ : BufTy).Contents (Elt F) → (⟨S1x256, .f32⟩ : BufTy).Contents (Elt F)),
    unary main_v46 main_v47 (broadcastInDim S8192x256 ![0, 1] bcast_S1x256_S8192x256_0_1 : (⟨S1x256, .f32⟩ : BufTy).Contents (Elt F) → (⟨S8192x256, .f32⟩ : BufTy).Contents (Elt F)),
    binary main_v45 main_v47 main_v48 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x256, .f32⟩) main_call1_v0) (broadcastInDim S8192x256 ![] bcast_S_S8192x256),
    TRef.binary (TRef.of (T := ⟨S8192x256, .f32⟩) main_v48) (TRef.of (T := ⟨S8192x256, .f32⟩) main_call1_v0) (TRef.of (T := ⟨S8192x256, .f32⟩) main_v49) maximumf ]

abbrev w8 : List (Ref sig .tc) := [main_v44, main_v45, main_v46, main_v47, main_v48, main_call1_cst, main_call1_v0, main_v49]

theorem c8_writes : (c8 : List (HloOp τ sig (Elt F))).Forall fun op => op.writes ⊆ (w8.map (Proc.devRef (τ := τ) .tc)).toFinset := by
  simp only [List.Forall]; (repeat' constructor) <;> exact sub_of_mem (by decide)

theorem c8_out_v49 (W : Valuation τ sig (Elt F)) (hF : Frame X W)
    (h_v43 : W (Proc.devRef .tc main_v43) = ReadP.val_main_v43 (F := F) x0 x1 x2 x3 x4 x5 x6 x7) :
    after c8 W (Proc.devRef .tc main_v49) = ReadP.val_main_v49 (F := F) x0 x1 x2 x3 x4 x5 x6 x7 x8 x9 := by
  after_results
  rw [hF main_arg8 (by decide), hF main_arg9 (by decide), h_v43]
  rfl

abbrev c9 : List (HloOp τ sig (Elt F)) :=
  [ unary main_arg10 main_v50 ((transpose S256x1 [1, 0] · transposes_S1x256_S256x1_1_0) : (⟨S1x256, .f32⟩ : BufTy).Contents (Elt F) → (⟨S256x1, .f32⟩ : BufTy).Contents (Elt F)),
    binary main_v49 main_v50 main_v51 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_arg11 main_v52 (broadcastInDim S1x1 ![1] bcast_S1_S1x1_1 : (⟨S1, .f32⟩ : BufTy).Contents (Elt F) → (⟨S1x1, .f32⟩ : BufTy).Contents (Elt F)),
    unary main_v52 main_v53 (broadcastInDim S8192x1 ![0, 1] bcast_S1x1_S8192x1_0_1 : (⟨S1x1, .f32⟩ : BufTy).Contents (Elt F) → (⟨S8192x1, .f32⟩ : BufTy).Contents (Elt F)),
    binary main_v51 main_v53 main_v54 (addf : (⟨S8192x1, .f32⟩ : BufTy).Contents (Elt F) → (⟨S8192x1, .f32⟩ : BufTy).Contents (Elt F) → (⟨S8192x1, .f32⟩ : BufTy).Contents (Elt F)),
    reshape main_v54 main_v55 rfl shapeCasts_S8192x1_S8192 ]

abbrev w9 : List (Ref sig .tc) := [main_v50, main_v51, main_v52, main_v53, main_v54, main_v55]

theorem c9_writes : (c9 : List (HloOp τ sig (Elt F))).Forall fun op => op.writes ⊆ (w9.map (Proc.devRef (τ := τ) .tc)).toFinset := by
  simp only [List.Forall]; (repeat' constructor) <;> exact sub_of_mem (by decide)

theorem c9_out_v55 (W : Valuation τ sig (Elt F)) (hF : Frame X W)
    (h_v49 : W (Proc.devRef .tc main_v49) = ReadP.val_main_v49 (F := F) x0 x1 x2 x3 x4 x5 x6 x7 x8 x9) :
    after c9 W (Proc.devRef .tc main_v55) = ReadP.val_main_v55 (F := F) x0 x1 x2 x3 x4 x5 x6 x7 x8 x9 x10 x11 := by
  after_results
  rw [hF main_arg10 (by decide), hF main_arg11 (by decide), h_v49]
  rfl

abbrev c10 : List (HloOp τ sig (Elt F)) :=
  [ unary main_arg12 main_v56 ((transpose S256x1 [1, 0] · transposes_S1x256_S256x1_1_0) : (⟨S1x256, .f32⟩ : BufTy).Contents (Elt F) → (⟨S256x1, .f32⟩ : BufTy).Contents (Elt F)),
    binary main_v49 main_v56 main_v57 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_arg13 main_v58 (broadcastInDim S1x1 ![1] bcast_S1_S1x1_1 : (⟨S1, .f32⟩ : BufTy).Contents (Elt F) → (⟨S1x1, .f32⟩ : BufTy).Contents (Elt F)),
    unary main_v58 main_v59 (broadcastInDim S8192x1 ![0, 1] bcast_S1x1_S8192x1_0_1 : (⟨S1x1, .f32⟩ : BufTy).Contents (Elt F) → (⟨S8192x1, .f32⟩ : BufTy).Contents (Elt F)),
    binary main_v57 main_v59 main_v60 (addf : (⟨S8192x1, .f32⟩ : BufTy).Contents (Elt F) → (⟨S8192x1, .f32⟩ : BufTy).Contents (Elt F) → (⟨S8192x1, .f32⟩ : BufTy).Contents (Elt F)),
    reshape main_v60 main_v61 rfl shapeCasts_S8192x1_S8192 ]

abbrev w10 : List (Ref sig .tc) := [main_v56, main_v57, main_v58, main_v59, main_v60, main_v61]

theorem c10_writes : (c10 : List (HloOp τ sig (Elt F))).Forall fun op => op.writes ⊆ (w10.map (Proc.devRef (τ := τ) .tc)).toFinset := by
  simp only [List.Forall]; (repeat' constructor) <;> exact sub_of_mem (by decide)

theorem c10_out_v61 (W : Valuation τ sig (Elt F)) (hF : Frame X W)
    (h_v49 : W (Proc.devRef .tc main_v49) = ReadP.val_main_v49 (F := F) x0 x1 x2 x3 x4 x5 x6 x7 x8 x9) :
    after c10 W (Proc.devRef .tc main_v61) = ReadP.val_main_v61 (F := F) x0 x1 x2 x3 x4 x5 x6 x7 x8 x9 x12 x13 := by
  after_results
  rw [hF main_arg12 (by decide), hF main_arg13 (by decide), h_v49]
  rfl

abbrev c11 : List (HloOp τ sig (Elt F)) :=
  [ unary main_v55 main_v62 (broadcastInDim S1x8192 ![1] bcast_S8192_S1x8192_1 : (⟨S8192, .f32⟩ : BufTy).Contents (Elt F) → (⟨S1x8192, .f32⟩ : BufTy).Contents (Elt F)),
    unary main_v62 main_v63 (broadcastInDim S8192x8192 ![0, 1] bcast_S1x8192_S8192x8192_0_1 : (⟨S1x8192, .f32⟩ : BufTy).Contents (Elt F) → (⟨S8192x8192, .f32⟩ : BufTy).Contents (Elt F)),
    binary main_arg1 main_v63 main_v64 (mulf : (⟨S8192x8192, .f32⟩ : BufTy).Contents (Elt F) → (⟨S8192x8192, .f32⟩ : BufTy).Contents (Elt F) → (⟨S8192x8192, .f32⟩ : BufTy).Contents (Elt F)),
    unary main_arg1 main_v65 ((transpose S8192x8192 [1, 0] · transposes_S8192x8192_S8192x8192_1_0) : (⟨S8192x8192, .f32⟩ : BufTy).Contents (Elt F) → (⟨S8192x8192, .f32⟩ : BufTy).Contents (Elt F)),
    unary main_v61 main_v66 (broadcastInDim S8192x1 ![0] bcast_S8192_S8192x1_0 : (⟨S8192, .f32⟩ : BufTy).Contents (Elt F) → (⟨S8192x1, .f32⟩ : BufTy).Contents (Elt F)),
    unary main_v66 main_v67 (broadcastInDim S8192x8192 ![0, 1] bcast_S8192x1_S8192x8192_0_1 : (⟨S8192x1, .f32⟩ : BufTy).Contents (Elt F) → (⟨S8192x8192, .f32⟩ : BufTy).Contents (Elt F)),
    binary main_v65 main_v67 main_v68 (mulf : (⟨S8192x8192, .f32⟩ : BufTy).Contents (Elt F) → (⟨S8192x8192, .f32⟩ : BufTy).Contents (Elt F) → (⟨S8192x8192, .f32⟩ : BufTy).Contents (Elt F)),
    binary main_v64 main_v68 main_v69 (addf : (⟨S8192x8192, .f32⟩ : BufTy).Contents (Elt F) → (⟨S8192x8192, .f32⟩ : BufTy).Contents (Elt F) → (⟨S8192x8192, .f32⟩ : BufTy).Contents (Elt F)) ]

abbrev w11 : List (Ref sig .tc) := [main_v62, main_v63, main_v64, main_v65, main_v66, main_v67, main_v68, main_v69]

theorem c11_writes : (c11 : List (HloOp τ sig (Elt F))).Forall fun op => op.writes ⊆ (w11.map (Proc.devRef (τ := τ) .tc)).toFinset := by
  simp only [List.Forall]; (repeat' constructor) <;> exact sub_of_mem (by decide)

theorem c11_out_v69 (W : Valuation τ sig (Elt F)) (hF : Frame X W)
    (h_v55 : W (Proc.devRef .tc main_v55) = ReadP.val_main_v55 (F := F) x0 x1 x2 x3 x4 x5 x6 x7 x8 x9 x10 x11)
    (h_v61 : W (Proc.devRef .tc main_v61) = ReadP.val_main_v61 (F := F) x0 x1 x2 x3 x4 x5 x6 x7 x8 x9 x12 x13) :
    after c11 W (Proc.devRef .tc main_v69) = ReadP.val_main_v69 (F := F) x0 x1 x2 x3 x4 x5 x6 x7 x8 x9 x10 x11 x12 x13 := by
  after_results
  rw [hF main_arg1 (by decide), h_v55, h_v61]
  rfl

abbrev c12 : List (HloOp τ sig (Elt F)) :=
  [ unary main_v69 main_v70 (Host.negf : (⟨S8192x8192, .f32⟩ : BufTy).Contents (Elt F) → (⟨S8192x8192, .f32⟩ : BufTy).Contents (Elt F)),
    unary main_v70 main_v71 (Host.exp : (⟨S8192x8192, .f32⟩ : BufTy).Contents (Elt F) → (⟨S8192x8192, .f32⟩ : BufTy).Contents (Elt F)),
    nullary main_cst_4 (constant S_ .f32 0x3F800000#32),
    unary main_cst_4 main_v72 (broadcastInDim S8192x8192 ![] bcast_S_S8192x8192 : (⟨S_, .f32⟩ : BufTy).Contents (Elt F) → (⟨S8192x8192, .f32⟩ : BufTy).Contents (Elt F)),
    binary main_v72 main_v71 main_v73 (addf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x3F800000#32),
    unary main_cst_5 main_v74 (broadcastInDim S8192x8192 ![] bcast_S_S8192x8192 : (⟨S_, .f32⟩ : BufTy).Contents (Elt F) → (⟨S8192x8192, .f32⟩ : BufTy).Contents (Elt F)),
    binary main_v74 main_v73 main_v75 (Host.divf : (⟨S8192x8192, .f32⟩ : BufTy).Contents (Elt F) → (⟨S8192x8192, .f32⟩ : BufTy).Contents (Elt F) → (⟨S8192x8192, .f32⟩ : BufTy).Contents (Elt F)) ]

abbrev w12 : List (Ref sig .tc) := [main_v70, main_v71, main_cst_4, main_v72, main_v73, main_cst_5, main_v74, main_v75]

theorem c12_writes : (c12 : List (HloOp τ sig (Elt F))).Forall fun op => op.writes ⊆ (w12.map (Proc.devRef (τ := τ) .tc)).toFinset := by
  simp only [List.Forall]; (repeat' constructor) <;> exact sub_of_mem (by decide)

theorem c12_out_v75 (W : Valuation τ sig (Elt F)) (hF : Frame X W)
    (h_v69 : W (Proc.devRef .tc main_v69) = ReadP.val_main_v69 (F := F) x0 x1 x2 x3 x4 x5 x6 x7 x8 x9 x10 x11 x12 x13) :
    after c12 W (Proc.devRef .tc main_v75) = ReadP.val_main_v75 (F := F) x0 x1 x2 x3 x4 x5 x6 x7 x8 x9 x10 x11 x12 x13 := by
  after_results
  rw [h_v69]
  rfl

abbrev c13 : List (HloOp τ sig (Elt F)) :=
  [ nullary main_cst_6 (constant S_ .f32 0xFF800000#32),
    binary main_v75 main_cst_6 main_v76 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_7 (constant S_ .f32 0xFF800000#32),
    unary main_cst_7 main_v77 (broadcastInDim S8192 ![] bcast_S_S8192 : (⟨S_, .f32⟩ : BufTy).Contents (Elt F) → (⟨S8192, .f32⟩ : BufTy).Contents (Elt F)),
    binary main_v77 main_v76 main_v78 (maximumf : (⟨S8192, .f32⟩ : BufTy).Contents (Elt F) → (⟨S8192, .f32⟩ : BufTy).Contents (Elt F) → (⟨S8192, .f32⟩ : BufTy).Contents (Elt F)),
    unary main_v78 main_v79 (broadcastInDim S8192x1 ![0] bcast_S8192_S8192x1_0 : (⟨S8192, .f32⟩ : BufTy).Contents (Elt F) → (⟨S8192x1, .f32⟩ : BufTy).Contents (Elt F)),
    unary main_v79 main_v80 (broadcastInDim S8192x8192 ![0, 1] bcast_S8192x1_S8192x8192_0_1 : (⟨S8192x1, .f32⟩ : BufTy).Contents (Elt F) → (⟨S8192x8192, .f32⟩ : BufTy).Contents (Elt F)),
    binary main_v75 main_v80 main_v81 (subf : (⟨S8192x8192, .f32⟩ : BufTy).Contents (Elt F) → (⟨S8192x8192, .f32⟩ : BufTy).Contents (Elt F) → (⟨S8192x8192, .f32⟩ : BufTy).Contents (Elt F)),
    unary main_v81 main_v82 (Host.exp : (⟨S8192x8192, .f32⟩ : BufTy).Contents (Elt F) → (⟨S8192x8192, .f32⟩ : BufTy).Contents (Elt F)) ]

abbrev w13 : List (Ref sig .tc) := [main_cst_6, main_v76, main_cst_7, main_v77, main_v78, main_v79, main_v80, main_v81, main_v82]

theorem c13_writes : (c13 : List (HloOp τ sig (Elt F))).Forall fun op => op.writes ⊆ (w13.map (Proc.devRef (τ := τ) .tc)).toFinset := by
  simp only [List.Forall]; (repeat' constructor) <;> exact sub_of_mem (by decide)

theorem c13_out_v82 (W : Valuation τ sig (Elt F)) (hF : Frame X W)
    (h_v75 : W (Proc.devRef .tc main_v75) = ReadP.val_main_v75 (F := F) x0 x1 x2 x3 x4 x5 x6 x7 x8 x9 x10 x11 x12 x13) :
    after c13 W (Proc.devRef .tc main_v82) = ReadP.val_main_v82 (F := F) x0 x1 x2 x3 x4 x5 x6 x7 x8 x9 x10 x11 x12 x13 := by
  after_results
  rw [h_v75]
  rfl

abbrev c14 : List (HloOp τ sig (Elt F)) :=
  [ nullary main_cst_8 (constant S_ .f32 0x00000000#32),
    binary main_v82 main_cst_8 main_v83 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v83 main_v84 (broadcastInDim S8192x1 ![0] bcast_S8192_S8192x1_0 : (⟨S8192, .f32⟩ : BufTy).Contents (Elt F) → (⟨S8192x1, .f32⟩ : BufTy).Contents (Elt F)),
    unary main_v84 main_v85 (broadcastInDim S8192x8192 ![0, 1] bcast_S8192x1_S8192x8192_0_1 : (⟨S8192x1, .f32⟩ : BufTy).Contents (Elt F) → (⟨S8192x8192, .f32⟩ : BufTy).Contents (Elt F)),
    binary main_v82 main_v85 main_v86 (Host.divf : (⟨S8192x8192, .f32⟩ : BufTy).Contents (Elt F) → (⟨S8192x8192, .f32⟩ : BufTy).Contents (Elt F) → (⟨S8192x8192, .f32⟩ : BufTy).Contents (Elt F)),
    binary main_v86 main_v49 main_v87 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)) ]

abbrev w14 : List (Ref sig .tc) := [main_cst_8, main_v83, main_v84, main_v85, main_v86, main_v87]

theorem c14_writes : (c14 : List (HloOp τ sig (Elt F))).Forall fun op => op.writes ⊆ (w14.map (Proc.devRef (τ := τ) .tc)).toFinset := by
  simp only [List.Forall]; (repeat' constructor) <;> exact sub_of_mem (by decide)

theorem c14_out_v87 (W : Valuation τ sig (Elt F)) (hF : Frame X W)
    (h_v82 : W (Proc.devRef .tc main_v82) = ReadP.val_main_v82 (F := F) x0 x1 x2 x3 x4 x5 x6 x7 x8 x9 x10 x11 x12 x13)
    (h_v49 : W (Proc.devRef .tc main_v49) = ReadP.val_main_v49 (F := F) x0 x1 x2 x3 x4 x5 x6 x7 x8 x9) :
    after c14 W (Proc.devRef .tc main_v87) = ReadP.val_main_v87 (F := F) x0 x1 x2 x3 x4 x5 x6 x7 x8 x9 x10 x11 x12 x13 := by
  after_results
  rw [h_v82, h_v49]
  rfl

abbrev c15 : List (HloOp τ sig (Elt F)) :=
  [ unary main_arg14 main_v88 ((transpose S256x64 [1, 0] · transposes_S64x256_S256x64_1_0) : (⟨S64x256, .f32⟩ : BufTy).Contents (Elt F) → (⟨S256x64, .f32⟩ : BufTy).Contents (Elt F)),
    binary main_v87 main_v88 main_v89 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    unary main_arg15 main_v90 (broadcastInDim S1x64 ![1] bcast_S64_S1x64_1 : (⟨S64, .f32⟩ : BufTy).Contents (Elt F) → (⟨S1x64, .f32⟩ : BufTy).Contents (Elt F)),
    unary main_v90 main_v91 (broadcastInDim S8192x64 ![0, 1] bcast_S1x64_S8192x64_0_1 : (⟨S1x64, .f32⟩ : BufTy).Contents (Elt F) → (⟨S8192x64, .f32⟩ : BufTy).Contents (Elt F)),
    binary main_v89 main_v91 main_v92 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x64, .f32⟩) main_call2_v0) (broadcastInDim S8192x64 ![] bcast_S_S8192x64),
    TRef.binary (TRef.of (T := ⟨S8192x64, .f32⟩) main_v92) (TRef.of (T := ⟨S8192x64, .f32⟩) main_call2_v0) (TRef.of (T := ⟨S8192x64, .f32⟩) main_v93) maximumf ]

abbrev w15 : List (Ref sig .tc) := [main_v88, main_v89, main_v90, main_v91, main_v92, main_call2_cst, main_call2_v0, main_v93]

theorem c15_writes : (c15 : List (HloOp τ sig (Elt F))).Forall fun op => op.writes ⊆ (w15.map (Proc.devRef (τ := τ) .tc)).toFinset := by
  simp only [List.Forall]; (repeat' constructor) <;> exact sub_of_mem (by decide)

theorem c15_out_v93 (W : Valuation τ sig (Elt F)) (hF : Frame X W)
    (h_v87 : W (Proc.devRef .tc main_v87) = ReadP.val_main_v87 (F := F) x0 x1 x2 x3 x4 x5 x6 x7 x8 x9 x10 x11 x12 x13) :
    after c15 W (Proc.devRef .tc main_v93) = ReadP.val_main_v93 (F := F) x0 x1 x2 x3 x4 x5 x6 x7 x8 x9 x10 x11 x12 x13 x14 x15 := by
  after_results
  rw [hF main_arg14 (by decide), hF main_arg15 (by decide), h_v87]
  rfl

abbrev c16 : List (HloOp τ sig (Elt F)) :=
  [ unary main_arg16 main_v94 ((transpose S64x1 [1, 0] · transposes_S1x64_S64x1_1_0) : (⟨S1x64, .f32⟩ : BufTy).Contents (Elt F) → (⟨S64x1, .f32⟩ : BufTy).Contents (Elt F)),
    binary main_v93 main_v94 main_v95 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_arg17 main_v96 (broadcastInDim S1x1 ![1] bcast_S1_S1x1_1 : (⟨S1, .f32⟩ : BufTy).Contents (Elt F) → (⟨S1x1, .f32⟩ : BufTy).Contents (Elt F)),
    unary main_v96 main_v97 (broadcastInDim S8192x1 ![0, 1] bcast_S1x1_S8192x1_0_1 : (⟨S1x1, .f32⟩ : BufTy).Contents (Elt F) → (⟨S8192x1, .f32⟩ : BufTy).Contents (Elt F)),
    binary main_v95 main_v97 main_v98 (addf : (⟨S8192x1, .f32⟩ : BufTy).Contents (Elt F) → (⟨S8192x1, .f32⟩ : BufTy).Contents (Elt F) → (⟨S8192x1, .f32⟩ : BufTy).Contents (Elt F)),
    reshape main_v98 main_v99 rfl shapeCasts_S8192x1_S8192 ]

abbrev w16 : List (Ref sig .tc) := [main_v94, main_v95, main_v96, main_v97, main_v98, main_v99]

theorem c16_writes : (c16 : List (HloOp τ sig (Elt F))).Forall fun op => op.writes ⊆ (w16.map (Proc.devRef (τ := τ) .tc)).toFinset := by
  simp only [List.Forall]; (repeat' constructor) <;> exact sub_of_mem (by decide)

theorem c16_out_v99 (W : Valuation τ sig (Elt F)) (hF : Frame X W)
    (h_v93 : W (Proc.devRef .tc main_v93) = ReadP.val_main_v93 (F := F) x0 x1 x2 x3 x4 x5 x6 x7 x8 x9 x10 x11 x12 x13 x14 x15) :
    after c16 W (Proc.devRef .tc main_v99) = ReadP.val_main_v99 (F := F) x0 x1 x2 x3 x4 x5 x6 x7 x8 x9 x10 x11 x12 x13 x14 x15 x16 x17 := by
  after_results
  rw [hF main_arg16 (by decide), hF main_arg17 (by decide), h_v93]
  rfl

abbrev c17 : List (HloOp τ sig (Elt F)) :=
  [ unary main_arg18 main_v100 ((transpose S64x1 [1, 0] · transposes_S1x64_S64x1_1_0) : (⟨S1x64, .f32⟩ : BufTy).Contents (Elt F) → (⟨S64x1, .f32⟩ : BufTy).Contents (Elt F)),
    binary main_v93 main_v100 main_v101 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_arg19 main_v102 (broadcastInDim S1x1 ![1] bcast_S1_S1x1_1 : (⟨S1, .f32⟩ : BufTy).Contents (Elt F) → (⟨S1x1, .f32⟩ : BufTy).Contents (Elt F)),
    unary main_v102 main_v103 (broadcastInDim S8192x1 ![0, 1] bcast_S1x1_S8192x1_0_1 : (⟨S1x1, .f32⟩ : BufTy).Contents (Elt F) → (⟨S8192x1, .f32⟩ : BufTy).Contents (Elt F)),
    binary main_v101 main_v103 main_v104 (addf : (⟨S8192x1, .f32⟩ : BufTy).Contents (Elt F) → (⟨S8192x1, .f32⟩ : BufTy).Contents (Elt F) → (⟨S8192x1, .f32⟩ : BufTy).Contents (Elt F)),
    reshape main_v104 main_v105 rfl shapeCasts_S8192x1_S8192 ]

abbrev w17 : List (Ref sig .tc) := [main_v100, main_v101, main_v102, main_v103, main_v104, main_v105]

theorem c17_writes : (c17 : List (HloOp τ sig (Elt F))).Forall fun op => op.writes ⊆ (w17.map (Proc.devRef (τ := τ) .tc)).toFinset := by
  simp only [List.Forall]; (repeat' constructor) <;> exact sub_of_mem (by decide)

theorem c17_out_v105 (W : Valuation τ sig (Elt F)) (hF : Frame X W)
    (h_v93 : W (Proc.devRef .tc main_v93) = ReadP.val_main_v93 (F := F) x0 x1 x2 x3 x4 x5 x6 x7 x8 x9 x10 x11 x12 x13 x14 x15) :
    after c17 W (Proc.devRef .tc main_v105) = ReadP.val_main_v105 (F := F) x0 x1 x2 x3 x4 x5 x6 x7 x8 x9 x10 x11 x12 x13 x14 x15 x18 x19 := by
  after_results
  rw [hF main_arg18 (by decide), hF main_arg19 (by decide), h_v93]
  rfl

abbrev c18 : List (HloOp τ sig (Elt F)) :=
  [ unary main_v99 main_v106 (broadcastInDim S1x8192 ![1] bcast_S8192_S1x8192_1 : (⟨S8192, .f32⟩ : BufTy).Contents (Elt F) → (⟨S1x8192, .f32⟩ : BufTy).Contents (Elt F)),
    unary main_v106 main_v107 (broadcastInDim S8192x8192 ![0, 1] bcast_S1x8192_S8192x8192_0_1 : (⟨S1x8192, .f32⟩ : BufTy).Contents (Elt F) → (⟨S8192x8192, .f32⟩ : BufTy).Contents (Elt F)),
    binary main_arg1 main_v107 main_v108 (mulf : (⟨S8192x8192, .f32⟩ : BufTy).Contents (Elt F) → (⟨S8192x8192, .f32⟩ : BufTy).Contents (Elt F) → (⟨S8192x8192, .f32⟩ : BufTy).Contents (Elt F)),
    unary main_arg1 main_v109 ((transpose S8192x8192 [1, 0] · transposes_S8192x8192_S8192x8192_1_0) : (⟨S8192x8192, .f32⟩ : BufTy).Contents (Elt F) → (⟨S8192x8192, .f32⟩ : BufTy).Contents (Elt F)),
    unary main_v105 main_v110 (broadcastInDim S8192x1 ![0] bcast_S8192_S8192x1_0 : (⟨S8192, .f32⟩ : BufTy).Contents (Elt F) → (⟨S8192x1, .f32⟩ : BufTy).Contents (Elt F)),
    unary main_v110 main_v111 (broadcastInDim S8192x8192 ![0, 1] bcast_S8192x1_S8192x8192_0_1 : (⟨S8192x1, .f32⟩ : BufTy).Contents (Elt F) → (⟨S8192x8192, .f32⟩ : BufTy).Contents (Elt F)),
    binary main_v109 main_v111 main_v112 (mulf : (⟨S8192x8192, .f32⟩ : BufTy).Contents (Elt F) → (⟨S8192x8192, .f32⟩ : BufTy).Contents (Elt F) → (⟨S8192x8192, .f32⟩ : BufTy).Contents (Elt F)),
    binary main_v108 main_v112 main_v113 (addf : (⟨S8192x8192, .f32⟩ : BufTy).Contents (Elt F) → (⟨S8192x8192, .f32⟩ : BufTy).Contents (Elt F) → (⟨S8192x8192, .f32⟩ : BufTy).Contents (Elt F)) ]

abbrev w18 : List (Ref sig .tc) := [main_v106, main_v107, main_v108, main_v109, main_v110, main_v111, main_v112, main_v113]

theorem c18_writes : (c18 : List (HloOp τ sig (Elt F))).Forall fun op => op.writes ⊆ (w18.map (Proc.devRef (τ := τ) .tc)).toFinset := by
  simp only [List.Forall]; (repeat' constructor) <;> exact sub_of_mem (by decide)

theorem c18_out_v113 (W : Valuation τ sig (Elt F)) (hF : Frame X W)
    (h_v99 : W (Proc.devRef .tc main_v99) = ReadP.val_main_v99 (F := F) x0 x1 x2 x3 x4 x5 x6 x7 x8 x9 x10 x11 x12 x13 x14 x15 x16 x17)
    (h_v105 : W (Proc.devRef .tc main_v105) = ReadP.val_main_v105 (F := F) x0 x1 x2 x3 x4 x5 x6 x7 x8 x9 x10 x11 x12 x13 x14 x15 x18 x19) :
    after c18 W (Proc.devRef .tc main_v113) = ReadP.val_main_v113 (F := F) x0 x1 x2 x3 x4 x5 x6 x7 x8 x9 x10 x11 x12 x13 x14 x15 x16 x17 x18 x19 := by
  after_results
  rw [hF main_arg1 (by decide), h_v99, h_v105]
  rfl

abbrev c19 : List (HloOp τ sig (Elt F)) :=
  [ unary main_v113 main_v114 (Host.negf : (⟨S8192x8192, .f32⟩ : BufTy).Contents (Elt F) → (⟨S8192x8192, .f32⟩ : BufTy).Contents (Elt F)),
    unary main_v114 main_v115 (Host.exp : (⟨S8192x8192, .f32⟩ : BufTy).Contents (Elt F) → (⟨S8192x8192, .f32⟩ : BufTy).Contents (Elt F)),
    nullary main_cst_9 (constant S_ .f32 0x3F800000#32),
    unary main_cst_9 main_v116 (broadcastInDim S8192x8192 ![] bcast_S_S8192x8192 : (⟨S_, .f32⟩ : BufTy).Contents (Elt F) → (⟨S8192x8192, .f32⟩ : BufTy).Contents (Elt F)),
    binary main_v116 main_v115 main_v117 (addf : (⟨S8192x8192, .f32⟩ : BufTy).Contents (Elt F) → (⟨S8192x8192, .f32⟩ : BufTy).Contents (Elt F) → (⟨S8192x8192, .f32⟩ : BufTy).Contents (Elt F)),
    nullary main_cst_10 (constant S_ .f32 0x3F800000#32),
    unary main_cst_10 main_v118 (broadcastInDim S8192x8192 ![] bcast_S_S8192x8192 : (⟨S_, .f32⟩ : BufTy).Contents (Elt F) → (⟨S8192x8192, .f32⟩ : BufTy).Contents (Elt F)),
    binary main_v118 main_v117 main_v119 (Host.divf : (⟨S8192x8192, .f32⟩ : BufTy).Contents (Elt F) → (⟨S8192x8192, .f32⟩ : BufTy).Contents (Elt F) → (⟨S8192x8192, .f32⟩ : BufTy).Contents (Elt F)) ]

abbrev w19 : List (Ref sig .tc) := [main_v114, main_v115, main_cst_9, main_v116, main_v117, main_cst_10, main_v118, main_v119]

theorem c19_writes : (c19 : List (HloOp τ sig (Elt F))).Forall fun op => op.writes ⊆ (w19.map (Proc.devRef (τ := τ) .tc)).toFinset := by
  simp only [List.Forall]; (repeat' constructor) <;> exact sub_of_mem (by decide)

theorem c19_out_v119 (W : Valuation τ sig (Elt F)) (hF : Frame X W)
    (h_v113 : W (Proc.devRef .tc main_v113) = ReadP.val_main_v113 (F := F) x0 x1 x2 x3 x4 x5 x6 x7 x8 x9 x10 x11 x12 x13 x14 x15 x16 x17 x18 x19) :
    after c19 W (Proc.devRef .tc main_v119) = ReadP.val_main_v119 (F := F) x0 x1 x2 x3 x4 x5 x6 x7 x8 x9 x10 x11 x12 x13 x14 x15 x16 x17 x18 x19 := by
  after_results
  rw [h_v113]
  rfl

abbrev c20 : List (HloOp τ sig (Elt F)) :=
  [ nullary main_cst_11 (constant S_ .f32 0xFF800000#32),
    binary main_v119 main_cst_11 main_v120 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_12 (constant S_ .f32 0xFF800000#32),
    unary main_cst_12 main_v121 (broadcastInDim S8192 ![] bcast_S_S8192 : (⟨S_, .f32⟩ : BufTy).Contents (Elt F) → (⟨S8192, .f32⟩ : BufTy).Contents (Elt F)),
    binary main_v121 main_v120 main_v122 (maximumf : (⟨S8192, .f32⟩ : BufTy).Contents (Elt F) → (⟨S8192, .f32⟩ : BufTy).Contents (Elt F) → (⟨S8192, .f32⟩ : BufTy).Contents (Elt F)),
    unary main_v122 main_v123 (broadcastInDim S8192x1 ![0] bcast_S8192_S8192x1_0 : (⟨S8192, .f32⟩ : BufTy).Contents (Elt F) → (⟨S8192x1, .f32⟩ : BufTy).Contents (Elt F)),
    unary main_v123 main_v124 (broadcastInDim S8192x8192 ![0, 1] bcast_S8192x1_S8192x8192_0_1 : (⟨S8192x1, .f32⟩ : BufTy).Contents (Elt F) → (⟨S8192x8192, .f32⟩ : BufTy).Contents (Elt F)),
    binary main_v119 main_v124 main_v125 (subf : (⟨S8192x8192, .f32⟩ : BufTy).Contents (Elt F) → (⟨S8192x8192, .f32⟩ : BufTy).Contents (Elt F) → (⟨S8192x8192, .f32⟩ : BufTy).Contents (Elt F)),
    unary main_v125 main_v126 (Host.exp : (⟨S8192x8192, .f32⟩ : BufTy).Contents (Elt F) → (⟨S8192x8192, .f32⟩ : BufTy).Contents (Elt F)) ]

abbrev w20 : List (Ref sig .tc) := [main_cst_11, main_v120, main_cst_12, main_v121, main_v122, main_v123, main_v124, main_v125, main_v126]

theorem c20_writes : (c20 : List (HloOp τ sig (Elt F))).Forall fun op => op.writes ⊆ (w20.map (Proc.devRef (τ := τ) .tc)).toFinset := by
  simp only [List.Forall]; (repeat' constructor) <;> exact sub_of_mem (by decide)

theorem c20_out_v126 (W : Valuation τ sig (Elt F)) (hF : Frame X W)
    (h_v119 : W (Proc.devRef .tc main_v119) = ReadP.val_main_v119 (F := F) x0 x1 x2 x3 x4 x5 x6 x7 x8 x9 x10 x11 x12 x13 x14 x15 x16 x17 x18 x19) :
    after c20 W (Proc.devRef .tc main_v126) = ReadP.val_main_v126 (F := F) x0 x1 x2 x3 x4 x5 x6 x7 x8 x9 x10 x11 x12 x13 x14 x15 x16 x17 x18 x19 := by
  after_results
  rw [h_v119]
  rfl

abbrev c21 : List (HloOp τ sig (Elt F)) :=
  [ nullary main_cst_13 (constant S_ .f32 0x00000000#32),
    binary main_v126 main_cst_13 main_v127 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v127 main_v128 (broadcastInDim S8192x1 ![0] bcast_S8192_S8192x1_0 : (⟨S8192, .f32⟩ : BufTy).Contents (Elt F) → (⟨S8192x1, .f32⟩ : BufTy).Contents (Elt F)),
    unary main_v128 main_v129 (broadcastInDim S8192x8192 ![0, 1] bcast_S8192x1_S8192x8192_0_1 : (⟨S8192x1, .f32⟩ : BufTy).Contents (Elt F) → (⟨S8192x8192, .f32⟩ : BufTy).Contents (Elt F)),
    binary main_v126 main_v129 main_v130 (Host.divf : (⟨S8192x8192, .f32⟩ : BufTy).Contents (Elt F) → (⟨S8192x8192, .f32⟩ : BufTy).Contents (Elt F) → (⟨S8192x8192, .f32⟩ : BufTy).Contents (Elt F)),
    binary main_v130 main_v93 main_v131 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)) ]

abbrev w21 : List (Ref sig .tc) := [main_cst_13, main_v127, main_v128, main_v129, main_v130, main_v131]

theorem c21_writes : (c21 : List (HloOp τ sig (Elt F))).Forall fun op => op.writes ⊆ (w21.map (Proc.devRef (τ := τ) .tc)).toFinset := by
  simp only [List.Forall]; (repeat' constructor) <;> exact sub_of_mem (by decide)

theorem c21_out_v131 (W : Valuation τ sig (Elt F)) (hF : Frame X W)
    (h_v126 : W (Proc.devRef .tc main_v126) = ReadP.val_main_v126 (F := F) x0 x1 x2 x3 x4 x5 x6 x7 x8 x9 x10 x11 x12 x13 x14 x15 x16 x17 x18 x19)
    (h_v93 : W (Proc.devRef .tc main_v93) = ReadP.val_main_v93 (F := F) x0 x1 x2 x3 x4 x5 x6 x7 x8 x9 x10 x11 x12 x13 x14 x15) :
    after c21 W (Proc.devRef .tc main_v131) = ReadP.val_main_v131 (F := F) x0 x1 x2 x3 x4 x5 x6 x7 x8 x9 x10 x11 x12 x13 x14 x15 x16 x17 x18 x19 := by
  after_results
  rw [h_v126, h_v93]
  rfl

abbrev s21 : List (HloOp τ sig (Elt F)) := c21

abbrev s20 : List (HloOp τ sig (Elt F)) := c20 ++ s21

abbrev s19 : List (HloOp τ sig (Elt F)) := c19 ++ s20

abbrev s18 : List (HloOp τ sig (Elt F)) := c18 ++ s19

abbrev s17 : List (HloOp τ sig (Elt F)) := c17 ++ s18

abbrev s16 : List (HloOp τ sig (Elt F)) := c16 ++ s17

abbrev s15 : List (HloOp τ sig (Elt F)) := c15 ++ s16

abbrev s14 : List (HloOp τ sig (Elt F)) := c14 ++ s15

abbrev s13 : List (HloOp τ sig (Elt F)) := c13 ++ s14

abbrev s12 : List (HloOp τ sig (Elt F)) := c12 ++ s13

abbrev s11 : List (HloOp τ sig (Elt F)) := c11 ++ s12

abbrev s10 : List (HloOp τ sig (Elt F)) := c10 ++ s11

abbrev s9 : List (HloOp τ sig (Elt F)) := c9 ++ s10

abbrev s8 : List (HloOp τ sig (Elt F)) := c8 ++ s9

abbrev s7 : List (HloOp τ sig (Elt F)) := c7 ++ s8

abbrev s6 : List (HloOp τ sig (Elt F)) := c6 ++ s7

abbrev s5 : List (HloOp τ sig (Elt F)) := c5 ++ s6

abbrev s4 : List (HloOp τ sig (Elt F)) := c4 ++ s5

abbrev s3 : List (HloOp τ sig (Elt F)) := c3 ++ s4

abbrev s2 : List (HloOp τ sig (Elt F)) := c2 ++ s3

abbrev s1 : List (HloOp τ sig (Elt F)) := c1 ++ s2

theorem ops_eq : (OpsP.ops : List (HloOp τ sig (Elt F))) = s1 := rfl

theorem s1_fresh : ∀ op ∈ (s1 : List (HloOp τ sig (Elt F))), op.fresh = ∅ := by
  rw [← ops_eq]; exact List.forall_iff_forall_mem.1 (by simp only [List.Forall]; repeat' constructor)

-- The run of `l` from `W` ends with the last stage in the result buffer and the arguments as they were.
abbrev Done (l : List (HloOp τ sig (Elt F))) (W : Valuation τ sig (Elt F)) : Prop :=
  after l W (Proc.devRef .tc main_v131) = ReadP.val_main_v131 (F := F) x0 x1 x2 x3 x4 x5 x6 x7 x8 x9 x10 x11 x12 x13 x14 x15 x16 x17 x18 x19 ∧ Frame X (after l W)

theorem Done.step {c l : List (HloOp τ sig (Elt F))} {W : Valuation τ sig (Elt F)} (h : Done X l (after c W)) : Done X (c ++ l) W := by
  unfold Done; rw [after_append']; exact h

theorem tail21 (W : Valuation τ sig (Elt F)) (hF : Frame X W)
    (h_v93 : W (Proc.devRef .tc main_v93) = ReadP.val_main_v93 (F := F) x0 x1 x2 x3 x4 x5 x6 x7 x8 x9 x10 x11 x12 x13 x14 x15)
    (h_v126 : W (Proc.devRef .tc main_v126) = ReadP.val_main_v126 (F := F) x0 x1 x2 x3 x4 x5 x6 x7 x8 x9 x10 x11 x12 x13 x14 x15 x16 x17 x18 x19) :
    Done X s21 W :=
  ⟨c21_out_v131 X W hF h_v126 h_v93, frame_of c21_writes (by decide) X W hF⟩

theorem tail20 (W : Valuation τ sig (Elt F)) (hF : Frame X W)
    (h_v93 : W (Proc.devRef .tc main_v93) = ReadP.val_main_v93 (F := F) x0 x1 x2 x3 x4 x5 x6 x7 x8 x9 x10 x11 x12 x13 x14 x15)
    (h_v119 : W (Proc.devRef .tc main_v119) = ReadP.val_main_v119 (F := F) x0 x1 x2 x3 x4 x5 x6 x7 x8 x9 x10 x11 x12 x13 x14 x15 x16 x17 x18 x19) :
    Done X s20 W :=
  Done.step X (tail21 X (after c20 W) (frame_of c20_writes (by decide) X W hF)
    ((after_of_writes_sub c20 W c20_writes (r := main_v93) (by decide)).trans h_v93)
    (c20_out_v126 X W hF h_v119))

theorem tail19 (W : Valuation τ sig (Elt F)) (hF : Frame X W)
    (h_v93 : W (Proc.devRef .tc main_v93) = ReadP.val_main_v93 (F := F) x0 x1 x2 x3 x4 x5 x6 x7 x8 x9 x10 x11 x12 x13 x14 x15)
    (h_v113 : W (Proc.devRef .tc main_v113) = ReadP.val_main_v113 (F := F) x0 x1 x2 x3 x4 x5 x6 x7 x8 x9 x10 x11 x12 x13 x14 x15 x16 x17 x18 x19) :
    Done X s19 W :=
  Done.step X (tail20 X (after c19 W) (frame_of c19_writes (by decide) X W hF)
    ((after_of_writes_sub c19 W c19_writes (r := main_v93) (by decide)).trans h_v93)
    (c19_out_v119 X W hF h_v113))

theorem tail18 (W : Valuation τ sig (Elt F)) (hF : Frame X W)
    (h_v93 : W (Proc.devRef .tc main_v93) = ReadP.val_main_v93 (F := F) x0 x1 x2 x3 x4 x5 x6 x7 x8 x9 x10 x11 x12 x13 x14 x15)
    (h_v99 : W (Proc.devRef .tc main_v99) = ReadP.val_main_v99 (F := F) x0 x1 x2 x3 x4 x5 x6 x7 x8 x9 x10 x11 x12 x13 x14 x15 x16 x17)
    (h_v105 : W (Proc.devRef .tc main_v105) = ReadP.val_main_v105 (F := F) x0 x1 x2 x3 x4 x5 x6 x7 x8 x9 x10 x11 x12 x13 x14 x15 x18 x19) :
    Done X s18 W :=
  Done.step X (tail19 X (after c18 W) (frame_of c18_writes (by decide) X W hF)
    ((after_of_writes_sub c18 W c18_writes (r := main_v93) (by decide)).trans h_v93)
    (c18_out_v113 X W hF h_v99 h_v105))

theorem tail17 (W : Valuation τ sig (Elt F)) (hF : Frame X W)
    (h_v93 : W (Proc.devRef .tc main_v93) = ReadP.val_main_v93 (F := F) x0 x1 x2 x3 x4 x5 x6 x7 x8 x9 x10 x11 x12 x13 x14 x15)
    (h_v99 : W (Proc.devRef .tc main_v99) = ReadP.val_main_v99 (F := F) x0 x1 x2 x3 x4 x5 x6 x7 x8 x9 x10 x11 x12 x13 x14 x15 x16 x17) :
    Done X s17 W :=
  Done.step X (tail18 X (after c17 W) (frame_of c17_writes (by decide) X W hF)
    ((after_of_writes_sub c17 W c17_writes (r := main_v93) (by decide)).trans h_v93)
    ((after_of_writes_sub c17 W c17_writes (r := main_v99) (by decide)).trans h_v99)
    (c17_out_v105 X W hF h_v93))

theorem tail16 (W : Valuation τ sig (Elt F)) (hF : Frame X W)
    (h_v93 : W (Proc.devRef .tc main_v93) = ReadP.val_main_v93 (F := F) x0 x1 x2 x3 x4 x5 x6 x7 x8 x9 x10 x11 x12 x13 x14 x15) :
    Done X s16 W :=
  Done.step X (tail17 X (after c16 W) (frame_of c16_writes (by decide) X W hF)
    ((after_of_writes_sub c16 W c16_writes (r := main_v93) (by decide)).trans h_v93)
    (c16_out_v99 X W hF h_v93))

theorem tail15 (W : Valuation τ sig (Elt F)) (hF : Frame X W)
    (h_v87 : W (Proc.devRef .tc main_v87) = ReadP.val_main_v87 (F := F) x0 x1 x2 x3 x4 x5 x6 x7 x8 x9 x10 x11 x12 x13) :
    Done X s15 W :=
  Done.step X (tail16 X (after c15 W) (frame_of c15_writes (by decide) X W hF)
    (c15_out_v93 X W hF h_v87))

theorem tail14 (W : Valuation τ sig (Elt F)) (hF : Frame X W)
    (h_v49 : W (Proc.devRef .tc main_v49) = ReadP.val_main_v49 (F := F) x0 x1 x2 x3 x4 x5 x6 x7 x8 x9)
    (h_v82 : W (Proc.devRef .tc main_v82) = ReadP.val_main_v82 (F := F) x0 x1 x2 x3 x4 x5 x6 x7 x8 x9 x10 x11 x12 x13) :
    Done X s14 W :=
  Done.step X (tail15 X (after c14 W) (frame_of c14_writes (by decide) X W hF)
    (c14_out_v87 X W hF h_v82 h_v49))

theorem tail13 (W : Valuation τ sig (Elt F)) (hF : Frame X W)
    (h_v49 : W (Proc.devRef .tc main_v49) = ReadP.val_main_v49 (F := F) x0 x1 x2 x3 x4 x5 x6 x7 x8 x9)
    (h_v75 : W (Proc.devRef .tc main_v75) = ReadP.val_main_v75 (F := F) x0 x1 x2 x3 x4 x5 x6 x7 x8 x9 x10 x11 x12 x13) :
    Done X s13 W :=
  Done.step X (tail14 X (after c13 W) (frame_of c13_writes (by decide) X W hF)
    ((after_of_writes_sub c13 W c13_writes (r := main_v49) (by decide)).trans h_v49)
    (c13_out_v82 X W hF h_v75))

theorem tail12 (W : Valuation τ sig (Elt F)) (hF : Frame X W)
    (h_v49 : W (Proc.devRef .tc main_v49) = ReadP.val_main_v49 (F := F) x0 x1 x2 x3 x4 x5 x6 x7 x8 x9)
    (h_v69 : W (Proc.devRef .tc main_v69) = ReadP.val_main_v69 (F := F) x0 x1 x2 x3 x4 x5 x6 x7 x8 x9 x10 x11 x12 x13) :
    Done X s12 W :=
  Done.step X (tail13 X (after c12 W) (frame_of c12_writes (by decide) X W hF)
    ((after_of_writes_sub c12 W c12_writes (r := main_v49) (by decide)).trans h_v49)
    (c12_out_v75 X W hF h_v69))

theorem tail11 (W : Valuation τ sig (Elt F)) (hF : Frame X W)
    (h_v49 : W (Proc.devRef .tc main_v49) = ReadP.val_main_v49 (F := F) x0 x1 x2 x3 x4 x5 x6 x7 x8 x9)
    (h_v55 : W (Proc.devRef .tc main_v55) = ReadP.val_main_v55 (F := F) x0 x1 x2 x3 x4 x5 x6 x7 x8 x9 x10 x11)
    (h_v61 : W (Proc.devRef .tc main_v61) = ReadP.val_main_v61 (F := F) x0 x1 x2 x3 x4 x5 x6 x7 x8 x9 x12 x13) :
    Done X s11 W :=
  Done.step X (tail12 X (after c11 W) (frame_of c11_writes (by decide) X W hF)
    ((after_of_writes_sub c11 W c11_writes (r := main_v49) (by decide)).trans h_v49)
    (c11_out_v69 X W hF h_v55 h_v61))

theorem tail10 (W : Valuation τ sig (Elt F)) (hF : Frame X W)
    (h_v49 : W (Proc.devRef .tc main_v49) = ReadP.val_main_v49 (F := F) x0 x1 x2 x3 x4 x5 x6 x7 x8 x9)
    (h_v55 : W (Proc.devRef .tc main_v55) = ReadP.val_main_v55 (F := F) x0 x1 x2 x3 x4 x5 x6 x7 x8 x9 x10 x11) :
    Done X s10 W :=
  Done.step X (tail11 X (after c10 W) (frame_of c10_writes (by decide) X W hF)
    ((after_of_writes_sub c10 W c10_writes (r := main_v49) (by decide)).trans h_v49)
    ((after_of_writes_sub c10 W c10_writes (r := main_v55) (by decide)).trans h_v55)
    (c10_out_v61 X W hF h_v49))

theorem tail9 (W : Valuation τ sig (Elt F)) (hF : Frame X W)
    (h_v49 : W (Proc.devRef .tc main_v49) = ReadP.val_main_v49 (F := F) x0 x1 x2 x3 x4 x5 x6 x7 x8 x9) :
    Done X s9 W :=
  Done.step X (tail10 X (after c9 W) (frame_of c9_writes (by decide) X W hF)
    ((after_of_writes_sub c9 W c9_writes (r := main_v49) (by decide)).trans h_v49)
    (c9_out_v55 X W hF h_v49))

theorem tail8 (W : Valuation τ sig (Elt F)) (hF : Frame X W)
    (h_v43 : W (Proc.devRef .tc main_v43) = ReadP.val_main_v43 (F := F) x0 x1 x2 x3 x4 x5 x6 x7) :
    Done X s8 W :=
  Done.step X (tail9 X (after c8 W) (frame_of c8_writes (by decide) X W hF)
    (c8_out_v49 X W hF h_v43))

theorem tail7 (W : Valuation τ sig (Elt F)) (hF : Frame X W)
    (h_v5 : W (Proc.devRef .tc main_v5) = ReadP.val_main_v5 (F := F) x0 x2 x3)
    (h_v38 : W (Proc.devRef .tc main_v38) = ReadP.val_main_v38 (F := F) x0 x1 x2 x3 x4 x5 x6 x7) :
    Done X s7 W :=
  Done.step X (tail8 X (after c7 W) (frame_of c7_writes (by decide) X W hF)
    (c7_out_v43 X W hF h_v38 h_v5))

theorem tail6 (W : Valuation τ sig (Elt F)) (hF : Frame X W)
    (h_v5 : W (Proc.devRef .tc main_v5) = ReadP.val_main_v5 (F := F) x0 x2 x3)
    (h_v31 : W (Proc.devRef .tc main_v31) = ReadP.val_main_v31 (F := F) x0 x1 x2 x3 x4 x5 x6 x7) :
    Done X s6 W :=
  Done.step X (tail7 X (after c6 W) (frame_of c6_writes (by decide) X W hF)
    ((after_of_writes_sub c6 W c6_writes (r := main_v5) (by decide)).trans h_v5)
    (c6_out_v38 X W hF h_v31))

theorem tail5 (W : Valuation τ sig (Elt F)) (hF : Frame X W)
    (h_v5 : W (Proc.devRef .tc main_v5) = ReadP.val_main_v5 (F := F) x0 x2 x3)
    (h_v25 : W (Proc.devRef .tc main_v25) = ReadP.val_main_v25 (F := F) x0 x1 x2 x3 x4 x5 x6 x7) :
    Done X s5 W :=
  Done.step X (tail6 X (after c5 W) (frame_of c5_writes (by decide) X W hF)
    ((after_of_writes_sub c5 W c5_writes (r := main_v5) (by decide)).trans h_v5)
    (c5_out_v31 X W hF h_v25))

theorem tail4 (W : Valuation τ sig (Elt F)) (hF : Frame X W)
    (h_v5 : W (Proc.devRef .tc main_v5) = ReadP.val_main_v5 (F := F) x0 x2 x3)
    (h_v11 : W (Proc.devRef .tc main_v11) = ReadP.val_main_v11 (F := F) x0 x2 x3 x4 x5)
    (h_v17 : W (Proc.devRef .tc main_v17) = ReadP.val_main_v17 (F := F) x0 x2 x3 x6 x7) :
    Done X s4 W :=
  Done.step X (tail5 X (after c4 W) (frame_of c4_writes (by decide) X W hF)
    ((after_of_writes_sub c4 W c4_writes (r := main_v5) (by decide)).trans h_v5)
    (c4_out_v25 X W hF h_v11 h_v17))

theorem tail3 (W : Valuation τ sig (Elt F)) (hF : Frame X W)
    (h_v5 : W (Proc.devRef .tc main_v5) = ReadP.val_main_v5 (F := F) x0 x2 x3)
    (h_v11 : W (Proc.devRef .tc main_v11) = ReadP.val_main_v11 (F := F) x0 x2 x3 x4 x5) :
    Done X s3 W :=
  Done.step X (tail4 X (after c3 W) (frame_of c3_writes (by decide) X W hF)
    ((after_of_writes_sub c3 W c3_writes (r := main_v5) (by decide)).trans h_v5)
    ((after_of_writes_sub c3 W c3_writes (r := main_v11) (by decide)).trans h_v11)
    (c3_out_v17 X W hF h_v5))

theorem tail2 (W : Valuation τ sig (Elt F)) (hF : Frame X W)
    (h_v5 : W (Proc.devRef .tc main_v5) = ReadP.val_main_v5 (F := F) x0 x2 x3) :
    Done X s2 W :=
  Done.step X (tail3 X (after c2 W) (frame_of c2_writes (by decide) X W hF)
    ((after_of_writes_sub c2 W c2_writes (r := main_v5) (by decide)).trans h_v5)
    (c2_out_v11 X W hF h_v5))

theorem tail1 (W : Valuation τ sig (Elt F)) (hF : Frame X W) :
    Done X s1 W :=
  Done.step X (tail2 X (after c1 W) (frame_of c1_writes (by decide) X W hF)
    (c1_out_v5 X W hF))

theorem s1_sub : (s1 : List (HloOp τ sig (Elt F))).Forall fun op => op.bufs ⊆ tcRefs τ sig := by
  rw [← ops_eq]; exact OpsP.ops_sub

theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v131) = ReadP.val_main_v131 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun s h c => by
      have T := tail1 (F := F) (launchContents m c) (launchContents m c) (fun _ _ => rfl)
      exact ⟨(h c main_v131).trans T.1, (List.forall_iff_forall_mem (l := argsList)
        (p := fun b => s.2.mem ((c.tc : Thread nD τ).loc b) = m ((c.tc : Thread nD τ).loc b))).2 fun b hb => (h c b).trans (T.2 b hb)⟩)
    (run_seq OpsP.scopedRefs_eq OpsP.scopedSems_eq defs main (fun _ => s1)
      (fun c => (OpsP.main_eq (F := F) c).trans (congrArg seq (ops_eq (F := F)))) (fun _ => s1_sub (F := F)) m ρ (fun _ => s1_fresh (F := F)))

end Cert.ReferenceIdeal.RunHand

end
-- ==== Proof.Claims.lean ====
/- The five claims: each program's run ends at the image of one real network of the twenty real inputs and keeps its argument arrays. -/
import proofs.«139342_j40218073759787_2_alg».proof.Defs
import proofs.«139342_j40218073759787_2_alg».proof.Proof.Spec
import proofs.«139342_j40218073759787_2_alg».proof.Proof.Finite
import proofs.«139342_j40218073759787_2_alg».proof.Proof.Gen.Pre_finite_inputs
import proofs.«139342_j40218073759787_2_alg».proof.Proof.Gen.ReferenceIdeal
import proofs.«139342_j40218073759787_2_alg».proof.Proof.K.RunFrame
import proofs.«139342_j40218073759787_2_alg».proof.Proof.KI.RunFacts
import proofs.«139342_j40218073759787_2_alg».proof.Proof.KI.Net
import proofs.«139342_j40218073759787_2_alg».proof.Proof.Ref.Net
import proofs.«139342_j40218073759787_2_alg».proof.Proof.Ref.RunHand
import Idealize.ShloMosaic.Lib.ValueIdx
set_option maxRecDepth 16384
noncomputable section
namespace Cert.Proof.Claims
open Idealize.ShloMosaic Idealize.ShloMosaic.TcCoe Idealize.SL.Sem Idealize.ShloMosaic.ValueIdx GAT
theorem frame_k : Cert.frame_Kernel := fun m ρ _ => Cert.Kernel.HandRun.frame m ρ
theorem frame_ki : Cert.frame_KernelIdeal := fun m ρ _ => Cert.KernelIdeal.HandRun.frame m ρ
theorem frame_ri : Cert.frame_ReferenceIdeal := fun m ρ _ =>
  (θ_run Cert.ReferenceIdeal.defs _ _).mono (fun _ h c => (h c).2) (Cert.ReferenceIdeal.RunHand.run_stages (F := Ideal) m ρ)
theorem preserves : Cert.preserves_Kernel_KernelIdeal := trivial
theorem algebraic : Cert.algebraic_KernelIdeal_ReferenceIdeal := by
  intro m ρ m' ρ' hpre hagree
  refine ⟨fun c => Cert.KernelIdeal.HandRun.W10 m c (Proc.devRef .tc Cert.KernelIdeal.main_v15),
    Cert.KernelIdeal.HandRun.run_value m ρ, ?_⟩
  refine (θ_run Cert.ReferenceIdeal.defs _ _).mono (fun r h c => ⟨(h c).1.trans ?_, (h c).2⟩)
    (Cert.ReferenceIdeal.RunHand.run_stages (F := Ideal) m' ρ')
  obtain ⟨a0, a1, a2, a3, a4, a5, a6, a7, a8, a9, a10, a11, a12, a13, a14, a15, a16, a17, a18, a19⟩ := hagree c
  rw [a0, a1, a2, a3, a4, a5, a6, a7, a8, a9, a10, a11, a12, a13, a14, a15, a16, a17, a18, a19]
  obtain ⟨X, A, W1, b1, tw1, tb1, rw1, rb1, W2, b2, tw2, tb2, rw2, rb2, W3, b3, tw3, tb3, rw3, rb3, r0, r1, r2, r3, r4, r5, r6, r7, r8, r9, r10, r11, r12, r13, r14, r15, r16, r17, r18, r19⟩ :=
    Cert.Proof.Finite.reals_of_pre m hpre c
  have hk := Cert.KernelIdeal.HandNet.kernel_net m c r0 r1 r2 r3 r4 r5 r6 r7 r8 r9 r10 r11 r12 r13 r14 r15 r16 r17 r18 r19
  have hr := Cert.ReferenceIdeal.RefValue.net _ _ _ _ _ _ _ _ _ _ _ _ _ _ _ _ _ _ _ _ X A W1 b1 tw1 tb1 rw1 rb1 W2 b2 tw2 tb2 rw2 rb2 W3 b3 tw3 tb3 rw3 rb3
    r0 r1 r2 r3 r4 r5 r6 r7 r8 r9 r10 r11 r12 r13 r14 r15 r16 r17 r18 r19
  refine funext fun j => ?_
  obtain ⟨p, q, rfl⟩ : ∃ (p : Fin 8192) (q : Fin 64), j = ix2 p q := ⟨j 0, j 1, eq_ix2 j⟩
  exact (hr p q).trans (hk p q).symm
end Cert.Proof.Claims
end
-- ==== Proof.lean ====
/- Three graph-attention layers over one adjacency matrix. The kernel keeps, block of columns by block of columns, the sums Σⱼ exp (s i j) and Σⱼ exp (s i j) · Z j and divides once; the reference subtracts each row's maximum and normalises the row. At finite inputs both are the same real function. -/
import proofs.«139342_j40218073759787_2_alg».proof.Defs
import proofs.«139342_j40218073759787_2_alg».proof.Proof.Gen.Kernel
import proofs.«139342_j40218073759787_2_alg».proof.Proof.Gen.KernelIdeal
import proofs.«139342_j40218073759787_2_alg».proof.Proof.Gen.ReferenceIdeal
import proofs.«139342_j40218073759787_2_alg».proof.Proof.Gen.Pre_finite_inputs
import proofs.«139342_j40218073759787_2_alg».proof.Proof.Claims
noncomputable section
namespace Cert.Proof
theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩
end Cert.Proof
end
